-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31)) (m ((c.tc : Thread Cert.Kernel.nD Cert.Kernel.τ).loc Cert.Kernel.main_arg32))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31)) (m ((c.tc : Thread Cert.ReferenceIdeal.nD Cert.ReferenceIdeal.τ).loc Cert.ReferenceIdeal.main_arg32))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31)
      ∧ r.2.mem ((c.tc : Thread Cert.Kernel.nD Cert.Kernel.τ).loc Cert.Kernel.main_arg32) = m ((c.tc : Thread Cert.Kernel.nD Cert.Kernel.τ).loc Cert.Kernel.main_arg32))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)) →
    ∃ (v0 : (c : Dev Cert.KernelIdeal.nD) → Buf (Elt Ideal) ((c.tc : Thread Cert.KernelIdeal.nD Cert.KernelIdeal.τ).loc Cert.KernelIdeal.main_v86)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v86) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
          ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v815) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31)
          ∧ r.2.mem ((c.tc : Thread Cert.ReferenceIdeal.nD Cert.ReferenceIdeal.τ).loc Cert.ReferenceIdeal.main_arg32) = m' ((c.tc : Thread Cert.ReferenceIdeal.nD Cert.ReferenceIdeal.τ).loc Cert.ReferenceIdeal.main_arg32))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x2 : Shape := ⟨2, ![1024, 2]⟩
abbrev S1024x64x2 : Shape := ⟨3, ![1024, 64, 2]⟩
abbrev S1024 : Shape := ⟨1, ![1024]⟩
abbrev S100001x128 : Shape := ⟨2, ![100001, 128]⟩
abbrev S128x256 : Shape := ⟨2, ![128, 256]⟩
abbrev S128 : Shape := ⟨1, ![128]⟩
abbrev S1x128 : Shape := ⟨2, ![1, 128]⟩
abbrev S1 : Shape := ⟨1, ![1]⟩
abbrev S512x256 : Shape := ⟨2, ![512, 256]⟩
abbrev S512 : Shape := ⟨1, ![512]⟩
abbrev S256x512 : Shape := ⟨2, ![256, 512]⟩
abbrev S256 : Shape := ⟨1, ![256]⟩
abbrev S2048x256 : Shape := ⟨2, ![2048, 256]⟩
abbrev S2048x512 : Shape := ⟨2, ![2048, 512]⟩
abbrev S2048 : Shape := ⟨1, ![2048]⟩
abbrev S_ : Shape := ⟨0, ![]⟩

class Facts : Prop where
  bcast_S_S100001x128 : S_.BroadcastsInDim S100001x128 (![] : Fin 0 → Fin S100001x128.rank)
  reducesTo_S100001x128_S_d0_1 : S100001x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_
  bcast_S_S512x256 : S_.BroadcastsInDim S512x256 (![] : Fin 0 → Fin S512x256.rank)
  reducesTo_S512x256_S_d0_1 : S512x256.ReducesTo [0, 1] S_
  bcast_S_S512 : S_.BroadcastsInDim S512 (![] : Fin 0 → Fin S512.rank)
  reducesTo_S512_S_d0 : S512.ReducesTo [0] S_
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_
  bcast_S_S2048x256 : S_.BroadcastsInDim S2048x256 (![] : Fin 0 → Fin S2048x256.rank)
  reducesTo_S2048x256_S_d0_1 : S2048x256.ReducesTo [0, 1] S_
  bcast_S_S2048x512 : S_.BroadcastsInDim S2048x512 (![] : Fin 0 → Fin S2048x512.rank)
  reducesTo_S2048x512_S_d0_1 : S2048x512.ReducesTo [0, 1] S_
  bcast_S_S2048 : S_.BroadcastsInDim S2048 (![] : Fin 0 → Fin S2048.rank)
  reducesTo_S2048_S_d0 : S2048.ReducesTo [0] S_

variable [Facts]

def fn_part5 {F : FTy → Type} [FloatOps F] (main_arg32 : FVec F S2048 .f32) (main_v83 : IVec S_ 1) (main_v84 : FVec F S2048 .f32) (main_cst_32 : FVec F S_ .f32) : IVec S_ 1 :=
  let main_v85 : FVec F S2048 .f32 := broadcastInDim S2048 ![] bcast_S_S2048 main_cst_32
  let main_v86 : IVec S2048 1 := cmpf .olt main_v84 main_v85
  let main_c_33 : IVec S_ 1 := constantI S_ 1 1#1
  let main_v87 : IVec S_ 1 := (fun x v => Host.reduce IntOp.andi x v reducesTo_S2048_S_d0 h_S_) main_v86 main_c_33
  let main_v88 : IVec S_ 1 := andi main_v83 main_v87
  let main_v89 : FVec F S2048 .f32 := Host.absf main_arg32
  let main_cst_34 : FVec F S_ .f32 := constant S_ .f32 0x7F800000#32
  let main_v90 : FVec F S2048 .f32 := broadcastInDim S2048 ![] bcast_S_S2048 main_cst_34
  let main_v91 : IVec S2048 1 := cmpf .olt main_v89 main_v90
  let main_c_35 : IVec S_ 1 := constantI S_ 1 1#1
  let main_v92 : IVec S_ 1 := (fun x v => Host.reduce IntOp.andi x v reducesTo_S2048_S_d0 h_S_) main_v91 main_c_35
  let main_v93 : IVec S_ 1 := andi main_v88 main_v92
  main_v93

def fn_part4 {F : FTy → Type} [FloatOps F] (main_arg28 : FVec F S256 .f32) (main_arg29 : FVec F S2048x256 .f32) (main_arg30 : FVec F S2048x512 .f32) (main_arg31 : FVec F S2048 .f32) (main_arg32 : FVec F S2048 .f32) (main_v63 : IVec S_ 1) (main_v67 : IVec S_ 1) : IVec S_ 1 :=
  let main_v68 : IVec S_ 1 := andi main_v63 main_v67
  let main_v69 : FVec F S256 .f32 := Host.absf main_arg28
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S2048x256 .f32 := Host.absf main_arg29
  let main_cst_28 : FVec F S_ .f32 := constant S_ .f32 0x7F800000#32
  let main_v75 : FVec F S2048x256 .f32 := broadcastInDim S2048x256 ![] bcast_S_S2048x256 main_cst_28
  let main_v76 : IVec S2048x256 1 := cmpf .olt main_v74 main_v75
  let main_c_29 : IVec S_ 1 := constantI S_ 1 1#1
  let main_v77 : IVec S_ 1 := (fun x v => Host.reduce IntOp.andi x v reducesTo_S2048x256_S_d0_1 h_S_) main_v76 main_c_29
  let main_v78 : IVec S_ 1 := andi main_v73 main_v77
  let main_v79 : FVec F S2048x512 .f32 := Host.absf main_arg30
  let main_cst_30 : FVec F S_ .f32 := constant S_ .f32 0x7F800000#32
  let main_v80 : FVec F S2048x512 .f32 := broadcastInDim S2048x512 ![] bcast_S_S2048x512 main_cst_30
  let main_v81 : IVec S2048x512 1 := cmpf .olt main_v79 main_v80
  let main_c_31 : IVec S_ 1 := constantI S_ 1 1#1
  let main_v82 : IVec S_ 1 := (fun x v => Host.reduce IntOp.andi x v reducesTo_S2048x512_S_d0_1 h_S_) main_v81 main_c_31
  let main_v83 : IVec S_ 1 := andi main_v78 main_v82
  let main_v84 : FVec F S2048 .f32 := Host.absf main_arg31
  let main_cst_32 : FVec F S_ .f32 := constant S_ .f32 0x7F800000#32
  fn_part5 (F := F) main_arg32 main_v83 main_v84 main_cst_32

def fn_part3 {F : FTy → Type} [FloatOps F] (main_arg25 : FVec F S256x512 .f32) (main_arg26 : FVec F S256 .f32) (main_arg27 : FVec F S256 .f32) (main_arg28 : FVec F S256 .f32) (main_arg29 : FVec F S2048x256 .f32) (main_arg30 : FVec F S2048x512 .f32) (main_arg31 : FVec F S2048 .f32) (main_arg32 : FVec F S2048 .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S256x512 .f32 := Host.absf main_arg25
  let main_cst_20 : FVec F S_ .f32 := constant S_ .f32 0x7F800000#32
  let main_v55 : FVec F S256x512 .f32 := broadcastInDim S256x512 ![] bcast_S_S256x512 main_cst_20
  let main_v56 : IVec S256x512 1 := cmpf .olt main_v54 main_v55
  let main_c_21 : IVec S_ 1 := constantI S_ 1 1#1
  let main_v57 : IVec S_ 1 := (fun x v => Host.reduce IntOp.andi x v reducesTo_S256x512_S_d0_1 h_S_) main_v56 main_c_21
  let main_v58 : IVec S_ 1 := andi main_v53 main_v57
  let main_v59 : FVec F S256 .f32 := Host.absf main_arg26
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256 .f32 := Host.absf main_arg27
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg28 main_arg29 main_arg30 main_arg31 main_arg32 main_v63 main_v67

def fn_part2 {F : FTy → Type} [FloatOps F] (main_arg21 : FVec F S1 .f32) (main_arg22 : FVec F S1 .f32) (main_arg23 : FVec F S512x256 .f32) (main_arg24 : FVec F S512 .f32) (main_arg25 : FVec F S256x512 .f32) (main_arg26 : FVec F S256 .f32) (main_arg27 : FVec F S256 .f32) (main_arg28 : FVec F S256 .f32) (main_arg29 : FVec F S2048x256 .f32) (main_arg30 : FVec F S2048x512 .f32) (main_arg31 : FVec F S2048 .f32) (main_arg32 : FVec F S2048 .f32) (main_v33 : IVec S_ 1) : IVec S_ 1 :=
  let main_v34 : FVec F S1 .f32 := Host.absf main_arg21
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  let main_v39 : FVec F S1 .f32 := Host.absf main_arg22
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_v44 : FVec F S512x256 .f32 := Host.absf main_arg23
  let main_cst_16 : FVec F S_ .f32 := constant S_ .f32 0x7F800000#32
  let main_v45 : FVec F S512x256 .f32 := broadcastInDim S512x256 ![] bcast_S_S512x256 main_cst_16
  let main_v46 : IVec S512x256 1 := cmpf .olt main_v44 main_v45
  let main_c_17 : IVec S_ 1 := constantI S_ 1 1#1
  let main_v47 : IVec S_ 1 := (fun x v => Host.reduce IntOp.andi x v reducesTo_S512x256_S_d0_1 h_S_) main_v46 main_c_17
  let main_v48 : IVec S_ 1 := andi main_v43 main_v47
  let main_v49 : FVec F S512 .f32 := Host.absf main_arg24
  let main_cst_18 : FVec F S_ .f32 := constant S_ .f32 0x7F800000#32
  let main_v50 : FVec F S512 .f32 := broadcastInDim S512 ![] bcast_S_S512 main_cst_18
  fn_part3 (F := F) main_arg25 main_arg26 main_arg27 main_arg28 main_arg29 main_arg30 main_arg31 main_arg32 main_v48 main_v49 main_v50

def fn_part1 {F : FTy → Type} [FloatOps F] (main_arg18 : FVec F S1x128 .f32) (main_arg19 : FVec F S1 .f32) (main_arg20 : FVec F S1x128 .f32) (main_arg21 : FVec F S1 .f32) (main_arg22 : FVec F S1 .f32) (main_arg23 : FVec F S512x256 .f32) (main_arg24 : FVec F S512 .f32) (main_arg25 : FVec F S256x512 .f32) (main_arg26 : FVec F S256 .f32) (main_arg27 : FVec F S256 .f32) (main_arg28 : FVec F S256 .f32) (main_arg29 : FVec F S2048x256 .f32) (main_arg30 : FVec F S2048x512 .f32) (main_arg31 : FVec F S2048 .f32) (main_arg32 : FVec F S2048 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S1x128 .f32 := Host.absf main_arg18
  let main_cst_6 : FVec F S_ .f32 := constant S_ .f32 0x7F800000#32
  let main_v20 : FVec F S1x128 .f32 := broadcastInDim S1x128 ![] bcast_S_S1x128 main_cst_6
  let main_v21 : IVec S1x128 1 := cmpf .olt main_v19 main_v20
  let main_c_7 : IVec S_ 1 := constantI S_ 1 1#1
  let main_v22 : IVec S_ 1 := (fun x v => Host.reduce IntOp.andi x v reducesTo_S1x128_S_d0_1 h_S_) main_v21 main_c_7
  let main_v23 : IVec S_ 1 := andi main_v18 main_v22
  let main_v24 : FVec F S1 .f32 := Host.absf main_arg19
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_v29 : FVec F S1x128 .f32 := Host.absf main_arg20
  let main_cst_10 : FVec F S_ .f32 := constant S_ .f32 0x7F800000#32
  let main_v30 : FVec F S1x128 .f32 := broadcastInDim S1x128 ![] bcast_S_S1x128 main_cst_10
  let main_v31 : IVec S1x128 1 := cmpf .olt main_v29 main_v30
  let main_c_11 : IVec S_ 1 := constantI S_ 1 1#1
  let main_v32 : IVec S_ 1 := (fun x v => Host.reduce IntOp.andi x v reducesTo_S1x128_S_d0_1 h_S_) main_v31 main_c_11
  let main_v33 : IVec S_ 1 := andi main_v28 main_v32
  fn_part2 (F := F) main_arg21 main_arg22 main_arg23 main_arg24 main_arg25 main_arg26 main_arg27 main_arg28 main_arg29 main_arg30 main_arg31 main_arg32 main_v33

def fn {F : FTy → Type} [FloatOps F] (main_arg0 : IVec S1024x2 32) (main_arg1 : IVec S1024x2 32) (main_arg2 : IVec S1024x64x2 32) (main_arg3 : IVec S1024x64x2 32) (main_arg4 : IVec S1024 32) (main_arg5 : IVec S1024x64x2 32) (main_arg6 : IVec S1024x64x2 32) (main_arg7 : IVec S1024 32) (main_arg8 : IVec S1024x64x2 32) (main_arg9 : IVec S1024x64x2 32) (main_arg10 : IVec S1024 32) (main_arg11 : IVec S1024x64x2 32) (main_arg12 : IVec S1024x64x2 32) (main_arg13 : IVec S1024 32) (main_arg14 : FVec F S100001x128 .f32) (main_arg15 : FVec F S128x256 .f32) (main_arg16 : FVec F S128 .f32) (main_arg17 : FVec F S128 .f32) (main_arg18 : FVec F S1x128 .f32) (main_arg19 : FVec F S1 .f32) (main_arg20 : FVec F S1x128 .f32) (main_arg21 : FVec F S1 .f32) (main_arg22 : FVec F S1 .f32) (main_arg23 : FVec F S512x256 .f32) (main_arg24 : FVec F S512 .f32) (main_arg25 : FVec F S256x512 .f32) (main_arg26 : FVec F S256 .f32) (main_arg27 : FVec F S256 .f32) (main_arg28 : FVec F S256 .f32) (main_arg29 : FVec F S2048x256 .f32) (main_arg30 : FVec F S2048x512 .f32) (main_arg31 : FVec F S2048 .f32) (main_arg32 : FVec F S2048 .f32) : IVec S_ 1 :=
  let main_v0 : FVec F S100001x128 .f32 := Host.absf main_arg14
  let main_cst : FVec F S_ .f32 := constant S_ .f32 0x7F800000#32
  let main_v1 : FVec F S100001x128 .f32 := broadcastInDim S100001x128 ![] bcast_S_S100001x128 main_cst
  let main_v2 : IVec S100001x128 1 := cmpf .olt main_v0 main_v1
  let main_c : IVec S_ 1 := constantI S_ 1 1#1
  let main_v3 : IVec S_ 1 := (fun x v => Host.reduce IntOp.andi x v reducesTo_S100001x128_S_d0_1 h_S_) main_v2 main_c
  let main_v4 : FVec F S128x256 .f32 := Host.absf main_arg15
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128 .f32 := Host.absf main_arg16
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg17
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg18 main_arg19 main_arg20 main_arg21 main_arg22 main_arg23 main_arg24 main_arg25 main_arg26 main_arg27 main_arg28 main_arg29 main_arg30 main_arg31 main_arg32 main_v13 main_v16
-- ==== Kernel.lean ====
abbrev S1024x2 : Shape := ⟨2, ![1024, 2]⟩
abbrev S1024x64x2 : Shape := ⟨3, ![1024, 64, 2]⟩
abbrev S1024 : Shape := ⟨1, ![1024]⟩
abbrev S100001x128 : Shape := ⟨2, ![100001, 128]⟩
abbrev S128x256 : Shape := ⟨2, ![128, 256]⟩
abbrev S128 : Shape := ⟨1, ![128]⟩
abbrev S1x128 : Shape := ⟨2, ![1, 128]⟩
abbrev S1 : Shape := ⟨1, ![1]⟩
abbrev S512x256 : Shape := ⟨2, ![512, 256]⟩
abbrev S512 : Shape := ⟨1, ![512]⟩
abbrev S256x512 : Shape := ⟨2, ![256, 512]⟩
abbrev S256 : Shape := ⟨1, ![256]⟩
abbrev S2048x256 : Shape := ⟨2, ![2048, 256]⟩
abbrev S2048x512 : Shape := ⟨2, ![2048, 512]⟩
abbrev S2048 : Shape := ⟨1, ![2048]⟩
abbrev S1x1024x64x2 : Shape := ⟨4, ![1, 1024, 64, 2]⟩
abbrev S8x1024x64x2 : Shape := ⟨4, ![8, 1024, 64, 2]⟩
abbrev S8x1024x64x1 : Shape := ⟨4, ![8, 1024, 64, 1]⟩
abbrev S8x1024x64 : Shape := ⟨3, ![8, 1024, 64]⟩
abbrev S_ : Shape := ⟨0, ![]⟩
abbrev S8x1024x64x128 : Shape := ⟨4, ![8, 1024, 64, 128]⟩
abbrev S1024x1 : Shape := ⟨2, ![1024, 1]⟩
abbrev S1x1024 : Shape := ⟨2, ![1, 1024]⟩
abbrev S8x1024 : Shape := ⟨2, ![8, 1024]⟩
abbrev S8x1024x1 : Shape := ⟨3, ![8, 1024, 1]⟩
abbrev S8x1024x128 : Shape := ⟨3, ![8, 1024, 128]⟩
abbrev S8192x64x128 : Shape := ⟨3, ![8192, 64, 128]⟩
abbrev S8192x128 : Shape := ⟨2, ![8192, 128]⟩
abbrev S256x128 : Shape := ⟨2, ![256, 128]⟩
abbrev S1x1 : Shape := ⟨2, ![1, 1]⟩
abbrev S128x64x128 : Shape := ⟨3, ![128, 64, 128]⟩
abbrev S128x128 : Shape := ⟨2, ![128, 128]⟩
abbrev S8192x256 : Shape := ⟨2, ![8192, 256]⟩
abbrev S1x1x128 : Shape := ⟨3, ![1, 1, 128]⟩
abbrev S128x64 : Shape := ⟨2, ![128, 64]⟩
abbrev S128x1 : Shape := ⟨2, ![128, 1]⟩
abbrev S128x64x1 : Shape := ⟨3, ![128, 64, 1]⟩
abbrev S256x2048 : Shape := ⟨2, ![256, 2048]⟩
abbrev S512x2048 : Shape := ⟨2, ![512, 2048]⟩
abbrev S8x128x128 : Shape := ⟨3, ![8, 128, 128]⟩
abbrev S1x128x128 : Shape := ⟨3, ![1, 128, 128]⟩
abbrev S128x512 : Shape := ⟨2, ![128, 512]⟩
abbrev S1x512 : Shape := ⟨2, ![1, 512]⟩
abbrev S1x256 : Shape := ⟨2, ![1, 256]⟩
abbrev S128x2048 : Shape := ⟨2, ![128, 2048]⟩
abbrev S1x2048 : Shape := ⟨2, ![1, 2048]⟩

abbrev nBuf : Space → Nat
  | .hbm => 126
  | .vmem => 29
  | .smem => 0
  | _ => 0

abbrev bufTy : (tb : Table) → Fin (tcTables nBuf tb) → BufTy
  | .hbm, ⟨0, _⟩ => ⟨S1024x2, .i32⟩
  | .hbm, ⟨1, _⟩ => ⟨S1024x2, .i32⟩
  | .hbm, ⟨2, _⟩ => ⟨S1024x64x2, .i32⟩
  | .hbm, ⟨3, _⟩ => ⟨S1024x64x2, .i32⟩
  | .hbm, ⟨4, _⟩ => ⟨S1024, .i32⟩
  | .hbm, ⟨5, _⟩ => ⟨S1024x64x2, .i32⟩
  | .hbm, ⟨6, _⟩ => ⟨S1024x64x2, .i32⟩
  | .hbm, ⟨7, _⟩ => ⟨S1024, .i32⟩
  | .hbm, ⟨8, _⟩ => ⟨S1024x64x2, .i32⟩
  | .hbm, ⟨9, _⟩ => ⟨S1024x64x2, .i32⟩
  | .hbm, ⟨10, _⟩ => ⟨S1024, .i32⟩
  | .hbm, ⟨11, _⟩ => ⟨S1024x64x2, .i32⟩
  | .hbm, ⟨12, _⟩ => ⟨S1024x64x2, .i32⟩
  | .hbm, ⟨13, _⟩ => ⟨S1024, .i32⟩
  | .hbm, ⟨14, _⟩ => ⟨S100001x128, .f32⟩
  | .hbm, ⟨15, _⟩ => ⟨S128x256, .f32⟩
  | .hbm, ⟨16, _⟩ => ⟨S128, .f32⟩
  | .hbm, ⟨17, _⟩ => ⟨S128, .f32⟩
  | .hbm, ⟨18, _⟩ => ⟨S1x128, .f32⟩
  | .hbm, ⟨19, _⟩ => ⟨S1, .f32⟩
  | .hbm, ⟨20, _⟩ => ⟨S1x128, .f32⟩
  | .hbm, ⟨21, _⟩ => ⟨S1, .f32⟩
  | .hbm, ⟨22, _⟩ => ⟨S1, .f32⟩
  | .hbm, ⟨23, _⟩ => ⟨S512x256, .f32⟩
  | .hbm, ⟨24, _⟩ => ⟨S512, .f32⟩
  | .hbm, ⟨25, _⟩ => ⟨S256x512, .f32⟩
  | .hbm, ⟨26, _⟩ => ⟨S256, .f32⟩
  | .hbm, ⟨27, _⟩ => ⟨S256, .f32⟩
  | .hbm, ⟨28, _⟩ => ⟨S256, .f32⟩
  | .hbm, ⟨29, _⟩ => ⟨S2048x256, .f32⟩
  | .hbm, ⟨30, _⟩ => ⟨S2048x512, .f32⟩
  | .hbm, ⟨31, _⟩ => ⟨S2048, .f32⟩
  | .hbm, ⟨32, _⟩ => ⟨S2048, .f32⟩
  | .hbm, ⟨33, _⟩ => ⟨S100001x128, .bf16⟩
  | .hbm, ⟨34, _⟩ => ⟨S1x1024x64x2, .i32⟩
  | .hbm, ⟨35, _⟩ => ⟨S1x1024x64x2, .i32⟩
  | .hbm, ⟨36, _⟩ => ⟨S1x1024x64x2, .i32⟩
  | .hbm, ⟨37, _⟩ => ⟨S1x1024x64x2, .i32⟩
  | .hbm, ⟨38, _⟩ => ⟨S1x1024x64x2, .i32⟩
  | .hbm, ⟨39, _⟩ => ⟨S1x1024x64x2, .i32⟩
  | .hbm, ⟨40, _⟩ => ⟨S1x1024x64x2, .i32⟩
  | .hbm, ⟨41, _⟩ => ⟨S1x1024x64x2, .i32⟩
  | .hbm, ⟨42, _⟩ => ⟨S8x1024x64x2, .i32⟩
  | .hbm, ⟨43, _⟩ => ⟨S8x1024x64x1, .i32⟩
  | .hbm, ⟨44, _⟩ => ⟨S8x1024x64, .i32⟩
  | .hbm, ⟨45, _⟩ => ⟨S8x1024x64x1, .i32⟩
  | .hbm, ⟨46, _⟩ => ⟨S8x1024x64, .i32⟩
  | .hbm, ⟨47, _⟩ => ⟨S_, .i32⟩
  | .hbm, ⟨48, _⟩ => ⟨S8x1024x64, .i32⟩
  | .hbm, ⟨49, _⟩ => ⟨S8x1024x64, .i1⟩
  | .hbm, ⟨50, _⟩ => ⟨S_, .i32⟩
  | .hbm, ⟨51, _⟩ => ⟨S8x1024x64, .i32⟩
  | .hbm, ⟨52, _⟩ => ⟨S8x1024x64, .i32⟩
  | .hbm, ⟨53, _⟩ => ⟨S8x1024x64, .i32⟩
  | .hbm, ⟨54, _⟩ => ⟨S8x1024x64x1, .i32⟩
  | .hbm, ⟨55, _⟩ => ⟨S8x1024x64x128, .bf16⟩
  | .hbm, ⟨56, _⟩ => ⟨S_, .i32⟩
  | .hbm, ⟨57, _⟩ => ⟨S8x1024x64, .i32⟩
  | .hbm, ⟨58, _⟩ => ⟨S8x1024x64, .i1⟩
  | .hbm, ⟨59, _⟩ => ⟨S_, .i32⟩
  | .hbm, ⟨60, _⟩ => ⟨S8x1024x64, .i32⟩
  | .hbm, ⟨61, _⟩ => ⟨S8x1024x64, .i32⟩
  | .hbm, ⟨62, _⟩ => ⟨S8x1024x64, .i32⟩
  | .hbm, ⟨63, _⟩ => ⟨S8x1024x64x1, .i32⟩
  | .hbm, ⟨64, _⟩ => ⟨S8x1024x64x128, .bf16⟩
  | .hbm, ⟨65, _⟩ => ⟨S1024x1, .i32⟩
  | .hbm, ⟨66, _⟩ => ⟨S1024, .i32⟩
  | .hbm, ⟨67, _⟩ => ⟨S1024x1, .i32⟩
  | .hbm, ⟨68, _⟩ => ⟨S1024, .i32⟩
  | .hbm, ⟨69, _⟩ => ⟨S1024x1, .i32⟩
  | .hbm, ⟨70, _⟩ => ⟨S1024, .i32⟩
  | .hbm, ⟨71, _⟩ => ⟨S1024x1, .i32⟩
  | .hbm, ⟨72, _⟩ => ⟨S1024, .i32⟩
  | .hbm, ⟨73, _⟩ => ⟨S1024x1, .i32⟩
  | .hbm, ⟨74, _⟩ => ⟨S1024, .i32⟩
  | .hbm, ⟨75, _⟩ => ⟨S1024x1, .i32⟩
  | .hbm, ⟨76, _⟩ => ⟨S1024, .i32⟩
  | .hbm, ⟨77, _⟩ => ⟨S1024x1, .i32⟩
  | .hbm, ⟨78, _⟩ => ⟨S1024, .i32⟩
  | .hbm, ⟨79, _⟩ => ⟨S1024x1, .i32⟩
  | .hbm, ⟨80, _⟩ => ⟨S1024, .i32⟩
  | .hbm, ⟨81, _⟩ => ⟨S1x1024, .i32⟩
  | .hbm, ⟨82, _⟩ => ⟨S1x1024, .i32⟩
  | .hbm, ⟨83, _⟩ => ⟨S1x1024, .i32⟩
  | .hbm, ⟨84, _⟩ => ⟨S1x1024, .i32⟩
  | .hbm, ⟨85, _⟩ => ⟨S1x1024, .i32⟩
  | .hbm, ⟨86, _⟩ => ⟨S1x1024, .i32⟩
  | .hbm, ⟨87, _⟩ => ⟨S1x1024, .i32⟩
  | .hbm, ⟨88, _⟩ => ⟨S1x1024, .i32⟩
  | .hbm, ⟨89, _⟩ => ⟨S8x1024, .i32⟩
  | .hbm, ⟨90, _⟩ => ⟨S_, .i32⟩
  | .hbm, ⟨91, _⟩ => ⟨S8x1024, .i32⟩
  | .hbm, ⟨92, _⟩ => ⟨S8x1024, .i1⟩
  | .hbm, ⟨93, _⟩ => ⟨S_, .i32⟩
  | .hbm, ⟨94, _⟩ => ⟨S8x1024, .i32⟩
  | .hbm, ⟨95, _⟩ => ⟨S8x1024, .i32⟩
  | .hbm, ⟨96, _⟩ => ⟨S8x1024, .i32⟩
  | .hbm, ⟨97, _⟩ => ⟨S8x1024x1, .i32⟩
  | .hbm, ⟨98, _⟩ => ⟨S8x1024x128, .f32⟩
  | .hbm, ⟨99, _⟩ => ⟨S8192x64x128, .bf16⟩
  | .hbm, ⟨100, _⟩ => ⟨S8192x64x128, .bf16⟩
  | .hbm, ⟨101, _⟩ => ⟨S8192x128, .f32⟩
  | .hbm, ⟨102, _⟩ => ⟨S256x128, .f32⟩
  | .hbm, ⟨103, _⟩ => ⟨S256x128, .bf16⟩
  | .hbm, ⟨104, _⟩ => ⟨S128, .f32⟩
  | .hbm, ⟨105, _⟩ => ⟨S128, .f32⟩
  | .hbm, ⟨106, _⟩ => ⟨S_, .f32⟩
  | .hbm, ⟨107, _⟩ => ⟨S1x1, .f32⟩
  | .hbm, ⟨108, _⟩ => ⟨S128, .f32⟩
  | .hbm, ⟨109, _⟩ => ⟨S_, .f32⟩
  | .hbm, ⟨110, _⟩ => ⟨S_, .f32⟩
  | .hbm, ⟨111, _⟩ => ⟨S_, .f32⟩
  | .hbm, ⟨112, _⟩ => ⟨S1x1, .f32⟩
  | .hbm, ⟨113, _⟩ => ⟨S8192x128, .f32⟩
  | .hbm, ⟨114, _⟩ => ⟨S8x1024x128, .f32⟩
  | .hbm, ⟨115, _⟩ => ⟨S256x512, .f32⟩
  | .hbm, ⟨116, _⟩ => ⟨S256x512, .bf16⟩
  | .hbm, ⟨117, _⟩ => ⟨S512x256, .f32⟩
  | .hbm, ⟨118, _⟩ => ⟨S512x256, .bf16⟩
  | .hbm, ⟨119, _⟩ => ⟨S256x2048, .f32⟩
  | .hbm, ⟨120, _⟩ => ⟨S256x2048, .bf16⟩
  | .hbm, ⟨121, _⟩ => ⟨S512x2048, .f32⟩
  | .hbm, ⟨122, _⟩ => ⟨S512x2048, .bf16⟩
  | .hbm, ⟨123, _⟩ => ⟨S256x2048, .bf16⟩
  | .hbm, ⟨124, _⟩ => ⟨S256x2048, .bf16⟩
  | .hbm, ⟨125, _⟩ => ⟨S1024, .f32⟩
  | .local _ .vmem, ⟨0, _⟩ => ⟨S128x64x128, .bf16⟩
  | .local _ .vmem, ⟨1, _⟩ => ⟨S128x64x128, .bf16⟩
  | .local _ .vmem, ⟨2, _⟩ => ⟨S128x64x128, .bf16⟩
  | .local _ .vmem, ⟨3, _⟩ => ⟨S128x64x128, .bf16⟩
  | .local _ .vmem, ⟨4, _⟩ => ⟨S128x128, .f32⟩
  | .local _ .vmem, ⟨5, _⟩ => ⟨S128x128, .f32⟩
  | .local _ .vmem, ⟨6, _⟩ => ⟨S256x128, .bf16⟩
  | .local _ .vmem, ⟨7, _⟩ => ⟨S128, .f32⟩
  | .local _ .vmem, ⟨8, _⟩ => ⟨S128, .f32⟩
  | .local _ .vmem, ⟨9, _⟩ => ⟨S1x1, .f32⟩
  | .local _ .vmem, ⟨10, _⟩ => ⟨S128, .f32⟩
  | .local _ .vmem, ⟨11, _⟩ => ⟨S1x1, .f32⟩
  | .local _ .vmem, ⟨12, _⟩ => ⟨S128x128, .f32⟩
  | .local _ .vmem, ⟨13, _⟩ => ⟨S128x128, .f32⟩
  | .local _ .vmem, ⟨14, _⟩ => ⟨S8x128x128, .f32⟩
  | .local _ .vmem, ⟨15, _⟩ => ⟨S8x128x128, .f32⟩
  | .local _ .vmem, ⟨16, _⟩ => ⟨S256x512, .bf16⟩
  | .local _ .vmem, ⟨17, _⟩ => ⟨S512, .f32⟩
  | .local _ .vmem, ⟨18, _⟩ => ⟨S512x256, .bf16⟩
  | .local _ .vmem, ⟨19, _⟩ => ⟨S256, .f32⟩
  | .local _ .vmem, ⟨20, _⟩ => ⟨S256, .f32⟩
  | .local _ .vmem, ⟨21, _⟩ => ⟨S256, .f32⟩
  | .local _ .vmem, ⟨22, _⟩ => ⟨S256x2048, .bf16⟩
  | .local _ .vmem, ⟨23, _⟩ => ⟨S256x2048, .bf16⟩
  | .local _ .vmem, ⟨24, _⟩ => ⟨S256x2048, .bf16⟩
  | .local _ .vmem, ⟨25, _⟩ => ⟨S2048, .f32⟩
  | .local _ .vmem, ⟨26, _⟩ => ⟨S2048, .f32⟩
  | .local _ .vmem, ⟨27, _⟩ => ⟨S128, .f32⟩
  | .local _ .vmem, ⟨28, _⟩ => ⟨S128, .f32⟩
  | _, _ => ⟨S1024x2, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_v0 : Ref sig .tc := ⟨.hbm, 33, rfl⟩
abbrev main_v1 : Ref sig .tc := ⟨.hbm, 34, rfl⟩
abbrev main_v2 : Ref sig .tc := ⟨.hbm, 35, rfl⟩
abbrev main_v3 : Ref sig .tc := ⟨.hbm, 36, rfl⟩
abbrev main_v4 : Ref sig .tc := ⟨.hbm, 37, rfl⟩
abbrev main_v5 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_c : Ref sig .tc := ⟨.hbm, 47, rfl⟩
abbrev main_v14 : Ref sig .tc := ⟨.hbm, 48, rfl⟩
abbrev main_v15 : Ref sig .tc := ⟨.hbm, 49, rfl⟩
abbrev main_c_0 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_c_1 : Ref sig .tc := ⟨.hbm, 56, rfl⟩
abbrev main_v21 : Ref sig .tc := ⟨.hbm, 57, rfl⟩
abbrev main_v22 : Ref sig .tc := ⟨.hbm, 58, rfl⟩
abbrev main_c_2 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_c_3 : Ref sig .tc := ⟨.hbm, 90, rfl⟩
abbrev main_v53 : Ref sig .tc := ⟨.hbm, 91, rfl⟩
abbrev main_v54 : Ref sig .tc := ⟨.hbm, 92, rfl⟩
abbrev main_c_4 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg8_0 : Ref sig .tc := ⟨.vmem, 23, rfl⟩
abbrev cc1_stg9_0 : Ref sig .tc := ⟨.vmem, 24, rfl⟩
abbrev cc1_stg10_0 : Ref sig .tc := ⟨.vmem, 25, rfl⟩
abbrev cc1_stg11_0 : Ref sig .tc := ⟨.vmem, 26, rfl⟩
abbrev cc1_stg12_0 : Ref sig .tc := ⟨.vmem, 27, rfl⟩
abbrev cc1_stg12_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem8_0 : DmaSem sig := 23
abbrev cc1_sem9_0 : DmaSem sig := 24
abbrev cc1_sem10_0 : DmaSem sig := 25
abbrev cc1_sem11_0 : DmaSem sig := 26
abbrev cc1_sem12_0 : DmaSem sig := 27
abbrev cc1_sem12_1 : DmaSem sig := 28

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x64x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x64x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_11 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_12 (i : grid1.Coords) : Fin 1 → Nat :=
  let arg0 : BitVec 32 := BitVec.ofNat 32 (i 0).val
  let c0_i32 : BitVec 32 := 0#32
  ![arg0.toNat]

abbrev stage1_0 : Fin 2 → Memref sig .tc .vmem S8x128x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S256x2048 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S256x2048 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S256x2048 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S2048 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S2048 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 2 → Memref sig .tc .vmem S128 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

class Facts₀ : Prop where
  bitsLt_bf16_f32 : FTy.bits .bf16 < FTy.bits .f32
  bcast_S1024x64x2_S1x1024x64x2_1_2_3 : S1024x64x2.BroadcastsInDim S1x1024x64x2 (![1, 2, 3] : Fin 3 → Fin S1x1024x64x2.rank)
  concatenates_S1x1024x64x2_S1x1024x64x2_S1x1024x64x2_S1x1024x64x2_S1x1024x64x2_S1x1024x64x2_S1x1024x64x2_S1x1024x64x2_S8x1024x64x2_d0 : Shape.Concatenates [S1x1024x64x2, S1x1024x64x2, S1x1024x64x2, S1x1024x64x2, S1x1024x64x2, S1x1024x64x2, S1x1024x64x2, S1x1024x64x2] S8x1024x64x2 0
  slices_S8x1024x64x2_S8x1024x64x1_0_0_0_0 : S8x1024x64x2.Slices ![0, 0, 0, 0] S8x1024x64x1
  shapeCasts_S8x1024x64x1_S8x1024x64 : S8x1024x64x1.ShapeCasts S8x1024x64
  slices_S8x1024x64x2_S8x1024x64x1_0_0_0_1 : S8x1024x64x2.Slices ![0, 0, 0, 1] S8x1024x64x1
  bcast_S_S8x1024x64 : S_.BroadcastsInDim S8x1024x64 (![] : Fin 0 → Fin S8x1024x64.rank)
  bcast_S8x1024x64_S8x1024x64x1_0_1_2 : S8x1024x64.BroadcastsInDim S8x1024x64x1 (![0, 1, 2] : Fin 3 → Fin S8x1024x64x1.rank)
  slices_S1024x2_S1024x1_0_0 : S1024x2.Slices ![0, 0] S1024x1
  shapeCasts_S1024x1_S1024 : S1024x1.ShapeCasts S1024
  slices_S1024x2_S1024x1_0_1 : S1024x2.Slices ![0, 1] S1024x1
  bcast_S1024_S1x1024_1 : S1024.BroadcastsInDim S1x1024 (![1] : Fin 1 → Fin S1x1024.rank)
  concatenates_S1x1024_S1x1024_S1x1024_S1x1024_S1x1024_S1x1024_S1x1024_S1x1024_S8x1024_d0 : Shape.Concatenates [S1x1024, S1x1024, S1x1024, S1x1024, S1x1024, S1x1024, S1x1024, S1x1024] S8x1024 0
  bcast_S_S8x1024 : S_.BroadcastsInDim S8x1024 (![] : Fin 0 → Fin S8x1024.rank)
  bcast_S8x1024_S8x1024x1_0_1 : S8x1024.BroadcastsInDim S8x1024x1 (![0, 1] : Fin 2 → Fin S8x1024x1.rank)
  shapeCasts_S8x1024x64x128_S8192x64x128 : S8x1024x64x128.ShapeCasts S8192x64x128
  shapeCasts_S8x1024x128_S8192x128 : S8x1024x128.ShapeCasts S8192x128
  transposes_S128x256_S256x128_1_0 : S128x256.Transposes [1, 0] S256x128
  shapeCasts_S1x128_S128 : S1x128.ShapeCasts S128
  shapeCasts_S1_S_ : S1.ShapeCasts S_
  shapeCasts_S_S1x1 : S_.ShapeCasts S1x1
  inb_S128x64x128_S128x64x128_0_0_0 : ∀ a, (![0, 0, 0] : Fin 3 → Nat) a + S128x64x128.size a ≤ S128x64x128.size a
  h_S128x64x128 : 0 < S128x64x128.numel
  shapeCasts_S128x64x128_S128x64x128 : S128x64x128.ShapeCasts S128x64x128
  shapeCasts_S128x64x128_S8192x128 : S128x64x128.ShapeCasts S8192x128
  concatenates_S8192x128_S8192x128_S8192x256_d1 : Shape.Concatenates [S8192x128, S8192x128] S8192x256 1
  inb_S256x128_S256x128_0_0 : ∀ a, (![0, 0] : Fin 2 → Nat) a + S256x128.size a ≤ S256x128.size a
  h_S256x128 : 0 < S256x128.numel
  shapeCasts_S256x128_S256x128 : S256x128.ShapeCasts S256x128
  shapeCasts_S8192x128_S128x64x128 : S8192x128.ShapeCasts S128x64x128
  inb_S128_S128_0 : ∀ a, (![0] : Fin 1 → Nat) a + S128.size a ≤ S128.size a
  h_S128 : 0 < S128.numel
  shapeCasts_S128_S128 : S128.ShapeCasts S128
  shapeCasts_S128_S1x1x128 : S128.ShapeCasts S1x1x128
  broadcasts_S1x1x128_S128x64x128 : S1x1x128.Broadcasts S128x64x128
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  reduces_S128x64x128_S128x64 : S128x64x128.Reduces [2] S128x64
  reduces_S128x64_S128 : S128x64.Reduces [1] S128
  shapeCasts_S128_S128x1 : S128.ShapeCasts S128x1
  broadcasts_S128x1_S128x64 : S128x1.Broadcasts S128x64
  shapeCasts_S128x64_S128x64x1 : S128x64.ShapeCasts S128x64x1
  broadcasts_S128x64x1_S128x64x128 : S128x64x1.Broadcasts S128x64x128
  reduces_S128x64x128_S128x128 : S128x64x128.Reduces [1] S128x128
  shapeCasts_S128_S1x128 : S128.ShapeCasts S1x128
  broadcasts_S1x128_S128x128 : S1x128.Broadcasts S128x128
  reduces_S128x128_S128 : S128x128.Reduces [1] S128
  broadcasts_S128x1_S128x128 : S128x1.Broadcasts S128x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S8192x128_S8x1024x128 : S8192x128.ShapeCasts S8x1024x128
  transposes_S512x256_S256x512_1_0 : S512x256.Transposes [1, 0] S256x512
  transposes_S256x512_S512x256_1_0 : S256x512.Transposes [1, 0] S512x256
  transposes_S2048x256_S256x2048_1_0 : S2048x256.Transposes [1, 0] S256x2048
  transposes_S2048x512_S512x2048_1_0 : S2048x512.Transposes [1, 0] S512x2048
  slices_S512x2048_S256x2048_0_0 : S512x2048.Slices ![0, 0] S256x2048
  slices_S512x2048_S256x2048_256_0 : S512x2048.Slices ![256, 0] S256x2048
  inb_S8x128x128_S1x128x128_0_0_0 : ∀ a, (![0, 0, 0] : Fin 3 → Nat) a + S1x128x128.size a ≤ S8x128x128.size a
  h_S1x128x128 : 0 < S1x128x128.numel
  shapeCasts_S1x128x128_S128x128 : S1x128x128.ShapeCasts S128x128
  inb_S8x128x128_S1x128x128_1_0_0 : ∀ a, (![1, 0, 0] : Fin 3 → Nat) a + S1x128x128.size a ≤ S8x128x128.size a
  inb_S8x128x128_S1x128x128_2_0_0 : ∀ a, (![2, 0, 0] : Fin 3 → Nat) a + S1x128x128.size a ≤ S8x128x128.size a
  inb_S8x128x128_S1x128x128_3_0_0 : ∀ a, (![3, 0, 0] : Fin 3 → Nat) a + S1x128x128.size a ≤ S8x128x128.size a
  inb_S8x128x128_S1x128x128_4_0_0 : ∀ a, (![4, 0, 0] : Fin 3 → Nat) a + S1x128x128.size a ≤ S8x128x128.size a
  inb_S8x128x128_S1x128x128_5_0_0 : ∀ a, (![5, 0, 0] : Fin 3 → Nat) a + S1x128x128.size a ≤ S8x128x128.size a
  inb_S8x128x128_S1x128x128_6_0_0 : ∀ a, (![6, 0, 0] : Fin 3 → Nat) a + S1x128x128.size a ≤ S8x128x128.size a
  inb_S8x128x128_S1x128x128_7_0_0 : ∀ a, (![7, 0, 0] : Fin 3 → Nat) a + S1x128x128.size a ≤ S8x128x128.size a
  concatenates_S128x128_S128x128_S128x256_d1 : Shape.Concatenates [S128x128, S128x128] S128x256 1
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S512_S512_0 : ∀ a, (![0] : Fin 1 → Nat) a + S512.size a ≤ S512.size a
  h_S512 : 0 < S512.numel
  shapeCasts_S512_S1x512 : S512.ShapeCasts S1x512
  broadcasts_S1x512_S128x512 : S1x512.Broadcasts S128x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S256_S256_0 : ∀ a, (![0] : Fin 1 → Nat) a + S256.size a ≤ S256.size a
  h_S256 : 0 < S256.numel
  shapeCasts_S256_S1x256 : S256.ShapeCasts S1x256
  broadcasts_S1x256_S128x256 : S1x256.Broadcasts S128x256
  reduces_S128x256_S128 : S128x256.Reduces [1] S128
  broadcasts_S128x1_S128x256 : S128x1.Broadcasts S128x256
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S2048_S2048_0 : ∀ a, (![0] : Fin 1 → Nat) a + S2048.size a ≤ S2048.size a
  h_S2048 : 0 < S2048.numel
  shapeCasts_S2048_S1x2048 : S2048.ShapeCasts S1x2048
  broadcasts_S1x2048_S128x2048 : S1x2048.Broadcasts S128x2048
  slices_S128x2048_o0_0_S128x512 : S128x2048.Slices ![0, 0] S128x512
  slices_S128x2048_o0_512_S128x512 : S128x2048.Slices ![0, 512] S128x512
  slices_S128x2048_o0_1024_S128x512 : S128x2048.Slices ![0, 1024] S128x512
  slices_S128x2048_o0_1536_S128x512 : S128x2048.Slices ![0, 1536] S128x512
  slices_S128x512_o0_0_S128x256 : S128x512.Slices ![0, 0] S128x256
  gather_S100001x128_S8x1024x64x1_S8x1024x64x128_3_0_n_n_0_3_1128_wf : GatherDims.WF S100001x128 S8x1024x64x1 S8x1024x64x128 [3] [0] [] [0] [] 3 ![1, 128]
  gather_S100001x128_S8x1024x1_S8x1024x128_2_0_n_n_0_2_1128_wf : GatherDims.WF S100001x128 S8x1024x1 S8x1024x128 [2] [0] [] [0] [] 2 ![1, 128]
  dot_S8192x256_S256x128_S8192x128_1_0_0_1_n_n_wf : DotDims.WF S8192x256 S256x128 S8192x128 [1] [0] [0] [1] [] []
  dot_S128x256_S256x512_S128x512_1_0_0_1_n_n_wf : DotDims.WF S128x256 S256x512 S128x512 [1] [0] [0] [1] [] []
  dot_S128x512_S512x256_S128x256_1_0_0_1_n_n_wf : DotDims.WF S128x512 S512x256 S128x256 [1] [0] [0] [1] [] []
  dot_S128x256_S256x2048_S128x2048_1_0_0_1_n_n_wf : DotDims.WF S128x256 S256x2048 S128x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x64x128.size a ≤ S8192x64x128.size a
  hwx0_0 : ∀ i : grid0.Coords, EltTy.bits .bf16 = 32 ∨ (Rect.block (s := S8192x64x128) S128x64x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x64x128.size a ≤ S8192x64x128.size a
  hwx0_1 : ∀ i : grid0.Coords, EltTy.bits .bf16 = 32 ∨ (Rect.block (s := S8192x64x128) S128x64x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S8192x128.size a
  hwx0_2 : ∀ i : grid0.Coords, EltTy.bits .f32 = 32 ∨ (Rect.block (s := S8192x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .bf16 = 32 ∨ (Rect.block (s := S256x128) S256x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S8192x128.size a
  hwx0_9 : ∀ i : grid0.Coords, EltTy.bits .f32 = 32 ∨ (Rect.block (s := S8192x128) S128x128.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x128x128.size a ≤ S8x1024x128.size a
  hwx1_0 : ∀ i : grid1.Coords, EltTy.bits .f32 = 32 ∨ (Rect.block (s := S8x1024x128) S8x128x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x512.size a ≤ S256x512.size a
  hwx1_1 : ∀ i : grid1.Coords, EltTy.bits .bf16 = 32 ∨ (Rect.block (s := S256x512) S256x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512.size a ≤ S512.size a
  hwx1_2 : ∀ i : grid1.Coords, EltTy.bits .f32 = 32 ∨ (Rect.block (s := S512) S512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x256.size a ≤ S512x256.size a
  hwx1_3 : ∀ i : grid1.Coords, EltTy.bits .bf16 = 32 ∨ (Rect.block (s := S512x256) S512x256.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256.size a ≤ S256.size a
  hwx1_4 : ∀ i : grid1.Coords, EltTy.bits .f32 = 32 ∨ (Rect.block (s := S256) S256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256.size a ≤ S256.size a
  hwx1_5 : ∀ i : grid1.Coords, EltTy.bits .f32 = 32 ∨ (Rect.block (s := S256) S256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S256.size a ≤ S256.size a
  hwx1_6 : ∀ i : grid1.Coords, EltTy.bits .f32 = 32 ∨ (Rect.block (s := S256) S256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S256x2048.size a ≤ S256x2048.size a
  hwx1_7 : ∀ i : grid1.Coords, EltTy.bits .bf16 = 32 ∨ (Rect.block (s := S256x2048) S256x2048.size (cc1_transform_7 i) (hinb1_7 i)).WholeWords (EltTy.packing .bf16)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S256x2048.size a ≤ S256x2048.size a
  hwx1_8 : ∀ i : grid1.Coords, EltTy.bits .bf16 = 32 ∨ (Rect.block (s := S256x2048) S256x2048.size (cc1_transform_8 i) (hinb1_8 i)).WholeWords (EltTy.packing .bf16)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S256x2048.size a ≤ S256x2048.size a
  hwx1_9 : ∀ i : grid1.Coords, EltTy.bits .bf16 = 32 ∨ (Rect.block (s := S256x2048) S256x2048.size (cc1_transform_9 i) (hinb1_9 i)).WholeWords (EltTy.packing .bf16)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S2048.size a ≤ S2048.size a
  hwx1_10 : ∀ i : grid1.Coords, EltTy.bits .f32 = 32 ∨ (Rect.block (s := S2048) S2048.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S2048.size a ≤ S2048.size a
  hwx1_11 : ∀ i : grid1.Coords, EltTy.bits .f32 = 32 ∨ (Rect.block (s := S2048) S2048.size (cc1_transform_11 i) (hinb1_11 i)).WholeWords (EltTy.packing .f32)
  hstage1_12 : ∀ j, (stage1_12 j).IsWhole
  nbuf1_12 : grid1.bufCount reads1_12 false = 2
  hreads1_12 : ∀ i i' : grid1.Coords, (∀ a, reads1_12 a = true → i a = i' a) → cc1_transform_12 i = cc1_transform_12 i'
  hinb1_12 : ∀ (i : grid1.Coords) a, (cc1_transform_12 i a + 1) * S128.size a ≤ S1024.size a
  hwx1_12 : ∀ i : grid1.Coords, EltTy.bits .f32 = 32 ∨ (Rect.block (s := S1024) S128.size (cc1_transform_12 i) (hinb1_12 i)).WholeWords (EltTy.packing .f32)

variable [Facts₀]

def gather_S100001x128_S8x1024x64x1_S8x1024x64x128_3_0_n_n_0_3_1128 : GatherDims S100001x128 S8x1024x64x1 S8x1024x64x128 where
  offsetDims := [3]
  collapsedSliceDims := [0]
  operandBatchingDims := []
  startIndicesBatchingDims := []
  startIndexMap := [0]
  indexVectorDim := 3
  sliceSizes := ![1, 128]
  wf := gather_S100001x128_S8x1024x64x1_S8x1024x64x128_3_0_n_n_0_3_1128_wf
def gather_S100001x128_S8x1024x1_S8x1024x128_2_0_n_n_0_2_1128 : GatherDims S100001x128 S8x1024x1 S8x1024x128 where
  offsetDims := [2]
  collapsedSliceDims := [0]
  operandBatchingDims := []
  startIndicesBatchingDims := []
  startIndexMap := [0]
  indexVectorDim := 2
  sliceSizes := ![1, 128]
  wf := gather_S100001x128_S8x1024x1_S8x1024x128_2_0_n_n_0_2_1128_wf
def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf
def dot_S128x256_S256x512_S128x512_1_0_0_1_n_n : DotDims S128x256 S256x512 S128x512 where
  lhsContracting := [1]
  rhsContracting := [0]
  lhsNonContracting := [0]
  rhsNonContracting := [1]
  lhsBatch := []
  rhsBatch := []
  wf := dot_S128x256_S256x512_S128x512_1_0_0_1_n_n_wf
def dot_S128x512_S512x256_S128x256_1_0_0_1_n_n : DotDims S128x512 S512x256 S128x256 where
  lhsContracting := [1]
  rhsContracting := [0]
  lhsNonContracting := [0]
  rhsNonContracting := [1]
  lhsBatch := []
  rhsBatch := []
  wf := dot_S128x512_S512x256_S128x256_1_0_0_1_n_n_wf
def dot_S128x256_S256x2048_S128x2048_1_0_0_1_n_n : DotDims S128x256 S256x2048 S128x2048 where
  lhsContracting := [1]
  rhsContracting := [0]
  lhsNonContracting := [0]
  rhsNonContracting := [1]
  lhsBatch := []
  rhsBatch := []
  wf := dot_S128x256_S256x2048_S128x2048_1_0_0_1_n_n_wf

abbrev win0_0 : Pipeline.Window sig grid0 :=
  Pipeline.Window.ofSpec (Memref.whole main_v60) S128x64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v61) S128x64x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v62) S128x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v64) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v65) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v66) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v68) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v69) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v73) S1x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v74) S128x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v75) S8x128x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v77) S256x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg24) S512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v79) S512x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg26) S256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg27) S256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg28) S256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v81) S256x2048.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v84) S256x2048.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v85) S256x2048.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_arg31) S2048.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_arg32) S2048.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v86) S128.size cc1_transform_12 reads1_12 true false 2 stage1_12 sem1_12
    hrank1 hreads1_12 hinb1_12 nbuf1_12 (Memref.isWhole_whole _) hwx1_12 hstage1_12

abbrev win1 : Fin 13 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | ⟨_ + 13, h⟩ => absurd h (Nat.not_lt.2 (Nat.le_add_left _ _))
abbrev spec1 : Fin 13 → Pipeline.WinSpec sig grid1.rank := fun w => (win1 w).toWinSpec

class Facts : Prop extends Facts₀ where

variable [Facts]
-- ==== ReferenceIdeal.lean ====
abbrev S1024x2 : Shape := ⟨2, ![1024, 2]⟩
abbrev S1024x64x2 : Shape := ⟨3, ![1024, 64, 2]⟩
abbrev S1024 : Shape := ⟨1, ![1024]⟩
abbrev S100001x128 : Shape := ⟨2, ![100001, 128]⟩
abbrev S128x256 : Shape := ⟨2, ![128, 256]⟩
abbrev S128 : Shape := ⟨1, ![128]⟩
abbrev S1x128 : Shape := ⟨2, ![1, 128]⟩
abbrev S1 : Shape := ⟨1, ![1]⟩
abbrev S512x256 : Shape := ⟨2, ![512, 256]⟩
abbrev S512 : Shape := ⟨1, ![512]⟩
abbrev S256x512 : Shape := ⟨2, ![256, 512]⟩
abbrev S256 : Shape := ⟨1, ![256]⟩
abbrev S2048x256 : Shape := ⟨2, ![2048, 256]⟩
abbrev S2048x512 : Shape := ⟨2, ![2048, 512]⟩
abbrev S2048 : Shape := ⟨1, ![2048]⟩
abbrev S1024x1 : Shape := ⟨2, ![1024, 1]⟩
abbrev S1024x64x1 : Shape := ⟨3, ![1024, 64, 1]⟩
abbrev S1024x64 : Shape := ⟨2, ![1024, 64]⟩
abbrev S_ : Shape := ⟨0, ![]⟩
abbrev S1024x64x128 : Shape := ⟨3, ![1024, 64, 128]⟩
abbrev S1024x64x256 : Shape := ⟨3, ![1024, 64, 256]⟩
abbrev S1x1x128 : Shape := ⟨3, ![1, 1, 128]⟩
abbrev S1x1x1 : Shape := ⟨3, ![1, 1, 1]⟩
abbrev S1024x1x1 : Shape := ⟨3, ![1024, 1, 1]⟩
abbrev S1024x128 : Shape := ⟨2, ![1024, 128]⟩
abbrev S128x1 : Shape := ⟨2, ![128, 1]⟩
abbrev S1x1 : Shape := ⟨2, ![1, 1]⟩
abbrev S1024x256 : Shape := ⟨2, ![1024, 256]⟩
abbrev S1024x512 : Shape := ⟨2, ![1024, 512]⟩
abbrev S1x512 : Shape := ⟨2, ![1, 512]⟩
abbrev S1x256 : Shape := ⟨2, ![1, 256]⟩
abbrev S256x2048 : Shape := ⟨2, ![256, 2048]⟩
abbrev S1024x2048 : Shape := ⟨2, ![1024, 2048]⟩
abbrev S1x2048 : Shape := ⟨2, ![1, 2048]⟩
abbrev S512x2048 : Shape := ⟨2, ![512, 2048]⟩

abbrev nBuf : Space → Nat
  | .hbm => 1060
  | .vmem => 0
  | .smem => 0
  | _ => 0

abbrev hbmTy0_0 (i : Nat) : BufTy := match i % 128 with
  | 0 => ⟨S1024x2, .i32⟩
  | 1 => ⟨S1024x2, .i32⟩
  | 2 => ⟨S1024x64x2, .i32⟩
  | 3 => ⟨S1024x64x2, .i32⟩
  | 4 => ⟨S1024, .i32⟩
  | 5 => ⟨S1024x64x2, .i32⟩
  | 6 => ⟨S1024x64x2, .i32⟩
  | 7 => ⟨S1024, .i32⟩
  | 8 => ⟨S1024x64x2, .i32⟩
  | 9 => ⟨S1024x64x2, .i32⟩
  | 10 => ⟨S1024, .i32⟩
  | 11 => ⟨S1024x64x2, .i32⟩
  | 12 => ⟨S1024x64x2, .i32⟩
  | 13 => ⟨S1024, .i32⟩
  | 14 => ⟨S100001x128, .f32⟩
  | 15 => ⟨S128x256, .f32⟩
  | 16 => ⟨S128, .f32⟩
  | 17 => ⟨S128, .f32⟩
  | 18 => ⟨S1x128, .f32⟩
  | 19 => ⟨S1, .f32⟩
  | 20 => ⟨S1x128, .f32⟩
  | 21 => ⟨S1, .f32⟩
  | 22 => ⟨S1, .f32⟩
  | 23 => ⟨S512x256, .f32⟩
  | 24 => ⟨S512, .f32⟩
  | 25 => ⟨S256x512, .f32⟩
  | 26 => ⟨S256, .f32⟩
  | 27 => ⟨S256, .f32⟩
  | 28 => ⟨S256, .f32⟩
  | 29 => ⟨S2048x256, .f32⟩
  | 30 => ⟨S2048x512, .f32⟩
  | 31 => ⟨S2048, .f32⟩
  | 32 => ⟨S2048, .f32⟩
  | 33 => ⟨S1024x1, .i32⟩
  | 34 => ⟨S1024, .i32⟩
  | 35 => ⟨S1024x64x1, .i32⟩
  | 36 => ⟨S1024x64, .i32⟩
  | 37 => ⟨S_, .i32⟩
  | 38 => ⟨S1024x64, .i32⟩
  | 39 => ⟨S1024x64, .i1⟩
  | 40 => ⟨S_, .i32⟩
  | 41 => ⟨S1024x64, .i32⟩
  | 42 => ⟨S1024x64, .i32⟩
  | 43 => ⟨S1024x64, .i32⟩
  | 44 => ⟨S1024x64x1, .i32⟩
  | 45 => ⟨S1024x64x128, .f32⟩
  | 46 => ⟨S1024x64x1, .i32⟩
  | 47 => ⟨S1024x64, .i32⟩
  | 48 => ⟨S_, .i32⟩
  | 49 => ⟨S1024x64, .i32⟩
  | 50 => ⟨S1024x64, .i1⟩
  | 51 => ⟨S_, .i32⟩
  | 52 => ⟨S1024x64, .i32⟩
  | 53 => ⟨S1024x64, .i32⟩
  | 54 => ⟨S1024x64, .i32⟩
  | 55 => ⟨S1024x64x1, .i32⟩
  | 56 => ⟨S1024x64x128, .f32⟩
  | 57 => ⟨S1024x64x256, .f32⟩
  | 58 => ⟨S1024x64x128, .f32⟩
  | 59 => ⟨S1x1x128, .f32⟩
  | 60 => ⟨S1024x64x128, .f32⟩
  | 61 => ⟨S1024x64x128, .f32⟩
  | 62 => ⟨S1x1x128, .f32⟩
  | 63 => ⟨S1024x64x128, .f32⟩
  | 64 => ⟨S1024x64x128, .f32⟩
  | 65 => ⟨S_, .f32⟩
  | 66 => ⟨S1024x64x128, .f32⟩
  | 67 => ⟨S1024x64x128, .i1⟩
  | 68 => ⟨S_, .f32⟩
  | 69 => ⟨S1024x64x128, .f32⟩
  | 70 => ⟨S1024x64x128, .f32⟩
  | 71 => ⟨S1024x64x128, .f32⟩
  | 72 => ⟨S1024x64x1, .f32⟩
  | 73 => ⟨S1x1x1, .f32⟩
  | 74 => ⟨S1024x64x1, .f32⟩
  | 75 => ⟨S1024x64x1, .f32⟩
  | 76 => ⟨S_, .f32⟩
  | 77 => ⟨S1024x1, .f32⟩
  | 78 => ⟨S_, .f32⟩
  | 79 => ⟨S1024x1, .f32⟩
  | 80 => ⟨S1024x1, .f32⟩
  | 81 => ⟨S1024x1x1, .f32⟩
  | 82 => ⟨S1024x64x1, .f32⟩
  | 83 => ⟨S1024x64x1, .f32⟩
  | 84 => ⟨S1024x64x1, .f32⟩
  | 85 => ⟨S_, .f32⟩
  | 86 => ⟨S1024x1, .f32⟩
  | 87 => ⟨S1024x1x1, .f32⟩
  | 88 => ⟨S1024x64x1, .f32⟩
  | 89 => ⟨S1024x64x1, .f32⟩
  | 90 => ⟨S1024x64x128, .f32⟩
  | 91 => ⟨S1024x64x128, .f32⟩
  | 92 => ⟨S_, .f32⟩
  | 93 => ⟨S1024x128, .f32⟩
  | 94 => ⟨S128x1, .f32⟩
  | 95 => ⟨S1024x1, .f32⟩
  | 96 => ⟨S1x1, .f32⟩
  | 97 => ⟨S1024x1, .f32⟩
  | 98 => ⟨S1024x1, .f32⟩
  | 99 => ⟨S1x1, .f32⟩
  | 100 => ⟨S1024x1, .f32⟩
  | 101 => ⟨S1024x1, .f32⟩
  | 102 => ⟨S1024x1, .f32⟩
  | 103 => ⟨S1024x1, .f32⟩
  | 104 => ⟨S_, .f32⟩
  | 105 => ⟨S1024x1, .f32⟩
  | 106 => ⟨S1024x1, .f32⟩
  | 107 => ⟨S_, .f32⟩
  | 108 => ⟨S1024x1, .f32⟩
  | 109 => ⟨S1024x1, .f32⟩
  | 110 => ⟨S1024x128, .f32⟩
  | 111 => ⟨S1024x128, .f32⟩
  | 112 => ⟨S_, .f32⟩
  | 113 => ⟨S1024x1, .f32⟩
  | 114 => ⟨S1024x1, .f32⟩
  | 115 => ⟨S_, .i32⟩
  | 116 => ⟨S1024, .i32⟩
  | 117 => ⟨S1024, .i1⟩
  | 118 => ⟨S_, .i32⟩
  | 119 => ⟨S1024, .i32⟩
  | 120 => ⟨S1024, .i32⟩
  | 121 => ⟨S1024, .i32⟩
  | 122 => ⟨S1024x1, .i32⟩
  | 123 => ⟨S1024x128, .f32⟩
  | 124 => ⟨S1024x128, .f32⟩
  | 125 => ⟨S1024x128, .f32⟩
  | 126 => ⟨S1024x128, .f32⟩
  | 127 => ⟨S1024x1, .i32⟩
  | _ => ⟨S1024x2, .i32⟩

abbrev hbmTy0_1 (i : Nat) : BufTy := match i % 128 with
  | 0 => ⟨S1024, .i32⟩
  | 1 => ⟨S1024x64x1, .i32⟩
  | 2 => ⟨S1024x64, .i32⟩
  | 3 => ⟨S_, .i32⟩
  | 4 => ⟨S1024x64, .i32⟩
  | 5 => ⟨S1024x64, .i1⟩
  | 6 => ⟨S_, .i32⟩
  | 7 => ⟨S1024x64, .i32⟩
  | 8 => ⟨S1024x64, .i32⟩
  | 9 => ⟨S1024x64, .i32⟩
  | 10 => ⟨S1024x64x1, .i32⟩
  | 11 => ⟨S1024x64x128, .f32⟩
  | 12 => ⟨S1024x64x1, .i32⟩
  | 13 => ⟨S1024x64, .i32⟩
  | 14 => ⟨S_, .i32⟩
  | 15 => ⟨S1024x64, .i32⟩
  | 16 => ⟨S1024x64, .i1⟩
  | 17 => ⟨S_, .i32⟩
  | 18 => ⟨S1024x64, .i32⟩
  | 19 => ⟨S1024x64, .i32⟩
  | 20 => ⟨S1024x64, .i32⟩
  | 21 => ⟨S1024x64x1, .i32⟩
  | 22 => ⟨S1024x64x128, .f32⟩
  | 23 => ⟨S1024x64x256, .f32⟩
  | 24 => ⟨S1024x64x128, .f32⟩
  | 25 => ⟨S1x1x128, .f32⟩
  | 26 => ⟨S1024x64x128, .f32⟩
  | 27 => ⟨S1024x64x128, .f32⟩
  | 28 => ⟨S1x1x128, .f32⟩
  | 29 => ⟨S1024x64x128, .f32⟩
  | 30 => ⟨S1024x64x128, .f32⟩
  | 31 => ⟨S_, .f32⟩
  | 32 => ⟨S1024x64x128, .f32⟩
  | 33 => ⟨S1024x64x128, .i1⟩
  | 34 => ⟨S_, .f32⟩
  | 35 => ⟨S1024x64x128, .f32⟩
  | 36 => ⟨S1024x64x128, .f32⟩
  | 37 => ⟨S1024x64x128, .f32⟩
  | 38 => ⟨S1024x64x1, .f32⟩
  | 39 => ⟨S1x1x1, .f32⟩
  | 40 => ⟨S1024x64x1, .f32⟩
  | 41 => ⟨S1024x64x1, .f32⟩
  | 42 => ⟨S_, .f32⟩
  | 43 => ⟨S1024x1, .f32⟩
  | 44 => ⟨S_, .f32⟩
  | 45 => ⟨S1024x1, .f32⟩
  | 46 => ⟨S1024x1, .f32⟩
  | 47 => ⟨S1024x1x1, .f32⟩
  | 48 => ⟨S1024x64x1, .f32⟩
  | 49 => ⟨S1024x64x1, .f32⟩
  | 50 => ⟨S1024x64x1, .f32⟩
  | 51 => ⟨S_, .f32⟩
  | 52 => ⟨S1024x1, .f32⟩
  | 53 => ⟨S1024x1x1, .f32⟩
  | 54 => ⟨S1024x64x1, .f32⟩
  | 55 => ⟨S1024x64x1, .f32⟩
  | 56 => ⟨S1024x64x128, .f32⟩
  | 57 => ⟨S1024x64x128, .f32⟩
  | 58 => ⟨S_, .f32⟩
  | 59 => ⟨S1024x128, .f32⟩
  | 60 => ⟨S128x1, .f32⟩
  | 61 => ⟨S1024x1, .f32⟩
  | 62 => ⟨S1x1, .f32⟩
  | 63 => ⟨S1024x1, .f32⟩
  | 64 => ⟨S1024x1, .f32⟩
  | 65 => ⟨S1x1, .f32⟩
  | 66 => ⟨S1024x1, .f32⟩
  | 67 => ⟨S1024x1, .f32⟩
  | 68 => ⟨S1024x1, .f32⟩
  | 69 => ⟨S1024x1, .f32⟩
  | 70 => ⟨S_, .f32⟩
  | 71 => ⟨S1024x1, .f32⟩
  | 72 => ⟨S1024x1, .f32⟩
  | 73 => ⟨S_, .f32⟩
  | 74 => ⟨S1024x1, .f32⟩
  | 75 => ⟨S1024x1, .f32⟩
  | 76 => ⟨S1024x128, .f32⟩
  | 77 => ⟨S1024x128, .f32⟩
  | 78 => ⟨S_, .f32⟩
  | 79 => ⟨S1024x1, .f32⟩
  | 80 => ⟨S1024x1, .f32⟩
  | 81 => ⟨S_, .i32⟩
  | 82 => ⟨S1024, .i32⟩
  | 83 => ⟨S1024, .i1⟩
  | 84 => ⟨S_, .i32⟩
  | 85 => ⟨S1024, .i32⟩
  | 86 => ⟨S1024, .i32⟩
  | 87 => ⟨S1024, .i32⟩
  | 88 => ⟨S1024x1, .i32⟩
  | 89 => ⟨S1024x128, .f32⟩
  | 90 => ⟨S1024x128, .f32⟩
  | 91 => ⟨S1024x128, .f32⟩
  | 92 => ⟨S1024x128, .f32⟩
  | 93 => ⟨S1024x128, .f32⟩
  | 94 => ⟨S_, .f32⟩
  | 95 => ⟨S1024x128, .f32⟩
  | 96 => ⟨S1024x128, .f32⟩
  | 97 => ⟨S1024x1, .i32⟩
  | 98 => ⟨S1024, .i32⟩
  | 99 => ⟨S1024x64x1, .i32⟩
  | 100 => ⟨S1024x64, .i32⟩
  | 101 => ⟨S_, .i32⟩
  | 102 => ⟨S1024x64, .i32⟩
  | 103 => ⟨S1024x64, .i1⟩
  | 104 => ⟨S_, .i32⟩
  | 105 => ⟨S1024x64, .i32⟩
  | 106 => ⟨S1024x64, .i32⟩
  | 107 => ⟨S1024x64, .i32⟩
  | 108 => ⟨S1024x64x1, .i32⟩
  | 109 => ⟨S1024x64x128, .f32⟩
  | 110 => ⟨S1024x64x1, .i32⟩
  | 111 => ⟨S1024x64, .i32⟩
  | 112 => ⟨S_, .i32⟩
  | 113 => ⟨S1024x64, .i32⟩
  | 114 => ⟨S1024x64, .i1⟩
  | 115 => ⟨S_, .i32⟩
  | 116 => ⟨S1024x64, .i32⟩
  | 117 => ⟨S1024x64, .i32⟩
  | 118 => ⟨S1024x64, .i32⟩
  | 119 => ⟨S1024x64x1, .i32⟩
  | 120 => ⟨S1024x64x128, .f32⟩
  | 121 => ⟨S1024x64x256, .f32⟩
  | 122 => ⟨S1024x64x128, .f32⟩
  | 123 => ⟨S1x1x128, .f32⟩
  | 124 => ⟨S1024x64x128, .f32⟩
  | 125 => ⟨S1024x64x128, .f32⟩
  | 126 => ⟨S1x1x128, .f32⟩
  | 127 => ⟨S1024x64x128, .f32⟩
  | _ => ⟨S1024x2, .i32⟩

abbrev hbmTy0_2 (i : Nat) : BufTy := match i % 128 with
  | 0 => ⟨S1024x64x128, .f32⟩
  | 1 => ⟨S_, .f32⟩
  | 2 => ⟨S1024x64x128, .f32⟩
  | 3 => ⟨S1024x64x128, .i1⟩
  | 4 => ⟨S_, .f32⟩
  | 5 => ⟨S1024x64x128, .f32⟩
  | 6 => ⟨S1024x64x128, .f32⟩
  | 7 => ⟨S1024x64x128, .f32⟩
  | 8 => ⟨S1024x64x1, .f32⟩
  | 9 => ⟨S1x1x1, .f32⟩
  | 10 => ⟨S1024x64x1, .f32⟩
  | 11 => ⟨S1024x64x1, .f32⟩
  | 12 => ⟨S_, .f32⟩
  | 13 => ⟨S1024x1, .f32⟩
  | 14 => ⟨S_, .f32⟩
  | 15 => ⟨S1024x1, .f32⟩
  | 16 => ⟨S1024x1, .f32⟩
  | 17 => ⟨S1024x1x1, .f32⟩
  | 18 => ⟨S1024x64x1, .f32⟩
  | 19 => ⟨S1024x64x1, .f32⟩
  | 20 => ⟨S1024x64x1, .f32⟩
  | 21 => ⟨S_, .f32⟩
  | 22 => ⟨S1024x1, .f32⟩
  | 23 => ⟨S1024x1x1, .f32⟩
  | 24 => ⟨S1024x64x1, .f32⟩
  | 25 => ⟨S1024x64x1, .f32⟩
  | 26 => ⟨S1024x64x128, .f32⟩
  | 27 => ⟨S1024x64x128, .f32⟩
  | 28 => ⟨S_, .f32⟩
  | 29 => ⟨S1024x128, .f32⟩
  | 30 => ⟨S128x1, .f32⟩
  | 31 => ⟨S1024x1, .f32⟩
  | 32 => ⟨S1x1, .f32⟩
  | 33 => ⟨S1024x1, .f32⟩
  | 34 => ⟨S1024x1, .f32⟩
  | 35 => ⟨S1x1, .f32⟩
  | 36 => ⟨S1024x1, .f32⟩
  | 37 => ⟨S1024x1, .f32⟩
  | 38 => ⟨S1024x1, .f32⟩
  | 39 => ⟨S1024x1, .f32⟩
  | 40 => ⟨S_, .f32⟩
  | 41 => ⟨S1024x1, .f32⟩
  | 42 => ⟨S1024x1, .f32⟩
  | 43 => ⟨S_, .f32⟩
  | 44 => ⟨S1024x1, .f32⟩
  | 45 => ⟨S1024x1, .f32⟩
  | 46 => ⟨S1024x128, .f32⟩
  | 47 => ⟨S1024x128, .f32⟩
  | 48 => ⟨S_, .f32⟩
  | 49 => ⟨S1024x1, .f32⟩
  | 50 => ⟨S1024x1, .f32⟩
  | 51 => ⟨S_, .i32⟩
  | 52 => ⟨S1024, .i32⟩
  | 53 => ⟨S1024, .i1⟩
  | 54 => ⟨S_, .i32⟩
  | 55 => ⟨S1024, .i32⟩
  | 56 => ⟨S1024, .i32⟩
  | 57 => ⟨S1024, .i32⟩
  | 58 => ⟨S1024x1, .i32⟩
  | 59 => ⟨S1024x128, .f32⟩
  | 60 => ⟨S1024x128, .f32⟩
  | 61 => ⟨S1024x128, .f32⟩
  | 62 => ⟨S1024x128, .f32⟩
  | 63 => ⟨S1024x1, .i32⟩
  | 64 => ⟨S1024, .i32⟩
  | 65 => ⟨S1024x64x1, .i32⟩
  | 66 => ⟨S1024x64, .i32⟩
  | 67 => ⟨S_, .i32⟩
  | 68 => ⟨S1024x64, .i32⟩
  | 69 => ⟨S1024x64, .i1⟩
  | 70 => ⟨S_, .i32⟩
  | 71 => ⟨S1024x64, .i32⟩
  | 72 => ⟨S1024x64, .i32⟩
  | 73 => ⟨S1024x64, .i32⟩
  | 74 => ⟨S1024x64x1, .i32⟩
  | 75 => ⟨S1024x64x128, .f32⟩
  | 76 => ⟨S1024x64x1, .i32⟩
  | 77 => ⟨S1024x64, .i32⟩
  | 78 => ⟨S_, .i32⟩
  | 79 => ⟨S1024x64, .i32⟩
  | 80 => ⟨S1024x64, .i1⟩
  | 81 => ⟨S_, .i32⟩
  | 82 => ⟨S1024x64, .i32⟩
  | 83 => ⟨S1024x64, .i32⟩
  | 84 => ⟨S1024x64, .i32⟩
  | 85 => ⟨S1024x64x1, .i32⟩
  | 86 => ⟨S1024x64x128, .f32⟩
  | 87 => ⟨S1024x64x256, .f32⟩
  | 88 => ⟨S1024x64x128, .f32⟩
  | 89 => ⟨S1x1x128, .f32⟩
  | 90 => ⟨S1024x64x128, .f32⟩
  | 91 => ⟨S1024x64x128, .f32⟩
  | 92 => ⟨S1x1x128, .f32⟩
  | 93 => ⟨S1024x64x128, .f32⟩
  | 94 => ⟨S1024x64x128, .f32⟩
  | 95 => ⟨S_, .f32⟩
  | 96 => ⟨S1024x64x128, .f32⟩
  | 97 => ⟨S1024x64x128, .i1⟩
  | 98 => ⟨S_, .f32⟩
  | 99 => ⟨S1024x64x128, .f32⟩
  | 100 => ⟨S1024x64x128, .f32⟩
  | 101 => ⟨S1024x64x128, .f32⟩
  | 102 => ⟨S1024x64x1, .f32⟩
  | 103 => ⟨S1x1x1, .f32⟩
  | 104 => ⟨S1024x64x1, .f32⟩
  | 105 => ⟨S1024x64x1, .f32⟩
  | 106 => ⟨S_, .f32⟩
  | 107 => ⟨S1024x1, .f32⟩
  | 108 => ⟨S_, .f32⟩
  | 109 => ⟨S1024x1, .f32⟩
  | 110 => ⟨S1024x1, .f32⟩
  | 111 => ⟨S1024x1x1, .f32⟩
  | 112 => ⟨S1024x64x1, .f32⟩
  | 113 => ⟨S1024x64x1, .f32⟩
  | 114 => ⟨S1024x64x1, .f32⟩
  | 115 => ⟨S_, .f32⟩
  | 116 => ⟨S1024x1, .f32⟩
  | 117 => ⟨S1024x1x1, .f32⟩
  | 118 => ⟨S1024x64x1, .f32⟩
  | 119 => ⟨S1024x64x1, .f32⟩
  | 120 => ⟨S1024x64x128, .f32⟩
  | 121 => ⟨S1024x64x128, .f32⟩
  | 122 => ⟨S_, .f32⟩
  | 123 => ⟨S1024x128, .f32⟩
  | 124 => ⟨S128x1, .f32⟩
  | 125 => ⟨S1024x1, .f32⟩
  | 126 => ⟨S1x1, .f32⟩
  | 127 => ⟨S1024x1, .f32⟩
  | _ => ⟨S1024x2, .i32⟩

abbrev hbmTy0_3 (i : Nat) : BufTy := match i % 128 with
  | 0 => ⟨S1024x1, .f32⟩
  | 1 => ⟨S1x1, .f32⟩
  | 2 => ⟨S1024x1, .f32⟩
  | 3 => ⟨S1024x1, .f32⟩
  | 4 => ⟨S1024x1, .f32⟩
  | 5 => ⟨S1024x1, .f32⟩
  | 6 => ⟨S_, .f32⟩
  | 7 => ⟨S1024x1, .f32⟩
  | 8 => ⟨S1024x1, .f32⟩
  | 9 => ⟨S_, .f32⟩
  | 10 => ⟨S1024x1, .f32⟩
  | 11 => ⟨S1024x1, .f32⟩
  | 12 => ⟨S1024x128, .f32⟩
  | 13 => ⟨S1024x128, .f32⟩
  | 14 => ⟨S_, .f32⟩
  | 15 => ⟨S1024x1, .f32⟩
  | 16 => ⟨S1024x1, .f32⟩
  | 17 => ⟨S_, .i32⟩
  | 18 => ⟨S1024, .i32⟩
  | 19 => ⟨S1024, .i1⟩
  | 20 => ⟨S_, .i32⟩
  | 21 => ⟨S1024, .i32⟩
  | 22 => ⟨S1024, .i32⟩
  | 23 => ⟨S1024, .i32⟩
  | 24 => ⟨S1024x1, .i32⟩
  | 25 => ⟨S1024x128, .f32⟩
  | 26 => ⟨S1024x128, .f32⟩
  | 27 => ⟨S1024x128, .f32⟩
  | 28 => ⟨S1024x128, .f32⟩
  | 29 => ⟨S1024x128, .f32⟩
  | 30 => ⟨S_, .f32⟩
  | 31 => ⟨S1024x128, .f32⟩
  | 32 => ⟨S1024x128, .f32⟩
  | 33 => ⟨S1024x1, .i32⟩
  | 34 => ⟨S1024, .i32⟩
  | 35 => ⟨S1024x64x1, .i32⟩
  | 36 => ⟨S1024x64, .i32⟩
  | 37 => ⟨S_, .i32⟩
  | 38 => ⟨S1024x64, .i32⟩
  | 39 => ⟨S1024x64, .i1⟩
  | 40 => ⟨S_, .i32⟩
  | 41 => ⟨S1024x64, .i32⟩
  | 42 => ⟨S1024x64, .i32⟩
  | 43 => ⟨S1024x64, .i32⟩
  | 44 => ⟨S1024x64x1, .i32⟩
  | 45 => ⟨S1024x64x128, .f32⟩
  | 46 => ⟨S1024x64x1, .i32⟩
  | 47 => ⟨S1024x64, .i32⟩
  | 48 => ⟨S_, .i32⟩
  | 49 => ⟨S1024x64, .i32⟩
  | 50 => ⟨S1024x64, .i1⟩
  | 51 => ⟨S_, .i32⟩
  | 52 => ⟨S1024x64, .i32⟩
  | 53 => ⟨S1024x64, .i32⟩
  | 54 => ⟨S1024x64, .i32⟩
  | 55 => ⟨S1024x64x1, .i32⟩
  | 56 => ⟨S1024x64x128, .f32⟩
  | 57 => ⟨S1024x64x256, .f32⟩
  | 58 => ⟨S1024x64x128, .f32⟩
  | 59 => ⟨S1x1x128, .f32⟩
  | 60 => ⟨S1024x64x128, .f32⟩
  | 61 => ⟨S1024x64x128, .f32⟩
  | 62 => ⟨S1x1x128, .f32⟩
  | 63 => ⟨S1024x64x128, .f32⟩
  | 64 => ⟨S1024x64x128, .f32⟩
  | 65 => ⟨S_, .f32⟩
  | 66 => ⟨S1024x64x128, .f32⟩
  | 67 => ⟨S1024x64x128, .i1⟩
  | 68 => ⟨S_, .f32⟩
  | 69 => ⟨S1024x64x128, .f32⟩
  | 70 => ⟨S1024x64x128, .f32⟩
  | 71 => ⟨S1024x64x128, .f32⟩
  | 72 => ⟨S1024x64x1, .f32⟩
  | 73 => ⟨S1x1x1, .f32⟩
  | 74 => ⟨S1024x64x1, .f32⟩
  | 75 => ⟨S1024x64x1, .f32⟩
  | 76 => ⟨S_, .f32⟩
  | 77 => ⟨S1024x1, .f32⟩
  | 78 => ⟨S_, .f32⟩
  | 79 => ⟨S1024x1, .f32⟩
  | 80 => ⟨S1024x1, .f32⟩
  | 81 => ⟨S1024x1x1, .f32⟩
  | 82 => ⟨S1024x64x1, .f32⟩
  | 83 => ⟨S1024x64x1, .f32⟩
  | 84 => ⟨S1024x64x1, .f32⟩
  | 85 => ⟨S_, .f32⟩
  | 86 => ⟨S1024x1, .f32⟩
  | 87 => ⟨S1024x1x1, .f32⟩
  | 88 => ⟨S1024x64x1, .f32⟩
  | 89 => ⟨S1024x64x1, .f32⟩
  | 90 => ⟨S1024x64x128, .f32⟩
  | 91 => ⟨S1024x64x128, .f32⟩
  | 92 => ⟨S_, .f32⟩
  | 93 => ⟨S1024x128, .f32⟩
  | 94 => ⟨S128x1, .f32⟩
  | 95 => ⟨S1024x1, .f32⟩
  | 96 => ⟨S1x1, .f32⟩
  | 97 => ⟨S1024x1, .f32⟩
  | 98 => ⟨S1024x1, .f32⟩
  | 99 => ⟨S1x1, .f32⟩
  | 100 => ⟨S1024x1, .f32⟩
  | 101 => ⟨S1024x1, .f32⟩
  | 102 => ⟨S1024x1, .f32⟩
  | 103 => ⟨S1024x1, .f32⟩
  | 104 => ⟨S_, .f32⟩
  | 105 => ⟨S1024x1, .f32⟩
  | 106 => ⟨S1024x1, .f32⟩
  | 107 => ⟨S_, .f32⟩
  | 108 => ⟨S1024x1, .f32⟩
  | 109 => ⟨S1024x1, .f32⟩
  | 110 => ⟨S1024x128, .f32⟩
  | 111 => ⟨S1024x128, .f32⟩
  | 112 => ⟨S_, .f32⟩
  | 113 => ⟨S1024x1, .f32⟩
  | 114 => ⟨S1024x1, .f32⟩
  | 115 => ⟨S_, .i32⟩
  | 116 => ⟨S1024, .i32⟩
  | 117 => ⟨S1024, .i1⟩
  | 118 => ⟨S_, .i32⟩
  | 119 => ⟨S1024, .i32⟩
  | 120 => ⟨S1024, .i32⟩
  | 121 => ⟨S1024, .i32⟩
  | 122 => ⟨S1024x1, .i32⟩
  | 123 => ⟨S1024x128, .f32⟩
  | 124 => ⟨S1024x128, .f32⟩
  | 125 => ⟨S1024x128, .f32⟩
  | 126 => ⟨S1024x128, .f32⟩
  | 127 => ⟨S1024x1, .i32⟩
  | _ => ⟨S1024x2, .i32⟩

abbrev hbmTy0_4 (i : Nat) : BufTy := match i % 128 with
  | 0 => ⟨S1024, .i32⟩
  | 1 => ⟨S1024x64x1, .i32⟩
  | 2 => ⟨S1024x64, .i32⟩
  | 3 => ⟨S_, .i32⟩
  | 4 => ⟨S1024x64, .i32⟩
  | 5 => ⟨S1024x64, .i1⟩
  | 6 => ⟨S_, .i32⟩
  | 7 => ⟨S1024x64, .i32⟩
  | 8 => ⟨S1024x64, .i32⟩
  | 9 => ⟨S1024x64, .i32⟩
  | 10 => ⟨S1024x64x1, .i32⟩
  | 11 => ⟨S1024x64x128, .f32⟩
  | 12 => ⟨S1024x64x1, .i32⟩
  | 13 => ⟨S1024x64, .i32⟩
  | 14 => ⟨S_, .i32⟩
  | 15 => ⟨S1024x64, .i32⟩
  | 16 => ⟨S1024x64, .i1⟩
  | 17 => ⟨S_, .i32⟩
  | 18 => ⟨S1024x64, .i32⟩
  | 19 => ⟨S1024x64, .i32⟩
  | 20 => ⟨S1024x64, .i32⟩
  | 21 => ⟨S1024x64x1, .i32⟩
  | 22 => ⟨S1024x64x128, .f32⟩
  | 23 => ⟨S1024x64x256, .f32⟩
  | 24 => ⟨S1024x64x128, .f32⟩
  | 25 => ⟨S1x1x128, .f32⟩
  | 26 => ⟨S1024x64x128, .f32⟩
  | 27 => ⟨S1024x64x128, .f32⟩
  | 28 => ⟨S1x1x128, .f32⟩
  | 29 => ⟨S1024x64x128, .f32⟩
  | 30 => ⟨S1024x64x128, .f32⟩
  | 31 => ⟨S_, .f32⟩
  | 32 => ⟨S1024x64x128, .f32⟩
  | 33 => ⟨S1024x64x128, .i1⟩
  | 34 => ⟨S_, .f32⟩
  | 35 => ⟨S1024x64x128, .f32⟩
  | 36 => ⟨S1024x64x128, .f32⟩
  | 37 => ⟨S1024x64x128, .f32⟩
  | 38 => ⟨S1024x64x1, .f32⟩
  | 39 => ⟨S1x1x1, .f32⟩
  | 40 => ⟨S1024x64x1, .f32⟩
  | 41 => ⟨S1024x64x1, .f32⟩
  | 42 => ⟨S_, .f32⟩
  | 43 => ⟨S1024x1, .f32⟩
  | 44 => ⟨S_, .f32⟩
  | 45 => ⟨S1024x1, .f32⟩
  | 46 => ⟨S1024x1, .f32⟩
  | 47 => ⟨S1024x1x1, .f32⟩
  | 48 => ⟨S1024x64x1, .f32⟩
  | 49 => ⟨S1024x64x1, .f32⟩
  | 50 => ⟨S1024x64x1, .f32⟩
  | 51 => ⟨S_, .f32⟩
  | 52 => ⟨S1024x1, .f32⟩
  | 53 => ⟨S1024x1x1, .f32⟩
  | 54 => ⟨S1024x64x1, .f32⟩
  | 55 => ⟨S1024x64x1, .f32⟩
  | 56 => ⟨S1024x64x128, .f32⟩
  | 57 => ⟨S1024x64x128, .f32⟩
  | 58 => ⟨S_, .f32⟩
  | 59 => ⟨S1024x128, .f32⟩
  | 60 => ⟨S128x1, .f32⟩
  | 61 => ⟨S1024x1, .f32⟩
  | 62 => ⟨S1x1, .f32⟩
  | 63 => ⟨S1024x1, .f32⟩
  | 64 => ⟨S1024x1, .f32⟩
  | 65 => ⟨S1x1, .f32⟩
  | 66 => ⟨S1024x1, .f32⟩
  | 67 => ⟨S1024x1, .f32⟩
  | 68 => ⟨S1024x1, .f32⟩
  | 69 => ⟨S1024x1, .f32⟩
  | 70 => ⟨S_, .f32⟩
  | 71 => ⟨S1024x1, .f32⟩
  | 72 => ⟨S1024x1, .f32⟩
  | 73 => ⟨S_, .f32⟩
  | 74 => ⟨S1024x1, .f32⟩
  | 75 => ⟨S1024x1, .f32⟩
  | 76 => ⟨S1024x128, .f32⟩
  | 77 => ⟨S1024x128, .f32⟩
  | 78 => ⟨S_, .f32⟩
  | 79 => ⟨S1024x1, .f32⟩
  | 80 => ⟨S1024x1, .f32⟩
  | 81 => ⟨S_, .i32⟩
  | 82 => ⟨S1024, .i32⟩
  | 83 => ⟨S1024, .i1⟩
  | 84 => ⟨S_, .i32⟩
  | 85 => ⟨S1024, .i32⟩
  | 86 => ⟨S1024, .i32⟩
  | 87 => ⟨S1024, .i32⟩
  | 88 => ⟨S1024x1, .i32⟩
  | 89 => ⟨S1024x128, .f32⟩
  | 90 => ⟨S1024x128, .f32⟩
  | 91 => ⟨S1024x128, .f32⟩
  | 92 => ⟨S1024x128, .f32⟩
  | 93 => ⟨S1024x128, .f32⟩
  | 94 => ⟨S_, .f32⟩
  | 95 => ⟨S1024x128, .f32⟩
  | 96 => ⟨S1024x128, .f32⟩
  | 97 => ⟨S1024x1, .i32⟩
  | 98 => ⟨S1024, .i32⟩
  | 99 => ⟨S1024x64x1, .i32⟩
  | 100 => ⟨S1024x64, .i32⟩
  | 101 => ⟨S_, .i32⟩
  | 102 => ⟨S1024x64, .i32⟩
  | 103 => ⟨S1024x64, .i1⟩
  | 104 => ⟨S_, .i32⟩
  | 105 => ⟨S1024x64, .i32⟩
  | 106 => ⟨S1024x64, .i32⟩
  | 107 => ⟨S1024x64, .i32⟩
  | 108 => ⟨S1024x64x1, .i32⟩
  | 109 => ⟨S1024x64x128, .f32⟩
  | 110 => ⟨S1024x64x1, .i32⟩
  | 111 => ⟨S1024x64, .i32⟩
  | 112 => ⟨S_, .i32⟩
  | 113 => ⟨S1024x64, .i32⟩
  | 114 => ⟨S1024x64, .i1⟩
  | 115 => ⟨S_, .i32⟩
  | 116 => ⟨S1024x64, .i32⟩
  | 117 => ⟨S1024x64, .i32⟩
  | 118 => ⟨S1024x64, .i32⟩
  | 119 => ⟨S1024x64x1, .i32⟩
  | 120 => ⟨S1024x64x128, .f32⟩
  | 121 => ⟨S1024x64x256, .f32⟩
  | 122 => ⟨S1024x64x128, .f32⟩
  | 123 => ⟨S1x1x128, .f32⟩
  | 124 => ⟨S1024x64x128, .f32⟩
  | 125 => ⟨S1024x64x128, .f32⟩
  | 126 => ⟨S1x1x128, .f32⟩
  | 127 => ⟨S1024x64x128, .f32⟩
  | _ => ⟨S1024x2, .i32⟩

abbrev hbmTy0_5 (i : Nat) : BufTy := match i % 128 with
  | 0 => ⟨S1024x64x128, .f32⟩
  | 1 => ⟨S_, .f32⟩
  | 2 => ⟨S1024x64x128, .f32⟩
  | 3 => ⟨S1024x64x128, .i1⟩
  | 4 => ⟨S_, .f32⟩
  | 5 => ⟨S1024x64x128, .f32⟩
  | 6 => ⟨S1024x64x128, .f32⟩
  | 7 => ⟨S1024x64x128, .f32⟩
  | 8 => ⟨S1024x64x1, .f32⟩
  | 9 => ⟨S1x1x1, .f32⟩
  | 10 => ⟨S1024x64x1, .f32⟩
  | 11 => ⟨S1024x64x1, .f32⟩
  | 12 => ⟨S_, .f32⟩
  | 13 => ⟨S1024x1, .f32⟩
  | 14 => ⟨S_, .f32⟩
  | 15 => ⟨S1024x1, .f32⟩
  | 16 => ⟨S1024x1, .f32⟩
  | 17 => ⟨S1024x1x1, .f32⟩
  | 18 => ⟨S1024x64x1, .f32⟩
  | 19 => ⟨S1024x64x1, .f32⟩
  | 20 => ⟨S1024x64x1, .f32⟩
  | 21 => ⟨S_, .f32⟩
  | 22 => ⟨S1024x1, .f32⟩
  | 23 => ⟨S1024x1x1, .f32⟩
  | 24 => ⟨S1024x64x1, .f32⟩
  | 25 => ⟨S1024x64x1, .f32⟩
  | 26 => ⟨S1024x64x128, .f32⟩
  | 27 => ⟨S1024x64x128, .f32⟩
  | 28 => ⟨S_, .f32⟩
  | 29 => ⟨S1024x128, .f32⟩
  | 30 => ⟨S128x1, .f32⟩
  | 31 => ⟨S1024x1, .f32⟩
  | 32 => ⟨S1x1, .f32⟩
  | 33 => ⟨S1024x1, .f32⟩
  | 34 => ⟨S1024x1, .f32⟩
  | 35 => ⟨S1x1, .f32⟩
  | 36 => ⟨S1024x1, .f32⟩
  | 37 => ⟨S1024x1, .f32⟩
  | 38 => ⟨S1024x1, .f32⟩
  | 39 => ⟨S1024x1, .f32⟩
  | 40 => ⟨S_, .f32⟩
  | 41 => ⟨S1024x1, .f32⟩
  | 42 => ⟨S1024x1, .f32⟩
  | 43 => ⟨S_, .f32⟩
  | 44 => ⟨S1024x1, .f32⟩
  | 45 => ⟨S1024x1, .f32⟩
  | 46 => ⟨S1024x128, .f32⟩
  | 47 => ⟨S1024x128, .f32⟩
  | 48 => ⟨S_, .f32⟩
  | 49 => ⟨S1024x1, .f32⟩
  | 50 => ⟨S1024x1, .f32⟩
  | 51 => ⟨S_, .i32⟩
  | 52 => ⟨S1024, .i32⟩
  | 53 => ⟨S1024, .i1⟩
  | 54 => ⟨S_, .i32⟩
  | 55 => ⟨S1024, .i32⟩
  | 56 => ⟨S1024, .i32⟩
  | 57 => ⟨S1024, .i32⟩
  | 58 => ⟨S1024x1, .i32⟩
  | 59 => ⟨S1024x128, .f32⟩
  | 60 => ⟨S1024x128, .f32⟩
  | 61 => ⟨S1024x128, .f32⟩
  | 62 => ⟨S1024x128, .f32⟩
  | 63 => ⟨S1024x1, .i32⟩
  | 64 => ⟨S1024, .i32⟩
  | 65 => ⟨S1024x64x1, .i32⟩
  | 66 => ⟨S1024x64, .i32⟩
  | 67 => ⟨S_, .i32⟩
  | 68 => ⟨S1024x64, .i32⟩
  | 69 => ⟨S1024x64, .i1⟩
  | 70 => ⟨S_, .i32⟩
  | 71 => ⟨S1024x64, .i32⟩
  | 72 => ⟨S1024x64, .i32⟩
  | 73 => ⟨S1024x64, .i32⟩
  | 74 => ⟨S1024x64x1, .i32⟩
  | 75 => ⟨S1024x64x128, .f32⟩
  | 76 => ⟨S1024x64x1, .i32⟩
  | 77 => ⟨S1024x64, .i32⟩
  | 78 => ⟨S_, .i32⟩
  | 79 => ⟨S1024x64, .i32⟩
  | 80 => ⟨S1024x64, .i1⟩
  | 81 => ⟨S_, .i32⟩
  | 82 => ⟨S1024x64, .i32⟩
  | 83 => ⟨S1024x64, .i32⟩
  | 84 => ⟨S1024x64, .i32⟩
  | 85 => ⟨S1024x64x1, .i32⟩
  | 86 => ⟨S1024x64x128, .f32⟩
  | 87 => ⟨S1024x64x256, .f32⟩
  | 88 => ⟨S1024x64x128, .f32⟩
  | 89 => ⟨S1x1x128, .f32⟩
  | 90 => ⟨S1024x64x128, .f32⟩
  | 91 => ⟨S1024x64x128, .f32⟩
  | 92 => ⟨S1x1x128, .f32⟩
  | 93 => ⟨S1024x64x128, .f32⟩
  | 94 => ⟨S1024x64x128, .f32⟩
  | 95 => ⟨S_, .f32⟩
  | 96 => ⟨S1024x64x128, .f32⟩
  | 97 => ⟨S1024x64x128, .i1⟩
  | 98 => ⟨S_, .f32⟩
  | 99 => ⟨S1024x64x128, .f32⟩
  | 100 => ⟨S1024x64x128, .f32⟩
  | 101 => ⟨S1024x64x128, .f32⟩
  | 102 => ⟨S1024x64x1, .f32⟩
  | 103 => ⟨S1x1x1, .f32⟩
  | 104 => ⟨S1024x64x1, .f32⟩
  | 105 => ⟨S1024x64x1, .f32⟩
  | 106 => ⟨S_, .f32⟩
  | 107 => ⟨S1024x1, .f32⟩
  | 108 => ⟨S_, .f32⟩
  | 109 => ⟨S1024x1, .f32⟩
  | 110 => ⟨S1024x1, .f32⟩
  | 111 => ⟨S1024x1x1, .f32⟩
  | 112 => ⟨S1024x64x1, .f32⟩
  | 113 => ⟨S1024x64x1, .f32⟩
  | 114 => ⟨S1024x64x1, .f32⟩
  | 115 => ⟨S_, .f32⟩
  | 116 => ⟨S1024x1, .f32⟩
  | 117 => ⟨S1024x1x1, .f32⟩
  | 118 => ⟨S1024x64x1, .f32⟩
  | 119 => ⟨S1024x64x1, .f32⟩
  | 120 => ⟨S1024x64x128, .f32⟩
  | 121 => ⟨S1024x64x128, .f32⟩
  | 122 => ⟨S_, .f32⟩
  | 123 => ⟨S1024x128, .f32⟩
  | 124 => ⟨S128x1, .f32⟩
  | 125 => ⟨S1024x1, .f32⟩
  | 126 => ⟨S1x1, .f32⟩
  | 127 => ⟨S1024x1, .f32⟩
  | _ => ⟨S1024x2, .i32⟩

abbrev hbmTy0_6 (i : Nat) : BufTy := match i % 128 with
  | 0 => ⟨S1024x1, .f32⟩
  | 1 => ⟨S1x1, .f32⟩
  | 2 => ⟨S1024x1, .f32⟩
  | 3 => ⟨S1024x1, .f32⟩
  | 4 => ⟨S1024x1, .f32⟩
  | 5 => ⟨S1024x1, .f32⟩
  | 6 => ⟨S_, .f32⟩
  | 7 => ⟨S1024x1, .f32⟩
  | 8 => ⟨S1024x1, .f32⟩
  | 9 => ⟨S_, .f32⟩
  | 10 => ⟨S1024x1, .f32⟩
  | 11 => ⟨S1024x1, .f32⟩
  | 12 => ⟨S1024x128, .f32⟩
  | 13 => ⟨S1024x128, .f32⟩
  | 14 => ⟨S_, .f32⟩
  | 15 => ⟨S1024x1, .f32⟩
  | 16 => ⟨S1024x1, .f32⟩
  | 17 => ⟨S_, .i32⟩
  | 18 => ⟨S1024, .i32⟩
  | 19 => ⟨S1024, .i1⟩
  | 20 => ⟨S_, .i32⟩
  | 21 => ⟨S1024, .i32⟩
  | 22 => ⟨S1024, .i32⟩
  | 23 => ⟨S1024, .i32⟩
  | 24 => ⟨S1024x1, .i32⟩
  | 25 => ⟨S1024x128, .f32⟩
  | 26 => ⟨S1024x128, .f32⟩
  | 27 => ⟨S1024x128, .f32⟩
  | 28 => ⟨S1024x128, .f32⟩
  | 29 => ⟨S1024x128, .f32⟩
  | 30 => ⟨S_, .f32⟩
  | 31 => ⟨S1024x128, .f32⟩
  | 32 => ⟨S1024x128, .f32⟩
  | 33 => ⟨S1024x256, .f32⟩
  | 34 => ⟨S1024x256, .f32⟩
  | 35 => ⟨S256x512, .f32⟩
  | 36 => ⟨S1024x512, .f32⟩
  | 37 => ⟨S1x512, .f32⟩
  | 38 => ⟨S1024x512, .f32⟩
  | 39 => ⟨S1024x512, .f32⟩
  | 40 => ⟨S_, .f32⟩
  | 41 => ⟨S1024x512, .f32⟩
  | 42 => ⟨S1024x512, .f32⟩
  | 43 => ⟨S512x256, .f32⟩
  | 44 => ⟨S1024x256, .f32⟩
  | 45 => ⟨S1x256, .f32⟩
  | 46 => ⟨S1024x256, .f32⟩
  | 47 => ⟨S1024x256, .f32⟩
  | 48 => ⟨S1024x256, .f32⟩
  | 49 => ⟨S_, .f32⟩
  | 50 => ⟨S1024, .f32⟩
  | 51 => ⟨S1024x1, .f32⟩
  | 52 => ⟨S_, .f32⟩
  | 53 => ⟨S1024x1, .f32⟩
  | 54 => ⟨S1024x1, .f32⟩
  | 55 => ⟨S_, .i32⟩
  | 56 => ⟨S_, .f32⟩
  | 57 => ⟨S1024, .f32⟩
  | 58 => ⟨S1024x1, .f32⟩
  | 59 => ⟨S_, .f32⟩
  | 60 => ⟨S1024x1, .f32⟩
  | 61 => ⟨S1024x1, .f32⟩
  | 62 => ⟨S1024x256, .f32⟩
  | 63 => ⟨S1024x256, .f32⟩
  | 64 => ⟨S1024x256, .f32⟩
  | 65 => ⟨S_, .f32⟩
  | 66 => ⟨S_, .f32⟩
  | 67 => ⟨S_, .f32⟩
  | 68 => ⟨S_, .f32⟩
  | 69 => ⟨S1024, .f32⟩
  | 70 => ⟨S1024x1, .f32⟩
  | 71 => ⟨S1024x1, .f32⟩
  | 72 => ⟨S1024x1, .f32⟩
  | 73 => ⟨S_, .f32⟩
  | 74 => ⟨S_, .i1⟩
  | 75 => ⟨S_, .f32⟩
  | 76 => ⟨S_, .f32⟩
  | 77 => ⟨S1024x1, .f32⟩
  | 78 => ⟨S1024x1, .f32⟩
  | 79 => ⟨S1024x256, .f32⟩
  | 80 => ⟨S1024x256, .f32⟩
  | 81 => ⟨S1x256, .f32⟩
  | 82 => ⟨S1024x256, .f32⟩
  | 83 => ⟨S1024x256, .f32⟩
  | 84 => ⟨S_, .f32⟩
  | 85 => ⟨S1024x1, .f32⟩
  | 86 => ⟨S1024x1, .f32⟩
  | 87 => ⟨S1024x1, .f32⟩
  | 88 => ⟨S1024x256, .f32⟩
  | 89 => ⟨S1024x256, .f32⟩
  | 90 => ⟨S1x256, .f32⟩
  | 91 => ⟨S1024x256, .f32⟩
  | 92 => ⟨S1024x256, .f32⟩
  | 93 => ⟨S_, .f32⟩
  | 94 => ⟨S1024x512, .f32⟩
  | 95 => ⟨S_, .f32⟩
  | 96 => ⟨S1024x512, .f32⟩
  | 97 => ⟨S256x2048, .f32⟩
  | 98 => ⟨S1024x2048, .f32⟩
  | 99 => ⟨S1x2048, .f32⟩
  | 100 => ⟨S1024x2048, .f32⟩
  | 101 => ⟨S1024x2048, .f32⟩
  | 102 => ⟨S512x2048, .f32⟩
  | 103 => ⟨S1024x2048, .f32⟩
  | 104 => ⟨S1024x2048, .f32⟩
  | 105 => ⟨S1x2048, .f32⟩
  | 106 => ⟨S1024x2048, .f32⟩
  | 107 => ⟨S1024x2048, .f32⟩
  | 108 => ⟨S1024x512, .f32⟩
  | 109 => ⟨S1024x512, .f32⟩
  | 110 => ⟨S1024x512, .f32⟩
  | 111 => ⟨S1024x512, .f32⟩
  | 112 => ⟨S1024x512, .f32⟩
  | 113 => ⟨S1024x512, .f32⟩
  | 114 => ⟨S_, .f32⟩
  | 115 => ⟨S1024x512, .f32⟩
  | 116 => ⟨S1024x512, .f32⟩
  | 117 => ⟨S_, .f32⟩
  | 118 => ⟨S1024x512, .f32⟩
  | 119 => ⟨S1024x512, .f32⟩
  | 120 => ⟨S1024x512, .f32⟩
  | 121 => ⟨S1024x512, .f32⟩
  | 122 => ⟨S1024x512, .f32⟩
  | 123 => ⟨S_, .f32⟩
  | 124 => ⟨S1024x512, .f32⟩
  | 125 => ⟨S1024x512, .f32⟩
  | 126 => ⟨S_, .f32⟩
  | 127 => ⟨S1024x512, .f32⟩
  | _ => ⟨S1024x2, .i32⟩

abbrev hbmTy0_7 (i : Nat) : BufTy := match i % 128 with
  | 0 => ⟨S1024x512, .f32⟩
  | 1 => ⟨S1024x512, .f32⟩
  | 2 => ⟨S1024x512, .f32⟩
  | 3 => ⟨S1024x512, .f32⟩
  | 4 => ⟨S1024x512, .f32⟩
  | 5 => ⟨S1024x512, .f32⟩
  | 6 => ⟨S_, .f32⟩
  | 7 => ⟨S1024x512, .f32⟩
  | 8 => ⟨S1024x512, .f32⟩
  | 9 => ⟨S_, .f32⟩
  | 10 => ⟨S1024x512, .f32⟩
  | 11 => ⟨S1024x512, .f32⟩
  | 12 => ⟨S1024x512, .f32⟩
  | 13 => ⟨S1024x512, .f32⟩
  | 14 => ⟨S1024x256, .f32⟩
  | 15 => ⟨S1024x256, .f32⟩
  | 16 => ⟨S1024x512, .f32⟩
  | 17 => ⟨S256x2048, .f32⟩
  | 18 => ⟨S1024x2048, .f32⟩
  | 19 => ⟨S1x2048, .f32⟩
  | 20 => ⟨S1024x2048, .f32⟩
  | 21 => ⟨S1024x2048, .f32⟩
  | 22 => ⟨S512x2048, .f32⟩
  | 23 => ⟨S1024x2048, .f32⟩
  | 24 => ⟨S1024x2048, .f32⟩
  | 25 => ⟨S1x2048, .f32⟩
  | 26 => ⟨S1024x2048, .f32⟩
  | 27 => ⟨S1024x2048, .f32⟩
  | 28 => ⟨S1024x512, .f32⟩
  | 29 => ⟨S1024x512, .f32⟩
  | 30 => ⟨S1024x512, .f32⟩
  | 31 => ⟨S1024x512, .f32⟩
  | 32 => ⟨S1024x512, .f32⟩
  | 33 => ⟨S1024x512, .f32⟩
  | 34 => ⟨S_, .f32⟩
  | 35 => ⟨S1024x512, .f32⟩
  | 36 => ⟨S1024x512, .f32⟩
  | 37 => ⟨S_, .f32⟩
  | 38 => ⟨S1024x512, .f32⟩
  | 39 => ⟨S1024x512, .f32⟩
  | 40 => ⟨S1024x512, .f32⟩
  | 41 => ⟨S1024x512, .f32⟩
  | 42 => ⟨S1024x512, .f32⟩
  | 43 => ⟨S_, .f32⟩
  | 44 => ⟨S1024x512, .f32⟩
  | 45 => ⟨S1024x512, .f32⟩
  | 46 => ⟨S_, .f32⟩
  | 47 => ⟨S1024x512, .f32⟩
  | 48 => ⟨S1024x512, .f32⟩
  | 49 => ⟨S1024x512, .f32⟩
  | 50 => ⟨S1024x512, .f32⟩
  | 51 => ⟨S1024x512, .f32⟩
  | 52 => ⟨S1024x512, .f32⟩
  | 53 => ⟨S1024x512, .f32⟩
  | 54 => ⟨S_, .f32⟩
  | 55 => ⟨S1024x512, .f32⟩
  | 56 => ⟨S1024x512, .f32⟩
  | 57 => ⟨S_, .f32⟩
  | 58 => ⟨S1024x512, .f32⟩
  | 59 => ⟨S1024x512, .f32⟩
  | 60 => ⟨S1024x512, .f32⟩
  | 61 => ⟨S1024x512, .f32⟩
  | 62 => ⟨S1024x256, .f32⟩
  | 63 => ⟨S1024x256, .f32⟩
  | 64 => ⟨S1024x512, .f32⟩
  | 65 => ⟨S256x2048, .f32⟩
  | 66 => ⟨S1024x2048, .f32⟩
  | 67 => ⟨S1x2048, .f32⟩
  | 68 => ⟨S1024x2048, .f32⟩
  | 69 => ⟨S1024x2048, .f32⟩
  | 70 => ⟨S512x2048, .f32⟩
  | 71 => ⟨S1024x2048, .f32⟩
  | 72 => ⟨S1024x2048, .f32⟩
  | 73 => ⟨S1x2048, .f32⟩
  | 74 => ⟨S1024x2048, .f32⟩
  | 75 => ⟨S1024x2048, .f32⟩
  | 76 => ⟨S1024x512, .f32⟩
  | 77 => ⟨S1024x512, .f32⟩
  | 78 => ⟨S1024x512, .f32⟩
  | 79 => ⟨S1024x512, .f32⟩
  | 80 => ⟨S1024x512, .f32⟩
  | 81 => ⟨S1024x512, .f32⟩
  | 82 => ⟨S_, .f32⟩
  | 83 => ⟨S1024x512, .f32⟩
  | 84 => ⟨S1024x512, .f32⟩
  | 85 => ⟨S_, .f32⟩
  | 86 => ⟨S1024x512, .f32⟩
  | 87 => ⟨S1024x512, .f32⟩
  | 88 => ⟨S1024x512, .f32⟩
  | 89 => ⟨S1024x512, .f32⟩
  | 90 => ⟨S1024x512, .f32⟩
  | 91 => ⟨S_, .f32⟩
  | 92 => ⟨S1024x512, .f32⟩
  | 93 => ⟨S1024x512, .f32⟩
  | 94 => ⟨S_, .f32⟩
  | 95 => ⟨S1024x512, .f32⟩
  | 96 => ⟨S1024x512, .f32⟩
  | 97 => ⟨S1024x512, .f32⟩
  | 98 => ⟨S1024x512, .f32⟩
  | 99 => ⟨S1024x512, .f32⟩
  | 100 => ⟨S1024x512, .f32⟩
  | 101 => ⟨S1024x512, .f32⟩
  | 102 => ⟨S_, .f32⟩
  | 103 => ⟨S1024x512, .f32⟩
  | 104 => ⟨S1024x512, .f32⟩
  | 105 => ⟨S_, .f32⟩
  | 106 => ⟨S1024x512, .f32⟩
  | 107 => ⟨S1024x512, .f32⟩
  | 108 => ⟨S1024x512, .f32⟩
  | 109 => ⟨S1024x512, .f32⟩
  | 110 => ⟨S1024x256, .f32⟩
  | 111 => ⟨S1024x256, .f32⟩
  | 112 => ⟨S1024x512, .f32⟩
  | 113 => ⟨S256x2048, .f32⟩
  | 114 => ⟨S1024x2048, .f32⟩
  | 115 => ⟨S1x2048, .f32⟩
  | 116 => ⟨S1024x2048, .f32⟩
  | 117 => ⟨S1024x2048, .f32⟩
  | 118 => ⟨S512x2048, .f32⟩
  | 119 => ⟨S1024x2048, .f32⟩
  | 120 => ⟨S1024x2048, .f32⟩
  | 121 => ⟨S1x2048, .f32⟩
  | 122 => ⟨S1024x2048, .f32⟩
  | 123 => ⟨S1024x2048, .f32⟩
  | 124 => ⟨S1024x512, .f32⟩
  | 125 => ⟨S1024x512, .f32⟩
  | 126 => ⟨S1024x512, .f32⟩
  | 127 => ⟨S1024x512, .f32⟩
  | _ => ⟨S1024x2, .i32⟩

abbrev hbmTy0_8 (i : Nat) : BufTy := match i % 128 with
  | 0 => ⟨S1024x512, .f32⟩
  | 1 => ⟨S1024x512, .f32⟩
  | 2 => ⟨S_, .f32⟩
  | 3 => ⟨S1024x512, .f32⟩
  | 4 => ⟨S1024x512, .f32⟩
  | 5 => ⟨S_, .f32⟩
  | 6 => ⟨S1024x512, .f32⟩
  | 7 => ⟨S1024x512, .f32⟩
  | 8 => ⟨S1024x512, .f32⟩
  | 9 => ⟨S1024x512, .f32⟩
  | 10 => ⟨S1024x512, .f32⟩
  | 11 => ⟨S_, .f32⟩
  | 12 => ⟨S1024x512, .f32⟩
  | 13 => ⟨S1024x512, .f32⟩
  | 14 => ⟨S_, .f32⟩
  | 15 => ⟨S1024x512, .f32⟩
  | 16 => ⟨S1024x512, .f32⟩
  | 17 => ⟨S1024x512, .f32⟩
  | 18 => ⟨S1024x512, .f32⟩
  | 19 => ⟨S1024x512, .f32⟩
  | 20 => ⟨S1024x512, .f32⟩
  | 21 => ⟨S1024x512, .f32⟩
  | 22 => ⟨S_, .f32⟩
  | 23 => ⟨S1024x512, .f32⟩
  | 24 => ⟨S1024x512, .f32⟩
  | 25 => ⟨S_, .f32⟩
  | 26 => ⟨S1024x512, .f32⟩
  | 27 => ⟨S1024x512, .f32⟩
  | 28 => ⟨S1024x512, .f32⟩
  | 29 => ⟨S1024x512, .f32⟩
  | 30 => ⟨S1024x256, .f32⟩
  | 31 => ⟨S1024x256, .f32⟩
  | 32 => ⟨S1024x512, .f32⟩
  | 33 => ⟨S1024x256, .f32⟩
  | 34 => ⟨S_, .f32⟩
  | 35 => ⟨S1024, .f32⟩
  | _ => ⟨S1024x2, .i32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | _ => ⟨S1024x2, .i32⟩

abbrev bufTy : (tb : Table) → Fin (tcTables nBuf tb) → BufTy
  | .hbm, ⟨i, _⟩ => hbmTy i
  | _, _ => ⟨S1024x2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_v0 : Ref sig .tc := ⟨.hbm, 33, rfl⟩
abbrev main_v1 : Ref sig .tc := ⟨.hbm, 34, rfl⟩
abbrev main_v2 : Ref sig .tc := ⟨.hbm, 35, rfl⟩
abbrev main_v3 : Ref sig .tc := ⟨.hbm, 36, rfl⟩
abbrev main_c : Ref sig .tc := ⟨.hbm, 37, rfl⟩
abbrev main_v4 : Ref sig .tc := ⟨.hbm, 38, rfl⟩
abbrev main_v5 : Ref sig .tc := ⟨.hbm, 39, rfl⟩
abbrev main_c_0 : Ref sig .tc := ⟨.hbm, 40, rfl⟩
abbrev main_v6 : Ref sig .tc := ⟨.hbm, 41, rfl⟩
abbrev main_v7 : Ref sig .tc := ⟨.hbm, 42, rfl⟩
abbrev main_v8 : Ref sig .tc := ⟨.hbm, 43, rfl⟩
abbrev main_v9 : Ref sig .tc := ⟨.hbm, 44, rfl⟩
abbrev main_v10 : Ref sig .tc := ⟨.hbm, 45, rfl⟩
abbrev main_v11 : Ref sig .tc := ⟨.hbm, 46, rfl⟩
abbrev main_v12 : Ref sig .tc := ⟨.hbm, 47, rfl⟩
abbrev main_c_1 : Ref sig .tc := ⟨.hbm, 48, rfl⟩
abbrev main_v13 : Ref sig .tc := ⟨.hbm, 49, rfl⟩
abbrev main_v14 : Ref sig .tc := ⟨.hbm, 50, rfl⟩
abbrev main_c_2 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_call0_cst : Ref sig .tc := ⟨.hbm, 65, rfl⟩
abbrev main_call0_v0 : Ref sig .tc := ⟨.hbm, 66, rfl⟩
abbrev main_call0_v1 : Ref sig .tc := ⟨.hbm, 67, rfl⟩
abbrev main_call0_cst_0 : Ref sig .tc := ⟨.hbm, 68, rfl⟩
abbrev main_call0_v2 : Ref sig .tc := ⟨.hbm, 69, rfl⟩
abbrev main_call0_v3 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_cst : Ref sig .tc := ⟨.hbm, 76, rfl⟩
abbrev main_v33 : Ref sig .tc := ⟨.hbm, 77, rfl⟩
abbrev main_cst_3 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_cst_4 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_cst_5 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_cst_6 : Ref sig .tc := ⟨.hbm, 104, rfl⟩
abbrev main_v57 : Ref sig .tc := ⟨.hbm, 105, rfl⟩
abbrev main_v58 : Ref sig .tc := ⟨.hbm, 106, rfl⟩
abbrev main_cst_7 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_cst_8 : Ref sig .tc := ⟨.hbm, 112, rfl⟩
abbrev main_v63 : Ref sig .tc := ⟨.hbm, 113, rfl⟩
abbrev main_v64 : Ref sig .tc := ⟨.hbm, 114, rfl⟩
abbrev main_c_9 : Ref sig .tc := ⟨.hbm, 115, rfl⟩
abbrev main_v65 : Ref sig .tc := ⟨.hbm, 116, rfl⟩
abbrev main_v66 : Ref sig .tc := ⟨.hbm, 117, rfl⟩
abbrev main_c_10 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_v78 : Ref sig .tc := ⟨.hbm, 130, rfl⟩
abbrev main_c_11 : Ref sig .tc := ⟨.hbm, 131, rfl⟩
abbrev main_v79 : Ref sig .tc := ⟨.hbm, 132, rfl⟩
abbrev main_v80 : Ref sig .tc := ⟨.hbm, 133, rfl⟩
abbrev main_c_12 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_c_13 : Ref sig .tc := ⟨.hbm, 142, rfl⟩
abbrev main_v88 : Ref sig .tc := ⟨.hbm, 143, rfl⟩
abbrev main_v89 : Ref sig .tc := ⟨.hbm, 144, rfl⟩
abbrev main_c_14 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_v96 : Ref sig .tc := ⟨.hbm, 152, rfl⟩
abbrev main_v97 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_call1_cst : Ref sig .tc := ⟨.hbm, 159, rfl⟩
abbrev main_call1_v0 : Ref sig .tc := ⟨.hbm, 160, rfl⟩
abbrev main_call1_v1 : Ref sig .tc := ⟨.hbm, 161, rfl⟩
abbrev main_call1_cst_0 : Ref sig .tc := ⟨.hbm, 162, rfl⟩
abbrev main_call1_v2 : Ref sig .tc := ⟨.hbm, 163, rfl⟩
abbrev main_call1_v3 : Ref sig .tc := ⟨.hbm, 164, rfl⟩
abbrev main_v103 : Ref sig .tc := ⟨.hbm, 165, rfl⟩
abbrev main_v104 : Ref sig .tc := ⟨.hbm, 166, rfl⟩
abbrev main_v105 : Ref sig .tc := ⟨.hbm, 167, rfl⟩
abbrev main_v106 : Ref sig .tc := ⟨.hbm, 168, rfl⟩
abbrev main_v107 : Ref sig .tc := ⟨.hbm, 169, rfl⟩
abbrev main_cst_15 : Ref sig .tc := ⟨.hbm, 170, rfl⟩
abbrev main_v108 : Ref sig .tc := ⟨.hbm, 171, rfl⟩
abbrev main_cst_16 : Ref sig .tc := ⟨.hbm, 172, rfl⟩
abbrev main_v109 : Ref sig .tc := ⟨.hbm, 173, rfl⟩
abbrev main_v110 : Ref sig .tc := ⟨.hbm, 174, rfl⟩
abbrev main_v111 : Ref sig .tc := ⟨.hbm, 175, rfl⟩
abbrev main_v112 : Ref sig .tc := ⟨.hbm, 176, rfl⟩
abbrev main_v113 : Ref sig .tc := ⟨.hbm, 177, rfl⟩
abbrev main_v114 : Ref sig .tc := ⟨.hbm, 178, rfl⟩
abbrev main_cst_17 : Ref sig .tc := ⟨.hbm, 179, rfl⟩
abbrev main_v115 : Ref sig .tc := ⟨.hbm, 180, rfl⟩
abbrev main_v116 : Ref sig .tc := ⟨.hbm, 181, rfl⟩
abbrev main_v117 : Ref sig .tc := ⟨.hbm, 182, rfl⟩
abbrev main_v118 : Ref sig .tc := ⟨.hbm, 183, rfl⟩
abbrev main_v119 : Ref sig .tc := ⟨.hbm, 184, rfl⟩
abbrev main_v120 : Ref sig .tc := ⟨.hbm, 185, rfl⟩
abbrev main_cst_18 : Ref sig .tc := ⟨.hbm, 186, rfl⟩
abbrev main_v121 : Ref sig .tc := ⟨.hbm, 187, rfl⟩
abbrev main_v122 : Ref sig .tc := ⟨.hbm, 188, rfl⟩
abbrev main_v123 : Ref sig .tc := ⟨.hbm, 189, rfl⟩
abbrev main_v124 : Ref sig .tc := ⟨.hbm, 190, rfl⟩
abbrev main_v125 : Ref sig .tc := ⟨.hbm, 191, rfl⟩
abbrev main_v126 : Ref sig .tc := ⟨.hbm, 192, rfl⟩
abbrev main_v127 : Ref sig .tc := ⟨.hbm, 193, rfl⟩
abbrev main_v128 : Ref sig .tc := ⟨.hbm, 194, rfl⟩
abbrev main_v129 : Ref sig .tc := ⟨.hbm, 195, rfl⟩
abbrev main_v130 : Ref sig .tc := ⟨.hbm, 196, rfl⟩
abbrev main_v131 : Ref sig .tc := ⟨.hbm, 197, rfl⟩
abbrev main_cst_19 : Ref sig .tc := ⟨.hbm, 198, rfl⟩
abbrev main_v132 : Ref sig .tc := ⟨.hbm, 199, rfl⟩
abbrev main_v133 : Ref sig .tc := ⟨.hbm, 200, rfl⟩
abbrev main_cst_20 : Ref sig .tc := ⟨.hbm, 201, rfl⟩
abbrev main_v134 : Ref sig .tc := ⟨.hbm, 202, rfl⟩
abbrev main_v135 : Ref sig .tc := ⟨.hbm, 203, rfl⟩
abbrev main_v136 : Ref sig .tc := ⟨.hbm, 204, rfl⟩
abbrev main_v137 : Ref sig .tc := ⟨.hbm, 205, rfl⟩
abbrev main_cst_21 : Ref sig .tc := ⟨.hbm, 206, rfl⟩
abbrev main_v138 : Ref sig .tc := ⟨.hbm, 207, rfl⟩
abbrev main_v139 : Ref sig .tc := ⟨.hbm, 208, rfl⟩
abbrev main_c_22 : Ref sig .tc := ⟨.hbm, 209, rfl⟩
abbrev main_v140 : Ref sig .tc := ⟨.hbm, 210, rfl⟩
abbrev main_v141 : Ref sig .tc := ⟨.hbm, 211, rfl⟩
abbrev main_c_23 : Ref sig .tc := ⟨.hbm, 212, rfl⟩
abbrev main_v142 : Ref sig .tc := ⟨.hbm, 213, rfl⟩
abbrev main_v143 : Ref sig .tc := ⟨.hbm, 214, rfl⟩
abbrev main_v144 : Ref sig .tc := ⟨.hbm, 215, rfl⟩
abbrev main_v145 : Ref sig .tc := ⟨.hbm, 216, rfl⟩
abbrev main_v146 : Ref sig .tc := ⟨.hbm, 217, rfl⟩
abbrev main_v147 : Ref sig .tc := ⟨.hbm, 218, rfl⟩
abbrev main_v148 : Ref sig .tc := ⟨.hbm, 219, rfl⟩
abbrev main_v149 : Ref sig .tc := ⟨.hbm, 220, rfl⟩
abbrev main_v150 : Ref sig .tc := ⟨.hbm, 221, rfl⟩
abbrev main_cst_24 : Ref sig .tc := ⟨.hbm, 222, rfl⟩
abbrev main_v151 : Ref sig .tc := ⟨.hbm, 223, rfl⟩
abbrev main_v152 : Ref sig .tc := ⟨.hbm, 224, rfl⟩
abbrev main_v153 : Ref sig .tc := ⟨.hbm, 225, rfl⟩
abbrev main_v154 : Ref sig .tc := ⟨.hbm, 226, rfl⟩
abbrev main_v155 : Ref sig .tc := ⟨.hbm, 227, rfl⟩
abbrev main_v156 : Ref sig .tc := ⟨.hbm, 228, rfl⟩
abbrev main_c_25 : Ref sig .tc := ⟨.hbm, 229, rfl⟩
abbrev main_v157 : Ref sig .tc := ⟨.hbm, 230, rfl⟩
abbrev main_v158 : Ref sig .tc := ⟨.hbm, 231, rfl⟩
abbrev main_c_26 : Ref sig .tc := ⟨.hbm, 232, rfl⟩
abbrev main_v159 : Ref sig .tc := ⟨.hbm, 233, rfl⟩
abbrev main_v160 : Ref sig .tc := ⟨.hbm, 234, rfl⟩
abbrev main_v161 : Ref sig .tc := ⟨.hbm, 235, rfl⟩
abbrev main_v162 : Ref sig .tc := ⟨.hbm, 236, rfl⟩
abbrev main_v163 : Ref sig .tc := ⟨.hbm, 237, rfl⟩
abbrev main_v164 : Ref sig .tc := ⟨.hbm, 238, rfl⟩
abbrev main_v165 : Ref sig .tc := ⟨.hbm, 239, rfl⟩
abbrev main_c_27 : Ref sig .tc := ⟨.hbm, 240, rfl⟩
abbrev main_v166 : Ref sig .tc := ⟨.hbm, 241, rfl⟩
abbrev main_v167 : Ref sig .tc := ⟨.hbm, 242, rfl⟩
abbrev main_c_28 : Ref sig .tc := ⟨.hbm, 243, rfl⟩
abbrev main_v168 : Ref sig .tc := ⟨.hbm, 244, rfl⟩
abbrev main_v169 : Ref sig .tc := ⟨.hbm, 245, rfl⟩
abbrev main_v170 : Ref sig .tc := ⟨.hbm, 246, rfl⟩
abbrev main_v171 : Ref sig .tc := ⟨.hbm, 247, rfl⟩
abbrev main_v172 : Ref sig .tc := ⟨.hbm, 248, rfl⟩
abbrev main_v173 : Ref sig .tc := ⟨.hbm, 249, rfl⟩
abbrev main_v174 : Ref sig .tc := ⟨.hbm, 250, rfl⟩
abbrev main_v175 : Ref sig .tc := ⟨.hbm, 251, rfl⟩
abbrev main_v176 : Ref sig .tc := ⟨.hbm, 252, rfl⟩
abbrev main_v177 : Ref sig .tc := ⟨.hbm, 253, rfl⟩
abbrev main_v178 : Ref sig .tc := ⟨.hbm, 254, rfl⟩
abbrev main_v179 : Ref sig .tc := ⟨.hbm, 255, rfl⟩
abbrev main_v180 : Ref sig .tc := ⟨.hbm, 256, rfl⟩
abbrev main_call2_cst : Ref sig .tc := ⟨.hbm, 257, rfl⟩
abbrev main_call2_v0 : Ref sig .tc := ⟨.hbm, 258, rfl⟩
abbrev main_call2_v1 : Ref sig .tc := ⟨.hbm, 259, rfl⟩
abbrev main_call2_cst_0 : Ref sig .tc := ⟨.hbm, 260, rfl⟩
abbrev main_call2_v2 : Ref sig .tc := ⟨.hbm, 261, rfl⟩
abbrev main_call2_v3 : Ref sig .tc := ⟨.hbm, 262, rfl⟩
abbrev main_v181 : Ref sig .tc := ⟨.hbm, 263, rfl⟩
abbrev main_v182 : Ref sig .tc := ⟨.hbm, 264, rfl⟩
abbrev main_v183 : Ref sig .tc := ⟨.hbm, 265, rfl⟩
abbrev main_v184 : Ref sig .tc := ⟨.hbm, 266, rfl⟩
abbrev main_v185 : Ref sig .tc := ⟨.hbm, 267, rfl⟩
abbrev main_cst_29 : Ref sig .tc := ⟨.hbm, 268, rfl⟩
abbrev main_v186 : Ref sig .tc := ⟨.hbm, 269, rfl⟩
abbrev main_cst_30 : Ref sig .tc := ⟨.hbm, 270, rfl⟩
abbrev main_v187 : Ref sig .tc := ⟨.hbm, 271, rfl⟩
abbrev main_v188 : Ref sig .tc := ⟨.hbm, 272, rfl⟩
abbrev main_v189 : Ref sig .tc := ⟨.hbm, 273, rfl⟩
abbrev main_v190 : Ref sig .tc := ⟨.hbm, 274, rfl⟩
abbrev main_v191 : Ref sig .tc := ⟨.hbm, 275, rfl⟩
abbrev main_v192 : Ref sig .tc := ⟨.hbm, 276, rfl⟩
abbrev main_cst_31 : Ref sig .tc := ⟨.hbm, 277, rfl⟩
abbrev main_v193 : Ref sig .tc := ⟨.hbm, 278, rfl⟩
abbrev main_v194 : Ref sig .tc := ⟨.hbm, 279, rfl⟩
abbrev main_v195 : Ref sig .tc := ⟨.hbm, 280, rfl⟩
abbrev main_v196 : Ref sig .tc := ⟨.hbm, 281, rfl⟩
abbrev main_v197 : Ref sig .tc := ⟨.hbm, 282, rfl⟩
abbrev main_v198 : Ref sig .tc := ⟨.hbm, 283, rfl⟩
abbrev main_cst_32 : Ref sig .tc := ⟨.hbm, 284, rfl⟩
abbrev main_v199 : Ref sig .tc := ⟨.hbm, 285, rfl⟩
abbrev main_v200 : Ref sig .tc := ⟨.hbm, 286, rfl⟩
abbrev main_v201 : Ref sig .tc := ⟨.hbm, 287, rfl⟩
abbrev main_v202 : Ref sig .tc := ⟨.hbm, 288, rfl⟩
abbrev main_v203 : Ref sig .tc := ⟨.hbm, 289, rfl⟩
abbrev main_v204 : Ref sig .tc := ⟨.hbm, 290, rfl⟩
abbrev main_v205 : Ref sig .tc := ⟨.hbm, 291, rfl⟩
abbrev main_v206 : Ref sig .tc := ⟨.hbm, 292, rfl⟩
abbrev main_v207 : Ref sig .tc := ⟨.hbm, 293, rfl⟩
abbrev main_v208 : Ref sig .tc := ⟨.hbm, 294, rfl⟩
abbrev main_v209 : Ref sig .tc := ⟨.hbm, 295, rfl⟩
abbrev main_cst_33 : Ref sig .tc := ⟨.hbm, 296, rfl⟩
abbrev main_v210 : Ref sig .tc := ⟨.hbm, 297, rfl⟩
abbrev main_v211 : Ref sig .tc := ⟨.hbm, 298, rfl⟩
abbrev main_cst_34 : Ref sig .tc := ⟨.hbm, 299, rfl⟩
abbrev main_v212 : Ref sig .tc := ⟨.hbm, 300, rfl⟩
abbrev main_v213 : Ref sig .tc := ⟨.hbm, 301, rfl⟩
abbrev main_v214 : Ref sig .tc := ⟨.hbm, 302, rfl⟩
abbrev main_v215 : Ref sig .tc := ⟨.hbm, 303, rfl⟩
abbrev main_cst_35 : Ref sig .tc := ⟨.hbm, 304, rfl⟩
abbrev main_v216 : Ref sig .tc := ⟨.hbm, 305, rfl⟩
abbrev main_v217 : Ref sig .tc := ⟨.hbm, 306, rfl⟩
abbrev main_c_36 : Ref sig .tc := ⟨.hbm, 307, rfl⟩
abbrev main_v218 : Ref sig .tc := ⟨.hbm, 308, rfl⟩
abbrev main_v219 : Ref sig .tc := ⟨.hbm, 309, rfl⟩
abbrev main_c_37 : Ref sig .tc := ⟨.hbm, 310, rfl⟩
abbrev main_v220 : Ref sig .tc := ⟨.hbm, 311, rfl⟩
abbrev main_v221 : Ref sig .tc := ⟨.hbm, 312, rfl⟩
abbrev main_v222 : Ref sig .tc := ⟨.hbm, 313, rfl⟩
abbrev main_v223 : Ref sig .tc := ⟨.hbm, 314, rfl⟩
abbrev main_v224 : Ref sig .tc := ⟨.hbm, 315, rfl⟩
abbrev main_v225 : Ref sig .tc := ⟨.hbm, 316, rfl⟩
abbrev main_v226 : Ref sig .tc := ⟨.hbm, 317, rfl⟩
abbrev main_v227 : Ref sig .tc := ⟨.hbm, 318, rfl⟩
abbrev main_v228 : Ref sig .tc := ⟨.hbm, 319, rfl⟩
abbrev main_v229 : Ref sig .tc := ⟨.hbm, 320, rfl⟩
abbrev main_v230 : Ref sig .tc := ⟨.hbm, 321, rfl⟩
abbrev main_v231 : Ref sig .tc := ⟨.hbm, 322, rfl⟩
abbrev main_c_38 : Ref sig .tc := ⟨.hbm, 323, rfl⟩
abbrev main_v232 : Ref sig .tc := ⟨.hbm, 324, rfl⟩
abbrev main_v233 : Ref sig .tc := ⟨.hbm, 325, rfl⟩
abbrev main_c_39 : Ref sig .tc := ⟨.hbm, 326, rfl⟩
abbrev main_v234 : Ref sig .tc := ⟨.hbm, 327, rfl⟩
abbrev main_v235 : Ref sig .tc := ⟨.hbm, 328, rfl⟩
abbrev main_v236 : Ref sig .tc := ⟨.hbm, 329, rfl⟩
abbrev main_v237 : Ref sig .tc := ⟨.hbm, 330, rfl⟩
abbrev main_v238 : Ref sig .tc := ⟨.hbm, 331, rfl⟩
abbrev main_v239 : Ref sig .tc := ⟨.hbm, 332, rfl⟩
abbrev main_v240 : Ref sig .tc := ⟨.hbm, 333, rfl⟩
abbrev main_c_40 : Ref sig .tc := ⟨.hbm, 334, rfl⟩
abbrev main_v241 : Ref sig .tc := ⟨.hbm, 335, rfl⟩
abbrev main_v242 : Ref sig .tc := ⟨.hbm, 336, rfl⟩
abbrev main_c_41 : Ref sig .tc := ⟨.hbm, 337, rfl⟩
abbrev main_v243 : Ref sig .tc := ⟨.hbm, 338, rfl⟩
abbrev main_v244 : Ref sig .tc := ⟨.hbm, 339, rfl⟩
abbrev main_v245 : Ref sig .tc := ⟨.hbm, 340, rfl⟩
abbrev main_v246 : Ref sig .tc := ⟨.hbm, 341, rfl⟩
abbrev main_v247 : Ref sig .tc := ⟨.hbm, 342, rfl⟩
abbrev main_v248 : Ref sig .tc := ⟨.hbm, 343, rfl⟩
abbrev main_v249 : Ref sig .tc := ⟨.hbm, 344, rfl⟩
abbrev main_v250 : Ref sig .tc := ⟨.hbm, 345, rfl⟩
abbrev main_v251 : Ref sig .tc := ⟨.hbm, 346, rfl⟩
abbrev main_v252 : Ref sig .tc := ⟨.hbm, 347, rfl⟩
abbrev main_v253 : Ref sig .tc := ⟨.hbm, 348, rfl⟩
abbrev main_v254 : Ref sig .tc := ⟨.hbm, 349, rfl⟩
abbrev main_v255 : Ref sig .tc := ⟨.hbm, 350, rfl⟩
abbrev main_call3_cst : Ref sig .tc := ⟨.hbm, 351, rfl⟩
abbrev main_call3_v0 : Ref sig .tc := ⟨.hbm, 352, rfl⟩
abbrev main_call3_v1 : Ref sig .tc := ⟨.hbm, 353, rfl⟩
abbrev main_call3_cst_0 : Ref sig .tc := ⟨.hbm, 354, rfl⟩
abbrev main_call3_v2 : Ref sig .tc := ⟨.hbm, 355, rfl⟩
abbrev main_call3_v3 : Ref sig .tc := ⟨.hbm, 356, rfl⟩
abbrev main_v256 : Ref sig .tc := ⟨.hbm, 357, rfl⟩
abbrev main_v257 : Ref sig .tc := ⟨.hbm, 358, rfl⟩
abbrev main_v258 : Ref sig .tc := ⟨.hbm, 359, rfl⟩
abbrev main_v259 : Ref sig .tc := ⟨.hbm, 360, rfl⟩
abbrev main_v260 : Ref sig .tc := ⟨.hbm, 361, rfl⟩
abbrev main_cst_42 : Ref sig .tc := ⟨.hbm, 362, rfl⟩
abbrev main_v261 : Ref sig .tc := ⟨.hbm, 363, rfl⟩
abbrev main_cst_43 : Ref sig .tc := ⟨.hbm, 364, rfl⟩
abbrev main_v262 : Ref sig .tc := ⟨.hbm, 365, rfl⟩
abbrev main_v263 : Ref sig .tc := ⟨.hbm, 366, rfl⟩
abbrev main_v264 : Ref sig .tc := ⟨.hbm, 367, rfl⟩
abbrev main_v265 : Ref sig .tc := ⟨.hbm, 368, rfl⟩
abbrev main_v266 : Ref sig .tc := ⟨.hbm, 369, rfl⟩
abbrev main_v267 : Ref sig .tc := ⟨.hbm, 370, rfl⟩
abbrev main_cst_44 : Ref sig .tc := ⟨.hbm, 371, rfl⟩
abbrev main_v268 : Ref sig .tc := ⟨.hbm, 372, rfl⟩
abbrev main_v269 : Ref sig .tc := ⟨.hbm, 373, rfl⟩
abbrev main_v270 : Ref sig .tc := ⟨.hbm, 374, rfl⟩
abbrev main_v271 : Ref sig .tc := ⟨.hbm, 375, rfl⟩
abbrev main_v272 : Ref sig .tc := ⟨.hbm, 376, rfl⟩
abbrev main_v273 : Ref sig .tc := ⟨.hbm, 377, rfl⟩
abbrev main_cst_45 : Ref sig .tc := ⟨.hbm, 378, rfl⟩
abbrev main_v274 : Ref sig .tc := ⟨.hbm, 379, rfl⟩
abbrev main_v275 : Ref sig .tc := ⟨.hbm, 380, rfl⟩
abbrev main_v276 : Ref sig .tc := ⟨.hbm, 381, rfl⟩
abbrev main_v277 : Ref sig .tc := ⟨.hbm, 382, rfl⟩
abbrev main_v278 : Ref sig .tc := ⟨.hbm, 383, rfl⟩
abbrev main_v279 : Ref sig .tc := ⟨.hbm, 384, rfl⟩
abbrev main_v280 : Ref sig .tc := ⟨.hbm, 385, rfl⟩
abbrev main_v281 : Ref sig .tc := ⟨.hbm, 386, rfl⟩
abbrev main_v282 : Ref sig .tc := ⟨.hbm, 387, rfl⟩
abbrev main_v283 : Ref sig .tc := ⟨.hbm, 388, rfl⟩
abbrev main_v284 : Ref sig .tc := ⟨.hbm, 389, rfl⟩
abbrev main_cst_46 : Ref sig .tc := ⟨.hbm, 390, rfl⟩
abbrev main_v285 : Ref sig .tc := ⟨.hbm, 391, rfl⟩
abbrev main_v286 : Ref sig .tc := ⟨.hbm, 392, rfl⟩
abbrev main_cst_47 : Ref sig .tc := ⟨.hbm, 393, rfl⟩
abbrev main_v287 : Ref sig .tc := ⟨.hbm, 394, rfl⟩
abbrev main_v288 : Ref sig .tc := ⟨.hbm, 395, rfl⟩
abbrev main_v289 : Ref sig .tc := ⟨.hbm, 396, rfl⟩
abbrev main_v290 : Ref sig .tc := ⟨.hbm, 397, rfl⟩
abbrev main_cst_48 : Ref sig .tc := ⟨.hbm, 398, rfl⟩
abbrev main_v291 : Ref sig .tc := ⟨.hbm, 399, rfl⟩
abbrev main_v292 : Ref sig .tc := ⟨.hbm, 400, rfl⟩
abbrev main_c_49 : Ref sig .tc := ⟨.hbm, 401, rfl⟩
abbrev main_v293 : Ref sig .tc := ⟨.hbm, 402, rfl⟩
abbrev main_v294 : Ref sig .tc := ⟨.hbm, 403, rfl⟩
abbrev main_c_50 : Ref sig .tc := ⟨.hbm, 404, rfl⟩
abbrev main_v295 : Ref sig .tc := ⟨.hbm, 405, rfl⟩
abbrev main_v296 : Ref sig .tc := ⟨.hbm, 406, rfl⟩
abbrev main_v297 : Ref sig .tc := ⟨.hbm, 407, rfl⟩
abbrev main_v298 : Ref sig .tc := ⟨.hbm, 408, rfl⟩
abbrev main_v299 : Ref sig .tc := ⟨.hbm, 409, rfl⟩
abbrev main_v300 : Ref sig .tc := ⟨.hbm, 410, rfl⟩
abbrev main_v301 : Ref sig .tc := ⟨.hbm, 411, rfl⟩
abbrev main_v302 : Ref sig .tc := ⟨.hbm, 412, rfl⟩
abbrev main_v303 : Ref sig .tc := ⟨.hbm, 413, rfl⟩
abbrev main_cst_51 : Ref sig .tc := ⟨.hbm, 414, rfl⟩
abbrev main_v304 : Ref sig .tc := ⟨.hbm, 415, rfl⟩
abbrev main_v305 : Ref sig .tc := ⟨.hbm, 416, rfl⟩
abbrev main_v306 : Ref sig .tc := ⟨.hbm, 417, rfl⟩
abbrev main_v307 : Ref sig .tc := ⟨.hbm, 418, rfl⟩
abbrev main_v308 : Ref sig .tc := ⟨.hbm, 419, rfl⟩
abbrev main_v309 : Ref sig .tc := ⟨.hbm, 420, rfl⟩
abbrev main_c_52 : Ref sig .tc := ⟨.hbm, 421, rfl⟩
abbrev main_v310 : Ref sig .tc := ⟨.hbm, 422, rfl⟩
abbrev main_v311 : Ref sig .tc := ⟨.hbm, 423, rfl⟩
abbrev main_c_53 : Ref sig .tc := ⟨.hbm, 424, rfl⟩
abbrev main_v312 : Ref sig .tc := ⟨.hbm, 425, rfl⟩
abbrev main_v313 : Ref sig .tc := ⟨.hbm, 426, rfl⟩
abbrev main_v314 : Ref sig .tc := ⟨.hbm, 427, rfl⟩
abbrev main_v315 : Ref sig .tc := ⟨.hbm, 428, rfl⟩
abbrev main_v316 : Ref sig .tc := ⟨.hbm, 429, rfl⟩
abbrev main_v317 : Ref sig .tc := ⟨.hbm, 430, rfl⟩
abbrev main_v318 : Ref sig .tc := ⟨.hbm, 431, rfl⟩
abbrev main_c_54 : Ref sig .tc := ⟨.hbm, 432, rfl⟩
abbrev main_v319 : Ref sig .tc := ⟨.hbm, 433, rfl⟩
abbrev main_v320 : Ref sig .tc := ⟨.hbm, 434, rfl⟩
abbrev main_c_55 : Ref sig .tc := ⟨.hbm, 435, rfl⟩
abbrev main_v321 : Ref sig .tc := ⟨.hbm, 436, rfl⟩
abbrev main_v322 : Ref sig .tc := ⟨.hbm, 437, rfl⟩
abbrev main_v323 : Ref sig .tc := ⟨.hbm, 438, rfl⟩
abbrev main_v324 : Ref sig .tc := ⟨.hbm, 439, rfl⟩
abbrev main_v325 : Ref sig .tc := ⟨.hbm, 440, rfl⟩
abbrev main_v326 : Ref sig .tc := ⟨.hbm, 441, rfl⟩
abbrev main_v327 : Ref sig .tc := ⟨.hbm, 442, rfl⟩
abbrev main_v328 : Ref sig .tc := ⟨.hbm, 443, rfl⟩
abbrev main_v329 : Ref sig .tc := ⟨.hbm, 444, rfl⟩
abbrev main_v330 : Ref sig .tc := ⟨.hbm, 445, rfl⟩
abbrev main_v331 : Ref sig .tc := ⟨.hbm, 446, rfl⟩
abbrev main_v332 : Ref sig .tc := ⟨.hbm, 447, rfl⟩
abbrev main_v333 : Ref sig .tc := ⟨.hbm, 448, rfl⟩
abbrev main_call4_cst : Ref sig .tc := ⟨.hbm, 449, rfl⟩
abbrev main_call4_v0 : Ref sig .tc := ⟨.hbm, 450, rfl⟩
abbrev main_call4_v1 : Ref sig .tc := ⟨.hbm, 451, rfl⟩
abbrev main_call4_cst_0 : Ref sig .tc := ⟨.hbm, 452, rfl⟩
abbrev main_call4_v2 : Ref sig .tc := ⟨.hbm, 453, rfl⟩
abbrev main_call4_v3 : Ref sig .tc := ⟨.hbm, 454, rfl⟩
abbrev main_v334 : Ref sig .tc := ⟨.hbm, 455, rfl⟩
abbrev main_v335 : Ref sig .tc := ⟨.hbm, 456, rfl⟩
abbrev main_v336 : Ref sig .tc := ⟨.hbm, 457, rfl⟩
abbrev main_v337 : Ref sig .tc := ⟨.hbm, 458, rfl⟩
abbrev main_v338 : Ref sig .tc := ⟨.hbm, 459, rfl⟩
abbrev main_cst_56 : Ref sig .tc := ⟨.hbm, 460, rfl⟩
abbrev main_v339 : Ref sig .tc := ⟨.hbm, 461, rfl⟩
abbrev main_cst_57 : Ref sig .tc := ⟨.hbm, 462, rfl⟩
abbrev main_v340 : Ref sig .tc := ⟨.hbm, 463, rfl⟩
abbrev main_v341 : Ref sig .tc := ⟨.hbm, 464, rfl⟩
abbrev main_v342 : Ref sig .tc := ⟨.hbm, 465, rfl⟩
abbrev main_v343 : Ref sig .tc := ⟨.hbm, 466, rfl⟩
abbrev main_v344 : Ref sig .tc := ⟨.hbm, 467, rfl⟩
abbrev main_v345 : Ref sig .tc := ⟨.hbm, 468, rfl⟩
abbrev main_cst_58 : Ref sig .tc := ⟨.hbm, 469, rfl⟩
abbrev main_v346 : Ref sig .tc := ⟨.hbm, 470, rfl⟩
abbrev main_v347 : Ref sig .tc := ⟨.hbm, 471, rfl⟩
abbrev main_v348 : Ref sig .tc := ⟨.hbm, 472, rfl⟩
abbrev main_v349 : Ref sig .tc := ⟨.hbm, 473, rfl⟩
abbrev main_v350 : Ref sig .tc := ⟨.hbm, 474, rfl⟩
abbrev main_v351 : Ref sig .tc := ⟨.hbm, 475, rfl⟩
abbrev main_cst_59 : Ref sig .tc := ⟨.hbm, 476, rfl⟩
abbrev main_v352 : Ref sig .tc := ⟨.hbm, 477, rfl⟩
abbrev main_v353 : Ref sig .tc := ⟨.hbm, 478, rfl⟩
abbrev main_v354 : Ref sig .tc := ⟨.hbm, 479, rfl⟩
abbrev main_v355 : Ref sig .tc := ⟨.hbm, 480, rfl⟩
abbrev main_v356 : Ref sig .tc := ⟨.hbm, 481, rfl⟩
abbrev main_v357 : Ref sig .tc := ⟨.hbm, 482, rfl⟩
abbrev main_v358 : Ref sig .tc := ⟨.hbm, 483, rfl⟩
abbrev main_v359 : Ref sig .tc := ⟨.hbm, 484, rfl⟩
abbrev main_v360 : Ref sig .tc := ⟨.hbm, 485, rfl⟩
abbrev main_v361 : Ref sig .tc := ⟨.hbm, 486, rfl⟩
abbrev main_v362 : Ref sig .tc := ⟨.hbm, 487, rfl⟩
abbrev main_cst_60 : Ref sig .tc := ⟨.hbm, 488, rfl⟩
abbrev main_v363 : Ref sig .tc := ⟨.hbm, 489, rfl⟩
abbrev main_v364 : Ref sig .tc := ⟨.hbm, 490, rfl⟩
abbrev main_cst_61 : Ref sig .tc := ⟨.hbm, 491, rfl⟩
abbrev main_v365 : Ref sig .tc := ⟨.hbm, 492, rfl⟩
abbrev main_v366 : Ref sig .tc := ⟨.hbm, 493, rfl⟩
abbrev main_v367 : Ref sig .tc := ⟨.hbm, 494, rfl⟩
abbrev main_v368 : Ref sig .tc := ⟨.hbm, 495, rfl⟩
abbrev main_cst_62 : Ref sig .tc := ⟨.hbm, 496, rfl⟩
abbrev main_v369 : Ref sig .tc := ⟨.hbm, 497, rfl⟩
abbrev main_v370 : Ref sig .tc := ⟨.hbm, 498, rfl⟩
abbrev main_c_63 : Ref sig .tc := ⟨.hbm, 499, rfl⟩
abbrev main_v371 : Ref sig .tc := ⟨.hbm, 500, rfl⟩
abbrev main_v372 : Ref sig .tc := ⟨.hbm, 501, rfl⟩
abbrev main_c_64 : Ref sig .tc := ⟨.hbm, 502, rfl⟩
abbrev main_v373 : Ref sig .tc := ⟨.hbm, 503, rfl⟩
abbrev main_v374 : Ref sig .tc := ⟨.hbm, 504, rfl⟩
abbrev main_v375 : Ref sig .tc := ⟨.hbm, 505, rfl⟩
abbrev main_v376 : Ref sig .tc := ⟨.hbm, 506, rfl⟩
abbrev main_v377 : Ref sig .tc := ⟨.hbm, 507, rfl⟩
abbrev main_v378 : Ref sig .tc := ⟨.hbm, 508, rfl⟩
abbrev main_v379 : Ref sig .tc := ⟨.hbm, 509, rfl⟩
abbrev main_v380 : Ref sig .tc := ⟨.hbm, 510, rfl⟩
abbrev main_v381 : Ref sig .tc := ⟨.hbm, 511, rfl⟩
abbrev main_v382 : Ref sig .tc := ⟨.hbm, 512, rfl⟩
abbrev main_v383 : Ref sig .tc := ⟨.hbm, 513, rfl⟩
abbrev main_v384 : Ref sig .tc := ⟨.hbm, 514, rfl⟩
abbrev main_c_65 : Ref sig .tc := ⟨.hbm, 515, rfl⟩
abbrev main_v385 : Ref sig .tc := ⟨.hbm, 516, rfl⟩
abbrev main_v386 : Ref sig .tc := ⟨.hbm, 517, rfl⟩
abbrev main_c_66 : Ref sig .tc := ⟨.hbm, 518, rfl⟩
abbrev main_v387 : Ref sig .tc := ⟨.hbm, 519, rfl⟩
abbrev main_v388 : Ref sig .tc := ⟨.hbm, 520, rfl⟩
abbrev main_v389 : Ref sig .tc := ⟨.hbm, 521, rfl⟩
abbrev main_v390 : Ref sig .tc := ⟨.hbm, 522, rfl⟩
abbrev main_v391 : Ref sig .tc := ⟨.hbm, 523, rfl⟩
abbrev main_v392 : Ref sig .tc := ⟨.hbm, 524, rfl⟩
abbrev main_v393 : Ref sig .tc := ⟨.hbm, 525, rfl⟩
abbrev main_c_67 : Ref sig .tc := ⟨.hbm, 526, rfl⟩
abbrev main_v394 : Ref sig .tc := ⟨.hbm, 527, rfl⟩
abbrev main_v395 : Ref sig .tc := ⟨.hbm, 528, rfl⟩
abbrev main_c_68 : Ref sig .tc := ⟨.hbm, 529, rfl⟩
abbrev main_v396 : Ref sig .tc := ⟨.hbm, 530, rfl⟩
abbrev main_v397 : Ref sig .tc := ⟨.hbm, 531, rfl⟩
abbrev main_v398 : Ref sig .tc := ⟨.hbm, 532, rfl⟩
abbrev main_v399 : Ref sig .tc := ⟨.hbm, 533, rfl⟩
abbrev main_v400 : Ref sig .tc := ⟨.hbm, 534, rfl⟩
abbrev main_v401 : Ref sig .tc := ⟨.hbm, 535, rfl⟩
abbrev main_v402 : Ref sig .tc := ⟨.hbm, 536, rfl⟩
abbrev main_v403 : Ref sig .tc := ⟨.hbm, 537, rfl⟩
abbrev main_v404 : Ref sig .tc := ⟨.hbm, 538, rfl⟩
abbrev main_v405 : Ref sig .tc := ⟨.hbm, 539, rfl⟩
abbrev main_v406 : Ref sig .tc := ⟨.hbm, 540, rfl⟩
abbrev main_v407 : Ref sig .tc := ⟨.hbm, 541, rfl⟩
abbrev main_v408 : Ref sig .tc := ⟨.hbm, 542, rfl⟩
abbrev main_call5_cst : Ref sig .tc := ⟨.hbm, 543, rfl⟩
abbrev main_call5_v0 : Ref sig .tc := ⟨.hbm, 544, rfl⟩
abbrev main_call5_v1 : Ref sig .tc := ⟨.hbm, 545, rfl⟩
abbrev main_call5_cst_0 : Ref sig .tc := ⟨.hbm, 546, rfl⟩
abbrev main_call5_v2 : Ref sig .tc := ⟨.hbm, 547, rfl⟩
abbrev main_call5_v3 : Ref sig .tc := ⟨.hbm, 548, rfl⟩
abbrev main_v409 : Ref sig .tc := ⟨.hbm, 549, rfl⟩
abbrev main_v410 : Ref sig .tc := ⟨.hbm, 550, rfl⟩
abbrev main_v411 : Ref sig .tc := ⟨.hbm, 551, rfl⟩
abbrev main_v412 : Ref sig .tc := ⟨.hbm, 552, rfl⟩
abbrev main_v413 : Ref sig .tc := ⟨.hbm, 553, rfl⟩
abbrev main_cst_69 : Ref sig .tc := ⟨.hbm, 554, rfl⟩
abbrev main_v414 : Ref sig .tc := ⟨.hbm, 555, rfl⟩
abbrev main_cst_70 : Ref sig .tc := ⟨.hbm, 556, rfl⟩
abbrev main_v415 : Ref sig .tc := ⟨.hbm, 557, rfl⟩
abbrev main_v416 : Ref sig .tc := ⟨.hbm, 558, rfl⟩
abbrev main_v417 : Ref sig .tc := ⟨.hbm, 559, rfl⟩
abbrev main_v418 : Ref sig .tc := ⟨.hbm, 560, rfl⟩
abbrev main_v419 : Ref sig .tc := ⟨.hbm, 561, rfl⟩
abbrev main_v420 : Ref sig .tc := ⟨.hbm, 562, rfl⟩
abbrev main_cst_71 : Ref sig .tc := ⟨.hbm, 563, rfl⟩
abbrev main_v421 : Ref sig .tc := ⟨.hbm, 564, rfl⟩
abbrev main_v422 : Ref sig .tc := ⟨.hbm, 565, rfl⟩
abbrev main_v423 : Ref sig .tc := ⟨.hbm, 566, rfl⟩
abbrev main_v424 : Ref sig .tc := ⟨.hbm, 567, rfl⟩
abbrev main_v425 : Ref sig .tc := ⟨.hbm, 568, rfl⟩
abbrev main_v426 : Ref sig .tc := ⟨.hbm, 569, rfl⟩
abbrev main_cst_72 : Ref sig .tc := ⟨.hbm, 570, rfl⟩
abbrev main_v427 : Ref sig .tc := ⟨.hbm, 571, rfl⟩
abbrev main_v428 : Ref sig .tc := ⟨.hbm, 572, rfl⟩
abbrev main_v429 : Ref sig .tc := ⟨.hbm, 573, rfl⟩
abbrev main_v430 : Ref sig .tc := ⟨.hbm, 574, rfl⟩
abbrev main_v431 : Ref sig .tc := ⟨.hbm, 575, rfl⟩
abbrev main_v432 : Ref sig .tc := ⟨.hbm, 576, rfl⟩
abbrev main_v433 : Ref sig .tc := ⟨.hbm, 577, rfl⟩
abbrev main_v434 : Ref sig .tc := ⟨.hbm, 578, rfl⟩
abbrev main_v435 : Ref sig .tc := ⟨.hbm, 579, rfl⟩
abbrev main_v436 : Ref sig .tc := ⟨.hbm, 580, rfl⟩
abbrev main_v437 : Ref sig .tc := ⟨.hbm, 581, rfl⟩
abbrev main_cst_73 : Ref sig .tc := ⟨.hbm, 582, rfl⟩
abbrev main_v438 : Ref sig .tc := ⟨.hbm, 583, rfl⟩
abbrev main_v439 : Ref sig .tc := ⟨.hbm, 584, rfl⟩
abbrev main_cst_74 : Ref sig .tc := ⟨.hbm, 585, rfl⟩
abbrev main_v440 : Ref sig .tc := ⟨.hbm, 586, rfl⟩
abbrev main_v441 : Ref sig .tc := ⟨.hbm, 587, rfl⟩
abbrev main_v442 : Ref sig .tc := ⟨.hbm, 588, rfl⟩
abbrev main_v443 : Ref sig .tc := ⟨.hbm, 589, rfl⟩
abbrev main_cst_75 : Ref sig .tc := ⟨.hbm, 590, rfl⟩
abbrev main_v444 : Ref sig .tc := ⟨.hbm, 591, rfl⟩
abbrev main_v445 : Ref sig .tc := ⟨.hbm, 592, rfl⟩
abbrev main_c_76 : Ref sig .tc := ⟨.hbm, 593, rfl⟩
abbrev main_v446 : Ref sig .tc := ⟨.hbm, 594, rfl⟩
abbrev main_v447 : Ref sig .tc := ⟨.hbm, 595, rfl⟩
abbrev main_c_77 : Ref sig .tc := ⟨.hbm, 596, rfl⟩
abbrev main_v448 : Ref sig .tc := ⟨.hbm, 597, rfl⟩
abbrev main_v449 : Ref sig .tc := ⟨.hbm, 598, rfl⟩
abbrev main_v450 : Ref sig .tc := ⟨.hbm, 599, rfl⟩
abbrev main_v451 : Ref sig .tc := ⟨.hbm, 600, rfl⟩
abbrev main_v452 : Ref sig .tc := ⟨.hbm, 601, rfl⟩
abbrev main_v453 : Ref sig .tc := ⟨.hbm, 602, rfl⟩
abbrev main_v454 : Ref sig .tc := ⟨.hbm, 603, rfl⟩
abbrev main_v455 : Ref sig .tc := ⟨.hbm, 604, rfl⟩
abbrev main_v456 : Ref sig .tc := ⟨.hbm, 605, rfl⟩
abbrev main_cst_78 : Ref sig .tc := ⟨.hbm, 606, rfl⟩
abbrev main_v457 : Ref sig .tc := ⟨.hbm, 607, rfl⟩
abbrev main_v458 : Ref sig .tc := ⟨.hbm, 608, rfl⟩
abbrev main_v459 : Ref sig .tc := ⟨.hbm, 609, rfl⟩
abbrev main_v460 : Ref sig .tc := ⟨.hbm, 610, rfl⟩
abbrev main_v461 : Ref sig .tc := ⟨.hbm, 611, rfl⟩
abbrev main_v462 : Ref sig .tc := ⟨.hbm, 612, rfl⟩
abbrev main_c_79 : Ref sig .tc := ⟨.hbm, 613, rfl⟩
abbrev main_v463 : Ref sig .tc := ⟨.hbm, 614, rfl⟩
abbrev main_v464 : Ref sig .tc := ⟨.hbm, 615, rfl⟩
abbrev main_c_80 : Ref sig .tc := ⟨.hbm, 616, rfl⟩
abbrev main_v465 : Ref sig .tc := ⟨.hbm, 617, rfl⟩
abbrev main_v466 : Ref sig .tc := ⟨.hbm, 618, rfl⟩
abbrev main_v467 : Ref sig .tc := ⟨.hbm, 619, rfl⟩
abbrev main_v468 : Ref sig .tc := ⟨.hbm, 620, rfl⟩
abbrev main_v469 : Ref sig .tc := ⟨.hbm, 621, rfl⟩
abbrev main_v470 : Ref sig .tc := ⟨.hbm, 622, rfl⟩
abbrev main_v471 : Ref sig .tc := ⟨.hbm, 623, rfl⟩
abbrev main_c_81 : Ref sig .tc := ⟨.hbm, 624, rfl⟩
abbrev main_v472 : Ref sig .tc := ⟨.hbm, 625, rfl⟩
abbrev main_v473 : Ref sig .tc := ⟨.hbm, 626, rfl⟩
abbrev main_c_82 : Ref sig .tc := ⟨.hbm, 627, rfl⟩
abbrev main_v474 : Ref sig .tc := ⟨.hbm, 628, rfl⟩
abbrev main_v475 : Ref sig .tc := ⟨.hbm, 629, rfl⟩
abbrev main_v476 : Ref sig .tc := ⟨.hbm, 630, rfl⟩
abbrev main_v477 : Ref sig .tc := ⟨.hbm, 631, rfl⟩
abbrev main_v478 : Ref sig .tc := ⟨.hbm, 632, rfl⟩
abbrev main_v479 : Ref sig .tc := ⟨.hbm, 633, rfl⟩
abbrev main_v480 : Ref sig .tc := ⟨.hbm, 634, rfl⟩
abbrev main_v481 : Ref sig .tc := ⟨.hbm, 635, rfl⟩
abbrev main_v482 : Ref sig .tc := ⟨.hbm, 636, rfl⟩
abbrev main_v483 : Ref sig .tc := ⟨.hbm, 637, rfl⟩
abbrev main_v484 : Ref sig .tc := ⟨.hbm, 638, rfl⟩
abbrev main_v485 : Ref sig .tc := ⟨.hbm, 639, rfl⟩
abbrev main_v486 : Ref sig .tc := ⟨.hbm, 640, rfl⟩
abbrev main_call6_cst : Ref sig .tc := ⟨.hbm, 641, rfl⟩
abbrev main_call6_v0 : Ref sig .tc := ⟨.hbm, 642, rfl⟩
abbrev main_call6_v1 : Ref sig .tc := ⟨.hbm, 643, rfl⟩
abbrev main_call6_cst_0 : Ref sig .tc := ⟨.hbm, 644, rfl⟩
abbrev main_call6_v2 : Ref sig .tc := ⟨.hbm, 645, rfl⟩
abbrev main_call6_v3 : Ref sig .tc := ⟨.hbm, 646, rfl⟩
abbrev main_v487 : Ref sig .tc := ⟨.hbm, 647, rfl⟩
abbrev main_v488 : Ref sig .tc := ⟨.hbm, 648, rfl⟩
abbrev main_v489 : Ref sig .tc := ⟨.hbm, 649, rfl⟩
abbrev main_v490 : Ref sig .tc := ⟨.hbm, 650, rfl⟩
abbrev main_v491 : Ref sig .tc := ⟨.hbm, 651, rfl⟩
abbrev main_cst_83 : Ref sig .tc := ⟨.hbm, 652, rfl⟩
abbrev main_v492 : Ref sig .tc := ⟨.hbm, 653, rfl⟩
abbrev main_cst_84 : Ref sig .tc := ⟨.hbm, 654, rfl⟩
abbrev main_v493 : Ref sig .tc := ⟨.hbm, 655, rfl⟩
abbrev main_v494 : Ref sig .tc := ⟨.hbm, 656, rfl⟩
abbrev main_v495 : Ref sig .tc := ⟨.hbm, 657, rfl⟩
abbrev main_v496 : Ref sig .tc := ⟨.hbm, 658, rfl⟩
abbrev main_v497 : Ref sig .tc := ⟨.hbm, 659, rfl⟩
abbrev main_v498 : Ref sig .tc := ⟨.hbm, 660, rfl⟩
abbrev main_cst_85 : Ref sig .tc := ⟨.hbm, 661, rfl⟩
abbrev main_v499 : Ref sig .tc := ⟨.hbm, 662, rfl⟩
abbrev main_v500 : Ref sig .tc := ⟨.hbm, 663, rfl⟩
abbrev main_v501 : Ref sig .tc := ⟨.hbm, 664, rfl⟩
abbrev main_v502 : Ref sig .tc := ⟨.hbm, 665, rfl⟩
abbrev main_v503 : Ref sig .tc := ⟨.hbm, 666, rfl⟩
abbrev main_v504 : Ref sig .tc := ⟨.hbm, 667, rfl⟩
abbrev main_cst_86 : Ref sig .tc := ⟨.hbm, 668, rfl⟩
abbrev main_v505 : Ref sig .tc := ⟨.hbm, 669, rfl⟩
abbrev main_v506 : Ref sig .tc := ⟨.hbm, 670, rfl⟩
abbrev main_v507 : Ref sig .tc := ⟨.hbm, 671, rfl⟩
abbrev main_v508 : Ref sig .tc := ⟨.hbm, 672, rfl⟩
abbrev main_v509 : Ref sig .tc := ⟨.hbm, 673, rfl⟩
abbrev main_v510 : Ref sig .tc := ⟨.hbm, 674, rfl⟩
abbrev main_v511 : Ref sig .tc := ⟨.hbm, 675, rfl⟩
abbrev main_v512 : Ref sig .tc := ⟨.hbm, 676, rfl⟩
abbrev main_v513 : Ref sig .tc := ⟨.hbm, 677, rfl⟩
abbrev main_v514 : Ref sig .tc := ⟨.hbm, 678, rfl⟩
abbrev main_v515 : Ref sig .tc := ⟨.hbm, 679, rfl⟩
abbrev main_cst_87 : Ref sig .tc := ⟨.hbm, 680, rfl⟩
abbrev main_v516 : Ref sig .tc := ⟨.hbm, 681, rfl⟩
abbrev main_v517 : Ref sig .tc := ⟨.hbm, 682, rfl⟩
abbrev main_cst_88 : Ref sig .tc := ⟨.hbm, 683, rfl⟩
abbrev main_v518 : Ref sig .tc := ⟨.hbm, 684, rfl⟩
abbrev main_v519 : Ref sig .tc := ⟨.hbm, 685, rfl⟩
abbrev main_v520 : Ref sig .tc := ⟨.hbm, 686, rfl⟩
abbrev main_v521 : Ref sig .tc := ⟨.hbm, 687, rfl⟩
abbrev main_cst_89 : Ref sig .tc := ⟨.hbm, 688, rfl⟩
abbrev main_v522 : Ref sig .tc := ⟨.hbm, 689, rfl⟩
abbrev main_v523 : Ref sig .tc := ⟨.hbm, 690, rfl⟩
abbrev main_c_90 : Ref sig .tc := ⟨.hbm, 691, rfl⟩
abbrev main_v524 : Ref sig .tc := ⟨.hbm, 692, rfl⟩
abbrev main_v525 : Ref sig .tc := ⟨.hbm, 693, rfl⟩
abbrev main_c_91 : Ref sig .tc := ⟨.hbm, 694, rfl⟩
abbrev main_v526 : Ref sig .tc := ⟨.hbm, 695, rfl⟩
abbrev main_v527 : Ref sig .tc := ⟨.hbm, 696, rfl⟩
abbrev main_v528 : Ref sig .tc := ⟨.hbm, 697, rfl⟩
abbrev main_v529 : Ref sig .tc := ⟨.hbm, 698, rfl⟩
abbrev main_v530 : Ref sig .tc := ⟨.hbm, 699, rfl⟩
abbrev main_v531 : Ref sig .tc := ⟨.hbm, 700, rfl⟩
abbrev main_v532 : Ref sig .tc := ⟨.hbm, 701, rfl⟩
abbrev main_v533 : Ref sig .tc := ⟨.hbm, 702, rfl⟩
abbrev main_v534 : Ref sig .tc := ⟨.hbm, 703, rfl⟩
abbrev main_v535 : Ref sig .tc := ⟨.hbm, 704, rfl⟩
abbrev main_v536 : Ref sig .tc := ⟨.hbm, 705, rfl⟩
abbrev main_v537 : Ref sig .tc := ⟨.hbm, 706, rfl⟩
abbrev main_c_92 : Ref sig .tc := ⟨.hbm, 707, rfl⟩
abbrev main_v538 : Ref sig .tc := ⟨.hbm, 708, rfl⟩
abbrev main_v539 : Ref sig .tc := ⟨.hbm, 709, rfl⟩
abbrev main_c_93 : Ref sig .tc := ⟨.hbm, 710, rfl⟩
abbrev main_v540 : Ref sig .tc := ⟨.hbm, 711, rfl⟩
abbrev main_v541 : Ref sig .tc := ⟨.hbm, 712, rfl⟩
abbrev main_v542 : Ref sig .tc := ⟨.hbm, 713, rfl⟩
abbrev main_v543 : Ref sig .tc := ⟨.hbm, 714, rfl⟩
abbrev main_v544 : Ref sig .tc := ⟨.hbm, 715, rfl⟩
abbrev main_v545 : Ref sig .tc := ⟨.hbm, 716, rfl⟩
abbrev main_v546 : Ref sig .tc := ⟨.hbm, 717, rfl⟩
abbrev main_c_94 : Ref sig .tc := ⟨.hbm, 718, rfl⟩
abbrev main_v547 : Ref sig .tc := ⟨.hbm, 719, rfl⟩
abbrev main_v548 : Ref sig .tc := ⟨.hbm, 720, rfl⟩
abbrev main_c_95 : Ref sig .tc := ⟨.hbm, 721, rfl⟩
abbrev main_v549 : Ref sig .tc := ⟨.hbm, 722, rfl⟩
abbrev main_v550 : Ref sig .tc := ⟨.hbm, 723, rfl⟩
abbrev main_v551 : Ref sig .tc := ⟨.hbm, 724, rfl⟩
abbrev main_v552 : Ref sig .tc := ⟨.hbm, 725, rfl⟩
abbrev main_v553 : Ref sig .tc := ⟨.hbm, 726, rfl⟩
abbrev main_v554 : Ref sig .tc := ⟨.hbm, 727, rfl⟩
abbrev main_v555 : Ref sig .tc := ⟨.hbm, 728, rfl⟩
abbrev main_v556 : Ref sig .tc := ⟨.hbm, 729, rfl⟩
abbrev main_v557 : Ref sig .tc := ⟨.hbm, 730, rfl⟩
abbrev main_v558 : Ref sig .tc := ⟨.hbm, 731, rfl⟩
abbrev main_v559 : Ref sig .tc := ⟨.hbm, 732, rfl⟩
abbrev main_v560 : Ref sig .tc := ⟨.hbm, 733, rfl⟩
abbrev main_v561 : Ref sig .tc := ⟨.hbm, 734, rfl⟩
abbrev main_call7_cst : Ref sig .tc := ⟨.hbm, 735, rfl⟩
abbrev main_call7_v0 : Ref sig .tc := ⟨.hbm, 736, rfl⟩
abbrev main_call7_v1 : Ref sig .tc := ⟨.hbm, 737, rfl⟩
abbrev main_call7_cst_0 : Ref sig .tc := ⟨.hbm, 738, rfl⟩
abbrev main_call7_v2 : Ref sig .tc := ⟨.hbm, 739, rfl⟩
abbrev main_call7_v3 : Ref sig .tc := ⟨.hbm, 740, rfl⟩
abbrev main_v562 : Ref sig .tc := ⟨.hbm, 741, rfl⟩
abbrev main_v563 : Ref sig .tc := ⟨.hbm, 742, rfl⟩
abbrev main_v564 : Ref sig .tc := ⟨.hbm, 743, rfl⟩
abbrev main_v565 : Ref sig .tc := ⟨.hbm, 744, rfl⟩
abbrev main_v566 : Ref sig .tc := ⟨.hbm, 745, rfl⟩
abbrev main_cst_96 : Ref sig .tc := ⟨.hbm, 746, rfl⟩
abbrev main_v567 : Ref sig .tc := ⟨.hbm, 747, rfl⟩
abbrev main_cst_97 : Ref sig .tc := ⟨.hbm, 748, rfl⟩
abbrev main_v568 : Ref sig .tc := ⟨.hbm, 749, rfl⟩
abbrev main_v569 : Ref sig .tc := ⟨.hbm, 750, rfl⟩
abbrev main_v570 : Ref sig .tc := ⟨.hbm, 751, rfl⟩
abbrev main_v571 : Ref sig .tc := ⟨.hbm, 752, rfl⟩
abbrev main_v572 : Ref sig .tc := ⟨.hbm, 753, rfl⟩
abbrev main_v573 : Ref sig .tc := ⟨.hbm, 754, rfl⟩
abbrev main_cst_98 : Ref sig .tc := ⟨.hbm, 755, rfl⟩
abbrev main_v574 : Ref sig .tc := ⟨.hbm, 756, rfl⟩
abbrev main_v575 : Ref sig .tc := ⟨.hbm, 757, rfl⟩
abbrev main_v576 : Ref sig .tc := ⟨.hbm, 758, rfl⟩
abbrev main_v577 : Ref sig .tc := ⟨.hbm, 759, rfl⟩
abbrev main_v578 : Ref sig .tc := ⟨.hbm, 760, rfl⟩
abbrev main_v579 : Ref sig .tc := ⟨.hbm, 761, rfl⟩
abbrev main_cst_99 : Ref sig .tc := ⟨.hbm, 762, rfl⟩
abbrev main_v580 : Ref sig .tc := ⟨.hbm, 763, rfl⟩
abbrev main_v581 : Ref sig .tc := ⟨.hbm, 764, rfl⟩
abbrev main_v582 : Ref sig .tc := ⟨.hbm, 765, rfl⟩
abbrev main_v583 : Ref sig .tc := ⟨.hbm, 766, rfl⟩
abbrev main_v584 : Ref sig .tc := ⟨.hbm, 767, rfl⟩
abbrev main_v585 : Ref sig .tc := ⟨.hbm, 768, rfl⟩
abbrev main_v586 : Ref sig .tc := ⟨.hbm, 769, rfl⟩
abbrev main_v587 : Ref sig .tc := ⟨.hbm, 770, rfl⟩
abbrev main_v588 : Ref sig .tc := ⟨.hbm, 771, rfl⟩
abbrev main_v589 : Ref sig .tc := ⟨.hbm, 772, rfl⟩
abbrev main_v590 : Ref sig .tc := ⟨.hbm, 773, rfl⟩
abbrev main_cst_100 : Ref sig .tc := ⟨.hbm, 774, rfl⟩
abbrev main_v591 : Ref sig .tc := ⟨.hbm, 775, rfl⟩
abbrev main_v592 : Ref sig .tc := ⟨.hbm, 776, rfl⟩
abbrev main_cst_101 : Ref sig .tc := ⟨.hbm, 777, rfl⟩
abbrev main_v593 : Ref sig .tc := ⟨.hbm, 778, rfl⟩
abbrev main_v594 : Ref sig .tc := ⟨.hbm, 779, rfl⟩
abbrev main_v595 : Ref sig .tc := ⟨.hbm, 780, rfl⟩
abbrev main_v596 : Ref sig .tc := ⟨.hbm, 781, rfl⟩
abbrev main_cst_102 : Ref sig .tc := ⟨.hbm, 782, rfl⟩
abbrev main_v597 : Ref sig .tc := ⟨.hbm, 783, rfl⟩
abbrev main_v598 : Ref sig .tc := ⟨.hbm, 784, rfl⟩
abbrev main_c_103 : Ref sig .tc := ⟨.hbm, 785, rfl⟩
abbrev main_v599 : Ref sig .tc := ⟨.hbm, 786, rfl⟩
abbrev main_v600 : Ref sig .tc := ⟨.hbm, 787, rfl⟩
abbrev main_c_104 : Ref sig .tc := ⟨.hbm, 788, rfl⟩
abbrev main_v601 : Ref sig .tc := ⟨.hbm, 789, rfl⟩
abbrev main_v602 : Ref sig .tc := ⟨.hbm, 790, rfl⟩
abbrev main_v603 : Ref sig .tc := ⟨.hbm, 791, rfl⟩
abbrev main_v604 : Ref sig .tc := ⟨.hbm, 792, rfl⟩
abbrev main_v605 : Ref sig .tc := ⟨.hbm, 793, rfl⟩
abbrev main_v606 : Ref sig .tc := ⟨.hbm, 794, rfl⟩
abbrev main_v607 : Ref sig .tc := ⟨.hbm, 795, rfl⟩
abbrev main_v608 : Ref sig .tc := ⟨.hbm, 796, rfl⟩
abbrev main_v609 : Ref sig .tc := ⟨.hbm, 797, rfl⟩
abbrev main_cst_105 : Ref sig .tc := ⟨.hbm, 798, rfl⟩
abbrev main_v610 : Ref sig .tc := ⟨.hbm, 799, rfl⟩
abbrev main_v611 : Ref sig .tc := ⟨.hbm, 800, rfl⟩
abbrev main_v612 : Ref sig .tc := ⟨.hbm, 801, rfl⟩
abbrev main_v613 : Ref sig .tc := ⟨.hbm, 802, rfl⟩
abbrev main_v614 : Ref sig .tc := ⟨.hbm, 803, rfl⟩
abbrev main_v615 : Ref sig .tc := ⟨.hbm, 804, rfl⟩
abbrev main_v616 : Ref sig .tc := ⟨.hbm, 805, rfl⟩
abbrev main_v617 : Ref sig .tc := ⟨.hbm, 806, rfl⟩
abbrev main_v618 : Ref sig .tc := ⟨.hbm, 807, rfl⟩
abbrev main_call8_cst : Ref sig .tc := ⟨.hbm, 808, rfl⟩
abbrev main_call8_v0 : Ref sig .tc := ⟨.hbm, 809, rfl⟩
abbrev main_v619 : Ref sig .tc := ⟨.hbm, 810, rfl⟩
abbrev main_v620 : Ref sig .tc := ⟨.hbm, 811, rfl⟩
abbrev main_v621 : Ref sig .tc := ⟨.hbm, 812, rfl⟩
abbrev main_v622 : Ref sig .tc := ⟨.hbm, 813, rfl⟩
abbrev main_v623 : Ref sig .tc := ⟨.hbm, 814, rfl⟩
abbrev main_v624 : Ref sig .tc := ⟨.hbm, 815, rfl⟩
abbrev main_v625 : Ref sig .tc := ⟨.hbm, 816, rfl⟩
abbrev main_cst_106 : Ref sig .tc := ⟨.hbm, 817, rfl⟩
abbrev main_v626 : Ref sig .tc := ⟨.hbm, 818, rfl⟩
abbrev main_v627 : Ref sig .tc := ⟨.hbm, 819, rfl⟩
abbrev main_cst_107 : Ref sig .tc := ⟨.hbm, 820, rfl⟩
abbrev main_v628 : Ref sig .tc := ⟨.hbm, 821, rfl⟩
abbrev main_v629 : Ref sig .tc := ⟨.hbm, 822, rfl⟩
abbrev main_c_108 : Ref sig .tc := ⟨.hbm, 823, rfl⟩
abbrev main_call9_cst : Ref sig .tc := ⟨.hbm, 824, rfl⟩
abbrev main_call9_v0 : Ref sig .tc := ⟨.hbm, 825, rfl⟩
abbrev main_call9_v1 : Ref sig .tc := ⟨.hbm, 826, rfl⟩
abbrev main_call9_cst_0 : Ref sig .tc := ⟨.hbm, 827, rfl⟩
abbrev main_call9_v2 : Ref sig .tc := ⟨.hbm, 828, rfl⟩
abbrev main_call9_v3 : Ref sig .tc := ⟨.hbm, 829, rfl⟩
abbrev main_call9_v4 : Ref sig .tc := ⟨.hbm, 830, rfl⟩
abbrev main_call9_v5 : Ref sig .tc := ⟨.hbm, 831, rfl⟩
abbrev main_call9_v6 : Ref sig .tc := ⟨.hbm, 832, rfl⟩
abbrev main_call9_v7 : Ref sig .tc := ⟨.hbm, 833, rfl⟩
abbrev main_call9_cst_1 : Ref sig .tc := ⟨.hbm, 834, rfl⟩
abbrev main_call9_v8 : Ref sig .tc := ⟨.hbm, 835, rfl⟩
abbrev main_call9_cst_2 : Ref sig .tc := ⟨.hbm, 836, rfl⟩
abbrev main_call9_v9 : Ref sig .tc := ⟨.hbm, 837, rfl⟩
abbrev main_call9_v10 : Ref sig .tc := ⟨.hbm, 838, rfl⟩
abbrev main_call9_v11 : Ref sig .tc := ⟨.hbm, 839, rfl⟩
abbrev main_call9_v12 : Ref sig .tc := ⟨.hbm, 840, rfl⟩
abbrev main_call9_cst_3 : Ref sig .tc := ⟨.hbm, 841, rfl⟩
abbrev main_call9_v13 : Ref sig .tc := ⟨.hbm, 842, rfl⟩
abbrev main_call9_cst_4 : Ref sig .tc := ⟨.hbm, 843, rfl⟩
abbrev main_call9_call0_v0 : Ref sig .tc := ⟨.hbm, 844, rfl⟩
abbrev main_call9_call0_v1 : Ref sig .tc := ⟨.hbm, 845, rfl⟩
abbrev main_v630 : Ref sig .tc := ⟨.hbm, 846, rfl⟩
abbrev main_v631 : Ref sig .tc := ⟨.hbm, 847, rfl⟩
abbrev main_v632 : Ref sig .tc := ⟨.hbm, 848, rfl⟩
abbrev main_v633 : Ref sig .tc := ⟨.hbm, 849, rfl⟩
abbrev main_v634 : Ref sig .tc := ⟨.hbm, 850, rfl⟩
abbrev main_v635 : Ref sig .tc := ⟨.hbm, 851, rfl⟩
abbrev main_cst_109 : Ref sig .tc := ⟨.hbm, 852, rfl⟩
abbrev main_v636 : Ref sig .tc := ⟨.hbm, 853, rfl⟩
abbrev main_v637 : Ref sig .tc := ⟨.hbm, 854, rfl⟩
abbrev main_v638 : Ref sig .tc := ⟨.hbm, 855, rfl⟩
abbrev main_v639 : Ref sig .tc := ⟨.hbm, 856, rfl⟩
abbrev main_v640 : Ref sig .tc := ⟨.hbm, 857, rfl⟩
abbrev main_v641 : Ref sig .tc := ⟨.hbm, 858, rfl⟩
abbrev main_v642 : Ref sig .tc := ⟨.hbm, 859, rfl⟩
abbrev main_v643 : Ref sig .tc := ⟨.hbm, 860, rfl⟩
abbrev main_cst_110 : Ref sig .tc := ⟨.hbm, 861, rfl⟩
abbrev main_v644 : Ref sig .tc := ⟨.hbm, 862, rfl⟩
abbrev main_cst_111 : Ref sig .tc := ⟨.hbm, 863, rfl⟩
abbrev main_v645 : Ref sig .tc := ⟨.hbm, 864, rfl⟩
abbrev main_v646 : Ref sig .tc := ⟨.hbm, 865, rfl⟩
abbrev main_v647 : Ref sig .tc := ⟨.hbm, 866, rfl⟩
abbrev main_v648 : Ref sig .tc := ⟨.hbm, 867, rfl⟩
abbrev main_v649 : Ref sig .tc := ⟨.hbm, 868, rfl⟩
abbrev main_v650 : Ref sig .tc := ⟨.hbm, 869, rfl⟩
abbrev main_v651 : Ref sig .tc := ⟨.hbm, 870, rfl⟩
abbrev main_v652 : Ref sig .tc := ⟨.hbm, 871, rfl⟩
abbrev main_v653 : Ref sig .tc := ⟨.hbm, 872, rfl⟩
abbrev main_v654 : Ref sig .tc := ⟨.hbm, 873, rfl⟩
abbrev main_v655 : Ref sig .tc := ⟨.hbm, 874, rfl⟩
abbrev main_v656 : Ref sig .tc := ⟨.hbm, 875, rfl⟩
abbrev main_v657 : Ref sig .tc := ⟨.hbm, 876, rfl⟩
abbrev main_v658 : Ref sig .tc := ⟨.hbm, 877, rfl⟩
abbrev main_v659 : Ref sig .tc := ⟨.hbm, 878, rfl⟩
abbrev main_v660 : Ref sig .tc := ⟨.hbm, 879, rfl⟩
abbrev main_v661 : Ref sig .tc := ⟨.hbm, 880, rfl⟩
abbrev main_v662 : Ref sig .tc := ⟨.hbm, 881, rfl⟩
abbrev main_cst_112 : Ref sig .tc := ⟨.hbm, 882, rfl⟩
abbrev main_v663 : Ref sig .tc := ⟨.hbm, 883, rfl⟩
abbrev main_v664 : Ref sig .tc := ⟨.hbm, 884, rfl⟩
abbrev main_cst_113 : Ref sig .tc := ⟨.hbm, 885, rfl⟩
abbrev main_v665 : Ref sig .tc := ⟨.hbm, 886, rfl⟩
abbrev main_v666 : Ref sig .tc := ⟨.hbm, 887, rfl⟩
abbrev main_v667 : Ref sig .tc := ⟨.hbm, 888, rfl⟩
abbrev main_v668 : Ref sig .tc := ⟨.hbm, 889, rfl⟩
abbrev main_v669 : Ref sig .tc := ⟨.hbm, 890, rfl⟩
abbrev main_cst_114 : Ref sig .tc := ⟨.hbm, 891, rfl⟩
abbrev main_v670 : Ref sig .tc := ⟨.hbm, 892, rfl⟩
abbrev main_v671 : Ref sig .tc := ⟨.hbm, 893, rfl⟩
abbrev main_cst_115 : Ref sig .tc := ⟨.hbm, 894, rfl⟩
abbrev main_v672 : Ref sig .tc := ⟨.hbm, 895, rfl⟩
abbrev main_v673 : Ref sig .tc := ⟨.hbm, 896, rfl⟩
abbrev main_v674 : Ref sig .tc := ⟨.hbm, 897, rfl⟩
abbrev main_v675 : Ref sig .tc := ⟨.hbm, 898, rfl⟩
abbrev main_v676 : Ref sig .tc := ⟨.hbm, 899, rfl⟩
abbrev main_v677 : Ref sig .tc := ⟨.hbm, 900, rfl⟩
abbrev main_v678 : Ref sig .tc := ⟨.hbm, 901, rfl⟩
abbrev main_cst_116 : Ref sig .tc := ⟨.hbm, 902, rfl⟩
abbrev main_v679 : Ref sig .tc := ⟨.hbm, 903, rfl⟩
abbrev main_v680 : Ref sig .tc := ⟨.hbm, 904, rfl⟩
abbrev main_cst_117 : Ref sig .tc := ⟨.hbm, 905, rfl⟩
abbrev main_v681 : Ref sig .tc := ⟨.hbm, 906, rfl⟩
abbrev main_v682 : Ref sig .tc := ⟨.hbm, 907, rfl⟩
abbrev main_v683 : Ref sig .tc := ⟨.hbm, 908, rfl⟩
abbrev main_v684 : Ref sig .tc := ⟨.hbm, 909, rfl⟩
abbrev main_v685 : Ref sig .tc := ⟨.hbm, 910, rfl⟩
abbrev main_v686 : Ref sig .tc := ⟨.hbm, 911, rfl⟩
abbrev main_v687 : Ref sig .tc := ⟨.hbm, 912, rfl⟩
abbrev main_v688 : Ref sig .tc := ⟨.hbm, 913, rfl⟩
abbrev main_v689 : Ref sig .tc := ⟨.hbm, 914, rfl⟩
abbrev main_v690 : Ref sig .tc := ⟨.hbm, 915, rfl⟩
abbrev main_v691 : Ref sig .tc := ⟨.hbm, 916, rfl⟩
abbrev main_v692 : Ref sig .tc := ⟨.hbm, 917, rfl⟩
abbrev main_v693 : Ref sig .tc := ⟨.hbm, 918, rfl⟩
abbrev main_v694 : Ref sig .tc := ⟨.hbm, 919, rfl⟩
abbrev main_v695 : Ref sig .tc := ⟨.hbm, 920, rfl⟩
abbrev main_v696 : Ref sig .tc := ⟨.hbm, 921, rfl⟩
abbrev main_v697 : Ref sig .tc := ⟨.hbm, 922, rfl⟩
abbrev main_v698 : Ref sig .tc := ⟨.hbm, 923, rfl⟩
abbrev main_v699 : Ref sig .tc := ⟨.hbm, 924, rfl⟩
abbrev main_v700 : Ref sig .tc := ⟨.hbm, 925, rfl⟩
abbrev main_v701 : Ref sig .tc := ⟨.hbm, 926, rfl⟩
abbrev main_v702 : Ref sig .tc := ⟨.hbm, 927, rfl⟩
abbrev main_v703 : Ref sig .tc := ⟨.hbm, 928, rfl⟩
abbrev main_v704 : Ref sig .tc := ⟨.hbm, 929, rfl⟩
abbrev main_cst_118 : Ref sig .tc := ⟨.hbm, 930, rfl⟩
abbrev main_v705 : Ref sig .tc := ⟨.hbm, 931, rfl⟩
abbrev main_v706 : Ref sig .tc := ⟨.hbm, 932, rfl⟩
abbrev main_cst_119 : Ref sig .tc := ⟨.hbm, 933, rfl⟩
abbrev main_v707 : Ref sig .tc := ⟨.hbm, 934, rfl⟩
abbrev main_v708 : Ref sig .tc := ⟨.hbm, 935, rfl⟩
abbrev main_v709 : Ref sig .tc := ⟨.hbm, 936, rfl⟩
abbrev main_v710 : Ref sig .tc := ⟨.hbm, 937, rfl⟩
abbrev main_v711 : Ref sig .tc := ⟨.hbm, 938, rfl⟩
abbrev main_cst_120 : Ref sig .tc := ⟨.hbm, 939, rfl⟩
abbrev main_v712 : Ref sig .tc := ⟨.hbm, 940, rfl⟩
abbrev main_v713 : Ref sig .tc := ⟨.hbm, 941, rfl⟩
abbrev main_cst_121 : Ref sig .tc := ⟨.hbm, 942, rfl⟩
abbrev main_v714 : Ref sig .tc := ⟨.hbm, 943, rfl⟩
abbrev main_v715 : Ref sig .tc := ⟨.hbm, 944, rfl⟩
abbrev main_v716 : Ref sig .tc := ⟨.hbm, 945, rfl⟩
abbrev main_v717 : Ref sig .tc := ⟨.hbm, 946, rfl⟩
abbrev main_v718 : Ref sig .tc := ⟨.hbm, 947, rfl⟩
abbrev main_v719 : Ref sig .tc := ⟨.hbm, 948, rfl⟩
abbrev main_v720 : Ref sig .tc := ⟨.hbm, 949, rfl⟩
abbrev main_cst_122 : Ref sig .tc := ⟨.hbm, 950, rfl⟩
abbrev main_v721 : Ref sig .tc := ⟨.hbm, 951, rfl⟩
abbrev main_v722 : Ref sig .tc := ⟨.hbm, 952, rfl⟩
abbrev main_cst_123 : Ref sig .tc := ⟨.hbm, 953, rfl⟩
abbrev main_v723 : Ref sig .tc := ⟨.hbm, 954, rfl⟩
abbrev main_v724 : Ref sig .tc := ⟨.hbm, 955, rfl⟩
abbrev main_v725 : Ref sig .tc := ⟨.hbm, 956, rfl⟩
abbrev main_v726 : Ref sig .tc := ⟨.hbm, 957, rfl⟩
abbrev main_v727 : Ref sig .tc := ⟨.hbm, 958, rfl⟩
abbrev main_v728 : Ref sig .tc := ⟨.hbm, 959, rfl⟩
abbrev main_v729 : Ref sig .tc := ⟨.hbm, 960, rfl⟩
abbrev main_v730 : Ref sig .tc := ⟨.hbm, 961, rfl⟩
abbrev main_v731 : Ref sig .tc := ⟨.hbm, 962, rfl⟩
abbrev main_v732 : Ref sig .tc := ⟨.hbm, 963, rfl⟩
abbrev main_v733 : Ref sig .tc := ⟨.hbm, 964, rfl⟩
abbrev main_v734 : Ref sig .tc := ⟨.hbm, 965, rfl⟩
abbrev main_v735 : Ref sig .tc := ⟨.hbm, 966, rfl⟩
abbrev main_v736 : Ref sig .tc := ⟨.hbm, 967, rfl⟩
abbrev main_v737 : Ref sig .tc := ⟨.hbm, 968, rfl⟩
abbrev main_v738 : Ref sig .tc := ⟨.hbm, 969, rfl⟩
abbrev main_v739 : Ref sig .tc := ⟨.hbm, 970, rfl⟩
abbrev main_v740 : Ref sig .tc := ⟨.hbm, 971, rfl⟩
abbrev main_v741 : Ref sig .tc := ⟨.hbm, 972, rfl⟩
abbrev main_v742 : Ref sig .tc := ⟨.hbm, 973, rfl⟩
abbrev main_v743 : Ref sig .tc := ⟨.hbm, 974, rfl⟩
abbrev main_v744 : Ref sig .tc := ⟨.hbm, 975, rfl⟩
abbrev main_v745 : Ref sig .tc := ⟨.hbm, 976, rfl⟩
abbrev main_v746 : Ref sig .tc := ⟨.hbm, 977, rfl⟩
abbrev main_cst_124 : Ref sig .tc := ⟨.hbm, 978, rfl⟩
abbrev main_v747 : Ref sig .tc := ⟨.hbm, 979, rfl⟩
abbrev main_v748 : Ref sig .tc := ⟨.hbm, 980, rfl⟩
abbrev main_cst_125 : Ref sig .tc := ⟨.hbm, 981, rfl⟩
abbrev main_v749 : Ref sig .tc := ⟨.hbm, 982, rfl⟩
abbrev main_v750 : Ref sig .tc := ⟨.hbm, 983, rfl⟩
abbrev main_v751 : Ref sig .tc := ⟨.hbm, 984, rfl⟩
abbrev main_v752 : Ref sig .tc := ⟨.hbm, 985, rfl⟩
abbrev main_v753 : Ref sig .tc := ⟨.hbm, 986, rfl⟩
abbrev main_cst_126 : Ref sig .tc := ⟨.hbm, 987, rfl⟩
abbrev main_v754 : Ref sig .tc := ⟨.hbm, 988, rfl⟩
abbrev main_v755 : Ref sig .tc := ⟨.hbm, 989, rfl⟩
abbrev main_cst_127 : Ref sig .tc := ⟨.hbm, 990, rfl⟩
abbrev main_v756 : Ref sig .tc := ⟨.hbm, 991, rfl⟩
abbrev main_v757 : Ref sig .tc := ⟨.hbm, 992, rfl⟩
abbrev main_v758 : Ref sig .tc := ⟨.hbm, 993, rfl⟩
abbrev main_v759 : Ref sig .tc := ⟨.hbm, 994, rfl⟩
abbrev main_v760 : Ref sig .tc := ⟨.hbm, 995, rfl⟩
abbrev main_v761 : Ref sig .tc := ⟨.hbm, 996, rfl⟩
abbrev main_v762 : Ref sig .tc := ⟨.hbm, 997, rfl⟩
abbrev main_cst_128 : Ref sig .tc := ⟨.hbm, 998, rfl⟩
abbrev main_v763 : Ref sig .tc := ⟨.hbm, 999, rfl⟩
abbrev main_v764 : Ref sig .tc := ⟨.hbm, 1000, rfl⟩
abbrev main_cst_129 : Ref sig .tc := ⟨.hbm, 1001, rfl⟩
abbrev main_v765 : Ref sig .tc := ⟨.hbm, 1002, rfl⟩
abbrev main_v766 : Ref sig .tc := ⟨.hbm, 1003, rfl⟩
abbrev main_v767 : Ref sig .tc := ⟨.hbm, 1004, rfl⟩
abbrev main_v768 : Ref sig .tc := ⟨.hbm, 1005, rfl⟩
abbrev main_v769 : Ref sig .tc := ⟨.hbm, 1006, rfl⟩
abbrev main_v770 : Ref sig .tc := ⟨.hbm, 1007, rfl⟩
abbrev main_v771 : Ref sig .tc := ⟨.hbm, 1008, rfl⟩
abbrev main_v772 : Ref sig .tc := ⟨.hbm, 1009, rfl⟩
abbrev main_v773 : Ref sig .tc := ⟨.hbm, 1010, rfl⟩
abbrev main_v774 : Ref sig .tc := ⟨.hbm, 1011, rfl⟩
abbrev main_v775 : Ref sig .tc := ⟨.hbm, 1012, rfl⟩
abbrev main_v776 : Ref sig .tc := ⟨.hbm, 1013, rfl⟩
abbrev main_v777 : Ref sig .tc := ⟨.hbm, 1014, rfl⟩
abbrev main_v778 : Ref sig .tc := ⟨.hbm, 1015, rfl⟩
abbrev main_v779 : Ref sig .tc := ⟨.hbm, 1016, rfl⟩
abbrev main_v780 : Ref sig .tc := ⟨.hbm, 1017, rfl⟩
abbrev main_v781 : Ref sig .tc := ⟨.hbm, 1018, rfl⟩
abbrev main_v782 : Ref sig .tc := ⟨.hbm, 1019, rfl⟩
abbrev main_v783 : Ref sig .tc := ⟨.hbm, 1020, rfl⟩
abbrev main_v784 : Ref sig .tc := ⟨.hbm, 1021, rfl⟩
abbrev main_v785 : Ref sig .tc := ⟨.hbm, 1022, rfl⟩
abbrev main_v786 : Ref sig .tc := ⟨.hbm, 1023, rfl⟩
abbrev main_v787 : Ref sig .tc := ⟨.hbm, 1024, rfl⟩
abbrev main_v788 : Ref sig .tc := ⟨.hbm, 1025, rfl⟩
abbrev main_cst_130 : Ref sig .tc := ⟨.hbm, 1026, rfl⟩
abbrev main_v789 : Ref sig .tc := ⟨.hbm, 1027, rfl⟩
abbrev main_v790 : Ref sig .tc := ⟨.hbm, 1028, rfl⟩
abbrev main_cst_131 : Ref sig .tc := ⟨.hbm, 1029, rfl⟩
abbrev main_v791 : Ref sig .tc := ⟨.hbm, 1030, rfl⟩
abbrev main_v792 : Ref sig .tc := ⟨.hbm, 1031, rfl⟩
abbrev main_v793 : Ref sig .tc := ⟨.hbm, 1032, rfl⟩
abbrev main_v794 : Ref sig .tc := ⟨.hbm, 1033, rfl⟩
abbrev main_v795 : Ref sig .tc := ⟨.hbm, 1034, rfl⟩
abbrev main_cst_132 : Ref sig .tc := ⟨.hbm, 1035, rfl⟩
abbrev main_v796 : Ref sig .tc := ⟨.hbm, 1036, rfl⟩
abbrev main_v797 : Ref sig .tc := ⟨.hbm, 1037, rfl⟩
abbrev main_cst_133 : Ref sig .tc := ⟨.hbm, 1038, rfl⟩
abbrev main_v798 : Ref sig .tc := ⟨.hbm, 1039, rfl⟩
abbrev main_v799 : Ref sig .tc := ⟨.hbm, 1040, rfl⟩
abbrev main_v800 : Ref sig .tc := ⟨.hbm, 1041, rfl⟩
abbrev main_v801 : Ref sig .tc := ⟨.hbm, 1042, rfl⟩
abbrev main_v802 : Ref sig .tc := ⟨.hbm, 1043, rfl⟩
abbrev main_v803 : Ref sig .tc := ⟨.hbm, 1044, rfl⟩
abbrev main_v804 : Ref sig .tc := ⟨.hbm, 1045, rfl⟩
abbrev main_cst_134 : Ref sig .tc := ⟨.hbm, 1046, rfl⟩
abbrev main_v805 : Ref sig .tc := ⟨.hbm, 1047, rfl⟩
abbrev main_v806 : Ref sig .tc := ⟨.hbm, 1048, rfl⟩
abbrev main_cst_135 : Ref sig .tc := ⟨.hbm, 1049, rfl⟩
abbrev main_v807 : Ref sig .tc := ⟨.hbm, 1050, rfl⟩
abbrev main_v808 : Ref sig .tc := ⟨.hbm, 1051, rfl⟩
abbrev main_v809 : Ref sig .tc := ⟨.hbm, 1052, rfl⟩
abbrev main_v810 : Ref sig .tc := ⟨.hbm, 1053, rfl⟩
abbrev main_v811 : Ref sig .tc := ⟨.hbm, 1054, rfl⟩
abbrev main_v812 : Ref sig .tc := ⟨.hbm, 1055, rfl⟩
abbrev main_v813 : Ref sig .tc := ⟨.hbm, 1056, rfl⟩
abbrev main_v814 : Ref sig .tc := ⟨.hbm, 1057, rfl⟩
abbrev main_cst_136 : Ref sig .tc := ⟨.hbm, 1058, rfl⟩
abbrev main_v815 : Ref sig .tc := ⟨.hbm, 1059, rfl⟩

abbrev nD : Nat := 1
abbrev τ : Topo := Topo.v7x

variable {F : FTy → Type} [FloatOps F]

class Facts₀ : Prop where
  slices_S1024x2_S1024x1_0_0 : S1024x2.Slices ![0, 0] S1024x1
  shapeCasts_S1024x1_S1024 : S1024x1.ShapeCasts S1024
  slices_S1024x64x2_S1024x64x1_0_0_0 : S1024x64x2.Slices ![0, 0, 0] S1024x64x1
  shapeCasts_S1024x64x1_S1024x64 : S1024x64x1.ShapeCasts S1024x64
  bcast_S_S1024x64 : S_.BroadcastsInDim S1024x64 (![] : Fin 0 → Fin S1024x64.rank)
  bcast_S1024x64_S1024x64x1_0_1 : S1024x64.BroadcastsInDim S1024x64x1 (![0, 1] : Fin 2 → Fin S1024x64x1.rank)
  slices_S1024x64x2_S1024x64x1_0_0_1 : S1024x64x2.Slices ![0, 0, 1] S1024x64x1
  concatenates_S1024x64x128_S1024x64x128_S1024x64x256_d2 : Shape.Concatenates [S1024x64x128, S1024x64x128] S1024x64x256 2
  bcast_S128_S1x1x128_2 : S128.BroadcastsInDim S1x1x128 (![2] : Fin 1 → Fin S1x1x128.rank)
  bcast_S1x1x128_S1024x64x128_0_1_2 : S1x1x128.BroadcastsInDim S1024x64x128 (![0, 1, 2] : Fin 3 → Fin S1024x64x128.rank)
  bcast_S_S1024x64x128 : S_.BroadcastsInDim S1024x64x128 (![] : Fin 0 → Fin S1024x64x128.rank)
  bcast_S1_S1x1x1_2 : S1.BroadcastsInDim S1x1x1 (![2] : Fin 1 → Fin S1x1x1.rank)
  bcast_S1x1x1_S1024x64x1_0_1_2 : S1x1x1.BroadcastsInDim S1024x64x1 (![0, 1, 2] : Fin 3 → Fin S1024x64x1.rank)
  reducesTo_S1024x64x1_S1024x1_d1 : S1024x64x1.ReducesTo [1] S1024x1
  h_S_ : 0 < S_.numel
  bcast_S_S1024x1 : S_.BroadcastsInDim S1024x1 (![] : Fin 0 → Fin S1024x1.rank)
  bcast_S1024x1_S1024x1x1_0_2 : S1024x1.BroadcastsInDim S1024x1x1 (![0, 2] : Fin 2 → Fin S1024x1x1.rank)
  bcast_S1024x1x1_S1024x64x1_0_1_2 : S1024x1x1.BroadcastsInDim S1024x64x1 (![0, 1, 2] : Fin 3 → Fin S1024x64x1.rank)
  bcast_S1024x64x1_S1024x64x128_0_1_2 : S1024x64x1.BroadcastsInDim S1024x64x128 (![0, 1, 2] : Fin 3 → Fin S1024x64x128.rank)
  reducesTo_S1024x64x128_S1024x128_d1 : S1024x64x128.ReducesTo [1] S1024x128
  transposes_S1x128_S128x1_1_0 : S1x128.Transposes [1, 0] S128x1
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  bcast_S1024x1_S1024x128_0_1 : S1024x1.BroadcastsInDim S1024x128 (![0, 1] : Fin 2 → Fin S1024x128.rank)
  bcast_S_S1024 : S_.BroadcastsInDim S1024 (![] : Fin 0 → Fin S1024.rank)
  bcast_S1024_S1024x1_0 : S1024.BroadcastsInDim S1024x1 (![0] : Fin 1 → Fin S1024x1.rank)
  bcast_S_S1024x128 : S_.BroadcastsInDim S1024x128 (![] : Fin 0 → Fin S1024x128.rank)
  slices_S1024x2_S1024x1_0_1 : S1024x2.Slices ![0, 1] S1024x1
  concatenates_S1024x128_S1024x128_S1024x256_d1 : Shape.Concatenates [S1024x128, S1024x128] S1024x256 1
  transposes_S512x256_S256x512_1_0 : S512x256.Transposes [1, 0] S256x512
  bcast_S512_S1x512_1 : S512.BroadcastsInDim S1x512 (![1] : Fin 1 → Fin S1x512.rank)
  bcast_S1x512_S1024x512_0_1 : S1x512.BroadcastsInDim S1024x512 (![0, 1] : Fin 2 → Fin S1024x512.rank)
  bcast_S_S1024x512 : S_.BroadcastsInDim S1024x512 (![] : Fin 0 → Fin S1024x512.rank)
  transposes_S256x512_S512x256_1_0 : S256x512.Transposes [1, 0] S512x256
  bcast_S256_S1x256_1 : S256.BroadcastsInDim S1x256 (![1] : Fin 1 → Fin S1x256.rank)
  bcast_S1x256_S1024x256_0_1 : S1x256.BroadcastsInDim S1024x256 (![0, 1] : Fin 2 → Fin S1024x256.rank)
  reducesTo_S1024x256_S1024_d1 : S1024x256.ReducesTo [1] S1024
  bcast_S1024x1_S1024x256_0_1 : S1024x1.BroadcastsInDim S1024x256 (![0, 1] : Fin 2 → Fin S1024x256.rank)
  transposes_S2048x256_S256x2048_1_0 : S2048x256.Transposes [1, 0] S256x2048
  bcast_S2048_S1x2048_1 : S2048.BroadcastsInDim S1x2048 (![1] : Fin 1 → Fin S1x2048.rank)
  bcast_S1x2048_S1024x2048_0_1 : S1x2048.BroadcastsInDim S1024x2048 (![0, 1] : Fin 2 → Fin S1024x2048.rank)
  transposes_S2048x512_S512x2048_1_0 : S2048x512.Transposes [1, 0] S512x2048
  slices_S1024x2048_S1024x512_0_0 : S1024x2048.Slices ![0, 0] S1024x512
  slices_S1024x2048_S1024x512_0_512 : S1024x2048.Slices ![0, 512] S1024x512
  slices_S1024x2048_S1024x512_0_1024 : S1024x2048.Slices ![0, 1024] S1024x512
  slices_S1024x2048_S1024x512_0_1536 : S1024x2048.Slices ![0, 1536] S1024x512
  slices_S1024x512_S1024x256_0_0 : S1024x512.Slices ![0, 0] S1024x256
  concatenates_S1024x256_S1024x256_S1024x512_d1 : Shape.Concatenates [S1024x256, S1024x256] S1024x512 1
  gather_S100001x128_S1024x64x1_S1024x64x128_2_0_n_n_0_2_1128_wf : GatherDims.WF S100001x128 S1024x64x1 S1024x64x128 [2] [0] [] [0] [] 2 ![1, 128]
  dot_S1024x64x256_S128x256_S1024x64x128_2_1_01_0_n_n_wf : DotDims.WF S1024x64x256 S128x256 S1024x64x128 [2] [1] [0, 1] [0] [] []
  dot_S1024x64x128_S1x128_S1024x64x1_2_1_01_0_n_n_wf : DotDims.WF S1024x64x128 S1x128 S1024x64x1 [2] [1] [0, 1] [0] [] []
  dot_S1024x128_S128x1_S1024x1_1_0_0_1_n_n_wf : DotDims.WF S1024x128 S128x1 S1024x1 [1] [0] [0] [1] [] []
  gather_S100001x128_S1024x1_S1024x128_1_0_n_n_0_1_1128_wf : GatherDims.WF S100001x128 S1024x1 S1024x128 [1] [0] [] [0] [] 1 ![1, 128]
  dot_S1024x256_S256x512_S1024x512_1_0_0_1_n_n_wf : DotDims.WF S1024x256 S256x512 S1024x512 [1] [0] [0] [1] [] []
  dot_S1024x512_S512x256_S1024x256_1_0_0_1_n_n_wf : DotDims.WF S1024x512 S512x256 S1024x256 [1] [0] [0] [1] [] []
  dot_S1024x256_S256x2048_S1024x2048_1_0_0_1_n_n_wf : DotDims.WF S1024x256 S256x2048 S1024x2048 [1] [0] [0] [1] [] []
  dot_S1024x512_S512x2048_S1024x2048_1_0_0_1_n_n_wf : DotDims.WF S1024x512 S512x2048 S1024x2048 [1] [0] [0] [1] [] []

variable [Facts₀]

def gather_S100001x128_S1024x64x1_S1024x64x128_2_0_n_n_0_2_1128 : GatherDims S100001x128 S1024x64x1 S1024x64x128 where
  offsetDims := [2]
  collapsedSliceDims := [0]
  operandBatchingDims := []
  startIndicesBatchingDims := []
  startIndexMap := [0]
  indexVectorDim := 2
  sliceSizes := ![1, 128]
  wf := gather_S100001x128_S1024x64x1_S1024x64x128_2_0_n_n_0_2_1128_wf
def dot_S1024x64x256_S128x256_S1024x64x128_2_1_01_0_n_n : DotDims S1024x64x256 S128x256 S1024x64x128 where
  lhsContracting := [2]
  rhsContracting := [1]
  lhsNonContracting := [0, 1]
  rhsNonContracting := [0]
  lhsBatch := []
  rhsBatch := []
  wf := dot_S1024x64x256_S128x256_S1024x64x128_2_1_01_0_n_n_wf
def dot_S1024x64x128_S1x128_S1024x64x1_2_1_01_0_n_n : DotDims S1024x64x128 S1x128 S1024x64x1 where
  lhsContracting := [2]
  rhsContracting := [1]
  lhsNonContracting := [0, 1]
  rhsNonContracting := [0]
  lhsBatch := []
  rhsBatch := []
  wf := dot_S1024x64x128_S1x128_S1024x64x1_2_1_01_0_n_n_wf
def dot_S1024x128_S128x1_S1024x1_1_0_0_1_n_n : DotDims S1024x128 S128x1 S1024x1 where
  lhsContracting := [1]
  rhsContracting := [0]
  lhsNonContracting := [0]
  rhsNonContracting := [1]
  lhsBatch := []
  rhsBatch := []
  wf := dot_S1024x128_S128x1_S1024x1_1_0_0_1_n_n_wf
def gather_S100001x128_S1024x1_S1024x128_1_0_n_n_0_1_1128 : GatherDims S100001x128 S1024x1 S1024x128 where
  offsetDims := [1]
  collapsedSliceDims := [0]
  operandBatchingDims := []
  startIndicesBatchingDims := []
  startIndexMap := [0]
  indexVectorDim := 1
  sliceSizes := ![1, 128]
  wf := gather_S100001x128_S1024x1_S1024x128_1_0_n_n_0_1_1128_wf
def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S1024x256_S256x2048_S1024x2048_1_0_0_1_n_n : DotDims S1024x256 S256x2048 S1024x2048 where
  lhsContracting := [1]
  rhsContracting := [0]
  lhsNonContracting := [0]
  rhsNonContracting := [1]
  lhsBatch := []
  rhsBatch := []
  wf := dot_S1024x256_S256x2048_S1024x2048_1_0_0_1_n_n_wf
def dot_S1024x512_S512x2048_S1024x2048_1_0_0_1_n_n : DotDims S1024x512 S512x2048 S1024x2048 where
  lhsContracting := [1]
  rhsContracting := [0]
  lhsNonContracting := [0]
  rhsNonContracting := [1]
  lhsBatch := []
  rhsBatch := []
  wf := dot_S1024x512_S512x2048_S1024x2048_1_0_0_1_n_n_wf

class Facts : Prop extends Facts₀ where

variable [Facts]
-- ==== Proof.KPay.lean ====
import proofs.«427183_j33938831573494_3_alg».proof.Proof.Gen.Kernel.Skeleton

noncomputable section

namespace Cert.Kernel.Hand

open Cert.Kernel Cert.Kernel.Gen Idealize.ShloMosaic

variable {F : FTy → Type} [FloatOps F]

def pay0 (rel ent : Vec F S128x64x128 .bf16) (self : Vec F S128x128 .f32) (wt : Vec F S256x128 .bf16)
    (pbias aw : Vec F S128 .f32) (ab : Vec F S1x1 .f32) (gw : Vec F S128 .f32) (gb : Vec F S1x1 .f32) :
    FVec F S128x128 .f32 :=
  k0_pay1 (k0_pay2 rel ent wt pbias) (k0_pay3 rel ent wt pbias aw ab) gw gb self

def pay1 (n0 n1 n2 n3 n4 n5 n6 n7 : Vec F S1x128x128 .f32) (w1 : Vec F S256x512 .bf16) (b1 : Vec F S512 .f32)
    (w2 : Vec F S512x256 .bf16) (b2 lg lb : Vec F S256 .f32) (wih whh whs : Vec F S256x2048 .bf16)
    (bih bhh : Vec F S2048 .f32) : FVec F S128 .f32 :=
  let v28 := k1_pay2 n0 n1 n2 n3
  let v29 := k1_pay3 n4 n5 n6 n7
  let v30 := k1_pay4 n4 n5 n6 n7
  let v72 := k1_pay5 v29 v30 w1 b1 w2 b2 lg lb
  let v73 := k1_pay6 v28
  let v74 := k1_pay7 v29 v30 w1 b1 w2 b2 lg lb
  k1_pay1 v28 v72 (k1_pay8 whh) (k1_pay10 v73 v74 wih whs bih bhh)
    (k1_pay13 v28 v73 v74 wih whh whs bih bhh) (k1_pay14 v28 v73 v74 wih whh whs bih bhh)
    (k1_pay15 v28 v73 v74 wih whh whs bih bhh)

end Cert.Kernel.Hand

end
-- ==== Proof.KBody0.lean ====
import proofs.«427183_j33938831573494_3_alg».proof.Proof.KPay
import proofs.«427183_j33938831573494_3_alg».proof.Proof.Gen.Kernel.Launch
import proofs.«427183_j33938831573494_3_alg».proof.Proof.Gen.Kernel.Skeleton
import proofs.«427183_j33938831573494_3_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

abbrev rA : Rect S128x64x128 := Rect.unit (s := S128x64x128) ![0, 0, 0] S128x64x128.size inb_S128x64x128_S128x64x128_0_0_0

abbrev rB : Rect S128x128 := Rect.unit (s := S128x128) ![0, 0] S128x128.size inb_S128x128_S128x128_0_0

abbrev rC : Rect S256x128 := Rect.unit (s := S256x128) ![0, 0] S256x128.size inb_S256x128_S256x128_0_0

abbrev rD : Rect S128 := Rect.unit (s := S128) ![0] S128.size inb_S128_S128_0

abbrev rE : Rect S1x1 := Rect.unit (s := S1x1) ![0, 0] S1x1.size inb_S1x1_S1x1_0_0

def out0_9 (x0 x1 : Vec F S128x64x128 .bf16) (x2 : Vec F S128x128 .f32) (x3 : Vec F S256x128 .bf16) (x4 x5 : Vec F S128 .f32) (x6 : Vec F S1x1 .f32)
    (x7 : Vec F S128 .f32) (x8 : Vec F S1x1 .f32) : Vec F S128x128 .f32 :=
  View.canon [⟨rB, pay0 (View.ld x0 rA) (View.ld x1 rA) (View.ld x2 rB) (View.ld x3 rC) (View.ld x4 rD) (View.ld x5 rD) (View.ld x6 rE)
    (View.ld x7 rD) (View.ld x8 rE)⟩]

theorem out0_9_eq (x0 x1 : Vec F S128x64x128 .bf16) (x2 : Vec F S128x128 .f32) (x3 : Vec F S256x128 .bf16) (x4 x5 : Vec F S128 .f32) (x6 : Vec F S1x1 .f32)
    (x7 : Vec F S128 .f32) (x8 : Vec F S1x1 .f32) : out0_9 x0 x1 x2 x3 x4 x5 x6 x7 x8 = pay0 x0 x1 x2 x3 x4 x5 x6 x7 x8 := by
  unfold out0_9
  rw [View.canon_unit_zero (by funext a; fin_cases a <;> rfl)]
  rw [View.ld_unit_zero (S := S128x64x128) (by funext a; fin_cases a <;> rfl) _ x0,
    View.ld_unit_zero (S := S128x64x128) (by funext a; fin_cases a <;> rfl) _ x1,
    View.ld_unit_zero (S := S128x128) (by funext a; fin_cases a <;> rfl) _ x2,
    View.ld_unit_zero (S := S256x128) (by funext a; fin_cases a <;> rfl) _ x3,
    View.ld_unit_zero (S := S128) (by funext a; fin_cases a <;> rfl) _ x4,
    View.ld_unit_zero (S := S128) (by funext a; fin_cases a <;> rfl) _ x5,
    View.ld_unit_zero (S := S1x1) (by funext a; fin_cases a <;> rfl) _ x6,
    View.ld_unit_zero (S := S128) (by funext a; fin_cases a <;> rfl) _ x7,
    View.ld_unit_zero (S := S1x1) (by funext a; fin_cases a <;> rfl) _ x8]

theorem cover0_9 (p0 : Vec F S128x128 .f32) (y : S128x128.Idx) :
    ∃ pc ∈ ([⟨rB, p0⟩] : List (View.Piece (Elt F) S128x128 .f32)), y ∈ pc.1.set :=
  View.cover_of_tiled [⟨rB, p0⟩] S128x128.size (by rfl) y

set_option maxHeartbeats 1000000 in

theorem sound_kernel0 (c : Dev nD) (E : Set ℕ) (i : grid0.Coords) (arg1 : Memref sig .tc .vmem S128x64x128 .bf16) (harg1 : arg1.IsWhole) (arg2 : Memref sig .tc .vmem S128x64x128 .bf16) (harg2 : arg2.IsWhole) (arg3 : Memref sig .tc .vmem S128x128 .f32) (harg3 : arg3.IsWhole) (arg4 : Memref sig .tc .vmem S256x128 .bf16) (harg4 : arg4.IsWhole) (arg5 : Memref sig .tc .vmem S128 .f32) (harg5 : arg5.IsWhole) (arg6 : Memref sig .tc .vmem S128 .f32) (harg6 : arg6.IsWhole) (arg7 : Memref sig .tc .vmem S1x1 .f32) (harg7 : arg7.IsWhole) (arg8 : Memref sig .tc .vmem S128 .f32) (harg8 : arg8.IsWhole) (arg9 : Memref sig .tc .vmem S1x1 .f32) (harg9 : arg9.IsWhole) (arg10 : Memref sig .tc .vmem S128x128 .f32) (harg10 : arg10.IsWhole)
    (x0 x1 : Vec F S128x64x128 .bf16) (x2 : Vec F S128x128 .f32) (x3 : Vec F S256x128 .bf16) (x4 x5 : Vec F S128 .f32) (x6 : Vec F S1x1 .f32)
    (x7 : Vec F S128 .f32) (x8 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out0_9 x0 x1 x2 x3 x4 x5 x6 x7 x8)) -∗ K ⟨⟩))
      ⊢ wp frame (wpE (defs₀ (F := F)) Variants.none c none) E (cc0__neighbor_kernel i arg1 harg1 arg2 harg2 arg3 harg3 arg4 harg4 arg5 harg5 arg6 harg6 arg7 harg7 arg8 harg8 arg9 harg9 arg10 harg10) K := by
  simp only [cc0__neighbor_kernel_eq_skeleton]; unfold cc0__neighbor_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover0_9 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => out0_9 (iblk0 V c 0 t) (iblk0 V c 1 t) (iblk0 V c 2 t) (iblk0 V c 3 t) (iblk0 V c 4 t) (iblk0 V c 5 t) (iblk0 V c 6 t) (iblk0 V c 7 t) (iblk0 V c 8 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]

theorem after0_1 (c : Dev nD) (t : Fin cfg0.N) : (dat0 V c).after 1 t = iblk0 V c 1 t := by dsimp only [dat0]

theorem after0_2 (c : Dev nD) (t : Fin cfg0.N) : (dat0 V c).after 2 t = iblk0 V c 2 t := by dsimp only [dat0]

theorem after0_3 (c : Dev nD) (t : Fin cfg0.N) : (dat0 V c).after 3 t = iblk0 V c 3 t := by dsimp only [dat0]

theorem after0_4 (c : Dev nD) (t : Fin cfg0.N) : (dat0 V c).after 4 t = iblk0 V c 4 t := by dsimp only [dat0]

theorem after0_5 (c : Dev nD) (t : Fin cfg0.N) : (dat0 V c).after 5 t = iblk0 V c 5 t := by dsimp only [dat0]

theorem after0_6 (c : Dev nD) (t : Fin cfg0.N) : (dat0 V c).after 6 t = iblk0 V c 6 t := by dsimp only [dat0]

theorem after0_7 (c : Dev nD) (t : Fin cfg0.N) : (dat0 V c).after 7 t = iblk0 V c 7 t := by dsimp only [dat0]

theorem after0_8 (c : Dev nD) (t : Fin cfg0.N) : (dat0 V c).after 8 t = iblk0 V c 8 t := by dsimp only [dat0]

theorem after0_9 (c : Dev nD) (t : Fin cfg0.N) : (dat0 V c).after 9 t = out0_9 (iblk0 V c 0 t) (iblk0 V c 1 t) (iblk0 V c 2 t) (iblk0 V c 3 t) (iblk0 V c 4 t) (iblk0 V c 5 t) (iblk0 V c 6 t) (iblk0 V c 7 t) (iblk0 V c 8 t) := by dsimp only [dat0]

theorem before0_0 (c : Dev nD) (t : Fin cfg0.N) (d) : (dat0 V c).before 0 t d = iblk0 V c 0 t :=
  before0_0_of V (dat0 V c) (A_eq0 V c 0) (after0_0 V c) t d

theorem before0_1 (c : Dev nD) (t : Fin cfg0.N) (d) : (dat0 V c).before 1 t d = iblk0 V c 1 t :=
  before0_1_of V (dat0 V c) (A_eq0 V c 1) (after0_1 V c) t d

theorem before0_2 (c : Dev nD) (t : Fin cfg0.N) (d) : (dat0 V c).before 2 t d = iblk0 V c 2 t :=
  before0_2_of V (dat0 V c) (A_eq0 V c 2) (after0_2 V c) t d

theorem before0_3 (c : Dev nD) (t : Fin cfg0.N) (d) : (dat0 V c).before 3 t d = iblk0 V c 3 t :=
  before0_3_of V (dat0 V c) (A_eq0 V c 3) (after0_3 V c) t d

theorem before0_4 (c : Dev nD) (t : Fin cfg0.N) (d) : (dat0 V c).before 4 t d = iblk0 V c 4 t :=
  before0_4_of V (dat0 V c) (A_eq0 V c 4) (after0_4 V c) t d

theorem before0_5 (c : Dev nD) (t : Fin cfg0.N) (d) : (dat0 V c).before 5 t d = iblk0 V c 5 t :=
  before0_5_of V (dat0 V c) (A_eq0 V c 5) (after0_5 V c) t d

theorem before0_6 (c : Dev nD) (t : Fin cfg0.N) (d) : (dat0 V c).before 6 t d = iblk0 V c 6 t :=
  before0_6_of V (dat0 V c) (A_eq0 V c 6) (after0_6 V c) t d

theorem before0_7 (c : Dev nD) (t : Fin cfg0.N) (d) : (dat0 V c).before 7 t d = iblk0 V c 7 t :=
  before0_7_of V (dat0 V c) (A_eq0 V c 7) (after0_7 V c) t d

theorem before0_8 (c : Dev nD) (t : Fin cfg0.N) (d) : (dat0 V c).before 8 t d = iblk0 V c 8 t :=
  before0_8_of V (dat0 V c) (A_eq0 V c 8) (after0_8 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.KBody1.lean ====
import proofs.«427183_j33938831573494_3_alg».proof.Proof.Gen.Kernel.Launch
import proofs.«427183_j33938831573494_3_alg».proof.Proof.Gen.Kernel.Skeleton
import proofs.«427183_j33938831573494_3_alg».proof.Proof.Gen.Kernel.Points
import proofs.«427183_j33938831573494_3_alg».proof.Proof.KPay
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)

theorem before1_11_of {c : Dev nD} (dat : Dat τ (Elt F) Unit ℕ (UR sig nD τ) ℕ cfg1 c) (hA : dat.A 11 = V c (Pipeline.arrRef spec1 11))
    (hafter : ∀ t, dat.after 11 t = iblk1 V c 11 t) (t : Fin cfg1.N) (d) : dat.before 11 t d = iblk1 V c 11 t :=
  (dat.before_in_eq_fetched 11 rfl (fun _ => rfl) (fun _ _ _ => rfl) (fun t => by rw [hafter]; unfold Dat.blockOf iblk1; rw [hA]; try rfl) t d).trans
    (by unfold Dat.fetched Dat.blockOf iblk1; rw [hA]; try rfl)

abbrev slab1_0 : Rect S8x128x128 := Rect.unit (s := S8x128x128) ![0, 0, 0] S1x128x128.size inb_S8x128x128_S1x128x128_0_0_0

abbrev slab1_1 : Rect S8x128x128 := Rect.unit (s := S8x128x128) ![1, 0, 0] S1x128x128.size inb_S8x128x128_S1x128x128_1_0_0

abbrev slab1_2 : Rect S8x128x128 := Rect.unit (s := S8x128x128) ![2, 0, 0] S1x128x128.size inb_S8x128x128_S1x128x128_2_0_0

abbrev slab1_3 : Rect S8x128x128 := Rect.unit (s := S8x128x128) ![3, 0, 0] S1x128x128.size inb_S8x128x128_S1x128x128_3_0_0

abbrev slab1_4 : Rect S8x128x128 := Rect.unit (s := S8x128x128) ![4, 0, 0] S1x128x128.size inb_S8x128x128_S1x128x128_4_0_0

abbrev slab1_5 : Rect S8x128x128 := Rect.unit (s := S8x128x128) ![5, 0, 0] S1x128x128.size inb_S8x128x128_S1x128x128_5_0_0

abbrev slab1_6 : Rect S8x128x128 := Rect.unit (s := S8x128x128) ![6, 0, 0] S1x128x128.size inb_S8x128x128_S1x128x128_6_0_0

abbrev slab1_7 : Rect S8x128x128 := Rect.unit (s := S8x128x128) ![7, 0, 0] S1x128x128.size inb_S8x128x128_S1x128x128_7_0_0

abbrev whole1_256x512 : Rect S256x512 := Rect.unit (s := S256x512) ![0, 0] S256x512.size inb_S256x512_S256x512_0_0

abbrev whole1_512 : Rect S512 := Rect.unit (s := S512) ![0] S512.size inb_S512_S512_0

abbrev whole1_512x256 : Rect S512x256 := Rect.unit (s := S512x256) ![0, 0] S512x256.size inb_S512x256_S512x256_0_0

abbrev whole1_256 : Rect S256 := Rect.unit (s := S256) ![0] S256.size inb_S256_S256_0

abbrev whole1_256x2048 : Rect S256x2048 := Rect.unit (s := S256x2048) ![0, 0] S256x2048.size inb_S256x2048_S256x2048_0_0

abbrev whole1_2048 : Rect S2048 := Rect.unit (s := S2048) ![0] S2048.size inb_S2048_S2048_0

abbrev whole1_128 : Rect S128 := Rect.unit (s := S128) ![0] S128.size inb_S128_S128_0

def out1_12 (x0 : Vec F S8x128x128 .f32) (x1 : Vec F S256x512 .bf16) (x2 : Vec F S512 .f32) (x3 : Vec F S512x256 .bf16)
    (x4 x5 x6 : Vec F S256 .f32) (x7 x8 x9 : Vec F S256x2048 .bf16) (x10 x11 : Vec F S2048 .f32) : Vec F S128 .f32 :=
  View.canon [⟨whole1_128, pay1 (View.ld x0 slab1_0) (View.ld x0 slab1_1) (View.ld x0 slab1_2) (View.ld x0 slab1_3)
    (View.ld x0 slab1_4) (View.ld x0 slab1_5) (View.ld x0 slab1_6) (View.ld x0 slab1_7)
    (View.ld x1 whole1_256x512) (View.ld x2 whole1_512) (View.ld x3 whole1_512x256)
    (View.ld x4 whole1_256) (View.ld x5 whole1_256) (View.ld x6 whole1_256)
    (View.ld x7 whole1_256x2048) (View.ld x8 whole1_256x2048) (View.ld x9 whole1_256x2048)
    (View.ld x10 whole1_2048) (View.ld x11 whole1_2048)⟩]

theorem zeros1 : (![0] : Fin 1 → Nat) = fun _ => 0 := funext fun a => by fin_cases a; rfl

theorem zeros2 : (![0, 0] : Fin 2 → Nat) = fun _ => 0 := funext fun a => by fin_cases a <;> rfl

theorem out1_12_eq (x0 : Vec F S8x128x128 .f32) (x1 : Vec F S256x512 .bf16) (x2 : Vec F S512 .f32) (x3 : Vec F S512x256 .bf16)
    (x4 x5 x6 : Vec F S256 .f32) (x7 x8 x9 : Vec F S256x2048 .bf16) (x10 x11 : Vec F S2048 .f32) :
    out1_12 x0 x1 x2 x3 x4 x5 x6 x7 x8 x9 x10 x11
      = pay1 (View.ld x0 slab1_0) (View.ld x0 slab1_1) (View.ld x0 slab1_2) (View.ld x0 slab1_3)
          (View.ld x0 slab1_4) (View.ld x0 slab1_5) (View.ld x0 slab1_6) (View.ld x0 slab1_7)
          x1 x2 x3 x4 x5 x6 x7 x8 x9 x10 x11 := by
  unfold out1_12
  rw [View.canon_unit_zero (S := S128) zeros1 inb_S128_S128_0,
    View.ld_unit_zero (S := S256x512) zeros2 inb_S256x512_S256x512_0_0 x1,
    View.ld_unit_zero (S := S512) zeros1 inb_S512_S512_0 x2,
    View.ld_unit_zero (S := S512x256) zeros2 inb_S512x256_S512x256_0_0 x3,
    View.ld_unit_zero (S := S256) zeros1 inb_S256_S256_0 x4,
    View.ld_unit_zero (S := S256) zeros1 inb_S256_S256_0 x5,
    View.ld_unit_zero (S := S256) zeros1 inb_S256_S256_0 x6,
    View.ld_unit_zero (S := S256x2048) zeros2 inb_S256x2048_S256x2048_0_0 x7,
    View.ld_unit_zero (S := S256x2048) zeros2 inb_S256x2048_S256x2048_0_0 x8,
    View.ld_unit_zero (S := S256x2048) zeros2 inb_S256x2048_S256x2048_0_0 x9,
    View.ld_unit_zero (S := S2048) zeros1 inb_S2048_S2048_0 x10,
    View.ld_unit_zero (S := S2048) zeros1 inb_S2048_S2048_0 x11]

theorem cover1_12 (p0 : Vec F S128 .f32) (y : S128.Idx) :
    ∃ pc ∈ ([⟨whole1_128, p0⟩] : List (View.Piece (Elt F) S128 .f32)), y ∈ pc.1.set :=
  ⟨_, List.mem_singleton_self _, View.mem_set_unit_zero zeros1 inb_S128_S128_0 y⟩

set_option maxHeartbeats 4000000 in

theorem sound_kernel1 (c : Dev nD) (E : Set ℕ) (i : grid1.Coords)
    (arg0 : Memref sig .tc .vmem S8x128x128 .f32) (harg0 : arg0.IsWhole) (arg1 : Memref sig .tc .vmem S256x512 .bf16) (harg1 : arg1.IsWhole)
    (arg2 : Memref sig .tc .vmem S512 .f32) (harg2 : arg2.IsWhole) (arg3 : Memref sig .tc .vmem S512x256 .bf16) (harg3 : arg3.IsWhole)
    (arg4 : Memref sig .tc .vmem S256 .f32) (harg4 : arg4.IsWhole) (arg5 : Memref sig .tc .vmem S256 .f32) (harg5 : arg5.IsWhole)
    (arg6 : Memref sig .tc .vmem S256 .f32) (harg6 : arg6.IsWhole) (arg7 : Memref sig .tc .vmem S256x2048 .bf16) (harg7 : arg7.IsWhole)
    (arg8 : Memref sig .tc .vmem S256x2048 .bf16) (harg8 : arg8.IsWhole) (arg9 : Memref sig .tc .vmem S256x2048 .bf16) (harg9 : arg9.IsWhole)
    (arg10 : Memref sig .tc .vmem S2048 .f32) (harg10 : arg10.IsWhole) (arg11 : Memref sig .tc .vmem S2048 .f32) (harg11 : arg11.IsWhole)
    (arg12 : Memref sig .tc .vmem S128 .f32) (harg12 : arg12.IsWhole)
    (x0 : Vec F S8x128x128 .f32) (x1 : Vec F S256x512 .bf16) (x2 : Vec F S512 .f32) (x3 : Vec F S512x256 .bf16)
    (x4 x5 x6 : Vec F S256 .f32) (x7 x8 x9 : Vec F S256x2048 .bf16) (x10 x11 : Vec F S2048 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ owns (c : Thread nD τ) arg5 fullShare x5
        ∗ owns (c : Thread nD τ) arg6 fullShare x6 ∗ owns (c : Thread nD τ) arg7 fullShare x7 ∗ owns (c : Thread nD τ) arg8 fullShare x8
        ∗ owns (c : Thread nD τ) arg9 fullShare x9 ∗ owns (c : Thread nD τ) arg10 fullShare x10 ∗ owns (c : Thread nD τ) arg11 fullShare x11
        ∗ (∃ d, owns (c : Thread nD τ) arg12 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare x7 ∗ owns (c : Thread nD τ) arg8 fullShare x8
            ∗ owns (c : Thread nD τ) arg9 fullShare x9 ∗ owns (c : Thread nD τ) arg10 fullShare x10 ∗ owns (c : Thread nD τ) arg11 fullShare x11
            ∗ owns (c : Thread nD τ) arg12 fullShare (out1_12 x0 x1 x2 x3 x4 x5 x6 x7 x8 x9 x10 x11)) -∗ K ⟨⟩))
      ⊢ wp frame (wpE (defs₀ (F := F)) Variants.none c none) E
          (cc1__tail_kernel i arg0 harg0 arg1 harg1 arg2 harg2 arg3 harg3 arg4 harg4 arg5 harg5 arg6 harg6 arg7 harg7 arg8 harg8
            arg9 harg9 arg10 harg10 arg11 harg11 arg12 harg12) K := by
  simp only [cc1__tail_kernel_eq_skeleton]; unfold cc1__tail_kernel_skel
  simp only [k1_part1_eq_skeleton, k1_part2_eq_skeleton, k1_part3_eq_skeleton]
  unfold k1_part1_skel k1_part2_skel k1_part3_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%f8, %hf8, H8⟩, ⟨%f9, %hf9, H9⟩, ⟨%f10, %hf10, H10⟩, ⟨%f11, %hf11, H11⟩, ⟨%d12, %f12, -, H12⟩, Hk⟩
  subst hf0 hf1 hf2 hf3 hf4 hf5 hf6 hf7 hf8 hf9 hf10 hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  iexists _; isplitr
  swap; · iexact H12
  ipureintro
  exact View.read_writes_eq_canon _ _ _ (cover1_12 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => out1_12 (iblk1 V c 0 t) (iblk1 V c 1 t) (iblk1 V c 2 t) (iblk1 V c 3 t) (iblk1 V c 4 t) (iblk1 V c 5 t)
        (iblk1 V c 6 t) (iblk1 V c 7 t) (iblk1 V c 8 t) (iblk1 V c 9 t) (iblk1 V c 10 t) (iblk1 V c 11 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]

theorem after1_1 (c : Dev nD) (t : Fin cfg1.N) : (dat1 V c).after 1 t = iblk1 V c 1 t := by dsimp only [dat1]

theorem after1_2 (c : Dev nD) (t : Fin cfg1.N) : (dat1 V c).after 2 t = iblk1 V c 2 t := by dsimp only [dat1]

theorem after1_3 (c : Dev nD) (t : Fin cfg1.N) : (dat1 V c).after 3 t = iblk1 V c 3 t := by dsimp only [dat1]

theorem after1_4 (c : Dev nD) (t : Fin cfg1.N) : (dat1 V c).after 4 t = iblk1 V c 4 t := by dsimp only [dat1]

theorem after1_5 (c : Dev nD) (t : Fin cfg1.N) : (dat1 V c).after 5 t = iblk1 V c 5 t := by dsimp only [dat1]

theorem after1_6 (c : Dev nD) (t : Fin cfg1.N) : (dat1 V c).after 6 t = iblk1 V c 6 t := by dsimp only [dat1]

theorem after1_7 (c : Dev nD) (t : Fin cfg1.N) : (dat1 V c).after 7 t = iblk1 V c 7 t := by dsimp only [dat1]

theorem after1_8 (c : Dev nD) (t : Fin cfg1.N) : (dat1 V c).after 8 t = iblk1 V c 8 t := by dsimp only [dat1]

theorem after1_9 (c : Dev nD) (t : Fin cfg1.N) : (dat1 V c).after 9 t = iblk1 V c 9 t := by dsimp only [dat1]

theorem after1_10 (c : Dev nD) (t : Fin cfg1.N) : (dat1 V c).after 10 t = iblk1 V c 10 t := by dsimp only [dat1]

theorem after1_11 (c : Dev nD) (t : Fin cfg1.N) : (dat1 V c).after 11 t = iblk1 V c 11 t := by dsimp only [dat1]

theorem after1_12 (c : Dev nD) (t : Fin cfg1.N) : (dat1 V c).after 12 t
    = out1_12 (iblk1 V c 0 t) (iblk1 V c 1 t) (iblk1 V c 2 t) (iblk1 V c 3 t) (iblk1 V c 4 t) (iblk1 V c 5 t)
        (iblk1 V c 6 t) (iblk1 V c 7 t) (iblk1 V c 8 t) (iblk1 V c 9 t) (iblk1 V c 10 t) (iblk1 V c 11 t) := by dsimp only [dat1]

theorem before1_0 (c : Dev nD) (t : Fin cfg1.N) (d) : (dat1 V c).before 0 t d = iblk1 V c 0 t :=
  before1_0_of V (dat1 V c) (A_eq1 V c 0) (after1_0 V c) t d

theorem before1_1 (c : Dev nD) (t : Fin cfg1.N) (d) : (dat1 V c).before 1 t d = iblk1 V c 1 t :=
  before1_1_of V (dat1 V c) (A_eq1 V c 1) (after1_1 V c) t d

theorem before1_2 (c : Dev nD) (t : Fin cfg1.N) (d) : (dat1 V c).before 2 t d = iblk1 V c 2 t :=
  before1_2_of V (dat1 V c) (A_eq1 V c 2) (after1_2 V c) t d

theorem before1_3 (c : Dev nD) (t : Fin cfg1.N) (d) : (dat1 V c).before 3 t d = iblk1 V c 3 t :=
  before1_3_of V (dat1 V c) (A_eq1 V c 3) (after1_3 V c) t d

theorem before1_4 (c : Dev nD) (t : Fin cfg1.N) (d) : (dat1 V c).before 4 t d = iblk1 V c 4 t :=
  before1_4_of V (dat1 V c) (A_eq1 V c 4) (after1_4 V c) t d

theorem before1_5 (c : Dev nD) (t : Fin cfg1.N) (d) : (dat1 V c).before 5 t d = iblk1 V c 5 t :=
  before1_5_of V (dat1 V c) (A_eq1 V c 5) (after1_5 V c) t d

theorem before1_6 (c : Dev nD) (t : Fin cfg1.N) (d) : (dat1 V c).before 6 t d = iblk1 V c 6 t :=
  before1_6_of V (dat1 V c) (A_eq1 V c 6) (after1_6 V c) t d

theorem before1_7 (c : Dev nD) (t : Fin cfg1.N) (d) : (dat1 V c).before 7 t d = iblk1 V c 7 t :=
  before1_7_of V (dat1 V c) (A_eq1 V c 7) (after1_7 V c) t d

theorem before1_8 (c : Dev nD) (t : Fin cfg1.N) (d) : (dat1 V c).before 8 t d = iblk1 V c 8 t :=
  before1_8_of V (dat1 V c) (A_eq1 V c 8) (after1_8 V c) t d

theorem before1_9 (c : Dev nD) (t : Fin cfg1.N) (d) : (dat1 V c).before 9 t d = iblk1 V c 9 t :=
  before1_9_of V (dat1 V c) (A_eq1 V c 9) (after1_9 V c) t d

theorem before1_10 (c : Dev nD) (t : Fin cfg1.N) (d) : (dat1 V c).before 10 t d = iblk1 V c 10 t :=
  before1_10_of V (dat1 V c) (A_eq1 V c 10) (after1_10 V c) t d

theorem before1_11 (c : Dev nD) (t : Fin cfg1.N) (d) : (dat1 V c).before 11 t d = iblk1 V c 11 t :=
  before1_11_of V (dat1 V c) (A_eq1 V c 11) (after1_11 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9,
    before1_10, before1_11]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11,
    after1_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩,
    ⟨%d9, H9⟩, ⟨%d10, H10⟩, ⟨%d11, H11⟩, ⟨%d12, H12⟩⟩
  iapply (sound_kernel1 c Set.univ _ _ _ _ _ _ _ _ _ _ _ _ _ _ _ _ _ _ _ _ _ _ _ _ _ _ _
    (iblk1 V c 0 t) (iblk1 V c 1 t) (iblk1 V c 2 t) (iblk1 V c 3 t) (iblk1 V c 4 t) (iblk1 V c 5 t)
    (iblk1 V c 6 t) (iblk1 V c 7 t) (iblk1 V c 8 t) (iblk1 V c 9 t) (iblk1 V c 10 t) (iblk1 V c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.KRun.lean ====
import proofs.«427183_j33938831573494_3_alg».proof.Proof.KBody0
import proofs.«427183_j33938831573494_3_alg».proof.Proof.KBody1
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) :=
  fun c b => (⟨m, fun _ => 0, ρ⟩ : MemSt nD τ sig (Elt F)).mem ((c : Dev nD), b)

abbrev W1 : Dev nD → Valuation τ sig (Elt F) := fun c => StableHlo.after hostOps0 (W0 m ρ c)

abbrev V1 : (c : Dev nD) → (b : Ref sig .tc) → Buf (Elt F) ((c : Thread nD τ).loc b) := fun c b => W1 m ρ c b

def W2 (c : Dev nD) : Valuation τ sig (Elt F) :=
  Pipeline.withArrays spec0 c (W1 m ρ c) fun w => (dat0 (V1 m ρ) c).arrAt w cfg0.N

abbrev V2 : (c : Dev nD) → (b : Ref sig .tc) → Buf (Elt F) ((c : Thread nD τ).loc b) := fun c b => W2 m ρ c b

abbrev W3 : Dev nD → Valuation τ sig (Elt F) := fun c => StableHlo.after hostOps1 (W2 m ρ c)

abbrev V3 : (c : Dev nD) → (b : Ref sig .tc) → Buf (Elt F) ((c : Thread nD τ).loc b) := fun c b => W3 m ρ c b

def W4 (c : Dev nD) : Valuation τ sig (Elt F) :=
  Pipeline.withArrays spec1 c (W3 m ρ c) fun w => (dat1 (V3 m ρ) c).arrAt w cfg1.N

abbrev V4 : (c : Dev nD) → (b : Ref sig .tc) → Buf (Elt F) ((c : Thread nD τ).loc b) := fun c b => W4 m ρ c b

theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w

theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb

theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w

theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb

theorem hF0 (c : Dev nD) (w : Fin cfg0.W) : (dat0 (V1 m ρ) c).arrAt w cfg0.N = V2 m ρ c (Pipeline.arrRef spec0 w) :=
  (W2_arr m ρ c w).symm

theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

theorem hF1 (c : Dev nD) (w : Fin cfg1.W) : (dat1 (V3 m ρ) c).arrAt w cfg1.N = V4 m ρ c (Pipeline.arrRef spec1 w) :=
  (W4_arr m ρ c w).symm

theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

theorem W2_out (c : Dev nD) : W2 m ρ c (Proc.devRef .tc main_v74) = (dat0 (V1 m ρ) c).arrAt 9 cfg0.N := W2_arr m ρ c 9

theorem W4_out (c : Dev nD) : W4 m ρ c (Proc.devRef .tc main_v86) = (dat1 (V3 m ρ) c).arrAt 12 cfg1.N := W4_arr m ρ c 12

def wr0 : List (Ref sig .tc) :=
  [main_v0, main_v1, main_v2, main_v3, main_v4, main_v5, main_v6, main_v7, main_v8, main_v9,
   main_v10, main_v11, main_v12, main_v13, main_c, main_v14, main_v15, main_c_0, main_v16, main_v17,
   main_v18, main_v19, main_v20, main_c_1, main_v21, main_v22, main_c_2, main_v23, main_v24, main_v25,
   main_v26, main_v27, main_v28, main_v29, main_v30, main_v31, main_v32, main_v33, main_v34, main_v35,
   main_v36, main_v37, main_v38, main_v39, main_v40, main_v41, main_v42, main_v43, main_v44, main_v45,
   main_v46, main_v47, main_v48, main_v49, main_v50, main_v51, main_v52, main_c_3, main_v53, main_v54,
   main_c_4, main_v55, main_v56, main_v57, main_v58, main_v59, main_v60, main_v61, main_v62, main_v63,
   main_v64, main_v65, main_v66, main_v67, main_v68, main_v69, main_v70, main_v71, main_v72, main_v73]

def wr1 : List (Ref sig .tc) :=
  [main_v75, main_v76, main_v77, main_v78, main_v79, main_v80, main_v81, main_v82, main_v83, main_v84, main_v85]

set_option maxHeartbeats 4000000 in
theorem hostOps0_writes : (hostOps0 : List (HloOp τ sig (Elt F))).Forall
    fun op => op.writes ⊆ (wr0.map (Proc.devRef (τ := τ) .tc)).toFinset := by
  simp only [hostOps0, List.Forall, StableHlo.nullary_writes, StableHlo.unary_writes, StableHlo.binary_writes,
    StableHlo.ternary_writes, StableHlo.reshape_writes, StableHlo.nary_writes, Finset.singleton_subset_iff, List.mem_toFinset]
  repeat' apply And.intro
  all_goals exact List.mem_map_of_mem (by decide)

theorem hostOps1_writes : (hostOps1 : List (HloOp τ sig (Elt F))).Forall
    fun op => op.writes ⊆ (wr1.map (Proc.devRef (τ := τ) .tc)).toFinset := by
  simp only [hostOps1, List.Forall, StableHlo.unary_writes, StableHlo.reshape_writes, Finset.singleton_subset_iff, List.mem_toFinset]
  repeat' apply And.intro
  all_goals exact List.mem_map_of_mem (by decide)

theorem in0 : ∀ w : Fin cfg0.W, Pipeline.arrRef spec0 w ≠ main_v74 → (cfg0.win w).isOut = false := by decide

theorem in1 : ∀ w : Fin cfg1.W, Pipeline.arrRef spec1 w ≠ main_v86 → (cfg1.win w).isOut = false := by decide

theorem W1_of_not_mem (c : Dev nD) (b : Ref sig .tc) (hb : b ∉ wr0) :
    W1 m ρ c (Proc.devRef .tc b) = W0 m ρ c (Proc.devRef .tc b) :=
  StableHlo.after_of_writes_sub hostOps0 _ hostOps0_writes hb

theorem W2_of_ne_out (c : Dev nD) (b : Ref sig .tc) (hb : b ≠ main_v74) :
    W2 m ρ c (Proc.devRef .tc b) = W1 m ρ c (Proc.devRef .tc b) := by
  by_cases h : ∃ w, Pipeline.arrRef spec0 w = b
  · obtain ⟨w, rfl⟩ := h
    exact (W2_arr m ρ c w).trans (((dat0 (V1 m ρ) c).arrAt_in w (in0 w hb) _).trans (A_eq0 (V1 m ρ) c w))
  · exact W2_of_ne m ρ c b fun w e => h ⟨w, e⟩

theorem W3_of_not_mem (c : Dev nD) (b : Ref sig .tc) (hb : b ∉ wr1) :
    W3 m ρ c (Proc.devRef .tc b) = W2 m ρ c (Proc.devRef .tc b) :=
  StableHlo.after_of_writes_sub hostOps1 _ hostOps1_writes hb

theorem W4_of_ne_out (c : Dev nD) (b : Ref sig .tc) (hb : b ≠ main_v86) :
    W4 m ρ c (Proc.devRef .tc b) = W3 m ρ c (Proc.devRef .tc b) := by
  by_cases h : ∃ w, Pipeline.arrRef spec1 w = b
  · obtain ⟨w, rfl⟩ := h
    exact (W4_arr m ρ c w).trans (((dat1 (V3 m ρ) c).arrAt_in w (in1 w hb) _).trans (A_eq1 (V3 m ρ) c w))
  · exact W4_of_ne m ρ c b fun w e => h ⟨w, e⟩

def Untouched (b : Ref sig .tc) : Prop := b ∉ wr0 ∧ b ∉ wr1 ∧ b ≠ main_v74 ∧ b ≠ main_v86

instance (b : Ref sig .tc) : Decidable (Untouched b) := by unfold Untouched; infer_instance

theorem W1_untouched (c : Dev nD) (b : Ref sig .tc) (h : Untouched b) :
    W1 m ρ c (Proc.devRef .tc b) = m ((c : Thread nD τ).loc b) := W1_of_not_mem m ρ c b h.1

theorem W2_untouched (c : Dev nD) (b : Ref sig .tc) (h : Untouched b) :
    W2 m ρ c (Proc.devRef .tc b) = m ((c : Thread nD τ).loc b) :=
  (W2_of_ne_out m ρ c b h.2.2.1).trans (W1_untouched m ρ c b h)

theorem W3_untouched (c : Dev nD) (b : Ref sig .tc) (h : Untouched b) :
    W3 m ρ c (Proc.devRef .tc b) = m ((c : Thread nD τ).loc b) :=
  (W3_of_not_mem m ρ c b h.2.1).trans (W2_untouched m ρ c b h)

theorem W4_untouched (c : Dev nD) (b : Ref sig .tc) (h : Untouched b) :
    W4 m ρ c (Proc.devRef .tc b) = m ((c : Thread nD τ).loc b) :=
  (W4_of_ne_out m ρ c b h.2.2.2).trans (W3_untouched m ρ c b h)

def argRefs : List (Ref sig .tc) :=
  [main_arg0, main_arg1, main_arg2, main_arg3, main_arg4, main_arg5, main_arg6, main_arg7, main_arg8, main_arg9,
   main_arg10, main_arg11, main_arg12, main_arg13, main_arg14, main_arg15, main_arg16, main_arg17, main_arg18, main_arg19,
   main_arg20, main_arg21, main_arg22, main_arg23, main_arg24, main_arg25, main_arg26, main_arg27, main_arg28, main_arg29,
   main_arg30, main_arg31, main_arg32]

theorem arg_untouched : ∀ b ∈ argRefs, Untouched b := by decide

theorem W1_arg (c : Dev nD) (b : Ref sig .tc) (hb : b ∈ argRefs) :
    W1 m ρ c (Proc.devRef .tc b) = m ((c : Thread nD τ).loc b) := W1_untouched m ρ c b (arg_untouched b hb)

theorem W2_arg (c : Dev nD) (b : Ref sig .tc) (hb : b ∈ argRefs) :
    W2 m ρ c (Proc.devRef .tc b) = m ((c : Thread nD τ).loc b) := W2_untouched m ρ c b (arg_untouched b hb)

theorem W3_arg (c : Dev nD) (b : Ref sig .tc) (hb : b ∈ argRefs) :
    W3 m ρ c (Proc.devRef .tc b) = m ((c : Thread nD τ).loc b) := W3_untouched m ρ c b (arg_untouched b hb)

theorem W4_arg (c : Dev nD) (b : Ref sig .tc) (hb : b ∈ argRefs) :
    W4 m ρ c (Proc.devRef .tc b) = m ((c : Thread nD τ).loc b) := W4_untouched m ρ c b (arg_untouched b hb)

abbrev adm : (p : Fin 2) → (pcfgs (F := F) p).Adm := fun p => (cfgs p).toPCfg_adm

def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c

abbrev 𝒱₀ : Variants := Variants.none

abbrev L : GSem nD τ sig → Finset Unit := fun _ => ∅

abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev St (W : Dev nD → Valuation τ sig (Elt F)) (c : Dev nD) : sProp 𝕄 :=
  iprop(StableHlo.held (c : Thread nD τ) (Pipeline.ucRefs τ sig) (W c) ∗ R c)

abbrev Tₙ (c : Dev nD) : sProp 𝕄 := iprop(StableHlo.held (c : Thread nD τ) (Pipeline.ucRefs τ sig) (W4 m ρ c) ∗ ∃ r, prngReg c r)

theorem hostOps0_fresh : (hostOps0 : List (HloOp τ sig (Elt F))).Forall fun op => op.fresh = ∅ := by
  simp only [List.Forall]; repeat' constructor

theorem hostOps1_fresh : (hostOps1 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre := St (W1 m ρ)
  post := St (W2 m ρ)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun w => A_eq0 (V1 m ρ) c w
    rw [Pipeline.unscopedBufs_held] at hsplit
    iintro ⟨⟨Hbufs, Hreg, Howe⟩, -, -⟩
    ihave Hs := hsplit $$ Hbufs
    icases Hs with ⟨Harr, Hrest⟩
    imodintro
    isplitl [Harr]; · iexact Harr
    isplitr
    · unfold Pipeline.prefHeld; rw [show (Finset.univ : Finset (Fin 0)) = ∅ from rfl, BI.bigSep_empty]; iempintro
    isplitl [Howe]
    · unfold Pipeline.Dat.owesAt Pipeline.owesWithin
      icases Howe with ⟨%W, Howe⟩; iexists W
      isplitr; · ipureintro; exact fun _ _ => Or.inl trivial
      iexact Howe
    isplitl [Hreg]; · iexact Hreg
    iexact Hrest
  hin c := by
    rw [show (pdats m ρ 0 c).Φ 0 = Pipeline.ΦA spec0 c from rfl]; unfold Pipeline.ΦA
    iintro ⟨Hreg, -, Hsc⟩
    isplitl [Hsc]; · iexact Hsc
    iexact Hreg
  hout c := by
    rw [Pipeline.ownSems0_none, show (pdats m ρ 0 c).Φ (Fin.last _) = Pipeline.ΦA spec0 c from rfl]; unfold Pipeline.ΦA
    iintro ⟨Hsc, Hreg⟩
    isplitl [Hreg]; · iexact Hreg
    isplitr; · iempintro
    iexact Hsc
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Harr, Howe, Hreg, Hrest⟩
    imodintro
    isplitl [Harr Hrest]
    · iapply hjoin; isplitl [Harr] <;> iassumption
    isplitl [Hreg]; · iexact Hreg
    unfold Pipeline.Dat.owesAt Pipeline.owesWithin
    icases Howe with ⟨%W, -, Howe⟩; iexists W; iexact Howe

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre := St (W3 m ρ)
  post := St (W4 m ρ)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun w => A_eq1 (V3 m ρ) c w
    rw [Pipeline.unscopedBufs_held] at hsplit
    iintro ⟨⟨Hbufs, Hreg, Howe⟩, -, -⟩
    ihave Hs := hsplit $$ Hbufs
    icases Hs with ⟨Harr, Hrest⟩
    imodintro
    isplitl [Harr]; · iexact Harr
    isplitr
    · unfold Pipeline.prefHeld; rw [show (Finset.univ : Finset (Fin 0)) = ∅ from rfl, BI.bigSep_empty]; iempintro
    isplitl [Howe]
    · unfold Pipeline.Dat.owesAt Pipeline.owesWithin
      icases Howe with ⟨%W, Howe⟩; iexists W
      isplitr; · ipureintro; exact fun _ _ => Or.inl trivial
      iexact Howe
    isplitl [Hreg]; · iexact Hreg
    iexact Hrest
  hin c := by
    rw [show (pdats m ρ 1 c).Φ 0 = Pipeline.ΦA spec1 c from rfl]; unfold Pipeline.ΦA
    iintro ⟨Hreg, -, Hsc⟩
    isplitl [Hsc]; · iexact Hsc
    iexact Hreg
  hout c := by
    rw [Pipeline.ownSems0_none, show (pdats m ρ 1 c).Φ (Fin.last _) = Pipeline.ΦA spec1 c from rfl]; unfold Pipeline.ΦA
    iintro ⟨Hsc, Hreg⟩
    isplitl [Hreg]; · iexact Hreg
    isplitr; · iempintro
    iexact Hsc
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Harr, Howe, Hreg, Hrest⟩
    imodintro
    isplitl [Harr Hrest]
    · iapply hjoin; isplitl [Harr] <;> iassumption
    isplitl [Hreg]; · iexact Hreg
    unfold Pipeline.Dat.owesAt Pipeline.owesWithin
    icases Howe with ⟨%W, -, Howe⟩; iexists W; iexact Howe

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]

theorem main_run (c : Dev nD) : main (F := F) c = Pipeline.Seg.run (segs m ρ) := (main_chain c).trans (by chain_rfl)

theorem St_last (c : Dev nD) :
    St (W4 m ρ) c ⊢ iprop(Tₙ m ρ c ∗ ∃ W, owes (c : Thread nD τ) (0 : CellTallies nD τ sig Unit) W) := by
  iintro ⟨Hbufs, Hreg, Howe⟩
  isplitl [Hbufs Hreg]
  · isplitl [Hbufs]; · iexact Hbufs
    iexact Hreg
  iexact Howe

set_option backward.isDefEq.respectTransparency.types false in
theorem run_all : θ_run defs (onTc (τ := τ) (main (F := F))) ⟨m, fun _ => 0, ρ⟩
    (fun r => ∀ c : Dev nD, ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := St (W0 m ρ)) (Tₙ := Tₙ m ρ)
    (hch := ⟨fun _ => .rfl, fun _ => .rfl, fun _ => .rfl, fun _ => .rfl, fun c => St_last m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hbufs, -, Howe, -, Hreg, -⟩, -⟩
      imodintro
      isplitl [Hbufs]; · iexact Hbufs
      isplitl [Hreg]; · iexists _; iexact Hreg
      iexists ∅; iexact Howe)
    (QY := fun c s => ∀ b ∈ Pipeline.ucRefs τ sig, s.mem (((c : Thread nD τ)).1, b) = W4 m ρ c b)
    (hfin := fun c s' => by
      iintro ⟨⟨Hbufs, -⟩, HSI⟩
      unfold StableHlo.held
      imodintro
      iapply (pointsTo_read_all (Pipeline.ucRefs τ sig) (fun b => (((c : Thread nD τ)).1, b)) (W4 m ρ c) s')
      isplitl [Hbufs] <;> iassumption)
    (hQ := fun s h => h)

end Cert.Kernel.Hand

end
-- ==== Proof.KIPay.lean ====
import proofs.«427183_j33938831573494_3_alg».proof.Proof.Gen.KernelIdeal.Skeleton

noncomputable section

namespace Cert.KernelIdeal.Hand

open Cert.KernelIdeal Cert.KernelIdeal.Gen Idealize.ShloMosaic

variable {F : FTy → Type} [FloatOps F]

def pay0 (rel ent : Vec F S128x64x128 .bf16) (self : Vec F S128x128 .f32) (wt : Vec F S256x128 .bf16)
    (pbias aw : Vec F S128 .f32) (ab : Vec F S1x1 .f32) (gw : Vec F S128 .f32) (gb : Vec F S1x1 .f32) :
    FVec F S128x128 .f32 :=
  k0_pay1 (k0_pay2 rel ent wt pbias) (k0_pay3 rel ent wt pbias aw ab) gw gb self

def pay1 (n0 n1 n2 n3 n4 n5 n6 n7 : Vec F S1x128x128 .f32) (w1 : Vec F S256x512 .bf16) (b1 : Vec F S512 .f32)
    (w2 : Vec F S512x256 .bf16) (b2 lg lb : Vec F S256 .f32) (wih whh whs : Vec F S256x2048 .bf16)
    (bih bhh : Vec F S2048 .f32) : FVec F S128 .f32 :=
  let v28 := k1_pay2 n0 n1 n2 n3
  let v29 := k1_pay3 n4 n5 n6 n7
  let v30 := k1_pay4 n4 n5 n6 n7
  let v72 := k1_pay5 v29 v30 w1 b1 w2 b2 lg lb
  let v73 := k1_pay6 v28
  let v74 := k1_pay7 v29 v30 w1 b1 w2 b2 lg lb
  k1_pay1 v28 v72 (k1_pay8 whh) (k1_pay10 v73 v74 wih whs bih bhh)
    (k1_pay13 v28 v73 v74 wih whh whs bih bhh) (k1_pay14 v28 v73 v74 wih whh whs bih bhh)
    (k1_pay15 v28 v73 v74 wih whh whs bih bhh)

end Cert.KernelIdeal.Hand

end
-- ==== Proof.KIBody0.lean ====
import proofs.«427183_j33938831573494_3_alg».proof.Proof.KIPay
import proofs.«427183_j33938831573494_3_alg».proof.Proof.Gen.KernelIdeal.Launch
import proofs.«427183_j33938831573494_3_alg».proof.Proof.Gen.KernelIdeal.Skeleton
import proofs.«427183_j33938831573494_3_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

abbrev rA : Rect S128x64x128 := Rect.unit (s := S128x64x128) ![0, 0, 0] S128x64x128.size inb_S128x64x128_S128x64x128_0_0_0

abbrev rB : Rect S128x128 := Rect.unit (s := S128x128) ![0, 0] S128x128.size inb_S128x128_S128x128_0_0

abbrev rC : Rect S256x128 := Rect.unit (s := S256x128) ![0, 0] S256x128.size inb_S256x128_S256x128_0_0

abbrev rD : Rect S128 := Rect.unit (s := S128) ![0] S128.size inb_S128_S128_0

abbrev rE : Rect S1x1 := Rect.unit (s := S1x1) ![0, 0] S1x1.size inb_S1x1_S1x1_0_0

def out0_9 (x0 x1 : Vec F S128x64x128 .bf16) (x2 : Vec F S128x128 .f32) (x3 : Vec F S256x128 .bf16) (x4 x5 : Vec F S128 .f32) (x6 : Vec F S1x1 .f32)
    (x7 : Vec F S128 .f32) (x8 : Vec F S1x1 .f32) : Vec F S128x128 .f32 :=
  View.canon [⟨rB, pay0 (View.ld x0 rA) (View.ld x1 rA) (View.ld x2 rB) (View.ld x3 rC) (View.ld x4 rD) (View.ld x5 rD) (View.ld x6 rE)
    (View.ld x7 rD) (View.ld x8 rE)⟩]

theorem out0_9_eq (x0 x1 : Vec F S128x64x128 .bf16) (x2 : Vec F S128x128 .f32) (x3 : Vec F S256x128 .bf16) (x4 x5 : Vec F S128 .f32) (x6 : Vec F S1x1 .f32)
    (x7 : Vec F S128 .f32) (x8 : Vec F S1x1 .f32) : out0_9 x0 x1 x2 x3 x4 x5 x6 x7 x8 = pay0 x0 x1 x2 x3 x4 x5 x6 x7 x8 := by
  unfold out0_9
  rw [View.canon_unit_zero (by funext a; fin_cases a <;> rfl)]
  rw [View.ld_unit_zero (S := S128x64x128) (by funext a; fin_cases a <;> rfl) _ x0,
    View.ld_unit_zero (S := S128x64x128) (by funext a; fin_cases a <;> rfl) _ x1,
    View.ld_unit_zero (S := S128x128) (by funext a; fin_cases a <;> rfl) _ x2,
    View.ld_unit_zero (S := S256x128) (by funext a; fin_cases a <;> rfl) _ x3,
    View.ld_unit_zero (S := S128) (by funext a; fin_cases a <;> rfl) _ x4,
    View.ld_unit_zero (S := S128) (by funext a; fin_cases a <;> rfl) _ x5,
    View.ld_unit_zero (S := S1x1) (by funext a; fin_cases a <;> rfl) _ x6,
    View.ld_unit_zero (S := S128) (by funext a; fin_cases a <;> rfl) _ x7,
    View.ld_unit_zero (S := S1x1) (by funext a; fin_cases a <;> rfl) _ x8]

theorem cover0_9 (p0 : Vec F S128x128 .f32) (y : S128x128.Idx) :
    ∃ pc ∈ ([⟨rB, p0⟩] : List (View.Piece (Elt F) S128x128 .f32)), y ∈ pc.1.set :=
  View.cover_of_tiled [⟨rB, p0⟩] S128x128.size (by rfl) y

set_option maxHeartbeats 1000000 in

theorem sound_kernel0 (c : Dev nD) (E : Set ℕ) (i : grid0.Coords) (arg1 : Memref sig .tc .vmem S128x64x128 .bf16) (harg1 : arg1.IsWhole) (arg2 : Memref sig .tc .vmem S128x64x128 .bf16) (harg2 : arg2.IsWhole) (arg3 : Memref sig .tc .vmem S128x128 .f32) (harg3 : arg3.IsWhole) (arg4 : Memref sig .tc .vmem S256x128 .bf16) (harg4 : arg4.IsWhole) (arg5 : Memref sig .tc .vmem S128 .f32) (harg5 : arg5.IsWhole) (arg6 : Memref sig .tc .vmem S128 .f32) (harg6 : arg6.IsWhole) (arg7 : Memref sig .tc .vmem S1x1 .f32) (harg7 : arg7.IsWhole) (arg8 : Memref sig .tc .vmem S128 .f32) (harg8 : arg8.IsWhole) (arg9 : Memref sig .tc .vmem S1x1 .f32) (harg9 : arg9.IsWhole) (arg10 : Memref sig .tc .vmem S128x128 .f32) (harg10 : arg10.IsWhole)
    (x0 x1 : Vec F S128x64x128 .bf16) (x2 : Vec F S128x128 .f32) (x3 : Vec F S256x128 .bf16) (x4 x5 : Vec F S128 .f32) (x6 : Vec F S1x1 .f32)
    (x7 : Vec F S128 .f32) (x8 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out0_9 x0 x1 x2 x3 x4 x5 x6 x7 x8)) -∗ K ⟨⟩))
      ⊢ wp frame (wpE (defs₀ (F := F)) Variants.none c none) E (cc0__neighbor_kernel i arg1 harg1 arg2 harg2 arg3 harg3 arg4 harg4 arg5 harg5 arg6 harg6 arg7 harg7 arg8 harg8 arg9 harg9 arg10 harg10) K := by
  simp only [cc0__neighbor_kernel_eq_skeleton]; unfold cc0__neighbor_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover0_9 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => out0_9 (iblk0 V c 0 t) (iblk0 V c 1 t) (iblk0 V c 2 t) (iblk0 V c 3 t) (iblk0 V c 4 t) (iblk0 V c 5 t) (iblk0 V c 6 t) (iblk0 V c 7 t) (iblk0 V c 8 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]

theorem after0_1 (c : Dev nD) (t : Fin cfg0.N) : (dat0 V c).after 1 t = iblk0 V c 1 t := by dsimp only [dat0]

theorem after0_2 (c : Dev nD) (t : Fin cfg0.N) : (dat0 V c).after 2 t = iblk0 V c 2 t := by dsimp only [dat0]

theorem after0_3 (c : Dev nD) (t : Fin cfg0.N) : (dat0 V c).after 3 t = iblk0 V c 3 t := by dsimp only [dat0]

theorem after0_4 (c : Dev nD) (t : Fin cfg0.N) : (dat0 V c).after 4 t = iblk0 V c 4 t := by dsimp only [dat0]

theorem after0_5 (c : Dev nD) (t : Fin cfg0.N) : (dat0 V c).after 5 t = iblk0 V c 5 t := by dsimp only [dat0]

theorem after0_6 (c : Dev nD) (t : Fin cfg0.N) : (dat0 V c).after 6 t = iblk0 V c 6 t := by dsimp only [dat0]

theorem after0_7 (c : Dev nD) (t : Fin cfg0.N) : (dat0 V c).after 7 t = iblk0 V c 7 t := by dsimp only [dat0]

theorem after0_8 (c : Dev nD) (t : Fin cfg0.N) : (dat0 V c).after 8 t = iblk0 V c 8 t := by dsimp only [dat0]

theorem after0_9 (c : Dev nD) (t : Fin cfg0.N) : (dat0 V c).after 9 t = out0_9 (iblk0 V c 0 t) (iblk0 V c 1 t) (iblk0 V c 2 t) (iblk0 V c 3 t) (iblk0 V c 4 t) (iblk0 V c 5 t) (iblk0 V c 6 t) (iblk0 V c 7 t) (iblk0 V c 8 t) := by dsimp only [dat0]

theorem before0_0 (c : Dev nD) (t : Fin cfg0.N) (d) : (dat0 V c).before 0 t d = iblk0 V c 0 t :=
  before0_0_of V (dat0 V c) (A_eq0 V c 0) (after0_0 V c) t d

theorem before0_1 (c : Dev nD) (t : Fin cfg0.N) (d) : (dat0 V c).before 1 t d = iblk0 V c 1 t :=
  before0_1_of V (dat0 V c) (A_eq0 V c 1) (after0_1 V c) t d

theorem before0_2 (c : Dev nD) (t : Fin cfg0.N) (d) : (dat0 V c).before 2 t d = iblk0 V c 2 t :=
  before0_2_of V (dat0 V c) (A_eq0 V c 2) (after0_2 V c) t d

theorem before0_3 (c : Dev nD) (t : Fin cfg0.N) (d) : (dat0 V c).before 3 t d = iblk0 V c 3 t :=
  before0_3_of V (dat0 V c) (A_eq0 V c 3) (after0_3 V c) t d

theorem before0_4 (c : Dev nD) (t : Fin cfg0.N) (d) : (dat0 V c).before 4 t d = iblk0 V c 4 t :=
  before0_4_of V (dat0 V c) (A_eq0 V c 4) (after0_4 V c) t d

theorem before0_5 (c : Dev nD) (t : Fin cfg0.N) (d) : (dat0 V c).before 5 t d = iblk0 V c 5 t :=
  before0_5_of V (dat0 V c) (A_eq0 V c 5) (after0_5 V c) t d

theorem before0_6 (c : Dev nD) (t : Fin cfg0.N) (d) : (dat0 V c).before 6 t d = iblk0 V c 6 t :=
  before0_6_of V (dat0 V c) (A_eq0 V c 6) (after0_6 V c) t d

theorem before0_7 (c : Dev nD) (t : Fin cfg0.N) (d) : (dat0 V c).before 7 t d = iblk0 V c 7 t :=
  before0_7_of V (dat0 V c) (A_eq0 V c 7) (after0_7 V c) t d

theorem before0_8 (c : Dev nD) (t : Fin cfg0.N) (d) : (dat0 V c).before 8 t d = iblk0 V c 8 t :=
  before0_8_of V (dat0 V c) (A_eq0 V c 8) (after0_8 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KIBody1.lean ====
import proofs.«427183_j33938831573494_3_alg».proof.Proof.Gen.KernelIdeal.Launch
import proofs.«427183_j33938831573494_3_alg».proof.Proof.Gen.KernelIdeal.Skeleton
import proofs.«427183_j33938831573494_3_alg».proof.Proof.Gen.KernelIdeal.Points
import proofs.«427183_j33938831573494_3_alg».proof.Proof.KIPay
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)

theorem before1_11_of {c : Dev nD} (dat : Dat τ (Elt F) Unit ℕ (UR sig nD τ) ℕ cfg1 c) (hA : dat.A 11 = V c (Pipeline.arrRef spec1 11))
    (hafter : ∀ t, dat.after 11 t = iblk1 V c 11 t) (t : Fin cfg1.N) (d) : dat.before 11 t d = iblk1 V c 11 t :=
  (dat.before_in_eq_fetched 11 rfl (fun _ => rfl) (fun _ _ _ => rfl) (fun t => by rw [hafter]; unfold Dat.blockOf iblk1; rw [hA]; try rfl) t d).trans
    (by unfold Dat.fetched Dat.blockOf iblk1; rw [hA]; try rfl)

abbrev slab1_0 : Rect S8x128x128 := Rect.unit (s := S8x128x128) ![0, 0, 0] S1x128x128.size inb_S8x128x128_S1x128x128_0_0_0

abbrev slab1_1 : Rect S8x128x128 := Rect.unit (s := S8x128x128) ![1, 0, 0] S1x128x128.size inb_S8x128x128_S1x128x128_1_0_0

abbrev slab1_2 : Rect S8x128x128 := Rect.unit (s := S8x128x128) ![2, 0, 0] S1x128x128.size inb_S8x128x128_S1x128x128_2_0_0

abbrev slab1_3 : Rect S8x128x128 := Rect.unit (s := S8x128x128) ![3, 0, 0] S1x128x128.size inb_S8x128x128_S1x128x128_3_0_0

abbrev slab1_4 : Rect S8x128x128 := Rect.unit (s := S8x128x128) ![4, 0, 0] S1x128x128.size inb_S8x128x128_S1x128x128_4_0_0

abbrev slab1_5 : Rect S8x128x128 := Rect.unit (s := S8x128x128) ![5, 0, 0] S1x128x128.size inb_S8x128x128_S1x128x128_5_0_0

abbrev slab1_6 : Rect S8x128x128 := Rect.unit (s := S8x128x128) ![6, 0, 0] S1x128x128.size inb_S8x128x128_S1x128x128_6_0_0

abbrev slab1_7 : Rect S8x128x128 := Rect.unit (s := S8x128x128) ![7, 0, 0] S1x128x128.size inb_S8x128x128_S1x128x128_7_0_0

abbrev whole1_256x512 : Rect S256x512 := Rect.unit (s := S256x512) ![0, 0] S256x512.size inb_S256x512_S256x512_0_0

abbrev whole1_512 : Rect S512 := Rect.unit (s := S512) ![0] S512.size inb_S512_S512_0

abbrev whole1_512x256 : Rect S512x256 := Rect.unit (s := S512x256) ![0, 0] S512x256.size inb_S512x256_S512x256_0_0

abbrev whole1_256 : Rect S256 := Rect.unit (s := S256) ![0] S256.size inb_S256_S256_0

abbrev whole1_256x2048 : Rect S256x2048 := Rect.unit (s := S256x2048) ![0, 0] S256x2048.size inb_S256x2048_S256x2048_0_0

abbrev whole1_2048 : Rect S2048 := Rect.unit (s := S2048) ![0] S2048.size inb_S2048_S2048_0

abbrev whole1_128 : Rect S128 := Rect.unit (s := S128) ![0] S128.size inb_S128_S128_0

def out1_12 (x0 : Vec F S8x128x128 .f32) (x1 : Vec F S256x512 .bf16) (x2 : Vec F S512 .f32) (x3 : Vec F S512x256 .bf16)
    (x4 x5 x6 : Vec F S256 .f32) (x7 x8 x9 : Vec F S256x2048 .bf16) (x10 x11 : Vec F S2048 .f32) : Vec F S128 .f32 :=
  View.canon [⟨whole1_128, pay1 (View.ld x0 slab1_0) (View.ld x0 slab1_1) (View.ld x0 slab1_2) (View.ld x0 slab1_3)
    (View.ld x0 slab1_4) (View.ld x0 slab1_5) (View.ld x0 slab1_6) (View.ld x0 slab1_7)
    (View.ld x1 whole1_256x512) (View.ld x2 whole1_512) (View.ld x3 whole1_512x256)
    (View.ld x4 whole1_256) (View.ld x5 whole1_256) (View.ld x6 whole1_256)
    (View.ld x7 whole1_256x2048) (View.ld x8 whole1_256x2048) (View.ld x9 whole1_256x2048)
    (View.ld x10 whole1_2048) (View.ld x11 whole1_2048)⟩]

theorem zeros1 : (![0] : Fin 1 → Nat) = fun _ => 0 := funext fun a => by fin_cases a; rfl

theorem zeros2 : (![0, 0] : Fin 2 → Nat) = fun _ => 0 := funext fun a => by fin_cases a <;> rfl

theorem out1_12_eq (x0 : Vec F S8x128x128 .f32) (x1 : Vec F S256x512 .bf16) (x2 : Vec F S512 .f32) (x3 : Vec F S512x256 .bf16)
    (x4 x5 x6 : Vec F S256 .f32) (x7 x8 x9 : Vec F S256x2048 .bf16) (x10 x11 : Vec F S2048 .f32) :
    out1_12 x0 x1 x2 x3 x4 x5 x6 x7 x8 x9 x10 x11
      = pay1 (View.ld x0 slab1_0) (View.ld x0 slab1_1) (View.ld x0 slab1_2) (View.ld x0 slab1_3)
          (View.ld x0 slab1_4) (View.ld x0 slab1_5) (View.ld x0 slab1_6) (View.ld x0 slab1_7)
          x1 x2 x3 x4 x5 x6 x7 x8 x9 x10 x11 := by
  unfold out1_12
  rw [View.canon_unit_zero (S := S128) zeros1 inb_S128_S128_0,
    View.ld_unit_zero (S := S256x512) zeros2 inb_S256x512_S256x512_0_0 x1,
    View.ld_unit_zero (S := S512) zeros1 inb_S512_S512_0 x2,
    View.ld_unit_zero (S := S512x256) zeros2 inb_S512x256_S512x256_0_0 x3,
    View.ld_unit_zero (S := S256) zeros1 inb_S256_S256_0 x4,
    View.ld_unit_zero (S := S256) zeros1 inb_S256_S256_0 x5,
    View.ld_unit_zero (S := S256) zeros1 inb_S256_S256_0 x6,
    View.ld_unit_zero (S := S256x2048) zeros2 inb_S256x2048_S256x2048_0_0 x7,
    View.ld_unit_zero (S := S256x2048) zeros2 inb_S256x2048_S256x2048_0_0 x8,
    View.ld_unit_zero (S := S256x2048) zeros2 inb_S256x2048_S256x2048_0_0 x9,
    View.ld_unit_zero (S := S2048) zeros1 inb_S2048_S2048_0 x10,
    View.ld_unit_zero (S := S2048) zeros1 inb_S2048_S2048_0 x11]

theorem cover1_12 (p0 : Vec F S128 .f32) (y : S128.Idx) :
    ∃ pc ∈ ([⟨whole1_128, p0⟩] : List (View.Piece (Elt F) S128 .f32)), y ∈ pc.1.set :=
  ⟨_, List.mem_singleton_self _, View.mem_set_unit_zero zeros1 inb_S128_S128_0 y⟩

set_option maxHeartbeats 4000000 in

theorem sound_kernel1 (c : Dev nD) (E : Set ℕ) (i : grid1.Coords)
    (arg0 : Memref sig .tc .vmem S8x128x128 .f32) (harg0 : arg0.IsWhole) (arg1 : Memref sig .tc .vmem S256x512 .bf16) (harg1 : arg1.IsWhole)
    (arg2 : Memref sig .tc .vmem S512 .f32) (harg2 : arg2.IsWhole) (arg3 : Memref sig .tc .vmem S512x256 .bf16) (harg3 : arg3.IsWhole)
    (arg4 : Memref sig .tc .vmem S256 .f32) (harg4 : arg4.IsWhole) (arg5 : Memref sig .tc .vmem S256 .f32) (harg5 : arg5.IsWhole)
    (arg6 : Memref sig .tc .vmem S256 .f32) (harg6 : arg6.IsWhole) (arg7 : Memref sig .tc .vmem S256x2048 .bf16) (harg7 : arg7.IsWhole)
    (arg8 : Memref sig .tc .vmem S256x2048 .bf16) (harg8 : arg8.IsWhole) (arg9 : Memref sig .tc .vmem S256x2048 .bf16) (harg9 : arg9.IsWhole)
    (arg10 : Memref sig .tc .vmem S2048 .f32) (harg10 : arg10.IsWhole) (arg11 : Memref sig .tc .vmem S2048 .f32) (harg11 : arg11.IsWhole)
    (arg12 : Memref sig .tc .vmem S128 .f32) (harg12 : arg12.IsWhole)
    (x0 : Vec F S8x128x128 .f32) (x1 : Vec F S256x512 .bf16) (x2 : Vec F S512 .f32) (x3 : Vec F S512x256 .bf16)
    (x4 x5 x6 : Vec F S256 .f32) (x7 x8 x9 : Vec F S256x2048 .bf16) (x10 x11 : Vec F S2048 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ owns (c : Thread nD τ) arg5 fullShare x5
        ∗ owns (c : Thread nD τ) arg6 fullShare x6 ∗ owns (c : Thread nD τ) arg7 fullShare x7 ∗ owns (c : Thread nD τ) arg8 fullShare x8
        ∗ owns (c : Thread nD τ) arg9 fullShare x9 ∗ owns (c : Thread nD τ) arg10 fullShare x10 ∗ owns (c : Thread nD τ) arg11 fullShare x11
        ∗ (∃ d, owns (c : Thread nD τ) arg12 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare x7 ∗ owns (c : Thread nD τ) arg8 fullShare x8
            ∗ owns (c : Thread nD τ) arg9 fullShare x9 ∗ owns (c : Thread nD τ) arg10 fullShare x10 ∗ owns (c : Thread nD τ) arg11 fullShare x11
            ∗ owns (c : Thread nD τ) arg12 fullShare (out1_12 x0 x1 x2 x3 x4 x5 x6 x7 x8 x9 x10 x11)) -∗ K ⟨⟩))
      ⊢ wp frame (wpE (defs₀ (F := F)) Variants.none c none) E
          (cc1__tail_kernel i arg0 harg0 arg1 harg1 arg2 harg2 arg3 harg3 arg4 harg4 arg5 harg5 arg6 harg6 arg7 harg7 arg8 harg8
            arg9 harg9 arg10 harg10 arg11 harg11 arg12 harg12) K := by
  simp only [cc1__tail_kernel_eq_skeleton]; unfold cc1__tail_kernel_skel
  simp only [k1_part1_eq_skeleton, k1_part2_eq_skeleton, k1_part3_eq_skeleton]
  unfold k1_part1_skel k1_part2_skel k1_part3_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%f8, %hf8, H8⟩, ⟨%f9, %hf9, H9⟩, ⟨%f10, %hf10, H10⟩, ⟨%f11, %hf11, H11⟩, ⟨%d12, %f12, -, H12⟩, Hk⟩
  subst hf0 hf1 hf2 hf3 hf4 hf5 hf6 hf7 hf8 hf9 hf10 hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  iexists _; isplitr
  swap; · iexact H12
  ipureintro
  exact View.read_writes_eq_canon _ _ _ (cover1_12 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => out1_12 (iblk1 V c 0 t) (iblk1 V c 1 t) (iblk1 V c 2 t) (iblk1 V c 3 t) (iblk1 V c 4 t) (iblk1 V c 5 t)
        (iblk1 V c 6 t) (iblk1 V c 7 t) (iblk1 V c 8 t) (iblk1 V c 9 t) (iblk1 V c 10 t) (iblk1 V c 11 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]

theorem after1_1 (c : Dev nD) (t : Fin cfg1.N) : (dat1 V c).after 1 t = iblk1 V c 1 t := by dsimp only [dat1]

theorem after1_2 (c : Dev nD) (t : Fin cfg1.N) : (dat1 V c).after 2 t = iblk1 V c 2 t := by dsimp only [dat1]

theorem after1_3 (c : Dev nD) (t : Fin cfg1.N) : (dat1 V c).after 3 t = iblk1 V c 3 t := by dsimp only [dat1]

theorem after1_4 (c : Dev nD) (t : Fin cfg1.N) : (dat1 V c).after 4 t = iblk1 V c 4 t := by dsimp only [dat1]

theorem after1_5 (c : Dev nD) (t : Fin cfg1.N) : (dat1 V c).after 5 t = iblk1 V c 5 t := by dsimp only [dat1]

theorem after1_6 (c : Dev nD) (t : Fin cfg1.N) : (dat1 V c).after 6 t = iblk1 V c 6 t := by dsimp only [dat1]

theorem after1_7 (c : Dev nD) (t : Fin cfg1.N) : (dat1 V c).after 7 t = iblk1 V c 7 t := by dsimp only [dat1]

theorem after1_8 (c : Dev nD) (t : Fin cfg1.N) : (dat1 V c).after 8 t = iblk1 V c 8 t := by dsimp only [dat1]

theorem after1_9 (c : Dev nD) (t : Fin cfg1.N) : (dat1 V c).after 9 t = iblk1 V c 9 t := by dsimp only [dat1]

theorem after1_10 (c : Dev nD) (t : Fin cfg1.N) : (dat1 V c).after 10 t = iblk1 V c 10 t := by dsimp only [dat1]

theorem after1_11 (c : Dev nD) (t : Fin cfg1.N) : (dat1 V c).after 11 t = iblk1 V c 11 t := by dsimp only [dat1]

theorem after1_12 (c : Dev nD) (t : Fin cfg1.N) : (dat1 V c).after 12 t
    = out1_12 (iblk1 V c 0 t) (iblk1 V c 1 t) (iblk1 V c 2 t) (iblk1 V c 3 t) (iblk1 V c 4 t) (iblk1 V c 5 t)
        (iblk1 V c 6 t) (iblk1 V c 7 t) (iblk1 V c 8 t) (iblk1 V c 9 t) (iblk1 V c 10 t) (iblk1 V c 11 t) := by dsimp only [dat1]

theorem before1_0 (c : Dev nD) (t : Fin cfg1.N) (d) : (dat1 V c).before 0 t d = iblk1 V c 0 t :=
  before1_0_of V (dat1 V c) (A_eq1 V c 0) (after1_0 V c) t d

theorem before1_1 (c : Dev nD) (t : Fin cfg1.N) (d) : (dat1 V c).before 1 t d = iblk1 V c 1 t :=
  before1_1_of V (dat1 V c) (A_eq1 V c 1) (after1_1 V c) t d

theorem before1_2 (c : Dev nD) (t : Fin cfg1.N) (d) : (dat1 V c).before 2 t d = iblk1 V c 2 t :=
  before1_2_of V (dat1 V c) (A_eq1 V c 2) (after1_2 V c) t d

theorem before1_3 (c : Dev nD) (t : Fin cfg1.N) (d) : (dat1 V c).before 3 t d = iblk1 V c 3 t :=
  before1_3_of V (dat1 V c) (A_eq1 V c 3) (after1_3 V c) t d

theorem before1_4 (c : Dev nD) (t : Fin cfg1.N) (d) : (dat1 V c).before 4 t d = iblk1 V c 4 t :=
  before1_4_of V (dat1 V c) (A_eq1 V c 4) (after1_4 V c) t d

theorem before1_5 (c : Dev nD) (t : Fin cfg1.N) (d) : (dat1 V c).before 5 t d = iblk1 V c 5 t :=
  before1_5_of V (dat1 V c) (A_eq1 V c 5) (after1_5 V c) t d

theorem before1_6 (c : Dev nD) (t : Fin cfg1.N) (d) : (dat1 V c).before 6 t d = iblk1 V c 6 t :=
  before1_6_of V (dat1 V c) (A_eq1 V c 6) (after1_6 V c) t d

theorem before1_7 (c : Dev nD) (t : Fin cfg1.N) (d) : (dat1 V c).before 7 t d = iblk1 V c 7 t :=
  before1_7_of V (dat1 V c) (A_eq1 V c 7) (after1_7 V c) t d

theorem before1_8 (c : Dev nD) (t : Fin cfg1.N) (d) : (dat1 V c).before 8 t d = iblk1 V c 8 t :=
  before1_8_of V (dat1 V c) (A_eq1 V c 8) (after1_8 V c) t d

theorem before1_9 (c : Dev nD) (t : Fin cfg1.N) (d) : (dat1 V c).before 9 t d = iblk1 V c 9 t :=
  before1_9_of V (dat1 V c) (A_eq1 V c 9) (after1_9 V c) t d

theorem before1_10 (c : Dev nD) (t : Fin cfg1.N) (d) : (dat1 V c).before 10 t d = iblk1 V c 10 t :=
  before1_10_of V (dat1 V c) (A_eq1 V c 10) (after1_10 V c) t d

theorem before1_11 (c : Dev nD) (t : Fin cfg1.N) (d) : (dat1 V c).before 11 t d = iblk1 V c 11 t :=
  before1_11_of V (dat1 V c) (A_eq1 V c 11) (after1_11 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9,
    before1_10, before1_11]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11,
    after1_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩,
    ⟨%d9, H9⟩, ⟨%d10, H10⟩, ⟨%d11, H11⟩, ⟨%d12, H12⟩⟩
  iapply (sound_kernel1 c Set.univ _ _ _ _ _ _ _ _ _ _ _ _ _ _ _ _ _ _ _ _ _ _ _ _ _ _ _
    (iblk1 V c 0 t) (iblk1 V c 1 t) (iblk1 V c 2 t) (iblk1 V c 3 t) (iblk1 V c 4 t) (iblk1 V c 5 t)
    (iblk1 V c 6 t) (iblk1 V c 7 t) (iblk1 V c 8 t) (iblk1 V c 9 t) (iblk1 V c 10 t) (iblk1 V c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.KIRun.lean ====
import proofs.«427183_j33938831573494_3_alg».proof.Proof.KIBody0
import proofs.«427183_j33938831573494_3_alg».proof.Proof.KIBody1
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) :=
  fun c b => (⟨m, fun _ => 0, ρ⟩ : MemSt nD τ sig (Elt F)).mem ((c : Dev nD), b)

abbrev W1 : Dev nD → Valuation τ sig (Elt F) := fun c => StableHlo.after hostOps0 (W0 m ρ c)

abbrev V1 : (c : Dev nD) → (b : Ref sig .tc) → Buf (Elt F) ((c : Thread nD τ).loc b) := fun c b => W1 m ρ c b

def W2 (c : Dev nD) : Valuation τ sig (Elt F) :=
  Pipeline.withArrays spec0 c (W1 m ρ c) fun w => (dat0 (V1 m ρ) c).arrAt w cfg0.N

abbrev V2 : (c : Dev nD) → (b : Ref sig .tc) → Buf (Elt F) ((c : Thread nD τ).loc b) := fun c b => W2 m ρ c b

abbrev W3 : Dev nD → Valuation τ sig (Elt F) := fun c => StableHlo.after hostOps1 (W2 m ρ c)

abbrev V3 : (c : Dev nD) → (b : Ref sig .tc) → Buf (Elt F) ((c : Thread nD τ).loc b) := fun c b => W3 m ρ c b

def W4 (c : Dev nD) : Valuation τ sig (Elt F) :=
  Pipeline.withArrays spec1 c (W3 m ρ c) fun w => (dat1 (V3 m ρ) c).arrAt w cfg1.N

abbrev V4 : (c : Dev nD) → (b : Ref sig .tc) → Buf (Elt F) ((c : Thread nD τ).loc b) := fun c b => W4 m ρ c b

theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w

theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb

theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w

theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb

theorem hF0 (c : Dev nD) (w : Fin cfg0.W) : (dat0 (V1 m ρ) c).arrAt w cfg0.N = V2 m ρ c (Pipeline.arrRef spec0 w) :=
  (W2_arr m ρ c w).symm

theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

theorem hF1 (c : Dev nD) (w : Fin cfg1.W) : (dat1 (V3 m ρ) c).arrAt w cfg1.N = V4 m ρ c (Pipeline.arrRef spec1 w) :=
  (W4_arr m ρ c w).symm

theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

theorem W2_out (c : Dev nD) : W2 m ρ c (Proc.devRef .tc main_v74) = (dat0 (V1 m ρ) c).arrAt 9 cfg0.N := W2_arr m ρ c 9

theorem W4_out (c : Dev nD) : W4 m ρ c (Proc.devRef .tc main_v86) = (dat1 (V3 m ρ) c).arrAt 12 cfg1.N := W4_arr m ρ c 12

def wr0 : List (Ref sig .tc) :=
  [main_v0, main_v1, main_v2, main_v3, main_v4, main_v5, main_v6, main_v7, main_v8, main_v9,
   main_v10, main_v11, main_v12, main_v13, main_c, main_v14, main_v15, main_c_0, main_v16, main_v17,
   main_v18, main_v19, main_v20, main_c_1, main_v21, main_v22, main_c_2, main_v23, main_v24, main_v25,
   main_v26, main_v27, main_v28, main_v29, main_v30, main_v31, main_v32, main_v33, main_v34, main_v35,
   main_v36, main_v37, main_v38, main_v39, main_v40, main_v41, main_v42, main_v43, main_v44, main_v45,
   main_v46, main_v47, main_v48, main_v49, main_v50, main_v51, main_v52, main_c_3, main_v53, main_v54,
   main_c_4, main_v55, main_v56, main_v57, main_v58, main_v59, main_v60, main_v61, main_v62, main_v63,
   main_v64, main_v65, main_v66, main_v67, main_v68, main_v69, main_v70, main_v71, main_v72, main_v73]

def wr1 : List (Ref sig .tc) :=
  [main_v75, main_v76, main_v77, main_v78, main_v79, main_v80, main_v81, main_v82, main_v83, main_v84, main_v85]

set_option maxHeartbeats 4000000 in
theorem hostOps0_writes : (hostOps0 : List (HloOp τ sig (Elt F))).Forall
    fun op => op.writes ⊆ (wr0.map (Proc.devRef (τ := τ) .tc)).toFinset := by
  simp only [hostOps0, List.Forall, StableHlo.nullary_writes, StableHlo.unary_writes, StableHlo.binary_writes,
    StableHlo.ternary_writes, StableHlo.reshape_writes, StableHlo.nary_writes, Finset.singleton_subset_iff, List.mem_toFinset]
  repeat' apply And.intro
  all_goals exact List.mem_map_of_mem (by decide)

theorem hostOps1_writes : (hostOps1 : List (HloOp τ sig (Elt F))).Forall
    fun op => op.writes ⊆ (wr1.map (Proc.devRef (τ := τ) .tc)).toFinset := by
  simp only [hostOps1, List.Forall, StableHlo.unary_writes, StableHlo.reshape_writes, Finset.singleton_subset_iff, List.mem_toFinset]
  repeat' apply And.intro
  all_goals exact List.mem_map_of_mem (by decide)

theorem in0 : ∀ w : Fin cfg0.W, Pipeline.arrRef spec0 w ≠ main_v74 → (cfg0.win w).isOut = false := by decide

theorem in1 : ∀ w : Fin cfg1.W, Pipeline.arrRef spec1 w ≠ main_v86 → (cfg1.win w).isOut = false := by decide

theorem W1_of_not_mem (c : Dev nD) (b : Ref sig .tc) (hb : b ∉ wr0) :
    W1 m ρ c (Proc.devRef .tc b) = W0 m ρ c (Proc.devRef .tc b) :=
  StableHlo.after_of_writes_sub hostOps0 _ hostOps0_writes hb

theorem W2_of_ne_out (c : Dev nD) (b : Ref sig .tc) (hb : b ≠ main_v74) :
    W2 m ρ c (Proc.devRef .tc b) = W1 m ρ c (Proc.devRef .tc b) := by
  by_cases h : ∃ w, Pipeline.arrRef spec0 w = b
  · obtain ⟨w, rfl⟩ := h
    exact (W2_arr m ρ c w).trans (((dat0 (V1 m ρ) c).arrAt_in w (in0 w hb) _).trans (A_eq0 (V1 m ρ) c w))
  · exact W2_of_ne m ρ c b fun w e => h ⟨w, e⟩

theorem W3_of_not_mem (c : Dev nD) (b : Ref sig .tc) (hb : b ∉ wr1) :
    W3 m ρ c (Proc.devRef .tc b) = W2 m ρ c (Proc.devRef .tc b) :=
  StableHlo.after_of_writes_sub hostOps1 _ hostOps1_writes hb

theorem W4_of_ne_out (c : Dev nD) (b : Ref sig .tc) (hb : b ≠ main_v86) :
    W4 m ρ c (Proc.devRef .tc b) = W3 m ρ c (Proc.devRef .tc b) := by
  by_cases h : ∃ w, Pipeline.arrRef spec1 w = b
  · obtain ⟨w, rfl⟩ := h
    exact (W4_arr m ρ c w).trans (((dat1 (V3 m ρ) c).arrAt_in w (in1 w hb) _).trans (A_eq1 (V3 m ρ) c w))
  · exact W4_of_ne m ρ c b fun w e => h ⟨w, e⟩

def Untouched (b : Ref sig .tc) : Prop := b ∉ wr0 ∧ b ∉ wr1 ∧ b ≠ main_v74 ∧ b ≠ main_v86

instance (b : Ref sig .tc) : Decidable (Untouched b) := by unfold Untouched; infer_instance

theorem W1_untouched (c : Dev nD) (b : Ref sig .tc) (h : Untouched b) :
    W1 m ρ c (Proc.devRef .tc b) = m ((c : Thread nD τ).loc b) := W1_of_not_mem m ρ c b h.1

theorem W2_untouched (c : Dev nD) (b : Ref sig .tc) (h : Untouched b) :
    W2 m ρ c (Proc.devRef .tc b) = m ((c : Thread nD τ).loc b) :=
  (W2_of_ne_out m ρ c b h.2.2.1).trans (W1_untouched m ρ c b h)

theorem W3_untouched (c : Dev nD) (b : Ref sig .tc) (h : Untouched b) :
    W3 m ρ c (Proc.devRef .tc b) = m ((c : Thread nD τ).loc b) :=
  (W3_of_not_mem m ρ c b h.2.1).trans (W2_untouched m ρ c b h)

theorem W4_untouched (c : Dev nD) (b : Ref sig .tc) (h : Untouched b) :
    W4 m ρ c (Proc.devRef .tc b) = m ((c : Thread nD τ).loc b) :=
  (W4_of_ne_out m ρ c b h.2.2.2).trans (W3_untouched m ρ c b h)

def argRefs : List (Ref sig .tc) :=
  [main_arg0, main_arg1, main_arg2, main_arg3, main_arg4, main_arg5, main_arg6, main_arg7, main_arg8, main_arg9,
   main_arg10, main_arg11, main_arg12, main_arg13, main_arg14, main_arg15, main_arg16, main_arg17, main_arg18, main_arg19,
   main_arg20, main_arg21, main_arg22, main_arg23, main_arg24, main_arg25, main_arg26, main_arg27, main_arg28, main_arg29,
   main_arg30, main_arg31, main_arg32]

theorem arg_untouched : ∀ b ∈ argRefs, Untouched b := by decide

theorem W1_arg (c : Dev nD) (b : Ref sig .tc) (hb : b ∈ argRefs) :
    W1 m ρ c (Proc.devRef .tc b) = m ((c : Thread nD τ).loc b) := W1_untouched m ρ c b (arg_untouched b hb)

theorem W2_arg (c : Dev nD) (b : Ref sig .tc) (hb : b ∈ argRefs) :
    W2 m ρ c (Proc.devRef .tc b) = m ((c : Thread nD τ).loc b) := W2_untouched m ρ c b (arg_untouched b hb)

theorem W3_arg (c : Dev nD) (b : Ref sig .tc) (hb : b ∈ argRefs) :
    W3 m ρ c (Proc.devRef .tc b) = m ((c : Thread nD τ).loc b) := W3_untouched m ρ c b (arg_untouched b hb)

theorem W4_arg (c : Dev nD) (b : Ref sig .tc) (hb : b ∈ argRefs) :
    W4 m ρ c (Proc.devRef .tc b) = m ((c : Thread nD τ).loc b) := W4_untouched m ρ c b (arg_untouched b hb)

abbrev adm : (p : Fin 2) → (pcfgs (F := F) p).Adm := fun p => (cfgs p).toPCfg_adm

def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c

abbrev 𝒱₀ : Variants := Variants.none

abbrev L : GSem nD τ sig → Finset Unit := fun _ => ∅

abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev St (W : Dev nD → Valuation τ sig (Elt F)) (c : Dev nD) : sProp 𝕄 :=
  iprop(StableHlo.held (c : Thread nD τ) (Pipeline.ucRefs τ sig) (W c) ∗ R c)

abbrev Tₙ (c : Dev nD) : sProp 𝕄 := iprop(StableHlo.held (c : Thread nD τ) (Pipeline.ucRefs τ sig) (W4 m ρ c) ∗ ∃ r, prngReg c r)

theorem hostOps0_fresh : (hostOps0 : List (HloOp τ sig (Elt F))).Forall fun op => op.fresh = ∅ := by
  simp only [List.Forall]; repeat' constructor

theorem hostOps1_fresh : (hostOps1 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre := St (W1 m ρ)
  post := St (W2 m ρ)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun w => A_eq0 (V1 m ρ) c w
    rw [Pipeline.unscopedBufs_held] at hsplit
    iintro ⟨⟨Hbufs, Hreg, Howe⟩, -, -⟩
    ihave Hs := hsplit $$ Hbufs
    icases Hs with ⟨Harr, Hrest⟩
    imodintro
    isplitl [Harr]; · iexact Harr
    isplitr
    · unfold Pipeline.prefHeld; rw [show (Finset.univ : Finset (Fin 0)) = ∅ from rfl, BI.bigSep_empty]; iempintro
    isplitl [Howe]
    · unfold Pipeline.Dat.owesAt Pipeline.owesWithin
      icases Howe with ⟨%W, Howe⟩; iexists W
      isplitr; · ipureintro; exact fun _ _ => Or.inl trivial
      iexact Howe
    isplitl [Hreg]; · iexact Hreg
    iexact Hrest
  hin c := by
    rw [show (pdats m ρ 0 c).Φ 0 = Pipeline.ΦA spec0 c from rfl]; unfold Pipeline.ΦA
    iintro ⟨Hreg, -, Hsc⟩
    isplitl [Hsc]; · iexact Hsc
    iexact Hreg
  hout c := by
    rw [Pipeline.ownSems0_none, show (pdats m ρ 0 c).Φ (Fin.last _) = Pipeline.ΦA spec0 c from rfl]; unfold Pipeline.ΦA
    iintro ⟨Hsc, Hreg⟩
    isplitl [Hreg]; · iexact Hreg
    isplitr; · iempintro
    iexact Hsc
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Harr, Howe, Hreg, Hrest⟩
    imodintro
    isplitl [Harr Hrest]
    · iapply hjoin; isplitl [Harr] <;> iassumption
    isplitl [Hreg]; · iexact Hreg
    unfold Pipeline.Dat.owesAt Pipeline.owesWithin
    icases Howe with ⟨%W, -, Howe⟩; iexists W; iexact Howe

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre := St (W3 m ρ)
  post := St (W4 m ρ)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun w => A_eq1 (V3 m ρ) c w
    rw [Pipeline.unscopedBufs_held] at hsplit
    iintro ⟨⟨Hbufs, Hreg, Howe⟩, -, -⟩
    ihave Hs := hsplit $$ Hbufs
    icases Hs with ⟨Harr, Hrest⟩
    imodintro
    isplitl [Harr]; · iexact Harr
    isplitr
    · unfold Pipeline.prefHeld; rw [show (Finset.univ : Finset (Fin 0)) = ∅ from rfl, BI.bigSep_empty]; iempintro
    isplitl [Howe]
    · unfold Pipeline.Dat.owesAt Pipeline.owesWithin
      icases Howe with ⟨%W, Howe⟩; iexists W
      isplitr; · ipureintro; exact fun _ _ => Or.inl trivial
      iexact Howe
    isplitl [Hreg]; · iexact Hreg
    iexact Hrest
  hin c := by
    rw [show (pdats m ρ 1 c).Φ 0 = Pipeline.ΦA spec1 c from rfl]; unfold Pipeline.ΦA
    iintro ⟨Hreg, -, Hsc⟩
    isplitl [Hsc]; · iexact Hsc
    iexact Hreg
  hout c := by
    rw [Pipeline.ownSems0_none, show (pdats m ρ 1 c).Φ (Fin.last _) = Pipeline.ΦA spec1 c from rfl]; unfold Pipeline.ΦA
    iintro ⟨Hsc, Hreg⟩
    isplitl [Hreg]; · iexact Hreg
    isplitr; · iempintro
    iexact Hsc
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Harr, Howe, Hreg, Hrest⟩
    imodintro
    isplitl [Harr Hrest]
    · iapply hjoin; isplitl [Harr] <;> iassumption
    isplitl [Hreg]; · iexact Hreg
    unfold Pipeline.Dat.owesAt Pipeline.owesWithin
    icases Howe with ⟨%W, -, Howe⟩; iexists W; iexact Howe

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]

theorem main_run (c : Dev nD) : main (F := F) c = Pipeline.Seg.run (segs m ρ) := (main_chain c).trans (by chain_rfl)

theorem St_last (c : Dev nD) :
    St (W4 m ρ) c ⊢ iprop(Tₙ m ρ c ∗ ∃ W, owes (c : Thread nD τ) (0 : CellTallies nD τ sig Unit) W) := by
  iintro ⟨Hbufs, Hreg, Howe⟩
  isplitl [Hbufs Hreg]
  · isplitl [Hbufs]; · iexact Hbufs
    iexact Hreg
  iexact Howe

set_option backward.isDefEq.respectTransparency.types false in
theorem run_all : θ_run defs (onTc (τ := τ) (main (F := F))) ⟨m, fun _ => 0, ρ⟩
    (fun r => ∀ c : Dev nD, ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := St (W0 m ρ)) (Tₙ := Tₙ m ρ)
    (hch := ⟨fun _ => .rfl, fun _ => .rfl, fun _ => .rfl, fun _ => .rfl, fun c => St_last m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hbufs, -, Howe, -, Hreg, -⟩, -⟩
      imodintro
      isplitl [Hbufs]; · iexact Hbufs
      isplitl [Hreg]; · iexists _; iexact Hreg
      iexists ∅; iexact Howe)
    (QY := fun c s => ∀ b ∈ Pipeline.ucRefs τ sig, s.mem (((c : Thread nD τ)).1, b) = W4 m ρ c b)
    (hfin := fun c s' => by
      iintro ⟨⟨Hbufs, -⟩, HSI⟩
      unfold StableHlo.held
      imodintro
      iapply (pointsTo_read_all (Pipeline.ucRefs τ sig) (fun b => (((c : Thread nD τ)).1, b)) (W4 m ρ c) s')
      isplitl [Hbufs] <;> iassumption)
    (hQ := fun s h => h)

end Cert.KernelIdeal.Hand

end
-- ==== Proof.KIIdx.lean ====
import proofs.«427183_j33938831573494_3_alg».proof.Proof.Gen.KernelIdeal.Launch
import proofs.«427183_j33938831573494_3_alg».proof.Proof.Gen.KernelIdeal.Points

noncomputable section

namespace Cert.KernelIdeal.Val

open Cert.KernelIdeal Cert.KernelIdeal.Gen Idealize.ShloMosaic

theorem idx0_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0 ∧ win0_5.index t (0 : Fin 1) = 0
    ∧ win0_6.index t (0 : Fin 2) = 0 ∧ win0_6.index t (1 : Fin 2) = 0
    ∧ win0_7.index t (0 : Fin 1) = 0
    ∧ win0_8.index t (0 : Fin 2) = 0 ∧ win0_8.index t (1 : Fin 2) = 0
    ∧ win0_9.index t (0 : Fin 2) = t.val ∧ win0_9.index t (1 : Fin 2) = 0 :=
  (by decide +kernel : ∀ t : Fin grid0.N, _)

theorem idx1_facts : ∀ t : Fin cfg1.N,
    win1_0.index t (0 : Fin 3) = 0 ∧ win1_0.index t (1 : Fin 3) = t.val ∧ win1_0.index t (2 : Fin 3) = 0
    ∧ win1_1.index t (0 : Fin 2) = 0 ∧ win1_1.index t (1 : Fin 2) = 0
    ∧ win1_2.index t (0 : Fin 1) = 0
    ∧ win1_3.index t (0 : Fin 2) = 0 ∧ win1_3.index t (1 : Fin 2) = 0
    ∧ win1_4.index t (0 : Fin 1) = 0 ∧ win1_5.index t (0 : Fin 1) = 0 ∧ win1_6.index t (0 : Fin 1) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = 0 ∧ win1_9.index t (1 : Fin 2) = 0
    ∧ win1_10.index t (0 : Fin 1) = 0 ∧ win1_11.index t (0 : Fin 1) = 0
    ∧ win1_12.index t (0 : Fin 1) = t.val :=
  (by decide +kernel : ∀ t : Fin grid1.N, _)

theorem idx0_onto : ∀ q : Fin 64, ∃ t : Fin cfg0.N, t.val = q.val :=
  fun q => ⟨⟨q.val, by rw [show cfg0.N = 64 from N_0]; exact q.isLt⟩, rfl⟩

theorem idx1_onto : ∀ q : Fin 8, ∃ t : Fin cfg1.N, t.val = q.val :=
  fun q => ⟨⟨q.val, by rw [show cfg1.N = 8 from N_1]; exact q.isLt⟩, rfl⟩

end Cert.KernelIdeal.Val

end
-- ==== Proof.Spec.lean ====
import Idealize.ShloMosaic.PureOps.Ideal
import Idealize.ShloMosaic.PureOps.Ideal.Laws

noncomputable section

namespace Cert.Spec

open Idealize.ShloMosaic

abbrev w0 : EReal := Ideal.ofBits .f32 0x00000000#32

abbrev w1 : EReal := Ideal.ofBits .f32 0x3F800000#32

abbrev w2 : EReal := Ideal.ofBits .f32 0x40000000#32

abbrev w256 : EReal := Ideal.ofBits .f32 0x43800000#32

abbrev slope : EReal := Ideal.ofBits .f32 0x3C23D70A#32

abbrev eps : EReal := Ideal.ofBits .f32 0x358637BD#32

abbrev ninf : EReal := Ideal.ofBits .f32 0xFF800000#32

def cat {A B : Nat} (a : Fin A → EReal) (b : Fin B → EReal) (k : Fin (A + B)) : EReal :=
  if h : k.val < A then a ⟨k.val, h⟩ else b ⟨k.val - A, by omega⟩

def lrelu (x : EReal) : EReal := Scalar.select (Ideal.cmp .oge x w0) x (slope * x)

def proj (rel ent : Fin 64 → Fin 128 → EReal) (W : Fin 128 → Fin 256 → EReal) (wb b : Fin 128 → EReal)
    (n : Fin 64) (e : Fin 128) : EReal :=
  lrelu (((∑ k : Fin (128 + 128), cat (rel n) (ent n) k * W e ⟨k.val, k.isLt⟩) + wb e) + b e)

def score (P : Fin 64 → Fin 128 → EReal) (aW : Fin 128 → EReal) (ab : EReal) (n : Fin 64) : EReal :=
  (∑ e : Fin 128, P n e * aW e) + ab

def smax (s : Fin 64 → EReal) : EReal := Finset.univ.sup s

def softw (s : Fin 64 → EReal) (n : Fin 64) : EReal :=
  Ideal.div (Ideal.exp (s n - smax s)) (∑ n' : Fin 64, Ideal.exp (s n' - smax s))

def agg (P : Fin 64 → Fin 128 → EReal) (w : Fin 64 → EReal) (e : Fin 128) : EReal :=
  ∑ n : Fin 64, P n e * w n

def gate (a : Fin 128 → EReal) (gW : Fin 128 → EReal) (gwb gb : EReal) : EReal :=
  Ideal.logistic (((∑ e : Fin 128, a e * gW e) + gwb) + gb)

def neRow (rel ent : Fin 64 → Fin 128 → EReal) (self : Fin 128 → EReal)
    (W : Fin 128 → Fin 256 → EReal) (wb b : Fin 128 → EReal) (aW : Fin 128 → EReal) (ab : EReal)
    (gW : Fin 128 → EReal) (gwb gb : EReal) (e : Fin 128) : EReal :=
  let P := proj rel ent W wb b
  let a := agg P (softw (score P aW ab))
  let g := gate a gW gwb gb
  g * a e + (w1 - g) * self e

def avg (a b : EReal) : EReal := Ideal.div (a + b) w2

def qvec (nb : Fin 8 → Fin 128 → EReal) : Fin (128 + 128) → EReal :=
  cat (fun e => avg (nb 0 e) (nb 1 e)) (fun e => avg (nb 2 e) (nb 3 e))

def svec (nb : Fin 8 → Fin 128 → EReal) : Fin (128 + 128) → EReal :=
  cat (fun e => avg (nb 4 e) (nb 5 e)) (fun e => avg (nb 6 e) (nb 7 e))

def ffh (x : Fin 256 → EReal) (W1 : Fin 512 → Fin 256 → EReal) (b1 : Fin 512 → EReal) (j : Fin 512) : EReal :=
  max ((∑ k : Fin 256, x k * W1 j k) + b1 j) w0

def ffo (x : Fin 256 → EReal) (W1 : Fin 512 → Fin 256 → EReal) (b1 : Fin 512 → EReal)
    (W2 : Fin 256 → Fin 512 → EReal) (b2 : Fin 256 → EReal) (i : Fin 256) : EReal :=
  ((∑ j : Fin 512, ffh x W1 b1 j * W2 i j) + b2 i) + x i

def mean (y : Fin 256 → EReal) : EReal := Ideal.div (∑ i : Fin 256, y i) w256

def var (y : Fin 256 → EReal) : EReal :=
  Ideal.div (∑ i : Fin 256, (y i - mean y) * (y i - mean y)) w256

def lnorm (y : Fin 256 → EReal) (g bb : Fin 256 → EReal) (i : Fin 256) : EReal :=
  ((g i * (y i - mean y)) * Ideal.rsqrt (var y + eps)) + bb i

def blk (G : Fin 2048 → EReal) (q : Fin 4) (u : Fin 512) : EReal := G ⟨u.val + 512 * q.val, by omega⟩

def gates (qv : Fin 256 → EReal) (hr : Fin 512 → EReal) (Wih : Fin 2048 → Fin 256 → EReal)
    (Whh : Fin 2048 → Fin 512 → EReal) (bih bhh : Fin 2048 → EReal) (j : Fin 2048) : EReal :=
  (((∑ k : Fin 256, qv k * Wih j k) + bih j) + (∑ k : Fin 512, hr k * Whh j k)) + bhh j

def cellNext (G : Fin 2048 → EReal) (c : Fin 512 → EReal) (u : Fin 512) : EReal :=
  Ideal.logistic (blk G 1 u) * c u + Ideal.logistic (blk G 0 u) * Ideal.tanh (blk G 2 u)

def cellOut (G : Fin 2048 → EReal) (c' : Fin 512 → EReal) (u : Fin 512) : EReal :=
  Ideal.logistic (blk G 3 u) * Ideal.tanh (c' u)

def hidNext (qv : Fin 256 → EReal) (hc : Fin 512 → EReal) (k : Fin 256) : EReal :=
  qv k + hc ⟨k.val, by omega⟩

def step (qv sg : Fin 256 → EReal) (Wih : Fin 2048 → Fin 256 → EReal) (Whh : Fin 2048 → Fin 512 → EReal)
    (bih bhh : Fin 2048 → EReal) (s : (Fin 512 → EReal) × (Fin 512 → EReal)) :
    (Fin 512 → EReal) × (Fin 512 → EReal) :=
  let G := gates qv s.2 Wih Whh bih bhh
  let c' := cellNext G s.1
  (c', fun k => cat (A := 256) (B := 256) (hidNext qv (cellOut G c')) sg ⟨k.val, k.isLt⟩)

def state0 : (Fin 512 → EReal) × (Fin 512 → EReal) := (fun _ => w0, fun _ => w0)

def tailRow (nb : Fin 8 → Fin 128 → EReal)
    (W1 : Fin 512 → Fin 256 → EReal) (b1 : Fin 512 → EReal) (W2 : Fin 256 → Fin 512 → EReal) (b2 : Fin 256 → EReal)
    (lg lb : Fin 256 → EReal) (Wih : Fin 2048 → Fin 256 → EReal) (Whh : Fin 2048 → Fin 512 → EReal)
    (bih bhh : Fin 2048 → EReal) : EReal :=
  let qv : Fin 256 → EReal := fun k => qvec nb ⟨k.val, k.isLt⟩
  let sv : Fin 256 → EReal := fun k => svec nb ⟨k.val, k.isLt⟩
  let sg := lnorm (ffo sv W1 b1 W2 b2) lg lb
  let s4 := step qv sg Wih Whh bih bhh (step qv sg Wih Whh bih bhh (step qv sg Wih Whh bih bhh
    (step qv sg Wih Whh bih bhh state0)))
  ∑ k : Fin 256, s4.2 ⟨k.val, by omega⟩ * sg k

def normIdx (w : BitVec 32) : BitVec 32 := Scalar.select (IntOp.cmpi .slt w 0#32) (IntOp.addi w 100001#32) w

def look (emb : Fin 100001 → Fin 128 → EReal) (w : BitVec 32) (k : Fin 128) : EReal :=
  emb ⟨min (normIdx w).toInt.toNat 100000, by omega⟩ k

def nbRows (emb : Fin 100001 → Fin 128 → EReal) (conn : Fin 8 → Fin 64 → Fin 2 → BitVec 32) (self : Fin 8 → BitVec 32)
    (W : Fin 128 → Fin 256 → EReal) (wb b : Fin 128 → EReal) (aW : Fin 128 → EReal) (ab : EReal)
    (gW : Fin 128 → EReal) (gwb gb : EReal) (j : Fin 8) : Fin 128 → EReal :=
  neRow (fun n => look emb (conn j n 0)) (fun n => look emb (conn j n 1)) (look emb (self j)) W wb b aW ab gW gwb gb

end Cert.Spec

end
-- ==== Proof.KIVal0.lean ====
import proofs.«427183_j33938831573494_3_alg».proof.Proof.KIPay
import proofs.«427183_j33938831573494_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Val

open Cert.KernelIdeal Cert.KernelIdeal.Gen Idealize.ShloMosaic Idealize.ShloMosaic.ValueIdx

namespace K0

variable {α : Type}

abbrev D0 : DotDims S8192x256 S256x128 S8192x128 := dot_S8192x256_S256x128_S8192x128_1_0_0_1_n_n

theorem lhs_D0_0 (j : S8192x128.Idx) (k : D0.contr.Idx) : (D0.lhsIdx j k 0).val = (j 0).val := by
  simp [DotDims.lhsIdx, D0, dot_S8192x256_S256x128_S8192x128_1_0_0_1_n_n]; rfl

theorem lhs_D0_1 (j : S8192x128.Idx) (k : D0.contr.Idx) : (D0.lhsIdx j k 1).val = (k ⟨0, by decide⟩).val :=
  D0.lhsIdx_val_of_single (cl := 1) rfl j k

theorem rhs_D0_0 (j : S8192x128.Idx) (k : D0.contr.Idx) : (D0.rhsIdx j k 0).val = (k ⟨0, by decide⟩).val :=
  D0.rhsIdx_val_of_single (cr := 0) rfl j k

theorem rhs_D0_1 (j : S8192x128.Idx) (k : D0.contr.Idx) : (D0.rhsIdx j k 1).val = (j 1).val := by
  simp [DotDims.rhsIdx, D0, dot_S8192x256_S256x128_S8192x128_1_0_0_1_n_n]; rfl

theorem matmul_D0_apply (A : FVec Ideal S8192x256 .bf16) (B : FVec Ideal S256x128 .bf16) (r : Fin 8192) (e : Fin 128) :
    matmul D0 none A B (constant S8192x128 .f32 0x00000000#32) (ix2 r e)
      = ∑ k : Fin 256, A (ix2 r k) * B (ix2 k e) := by
  refine (Ideal.matmul_constant_zero_apply D0 none A B (ix2 r e)).trans ?_
  rw [← Equiv.sum_comp (contrEquiv1 D0 256 rfl rfl).symm]
  refine Finset.sum_congr rfl fun c _ => ?_
  have c2 := contrEquiv1_symm_val D0 256 rfl rfl c
  have l2 : D0.lhsIdx (ix2 r e) ((contrEquiv1 D0 256 rfl rfl).symm c) = ix2 r c := by
    funext ax; apply Fin.ext
    match ax with
    | ⟨0, _⟩ => exact lhs_D0_0 _ _
    | ⟨1, _⟩ => exact (lhs_D0_1 _ _).trans c2
  have r2 : D0.rhsIdx (ix2 r e) ((contrEquiv1 D0 256 rfl rfl).symm c) = ix2 c e := by
    funext ax; apply Fin.ext
    match ax with
    | ⟨0, _⟩ => exact (rhs_D0_0 _ _).trans c2
    | ⟨1, _⟩ => exact rhs_D0_1 _ _
  rw [l2, r2]

def row (p : Fin 128) (n : Fin 64) : Fin 8192 := ⟨p.val * 64 + n.val, by omega⟩

theorem flat_apply (v : S128x64x128.Idx → α) (h : S128x64x128.ShapeCasts S8192x128) (p : Fin 128) (n : Fin 64) (k : Fin 128) :
    shapeCast S8192x128 v h (ix2 (row p n) k) = v (ix3 p n k) :=
  shapeCast_apply v h _ _ (by rw [Shape.rowMajor_val_three, Shape.rowMajor_val_two]; rfl)

theorem unflat_apply (w : S8192x128.Idx → α) (h : S8192x128.ShapeCasts S128x64x128) (p : Fin 128) (n : Fin 64) (e : Fin 128) :
    shapeCast S128x64x128 w h (ix3 p n e) = w (ix2 (row p n) e) :=
  shapeCast_apply w h _ _ (by rw [Shape.rowMajor_val_three, Shape.rowMajor_val_two]; rfl)

theorem concat_lane_apply (x y : S8192x128.Idx → EReal) (h : Shape.Concatenates [S8192x128, S8192x128] S8192x256 1)
    (r : Fin 8192) (k : Fin (128 + 128)) :
    concatenate S8192x256 1 [⟨S8192x128, x⟩, ⟨S8192x128, y⟩] h (ix2 r ⟨k.val, k.isLt⟩)
      = Spec.cat (fun k' : Fin 128 => x (ix2 r k')) (fun k' : Fin 128 => y (ix2 r k')) k := by
  unfold Spec.cat
  split
  · next hk =>
    exact concatenate_pair_apply_left 1 x y h _ rfl (ix2 r ⟨k.val, hk⟩) (fun b => by
      match b with
      | ⟨0, _⟩ => rfl
      | ⟨1, _⟩ => rfl)
  · next hk =>
    exact concatenate_pair_apply_right 1 x y h _ rfl rfl (ix2 r ⟨k.val - 128, by omega⟩) (fun b hb => by
      match b, hb with
      | ⟨0, _⟩, _ => rfl
      | ⟨1, _⟩, hb => exact absurd rfl hb) (by show (k.val - 128) + 128 = k.val; omega)

theorem lane_bcast_apply (v : S128.Idx → α) (h1 : S128.ShapeCasts S128) (h2 : S128.ShapeCasts S1x1x128)
    (h3 : S1x1x128.Broadcasts S128x64x128) (p : Fin 128) (n : Fin 64) (e : Fin 128) :
    broadcastTo S128x64x128 (shapeCast S1x1x128 (shapeCast S128 v h1) h2) h3 (ix3 p n e) = v (ix1 e) := by
  rw [shapeCast_self]
  refine (broadcastTo_apply _ h3 (ix3 p n e) (ix3 (0 : Fin 1) (0 : Fin 1) e) fun a => ?_).trans ?_
  · match a with
    | ⟨0, _⟩ => rfl
    | ⟨1, _⟩ => rfl
    | ⟨2, _⟩ => rfl
  · exact shapeCast_apply v h2 _ _ (by
      rw [Shape.rowMajor_val_three, Shape.rowMajor_val_one]
      show e.val = (0 * 1 + 0) * 128 + e.val
      omega)

theorem col_bcast_apply {m : Nat} (v : S128.Idx → α) (h2 : S128.ShapeCasts S128x1)
    (h3 : S128x1.Broadcasts ⟨2, ![128, m]⟩) (p : Fin 128) (n : Fin m) :
    broadcastTo ⟨2, ![128, m]⟩ (shapeCast S128x1 v h2) h3 (ix2 p n) = v (ix1 p) := by
  refine (broadcastTo_apply _ h3 (ix2 p n) (ix2 p (0 : Fin 1)) fun a => ?_).trans ?_
  · match a with
    | ⟨0, _⟩ => rfl
    | ⟨1, _⟩ => rfl
  · exact shapeCast_apply v h2 _ _ (by
      rw [Shape.rowMajor_val_two, Shape.rowMajor_val_one]
      show p.val = p.val * 1 + 0
      omega)

theorem row_bcast_apply (v : S128.Idx → α) (h1 : S128.ShapeCasts S128) (h2 : S128.ShapeCasts S1x128)
    (h3 : S1x128.Broadcasts S128x128) (p e : Fin 128) :
    broadcastTo S128x128 (shapeCast S1x128 (shapeCast S128 v h1) h2) h3 (ix2 p e) = v (ix1 e) := by
  rw [shapeCast_self]
  exact (broadcastTo_1b_ab_apply _ h3 p e).trans (shapeCast_a_1a_apply v h2 0 e)

theorem unit_lane_apply (v : S128x64.Idx → α) (h : S128x64.ShapeCasts S128x64x1) (p : Fin 128) (n : Fin 64) (u : Fin 1) :
    shapeCast S128x64x1 v h (ix3 p n u) = v (ix2 p n) :=
  shapeCast_apply v h _ _ (by
    have hu : u.val = 0 := by omega
    rw [Shape.rowMajor_val_three, Shape.rowMajor_val_two]
    show p.val * 64 + n.val = (p.val * 64 + n.val) * 1 + u.val
    omega)

theorem unit_lane_bcast_apply (v : S128x64x1.Idx → α) (h : S128x64x1.Broadcasts S128x64x128) (p : Fin 128) (n : Fin 64) (e : Fin 128) :
    broadcastTo S128x64x128 v h (ix3 p n e) = v (ix3 p n (0 : Fin 1)) := by
  refine broadcastTo_apply v h (ix3 p n e) (ix3 p n (0 : Fin 1)) fun a => ?_
  match a with
  | ⟨0, _⟩ => rfl
  | ⟨1, _⟩ => rfl
  | ⟨2, _⟩ => rfl

theorem extract_one (v : S1x1.Idx → α) (h : ∀ a, (![0, 0] : Fin 2 → Nat) a < S1x1.size a) :
    extractAt ![0, 0] v h = v (ix2 (0 : Fin 1) (0 : Fin 1)) :=
  congrArg v (funext fun a => by
    match a with
    | ⟨0, _⟩ => rfl
    | ⟨1, _⟩ => rfl)

theorem sum_lanes_apply (src : FVec Ideal S128x64x128 .f32) (h : S128x64x128.Reduces [2] S128x64) (hφ : FKind.Formats .f32)
    (hacc : (0x00000000#32 : BitVec 32) = 0x00000000#32) (p : Fin 128) (n : Fin 64) :
    multiReduction .add [2] S128x64 src 0x00000000#32 h hφ hacc (ix2 p n) = ∑ k : Fin 128, src (ix3 p n k) := by
  refine (Ideal.multiReduction_add_single src 0x00000000#32 h hφ hacc (ix2 p n)).trans ?_
  refine Finset.sum_congr rfl fun k _ => congrArg src ?_
  funext c; apply Fin.ext
  match c with
  | ⟨0, _⟩ => rfl
  | ⟨1, _⟩ => rfl
  | ⟨2, _⟩ => rfl

theorem sum_nbrs_apply (src : FVec Ideal S128x64x128 .f32) (h : S128x64x128.Reduces [1] S128x128) (hφ : FKind.Formats .f32)
    (hacc : (0x00000000#32 : BitVec 32) = 0x00000000#32) (p e : Fin 128) :
    multiReduction .add [1] S128x128 src 0x00000000#32 h hφ hacc (ix2 p e) = ∑ n : Fin 64, src (ix3 p n e) := by
  refine (Ideal.multiReduction_add_single src 0x00000000#32 h hφ hacc (ix2 p e)).trans ?_
  refine Finset.sum_congr rfl fun k _ => congrArg src ?_
  funext c; apply Fin.ext
  match c with
  | ⟨0, _⟩ => rfl
  | ⟨1, _⟩ => rfl
  | ⟨2, _⟩ => rfl

theorem sum_cols_apply (src : FVec Ideal S128x64 .f32) (h : S128x64.Reduces [1] S128) (hφ : FKind.Formats .f32)
    (hacc : (0x00000000#32 : BitVec 32) = 0x00000000#32) (p : Fin 128) :
    multiReduction .add [1] S128 src 0x00000000#32 h hφ hacc (ix1 p) = ∑ n : Fin 64, src (ix2 p n) := by
  refine (Ideal.multiReduction_add_single src 0x00000000#32 h hφ hacc (ix1 p)).trans ?_
  refine Finset.sum_congr rfl fun k _ => congrArg src ?_
  funext c; apply Fin.ext
  match c with
  | ⟨0, _⟩ => rfl
  | ⟨1, _⟩ => rfl

theorem sum_row_apply (src : FVec Ideal S128x128 .f32) (h : S128x128.Reduces [1] S128) (hφ : FKind.Formats .f32)
    (hacc : (0x00000000#32 : BitVec 32) = 0x00000000#32) (p : Fin 128) :
    multiReduction .add [1] S128 src 0x00000000#32 h hφ hacc (ix1 p) = ∑ e : Fin 128, src (ix2 p e) := by
  refine (Ideal.multiReduction_add_single src 0x00000000#32 h hφ hacc (ix1 p)).trans ?_
  refine Finset.sum_congr rfl fun k _ => congrArg src ?_
  funext c; apply Fin.ext
  match c with
  | ⟨0, _⟩ => rfl
  | ⟨1, _⟩ => rfl

theorem ofBits_ninf : Ideal.ofBits .f32 0xFF800000#32 = ⊥ := by
  simp [Ideal.ofBits, Ideal.ieee]

theorem max_cols_apply (src : FVec Ideal S128x64 .f32) (h : S128x64.Reduces [1] S128) (hφ : FKind.Formats .f32)
    (hacc : (0xFF800000#32 : BitVec 32) = 0xFF800000#32) (p : Fin 128) :
    multiReduction .maximumf [1] S128 src 0xFF800000#32 h hφ hacc (ix1 p)
      = Finset.univ.sup fun n : Fin 64 => src (ix2 p n) := by
  refine (Ideal.multiReduction_maximumf_single src 0xFF800000#32 h hφ hacc (ix1 p)).trans ?_
  have hf : (src ∘ h.lift (ix1 p)) = fun n : Fin 64 => src (ix2 p n) := by
    funext n
    refine congrArg src ?_
    funext c; apply Fin.ext
    match c with
    | ⟨0, _⟩ => rfl
    | ⟨1, _⟩ => rfl
  show Finset.fold max (Ideal.ofBits .f32 0xFF800000#32) (src ∘ h.lift (ix1 p)) (Finset.univ : Finset (Fin 64)) = _
  rw [ofBits_ninf, hf]
  rfl

theorem exp_apply {s : Shape} {φ : FTy} (x : FVec Ideal s φ) (i : s.Idx) : exp x i = Ideal.exp (x i) := rfl

theorem logistic_apply {s : Shape} {φ : FTy} (x : FVec Ideal s φ) (i : s.Idx) : logistic x i = Ideal.logistic (x i) := rfl

theorem lrelu_apply {s : Shape} (x : FVec Ideal s .f32) (i : s.Idx) :
    select (cmpf .oge x (broadcast s (Scalar.ofBits .f32 0x00000000#32))) x
        (mulf (broadcast s (Scalar.ofBits .f32 0x3C23D70A#32)) x) i = Spec.lrelu (x i) := rfl

theorem col_bcast_apply' {m : Nat} (c : S128x1.Idx → α) (h : S128x1.Broadcasts ⟨2, ![128, m]⟩) (p : Fin 128) (n : Fin m) :
    broadcastTo ⟨2, ![128, m]⟩ c h (ix2 p n) = c (ix2 p (0 : Fin 1)) := by
  refine broadcastTo_apply c h (ix2 p n) (ix2 p (0 : Fin 1)) fun a => ?_
  match a with
  | ⟨0, _⟩ => rfl
  | ⟨1, _⟩ => rfl

theorem col_cast_apply (v : S128.Idx → α) (h : S128.ShapeCasts S128x1) (p : Fin 128) (u : Fin 1) :
    shapeCast S128x1 v h (ix2 p u) = v (ix1 p) :=
  shapeCast_apply v h _ _ (by
    have hu : u.val = 0 := by omega
    rw [Shape.rowMajor_val_two, Shape.rowMajor_val_one]
    show p.val = p.val * 1 + u.val
    omega)

theorem pay2_apply (rel ent : Vec Ideal S128x64x128 .bf16) (wt : Vec Ideal S256x128 .bf16) (pbias : Vec Ideal S128 .f32)
    (p : Fin 128) (n : Fin 64) (e : Fin 128) :
    k0_pay2 rel ent wt pbias (ix3 p n e)
      = Spec.lrelu ((∑ k : Fin (128 + 128),
            Spec.cat (fun k' : Fin 128 => rel (ix3 p n k')) (fun k' : Fin 128 => ent (ix3 p n k')) k
              * wt (ix2 ⟨k.val, k.isLt⟩ e))
          + pbias (ix1 e)) := by
  unfold Gen.k0_pay2
  refine (lrelu_apply _ _).trans (congrArg Spec.lrelu ?_)
  refine (addf_apply _ _ _).trans ?_
  refine congrArg₂ (· + ·) ?_ (lane_bcast_apply pbias _ _ _ p n e)
  refine (unflat_apply _ _ p n e).trans ?_
  refine (matmul_D0_apply _ _ (row p n) e).trans ?_
  refine Finset.sum_congr rfl fun k _ => ?_
  refine congrArg₂ (· * ·) ?_ (congrFun (shapeCast_self wt _) _)
  refine (concat_lane_apply _ _ _ (row p n) k).trans ?_
  refine congrArg₂ (fun a b => Spec.cat (A := 128) (B := 128) a b k) (funext fun k' => ?_) (funext fun k' => ?_)
  · exact (flat_apply _ _ p n k').trans (congrFun (shapeCast_self rel _) _)
  · exact (flat_apply _ _ p n k').trans (congrFun (shapeCast_self ent _) _)

theorem score_apply (P : FVec Ideal S128x64x128 .f32) (aw : Vec Ideal S128 .f32) (ab : Vec Ideal S1x1 .f32)
    (h1 : S128.ShapeCasts S128) (h2 : S128.ShapeCasts S1x1x128) (h3 : S1x1x128.Broadcasts S128x64x128)
    (hr : S128x64x128.Reduces [2] S128x64) (hφ : FKind.Formats .f32) (ha : (0x00000000#32 : BitVec 32) = 0x00000000#32)
    (hp : ∀ a, (![0, 0] : Fin 2 → Nat) a < S1x1.size a) (p : Fin 128) (n : Fin 64) :
    addf (multiReduction .add [2] S128x64
          (mulf P (broadcastTo S128x64x128 (shapeCast S1x1x128 (shapeCast S128 aw h1) h2) h3)) 0x00000000#32 hr hφ ha)
        (broadcast S128x64 (extractAt ![0, 0] ab hp)) (ix2 p n)
      = Spec.score (fun n' e => P (ix3 p n' e)) (fun e => aw (ix1 e)) (ab (ix2 0 0)) n := by
  unfold Spec.score
  refine (addf_apply _ _ _).trans ?_
  refine congrArg₂ (· + ·) ?_ (extract_one ab hp)
  refine (sum_lanes_apply _ hr hφ ha p n).trans ?_
  exact Finset.sum_congr rfl fun e _ => congrArg (P (ix3 p n e) * ·) (lane_bcast_apply aw h1 h2 h3 p n e)

theorem softmax_apply (s : FVec Ideal S128x64 .f32) (hr : S128x64.Reduces [1] S128) (hφ : FKind.Formats .f32)
    (hm : (0xFF800000#32 : BitVec 32) = 0xFF800000#32) (ha : (0x00000000#32 : BitVec 32) = 0x00000000#32)
    (hc : S128.ShapeCasts S128x1) (hb : S128x1.Broadcasts S128x64) (hu : S128x64.ShapeCasts S128x64x1)
    (p : Fin 128) (n : Fin 64) (u : Fin 1) :
    shapeCast S128x64x1
        (divf (exp (subf s (broadcastTo S128x64 (shapeCast S128x1 (multiReduction .maximumf [1] S128 s 0xFF800000#32 hr hφ hm) hc) hb)))
          (broadcastTo S128x64 (shapeCast S128x1
            (multiReduction .add [1] S128
              (exp (subf s (broadcastTo S128x64 (shapeCast S128x1 (multiReduction .maximumf [1] S128 s 0xFF800000#32 hr hφ hm) hc) hb)))
              0x00000000#32 hr hφ ha) hc) hb)) hu (ix3 p n u)
      = Spec.softw (fun n' => s (ix2 p n')) n := by
  have hE : ∀ n' : Fin 64,
      exp (subf s (broadcastTo S128x64 (shapeCast S128x1 (multiReduction .maximumf [1] S128 s 0xFF800000#32 hr hφ hm) hc) hb)) (ix2 p n')
        = Ideal.exp (s (ix2 p n') - Spec.smax (fun n'' => s (ix2 p n''))) := fun n' =>
    congrArg (fun x => Ideal.exp (s (ix2 p n') - x)) ((col_bcast_apply _ hc hb p n').trans (max_cols_apply s hr hφ hm p))
  refine (unit_lane_apply _ hu p n u).trans ?_
  refine (divf_apply _ _ _).trans ?_
  unfold Spec.softw
  refine congrArg₂ Ideal.div (hE n) ?_
  refine (col_bcast_apply _ hc hb p n).trans ((sum_cols_apply _ hr hφ ha p).trans ?_)
  exact Finset.sum_congr rfl fun n' _ => hE n'

theorem pay3_apply (rel ent : Vec Ideal S128x64x128 .bf16) (wt : Vec Ideal S256x128 .bf16) (pbias aw : Vec Ideal S128 .f32)
    (ab : Vec Ideal S1x1 .f32) (p : Fin 128) (n : Fin 64) (u : Fin 1) :
    k0_pay3 rel ent wt pbias aw ab (ix3 p n u)
      = Spec.softw (Spec.score (fun n' e' => k0_pay2 rel ent wt pbias (ix3 p n' e')) (fun e' => aw (ix1 e')) (ab (ix2 0 0))) n := by
  unfold Gen.k0_pay3
  refine (softmax_apply _ _ _ _ _ _ _ _ p n u).trans ?_
  refine congrArg (fun S => Spec.softw S n) (funext fun n' => ?_)
  exact score_apply _ aw ab _ _ _ _ _ _ _ p n'

theorem agg_apply (P : FVec Ideal S128x64x128 .f32) (w : FVec Ideal S128x64x1 .f32) (hb : S128x64x1.Broadcasts S128x64x128)
    (hr : S128x64x128.Reduces [1] S128x128) (hφ : FKind.Formats .f32) (ha : (0x00000000#32 : BitVec 32) = 0x00000000#32)
    (p e : Fin 128) :
    multiReduction .add [1] S128x128 (mulf P (broadcastTo S128x64x128 w hb)) 0x00000000#32 hr hφ ha (ix2 p e)
      = Spec.agg (fun n e' => P (ix3 p n e')) (fun n => w (ix3 p n (0 : Fin 1))) e := by
  unfold Spec.agg
  refine (sum_nbrs_apply _ hr hφ ha p e).trans ?_
  exact Finset.sum_congr rfl fun n _ => congrArg (P (ix3 p n e) * ·) (unit_lane_bcast_apply w hb p n e)

theorem gate_apply (A : FVec Ideal S128x128 .f32) (gw : Vec Ideal S128 .f32) (gb : Vec Ideal S1x1 .f32)
    (h1 : S128.ShapeCasts S128) (h2 : S128.ShapeCasts S1x128) (h3 : S1x128.Broadcasts S128x128)
    (hr : S128x128.Reduces [1] S128) (hφ : FKind.Formats .f32) (ha : (0x00000000#32 : BitVec 32) = 0x00000000#32)
    (hp : ∀ a, (![0, 0] : Fin 2 → Nat) a < S1x1.size a) (p : Fin 128) :
    logistic (addf (multiReduction .add [1] S128
          (mulf A (broadcastTo S128x128 (shapeCast S1x128 (shapeCast S128 gw h1) h2) h3)) 0x00000000#32 hr hφ ha)
        (broadcast S128 (extractAt ![0, 0] gb hp))) (ix1 p)
      = Ideal.logistic ((∑ e : Fin 128, A (ix2 p e) * gw (ix1 e)) + gb (ix2 0 0)) := by
  refine (logistic_apply _ _).trans (congrArg Ideal.logistic ?_)
  refine (addf_apply _ _ _).trans ?_
  refine congrArg₂ (· + ·) ?_ (extract_one gb hp)
  refine (sum_row_apply _ hr hφ ha p).trans ?_
  exact Finset.sum_congr rfl fun e _ => congrArg (A (ix2 p e) * ·) (row_bcast_apply gw h1 h2 h3 p e)

theorem mix_apply (A : FVec Ideal S128x128 .f32) (g : FVec Ideal S128 .f32) (self : Vec Ideal S128x128 .f32)
    (hc : S128.ShapeCasts S128x1) (hb : S128x1.Broadcasts S128x128) (hs : S128x128.ShapeCasts S128x128) (p e : Fin 128) :
    addf (mulf (broadcastTo S128x128 (shapeCast S128x1 g hc) hb) A)
        (mulf (broadcastTo S128x128 (subf (broadcast S128x1 (Scalar.ofBits .f32 0x3F800000#32)) (shapeCast S128x1 g hc)) hb)
          (shapeCast S128x128 self hs)) (ix2 p e)
      = g (ix1 p) * A (ix2 p e) + (Spec.w1 - g (ix1 p)) * self (ix2 p e) := by
  refine (addf_apply _ _ _).trans ?_
  refine congrArg₂ (· + ·) ?_ ?_
  · refine (mulf_apply _ _ _).trans ?_
    exact congrArg (· * A (ix2 p e)) (col_bcast_apply g hc hb p e)
  · refine (mulf_apply _ _ _).trans ?_
    refine congrArg₂ (· * ·) ?_ (congrFun (shapeCast_self self hs) _)
    refine (col_bcast_apply' _ hb p e).trans ?_
    refine (subf_apply _ _ _).trans ?_
    exact congrArg (Spec.w1 - ·) (col_cast_apply g hc p 0)

theorem pay1_apply (P : FVec Ideal S128x64x128 .f32) (w : FVec Ideal S128x64x1 .f32) (gw : Vec Ideal S128 .f32)
    (gb : Vec Ideal S1x1 .f32) (self : Vec Ideal S128x128 .f32) (p e : Fin 128) :
    k0_pay1 P w gw gb self (ix2 p e)
      = Ideal.logistic ((∑ e' : Fin 128,
            Spec.agg (fun n e'' => P (ix3 p n e'')) (fun n => w (ix3 p n (0 : Fin 1))) e' * gw (ix1 e')) + gb (ix2 0 0))
          * Spec.agg (fun n e'' => P (ix3 p n e'')) (fun n => w (ix3 p n (0 : Fin 1))) e
        + (Spec.w1 - Ideal.logistic ((∑ e' : Fin 128,
            Spec.agg (fun n e'' => P (ix3 p n e'')) (fun n => w (ix3 p n (0 : Fin 1))) e' * gw (ix1 e')) + gb (ix2 0 0)))
          * self (ix2 p e) := by
  unfold Gen.k0_pay1
  refine (mix_apply _ _ self _ _ _ p e).trans ?_
  have hg : ∀ (hb : S128x64x1.Broadcasts S128x64x128) (hr : S128x64x128.Reduces [1] S128x128) (hφ : FKind.Formats .f32)
      (ha : (0x00000000#32 : BitVec 32) = 0x00000000#32)
      (h1 : S128.ShapeCasts S128) (h2 : S128.ShapeCasts S1x128) (h3 : S1x128.Broadcasts S128x128)
      (hr' : S128x128.Reduces [1] S128) (hp : ∀ a, (![0, 0] : Fin 2 → Nat) a < S1x1.size a),
      logistic (addf (multiReduction .add [1] S128
          (mulf (multiReduction .add [1] S128x128 (mulf P (broadcastTo S128x64x128 w hb)) 0x00000000#32 hr hφ ha)
            (broadcastTo S128x128 (shapeCast S1x128 (shapeCast S128 gw h1) h2) h3)) 0x00000000#32 hr' hφ ha)
        (broadcast S128 (extractAt ![0, 0] gb hp))) (ix1 p)
      = Ideal.logistic ((∑ e' : Fin 128,
            Spec.agg (fun n e'' => P (ix3 p n e'')) (fun n => w (ix3 p n (0 : Fin 1))) e' * gw (ix1 e')) + gb (ix2 0 0)) :=
    fun hb hr hφ ha h1 h2 h3 hr' hp =>
      (gate_apply _ gw gb h1 h2 h3 hr' hφ ha hp p).trans
        (congrArg (fun x => Ideal.logistic (x + gb (ix2 0 0)))
          (Finset.sum_congr rfl fun e' _ => congrArg (· * gw (ix1 e')) (agg_apply P w hb hr hφ ha p e')))
  refine congrArg₂ (· + ·) (congrArg₂ (· * ·) (hg _ _ _ _ _ _ _ _ _) (agg_apply P w _ _ _ _ p e)) ?_
  exact congrArg (fun x => (Spec.w1 - x) * self (ix2 p e)) (hg _ _ _ _ _ _ _ _ _)

end K0

open K0

theorem pay0_apply (rel ent : Vec Ideal S128x64x128 .bf16) (self : Vec Ideal S128x128 .f32) (wt : Vec Ideal S256x128 .bf16)
    (pbias aw : Vec Ideal S128 .f32) (ab : Vec Ideal S1x1 .f32) (gw : Vec Ideal S128 .f32) (gb : Vec Ideal S1x1 .f32)
    (wb b : Fin 128 → EReal) (gwb gbb : EReal)
    (hbias : ∀ e : Fin 128, pbias (ix1 e) = wb e + b e) (hgate : gb (ix2 0 0) = gwb + gbb) (p e : Fin 128) :
    Hand.pay0 rel ent self wt pbias aw ab gw gb (ix2 p e)
      = Spec.neRow (fun n k => rel (ix3 p n k)) (fun n k => ent (ix3 p n k)) (fun k => self (ix2 p k))
          (fun e' k => wt (ix2 k e')) wb b (fun e' => aw (ix1 e')) (ab (ix2 0 0)) (fun e' => gw (ix1 e')) gwb gbb e := by
  have hP : (fun (n : Fin 64) (e' : Fin 128) => k0_pay2 rel ent wt pbias (ix3 p n e'))
      = Spec.proj (fun n k => rel (ix3 p n k)) (fun n k => ent (ix3 p n k)) (fun e' k => wt (ix2 k e')) wb b := by
    funext n e'
    refine (pay2_apply rel ent wt pbias p n e').trans ?_
    unfold Spec.proj
    rw [hbias e', ← add_assoc]
  have hW : (fun n : Fin 64 => k0_pay3 rel ent wt pbias aw ab (ix3 p n (0 : Fin 1)))
      = Spec.softw (Spec.score
          (Spec.proj (fun n k => rel (ix3 p n k)) (fun n k => ent (ix3 p n k)) (fun e' k => wt (ix2 k e')) wb b)
          (fun e' => aw (ix1 e')) (ab (ix2 0 0))) := by
    funext n
    rw [pay3_apply, hP]
  unfold Hand.pay0
  refine (pay1_apply _ _ gw gb self p e).trans ?_
  rw [hP, hW, hgate, ← add_assoc]
  rfl

end Cert.KernelIdeal.Val

end
-- ==== Proof.KIVal1.lean ====
import proofs.«427183_j33938831573494_3_alg».proof.Proof.KIPay
import proofs.«427183_j33938831573494_3_alg».proof.Proof.Spec
import Idealize.ShloMosaic.Lib.ValueIdx
import Idealize.ShloMosaic.Lib.Pipeline.Value
import Idealize.ShloMosaic.Lib.ValueLayout
import Idealize.ShloMosaic.PureOps.Ideal.Laws
import Mathlib.Algebra.BigOperators.Fin

noncomputable section

namespace Cert.KernelIdeal.Val

open Cert.KernelIdeal Cert.KernelIdeal.Gen Idealize.ShloMosaic Idealize.ShloMosaic.ValueIdx

namespace Tail

theorem word_two : Ideal.ofBits .f32 0x40000000#32 = ((2 : ℝ) : EReal) := by
  simp [Ideal.ofBits, Ideal.ieee]
  rw [← EReal.coe_mul]
  norm_num

theorem word_half : Ideal.ofBits .f32 0x3F000000#32 = ((1 / 2 : ℝ) : EReal) := by
  simp [Ideal.ofBits, Ideal.ieee]
  rw [← EReal.coe_mul]
  norm_num

theorem mul_half_eq_avg (a b : EReal) :
    (a + b) * Ideal.ofBits .f32 0x3F000000#32 = Spec.avg a b := by
  show (a + b) * Ideal.ofBits .f32 0x3F000000#32 = Ideal.div (a + b) (Ideal.ofBits .f32 0x40000000#32)
  rw [word_half, word_two, Ideal.div_coe (by norm_num : (2 : ℝ) ≠ 0)]

theorem matmul_zero_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  refine (Ideal.matmul_constant_zero_apply _ prec A B (ix2 a b)).trans ?_
  rw [← Equiv.sum_comp (contrEquiv1
    (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

theorem rowsum_apply {m k : Nat} (v : FVec Ideal ⟨2, ![m, k]⟩ .f32)
    (h : (⟨2, ![m, k]⟩ : Shape).Reduces [1] ⟨1, ![m]⟩) (hφ : FKind.Formats .f32)
    (hacc : (0x00000000#32 : BitVec 32) = FKind.add.neutral .f32 hφ) (p : Fin m) :
    multiReduction .add [1] ⟨1, ![m]⟩ v 0x00000000#32 h hφ hacc (ix1 p) = ∑ c : Fin k, v (ix2 p c) := by
  refine (Ideal.multiReduction_add_single v 0x00000000#32 h hφ hacc (ix1 p)).trans ?_
  refine Finset.sum_congr rfl fun c _ => congrArg v ?_
  funext ax; apply Fin.ext
  match ax with
  | ⟨0, _⟩ => rfl
  | ⟨1, _⟩ => rfl

theorem biasrow_apply {m n : Nat} {α : Type} (b : (⟨1, ![n]⟩ : Shape).Idx → α)
    (hc : (⟨1, ![n]⟩ : Shape).ShapeCasts ⟨2, ![1, n]⟩) (hb : (⟨2, ![1, n]⟩ : Shape).Broadcasts ⟨2, ![m, n]⟩)
    (p : Fin m) (j : Fin n) :
    broadcastTo ⟨2, ![m, n]⟩ (shapeCast ⟨2, ![1, n]⟩ b hc) hb (ix2 p j) = b (ix1 j) :=
  (broadcastTo_1b_ab_apply _ hb p j).trans (shapeCast_a_1a_apply b hc 0 j)

theorem shapeCast_a_a1_apply {a : Nat} {α : Type} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

theorem broadcastTo_a1_ab_apply {a b : Nat} {α : Type} (v : (⟨2, ![a, 1]⟩ : Shape).Idx → α)
    (h : (⟨2, ![a, 1]⟩ : Shape).Broadcasts ⟨2, ![a, b]⟩) (ha : a ≠ 1) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    rw [if_neg ha]
  | ⟨1, _⟩ => rfl

theorem pay2_apply (a b c d : Vec Ideal S1x128x128 .f32) (p : Fin 128) (k : Fin 256) :
    k1_pay2 a b c d (ix2 p k)
      = Spec.cat (fun e : Fin 128 => Spec.avg (a (ix3 0 p e)) (b (ix3 0 p e)))
          (fun e : Fin 128 => Spec.avg (c (ix3 0 p e)) (d (ix3 0 p e))) ⟨k.val, k.isLt⟩ := by
  unfold k1_pay2 Spec.cat
  by_cases hk : k.val < 128
  · rw [dif_pos hk]
    refine (concatenate_pair_apply_left (t := S128x256) (s₁ := S128x128) (s₂ := S128x128) (1 : Fin 2) _ _
      concatenates_S128x128_S128x128_S128x256_d1 (ix2 p k) rfl
      (ix2 p (⟨k.val, hk⟩ : Fin 128)) (fun ax => ?_)).trans ?_
    · match ax with
      | ⟨0, _⟩ => rfl
      | ⟨1, _⟩ => rfl
    · show (shapeCast S128x128 a shapeCasts_S1x128x128_S128x128 (ix2 p (⟨k.val, hk⟩ : Fin 128))
          + shapeCast S128x128 b shapeCasts_S1x128x128_S128x128 (ix2 p (⟨k.val, hk⟩ : Fin 128)))
          * Ideal.ofBits .f32 0x3F000000#32 = _
      rw [shapeCast_1ab_ab_apply, shapeCast_1ab_ab_apply, mul_half_eq_avg]
  · rw [dif_neg hk]
    have hk' : k.val - 128 < 128 := by have := k.isLt; omega
    refine (concatenate_pair_apply_right (t := S128x256) (s₁ := S128x128) (s₂ := S128x128) (1 : Fin 2) _ _
      concatenates_S128x128_S128x128_S128x256_d1 (ix2 p k) rfl rfl
      (ix2 p (⟨k.val - 128, hk'⟩ : Fin 128)) (fun ax hax => ?_) ?_).trans ?_
    · match ax with
      | ⟨0, _⟩ => rfl
      | ⟨1, _⟩ => exact absurd rfl hax
    · show k.val - 128 + 128 = k.val
      omega
    · show (shapeCast S128x128 c shapeCasts_S1x128x128_S128x128 (ix2 p (⟨k.val - 128, hk'⟩ : Fin 128))
          + shapeCast S128x128 d shapeCasts_S1x128x128_S128x128 (ix2 p (⟨k.val - 128, hk'⟩ : Fin 128)))
          * Ideal.ofBits .f32 0x3F000000#32 = _
      rw [shapeCast_1ab_ab_apply, shapeCast_1ab_ab_apply, mul_half_eq_avg]

theorem pay3_eq (a b c d : Vec Ideal S1x128x128 .f32) : k1_pay3 a b c d = k1_pay2 a b c d := rfl

def encK (x : FVec Ideal S128x256 .f32) (x' : FVec Ideal S128x256 .bf16) (w1 : Vec Ideal S256x512 .bf16)
    (b1 : Vec Ideal S512 .f32) (w2 : Vec Ideal S512x256 .bf16) (b2 : Vec Ideal S256 .f32) : FVec Ideal S128x256 .f32 :=
  addf (addf (matmul dot_S128x512_S512x256_S128x256_1_0_0_1_n_n none
      (truncf .bf16 (maximumf (addf (matmul dot_S128x256_S256x512_S128x512_1_0_0_1_n_n none x'
            (shapeCast S256x512 w1 shapeCasts_S256x512_S256x512 : FVec Ideal S256x512 .bf16)
            (constant S128x512 .f32 0x00000000#32))
          (broadcastTo S128x512 (shapeCast S1x512 b1 shapeCasts_S512_S1x512 : FVec Ideal S1x512 .f32)
            broadcasts_S1x512_S128x512))
        (broadcast S128x512 (Scalar.ofBits .f32 0x00000000#32))) bitsLt_bf16_f32 : FVec Ideal S128x512 .bf16)
      (shapeCast S512x256 w2 shapeCasts_S512x256_S512x256 : FVec Ideal S512x256 .bf16)
      (constant S128x256 .f32 0x00000000#32))
    (broadcastTo S128x256 (shapeCast S1x256 b2 shapeCasts_S256_S1x256 : FVec Ideal S1x256 .f32)
      broadcasts_S1x256_S128x256)) x

def meanK (y : FVec Ideal S128x256 .f32) : FVec Ideal S128x1 .f32 :=
  divf (shapeCast S128x1 (multiReduction .add [1] S128 y 0x00000000#32 reduces_S128x256_S128 (.inl rfl) rfl)
      shapeCasts_S128_S128x1 : FVec Ideal S128x1 .f32)
    (broadcast S128x1 (Scalar.ofBits .f32 0x43800000#32))

def cenK (y : FVec Ideal S128x256 .f32) : FVec Ideal S128x256 .f32 :=
  subf y (broadcastTo S128x256 (meanK y) broadcasts_S128x1_S128x256)

def normK (y : FVec Ideal S128x256 .f32) (g bb : Vec Ideal S256 .f32) : FVec Ideal S128x256 .f32 :=
  addf (mulf (mulf (broadcastTo S128x256 (shapeCast S1x256 g shapeCasts_S256_S1x256 : FVec Ideal S1x256 .f32)
          broadcasts_S1x256_S128x256) (cenK y))
      (broadcastTo S128x256 (rsqrt (addf (meanK (mulf (cenK y) (cenK y)))
          (broadcast S128x1 (Scalar.ofBits .f32 0x358637BD#32)))) broadcasts_S128x1_S128x256))
    (broadcastTo S128x256 (shapeCast S1x256 bb shapeCasts_S256_S1x256 : FVec Ideal S1x256 .f32)
      broadcasts_S1x256_S128x256)

theorem pay5_eq (x : FVec Ideal S128x256 .f32) (x' : FVec Ideal S128x256 .bf16) (w1 : Vec Ideal S256x512 .bf16)
    (b1 : Vec Ideal S512 .f32) (w2 : Vec Ideal S512x256 .bf16) (b2 lg lb : Vec Ideal S256 .f32) :
    k1_pay5 x x' w1 b1 w2 b2 lg lb = normK (encK x x' w1 b1 w2 b2) lg lb := rfl

theorem encK_apply (x : FVec Ideal S128x256 .f32) (x' : FVec Ideal S128x256 .bf16) (w1 : Vec Ideal S256x512 .bf16)
    (b1 : Vec Ideal S512 .f32) (w2 : Vec Ideal S512x256 .bf16) (b2 : Vec Ideal S256 .f32) (p : Fin 128)
    (hx : ∀ k : Fin 256, x' (ix2 p k) = x (ix2 p k)) (i : Fin 256) :
    encK x x' w1 b1 w2 b2 (ix2 p i)
      = Spec.ffo (fun k => x (ix2 p k)) (fun j k => w1 (ix2 k j)) (fun j => b1 (ix1 j)) (fun i j => w2 (ix2 j i))
          (fun i => b2 (ix1 i)) i := by
  unfold encK Spec.ffo
  refine congrArg₂ (· + ·) (congrArg₂ (· + ·) ?_ (biasrow_apply _ _ _ p i)) rfl
  refine (matmul_zero_apply (φ₁ := .bf16) (φ₂ := .bf16) dot_S128x512_S512x256_S128x256_1_0_0_1_n_n_wf none _ _ p i).trans ?_
  refine Finset.sum_congr rfl fun j _ => ?_
  simp only [shapeCast_self]
  refine congrArg₂ (· * ·) ?_ rfl
  unfold Spec.ffh
  refine congrArg₂ max (congrArg₂ (· + ·) ?_ (biasrow_apply _ _ _ p j)) rfl
  refine (matmul_zero_apply (φ₁ := .bf16) (φ₂ := .bf16) dot_S128x256_S256x512_S128x512_1_0_0_1_n_n_wf none _ _ p j).trans ?_
  refine Finset.sum_congr rfl fun k _ => ?_
  rw [hx k]

theorem meanK_apply (y : FVec Ideal S128x256 .f32) (p : Fin 128) (u : Fin 1) :
    meanK y (ix2 p u) = Spec.mean (fun k => y (ix2 p k)) := by
  unfold meanK Spec.mean
  refine congrArg₂ Ideal.div ?_ rfl
  refine (shapeCast_a_a1_apply _ shapeCasts_S128_S128x1 p u).trans ?_
  exact rowsum_apply y reduces_S128x256_S128 (.inl rfl) rfl p

theorem cenK_apply (y : FVec Ideal S128x256 .f32) (p : Fin 128) (i : Fin 256) :
    cenK y (ix2 p i) = y (ix2 p i) - Spec.mean (fun k => y (ix2 p k)) := by
  unfold cenK
  refine congrArg (y (ix2 p i) - ·) ?_
  exact (broadcastTo_a1_ab_apply _ broadcasts_S128x1_S128x256 (by decide) p i).trans (meanK_apply y p 0)

theorem normK_apply (y : FVec Ideal S128x256 .f32) (g bb : Vec Ideal S256 .f32) (p : Fin 128) (i : Fin 256) :
    normK y g bb (ix2 p i)
      = Spec.lnorm (fun k => y (ix2 p k)) (fun k => g (ix1 k)) (fun k => bb (ix1 k)) i := by
  unfold normK Spec.lnorm
  refine congrArg₂ (· + ·) (congrArg₂ (· * ·) (congrArg₂ (· * ·) (biasrow_apply _ _ _ p i) (cenK_apply y p i)) ?_)
    (biasrow_apply _ _ _ p i)
  refine (broadcastTo_a1_ab_apply _ broadcasts_S128x1_S128x256 (by decide) p i).trans ?_
  refine congrArg (fun t => Ideal.rsqrt (t + Spec.eps)) ?_
  refine (meanK_apply _ p 0).trans ?_
  unfold Spec.var Spec.mean
  refine congrArg₂ Ideal.div (Finset.sum_congr rfl fun k _ => ?_) rfl
  show cenK y (ix2 p k) * cenK y (ix2 p k) = _
  rw [cenK_apply]
  rfl

theorem sum_cat_split (a b : Fin 256 → EReal) (W : Fin 512 → EReal) :
    ∑ k : Fin 512, Spec.cat (A := 256) (B := 256) a b ⟨k.val, k.isLt⟩ * W k
      = ∑ k : Fin 256, a k * W ⟨k.val, by omega⟩ + ∑ k : Fin 256, b k * W ⟨k.val + 256, by omega⟩ := by
  refine (Fin.sum_univ_add (a := 256) (b := 256)
    (fun k : Fin (256 + 256) => Spec.cat (A := 256) (B := 256) a b ⟨k.val, k.isLt⟩ * W ⟨k.val, k.isLt⟩)).trans ?_
  refine congrArg₂ (· + ·) (Finset.sum_congr rfl fun k _ => ?_) (Finset.sum_congr rfl fun k _ => ?_)
  · have hk : (Fin.castAdd 256 k).val < 256 := k.isLt
    show Spec.cat (A := 256) (B := 256) a b ⟨(Fin.castAdd 256 k).val, _⟩ * W ⟨(Fin.castAdd 256 k).val, _⟩ = _
    unfold Spec.cat
    rw [dif_pos hk]
    rfl
  · have hk : ¬ (Fin.natAdd 256 k).val < 256 := by simp
    show Spec.cat (A := 256) (B := 256) a b ⟨(Fin.natAdd 256 k).val, _⟩ * W ⟨(Fin.natAdd 256 k).val, _⟩ = _
    unfold Spec.cat
    rw [dif_neg hk]
    refine congrArg₂ (· * ·) (congrArg b (Fin.ext ?_)) (congrArg W (Fin.ext ?_))
    · show 256 + k.val - 256 = k.val
      omega
    · show 256 + k.val = k.val + 256
      omega

theorem pay9_apply (qv' : FVec Ideal S128x256 .bf16) (wih : Vec Ideal S256x2048 .bf16) (bih bhh : Vec Ideal S2048 .f32)
    (p : Fin 128) (j : Fin 2048) :
    k1_pay9 qv' wih bih bhh (ix2 p j)
      = ((∑ k : Fin 256, qv' (ix2 p k) * wih (ix2 k j)) + bih (ix1 j)) + bhh (ix1 j) := by
  unfold k1_pay9
  refine congrArg₂ (· + ·) (congrArg₂ (· + ·) ?_ (biasrow_apply _ _ _ p j)) (biasrow_apply _ _ _ p j)
  refine (matmul_zero_apply (φ₁ := .bf16) (φ₂ := .bf16) dot_S128x256_S256x2048_S128x2048_1_0_0_1_n_n_wf none _ _ p j).trans ?_
  exact Finset.sum_congr rfl fun k _ => congrArg₂ (· * ·) rfl (congrFun (shapeCast_self _ _) _)

theorem pay10_apply (qv' sg' : FVec Ideal S128x256 .bf16) (wih whs : Vec Ideal S256x2048 .bf16)
    (bih bhh : Vec Ideal S2048 .f32) (p : Fin 128) (j : Fin 2048) :
    k1_pay10 qv' sg' wih whs bih bhh (ix2 p j)
      = k1_pay9 qv' wih bih bhh (ix2 p j) + ∑ k : Fin 256, sg' (ix2 p k) * whs (ix2 k j) := by
  unfold k1_pay10
  refine congrArg (k1_pay9 qv' wih bih bhh (ix2 p j) + ·) ?_
  refine (matmul_zero_apply (φ₁ := .bf16) (φ₂ := .bf16) dot_S128x256_S256x2048_S128x2048_1_0_0_1_n_n_wf none _ _ p j).trans ?_
  exact Finset.sum_congr rfl fun k _ => congrArg₂ (· * ·) rfl (congrFun (shapeCast_self _ _) _)

def cellNextK (G : FVec Ideal S128x2048 .f32) (c : FVec Ideal S128x512 .f32) : FVec Ideal S128x512 .f32 :=
  addf (mulf (logistic (extractStridedSlice S128x512 ![0, 512] G slices_S128x2048_o0_512_S128x512 :
      FVec Ideal S128x512 .f32)) c)
    (mulf (logistic (extractStridedSlice S128x512 ![0, 0] G slices_S128x2048_o0_0_S128x512 : FVec Ideal S128x512 .f32))
      (tanh (extractStridedSlice S128x512 ![0, 1024] G slices_S128x2048_o0_1024_S128x512 : FVec Ideal S128x512 .f32)))

def cellOutK (G : FVec Ideal S128x2048 .f32) (c' : FVec Ideal S128x512 .f32) : FVec Ideal S128x512 .f32 :=
  mulf (logistic (extractStridedSlice S128x512 ![0, 1536] G slices_S128x2048_o0_1536_S128x512 :
    FVec Ideal S128x512 .f32)) (tanh c')

def hidK (qv : FVec Ideal S128x256 .f32) (hc : FVec Ideal S128x512 .f32) : FVec Ideal S128x256 .f32 :=
  addf qv (extractStridedSlice S128x256 ![0, 0] hc slices_S128x512_o0_0_S128x256 : FVec Ideal S128x256 .f32)

def gatesK (inv : FVec Ideal S128x2048 .f32) (h : FVec Ideal S128x256 .f32) (whhc : FVec Ideal S256x2048 .bf16) :
    FVec Ideal S128x2048 .f32 :=
  addf inv (matmul dot_S128x256_S256x2048_S128x2048_1_0_0_1_n_n none
    (truncf .bf16 h bitsLt_bf16_f32 : FVec Ideal S128x256 .bf16) whhc (constant S128x2048 .f32 0x00000000#32))

def scoreK (qv sg : FVec Ideal S128x256 .f32) (G : FVec Ideal S128x2048 .f32) (c' : FVec Ideal S128x512 .f32) :
    FVec Ideal S128 .f32 :=
  multiReduction .add [1] S128 (mulf (hidK qv (cellOutK G c')) sg) 0x00000000#32 reduces_S128x256_S128 (.inl rfl) rfl

theorem blk_apply (G : FVec Ideal S128x2048 .f32) (o : Nat) (q : Fin 4) (ho : o = 512 * q.val)
    (h : S128x2048.Slices ![0, o] S128x512) (p : Fin 128) (u : Fin 512) :
    extractStridedSlice S128x512 ![0, o] G h (ix2 p u) = Spec.blk (fun j => G (ix2 p j)) q u := by
  refine (slice2_axis1_eq o G h p u).trans ?_
  unfold Spec.blk
  exact congrArg (fun j => G (ix2 p j)) (Fin.ext (by show o + u.val = u.val + 512 * q.val; omega))

theorem cellNextK_apply (G : FVec Ideal S128x2048 .f32) (c : FVec Ideal S128x512 .f32) (p : Fin 128) (u : Fin 512) :
    cellNextK G c (ix2 p u) = Spec.cellNext (fun j => G (ix2 p j)) (fun u => c (ix2 p u)) u := by
  unfold cellNextK Spec.cellNext
  exact congrArg₂ (· + ·)
    (congrArg₂ (· * ·) (congrArg Ideal.logistic (blk_apply G 512 1 rfl _ p u)) rfl)
    (congrArg₂ (· * ·) (congrArg Ideal.logistic (blk_apply G 0 0 rfl _ p u))
      (congrArg Ideal.tanh (blk_apply G 1024 2 rfl _ p u)))

theorem cellOutK_apply (G : FVec Ideal S128x2048 .f32) (c' : FVec Ideal S128x512 .f32) (p : Fin 128) (u : Fin 512) :
    cellOutK G c' (ix2 p u) = Spec.cellOut (fun j => G (ix2 p j)) (fun u => c' (ix2 p u)) u := by
  unfold cellOutK Spec.cellOut
  exact congrArg₂ (· * ·) (congrArg Ideal.logistic (blk_apply G 1536 3 rfl _ p u)) rfl

theorem hidK_apply (qv : FVec Ideal S128x256 .f32) (hc : FVec Ideal S128x512 .f32) (p : Fin 128) (k : Fin 256) :
    hidK qv hc (ix2 p k) = Spec.hidNext (fun k => qv (ix2 p k)) (fun u => hc (ix2 p u)) k := by
  unfold hidK Spec.hidNext
  refine congrArg (qv (ix2 p k) + ·) ?_
  refine (slice2_axis1_eq 0 hc slices_S128x512_o0_0_S128x256 p k).trans ?_
  exact congrArg (fun u => hc (ix2 p u)) (Fin.ext (by show 0 + k.val = k.val; omega))

theorem gatesK_apply (inv : FVec Ideal S128x2048 .f32) (h : FVec Ideal S128x256 .f32) (whh : Vec Ideal S256x2048 .bf16)
    (p : Fin 128) (j : Fin 2048) :
    gatesK inv h (k1_pay8 whh) (ix2 p j) = inv (ix2 p j) + ∑ k : Fin 256, h (ix2 p k) * whh (ix2 k j) := by
  unfold gatesK k1_pay8
  refine congrArg (inv (ix2 p j) + ·) ?_
  refine (matmul_zero_apply (φ₁ := .bf16) (φ₂ := .bf16) dot_S128x256_S256x2048_S128x2048_1_0_0_1_n_n_wf none _ _ p j).trans ?_
  exact Finset.sum_congr rfl fun k _ => congrArg₂ (· * ·) rfl (congrFun (shapeCast_self _ _) _)

theorem add_regroup (A B C S H : EReal) : (((A + B) + C) + S) + H = ((A + B) + (H + S)) + C := by
  rw [add_right_comm (A + B) C S, add_right_comm (A + B + S) C H, add_comm H S, ← add_assoc (A + B) S H]

def rowState (p : Fin 128) (sg : FVec Ideal S128x256 .f32) (c : FVec Ideal S128x512 .f32) (h : FVec Ideal S128x256 .f32) :
    (Fin 512 → EReal) × (Fin 512 → EReal) :=
  (fun u => c (ix2 p u),
    fun k => Spec.cat (A := 256) (B := 256) (fun k => h (ix2 p k)) (fun k => sg (ix2 p k)) ⟨k.val, k.isLt⟩)

theorem step_row (p : Fin 128) (qv sg : FVec Ideal S128x256 .f32) (G : FVec Ideal S128x2048 .f32)
    (c : FVec Ideal S128x512 .f32) (Wih : Fin 2048 → Fin 256 → EReal) (Whh : Fin 2048 → Fin 512 → EReal)
    (bih bhh : Fin 2048 → EReal) (s : (Fin 512 → EReal) × (Fin 512 → EReal))
    (hG : ∀ j, G (ix2 p j) = Spec.gates (fun k => qv (ix2 p k)) s.2 Wih Whh bih bhh j)
    (hc : ∀ u, c (ix2 p u) = s.1 u) :
    rowState p sg (cellNextK G c) (hidK qv (cellOutK G (cellNextK G c)))
      = Spec.step (fun k => qv (ix2 p k)) (fun k => sg (ix2 p k)) Wih Whh bih bhh s := by
  have hGf : (fun j => G (ix2 p j)) = Spec.gates (fun k => qv (ix2 p k)) s.2 Wih Whh bih bhh := funext hG
  have hcf : (fun u => c (ix2 p u)) = s.1 := funext hc
  have hc' : (fun u => cellNextK G c (ix2 p u))
      = Spec.cellNext (Spec.gates (fun k => qv (ix2 p k)) s.2 Wih Whh bih bhh) s.1 :=
    funext fun u => by rw [cellNextK_apply, hGf, hcf]
  unfold rowState Spec.step
  dsimp only
  refine congrArg₂ Prod.mk hc' (funext fun k => ?_)
  refine congrArg (fun a => Spec.cat (A := 256) (B := 256) a (fun k => sg (ix2 p k)) ⟨k.val, k.isLt⟩)
    (funext fun k' => ?_)
  rw [hidK_apply]
  refine congrArg (fun hc => Spec.hidNext (fun k => qv (ix2 p k)) hc k') (funext fun u => ?_)
  rw [cellOutK_apply, hGf, hc']

theorem gates0_row (p : Fin 128) (qv : FVec Ideal S128x256 .f32) (qv' : FVec Ideal S128x256 .bf16)
    (hq : ∀ k : Fin 256, qv' (ix2 p k) = qv (ix2 p k)) (wih : Vec Ideal S256x2048 .bf16) (bih bhh : Vec Ideal S2048 .f32)
    (Whh : Fin 2048 → Fin 512 → EReal) (j : Fin 2048) :
    k1_pay9 qv' wih bih bhh (ix2 p j)
      = Spec.gates (fun k => qv (ix2 p k)) Spec.state0.2 (fun j k => wih (ix2 k j)) Whh (fun j => bih (ix1 j))
          (fun j => bhh (ix1 j)) j := by
  rw [pay9_apply]
  have hA : ∑ k : Fin 256, qv' (ix2 p k) * wih (ix2 k j) = ∑ k : Fin 256, qv (ix2 p k) * wih (ix2 k j) :=
    Finset.sum_congr rfl fun k _ => by rw [hq k]
  have hz : ∑ k : Fin 512, Spec.state0.2 k * Whh j k = 0 := Finset.sum_eq_zero fun k _ => by
    show Ideal.ofBits .f32 0x00000000#32 * Whh j k = 0
    rw [Ideal.ofBits_zero_f32, zero_mul]
  unfold Spec.gates
  rw [hz, add_zero, hA]

theorem gates_row (p : Fin 128) (qv sg h : FVec Ideal S128x256 .f32) (qv' sg' : FVec Ideal S128x256 .bf16)
    (hq : ∀ k : Fin 256, qv' (ix2 p k) = qv (ix2 p k)) (hsg : ∀ k : Fin 256, sg' (ix2 p k) = sg (ix2 p k))
    (wih whh whs : Vec Ideal S256x2048 .bf16) (bih bhh : Vec Ideal S2048 .f32) (Whh : Fin 2048 → Fin 512 → EReal)
    (hh : ∀ (k : Fin 256) (j : Fin 2048), whh (ix2 k j) = Whh j ⟨k.val, by omega⟩)
    (hs : ∀ (k : Fin 256) (j : Fin 2048), whs (ix2 k j) = Whh j ⟨k.val + 256, by omega⟩)
    (c : FVec Ideal S128x512 .f32) (j : Fin 2048) :
    gatesK (k1_pay10 qv' sg' wih whs bih bhh) h (k1_pay8 whh) (ix2 p j)
      = Spec.gates (fun k => qv (ix2 p k)) (rowState p sg c h).2 (fun j k => wih (ix2 k j)) Whh (fun j => bih (ix1 j))
          (fun j => bhh (ix1 j)) j := by
  rw [gatesK_apply, pay10_apply, pay9_apply]
  have hA : ∑ k : Fin 256, qv' (ix2 p k) * wih (ix2 k j) = ∑ k : Fin 256, qv (ix2 p k) * wih (ix2 k j) :=
    Finset.sum_congr rfl fun k _ => by rw [hq k]
  have hS : ∑ k : Fin 256, sg' (ix2 p k) * whs (ix2 k j)
      = ∑ k : Fin 256, sg (ix2 p k) * Whh j ⟨k.val + 256, by omega⟩ :=
    Finset.sum_congr rfl fun k _ => by rw [hsg k, hs k j]
  have hH : ∑ k : Fin 256, h (ix2 p k) * whh (ix2 k j) = ∑ k : Fin 256, h (ix2 p k) * Whh j ⟨k.val, by omega⟩ :=
    Finset.sum_congr rfl fun k _ => by rw [hh k j]
  rw [hA, hS, hH]
  show _ = (((∑ k : Fin 256, qv (ix2 p k) * wih (ix2 k j)) + bih (ix1 j))
      + ∑ k : Fin 512, Spec.cat (A := 256) (B := 256) (fun k => h (ix2 p k)) (fun k => sg (ix2 p k)) ⟨k.val, k.isLt⟩
          * Whh j k) + bhh (ix1 j)
  rw [sum_cat_split]
  exact add_regroup _ _ _ _ _

theorem pay11_eq (qv' : FVec Ideal S128x256 .bf16) (wih : Vec Ideal S256x2048 .bf16) (bih bhh : Vec Ideal S2048 .f32) :
    k1_pay11 qv' wih bih bhh
      = cellNextK (k1_pay9 qv' wih bih bhh) (broadcast S128x512 (Scalar.ofBits .f32 0x00000000#32)) := rfl

theorem pay12_eq (qv : FVec Ideal S128x256 .f32) (qv' sg' : FVec Ideal S128x256 .bf16)
    (wih whh whs : Vec Ideal S256x2048 .bf16) (bih bhh : Vec Ideal S2048 .f32) :
    k1_pay12 qv qv' sg' wih whh whs bih bhh
      = gatesK (k1_pay10 qv' sg' wih whs bih bhh)
          (hidK qv (cellOutK (k1_pay9 qv' wih bih bhh) (k1_pay11 qv' wih bih bhh))) (k1_pay8 whh) := rfl

theorem pay13_eq (qv : FVec Ideal S128x256 .f32) (qv' sg' : FVec Ideal S128x256 .bf16)
    (wih whh whs : Vec Ideal S256x2048 .bf16) (bih bhh : Vec Ideal S2048 .f32) :
    k1_pay13 qv qv' sg' wih whh whs bih bhh
      = cellNextK (k1_pay12 qv qv' sg' wih whh whs bih bhh) (k1_pay11 qv' wih bih bhh) := rfl

theorem pay14_15_eq (qv : FVec Ideal S128x256 .f32) (qv' sg' : FVec Ideal S128x256 .bf16)
    (wih whh whs : Vec Ideal S256x2048 .bf16) (bih bhh : Vec Ideal S2048 .f32) :
    mulf (k1_pay14 qv qv' sg' wih whh whs bih bhh) (k1_pay15 qv qv' sg' wih whh whs bih bhh)
      = cellOutK (k1_pay12 qv qv' sg' wih whh whs bih bhh) (k1_pay13 qv qv' sg' wih whh whs bih bhh) := rfl

theorem pay1_eq (qv sg : FVec Ideal S128x256 .f32) (whhc : FVec Ideal S256x2048 .bf16) (inv : FVec Ideal S128x2048 .f32)
    (c2 o t : FVec Ideal S128x512 .f32) :
    k1_pay1 qv sg whhc inv c2 o t
      = scoreK qv sg
          (gatesK inv (hidK qv (cellOutK (gatesK inv (hidK qv (mulf o t)) whhc)
            (cellNextK (gatesK inv (hidK qv (mulf o t)) whhc) c2))) whhc)
          (cellNextK (gatesK inv (hidK qv (cellOutK (gatesK inv (hidK qv (mulf o t)) whhc)
            (cellNextK (gatesK inv (hidK qv (mulf o t)) whhc) c2))) whhc)
            (cellNextK (gatesK inv (hidK qv (mulf o t)) whhc) c2)) := rfl

def step0K (qv : FVec Ideal S128x256 .f32) (inv0 : FVec Ideal S128x2048 .f32) :
    FVec Ideal S128x512 .f32 × FVec Ideal S128x256 .f32 :=
  (cellNextK inv0 (broadcast S128x512 (Scalar.ofBits .f32 0x00000000#32)),
    hidK qv (cellOutK inv0 (cellNextK inv0 (broadcast S128x512 (Scalar.ofBits .f32 0x00000000#32)))))

def stepK (qv : FVec Ideal S128x256 .f32) (inv : FVec Ideal S128x2048 .f32) (whhc : FVec Ideal S256x2048 .bf16)
    (st : FVec Ideal S128x512 .f32 × FVec Ideal S128x256 .f32) :
    FVec Ideal S128x512 .f32 × FVec Ideal S128x256 .f32 :=
  (cellNextK (gatesK inv st.2 whhc) st.1,
    hidK qv (cellOutK (gatesK inv st.2 whhc) (cellNextK (gatesK inv st.2 whhc) st.1)))

theorem step0K_row (p : Fin 128) (qv sg : FVec Ideal S128x256 .f32) (qv' : FVec Ideal S128x256 .bf16)
    (hq : ∀ k : Fin 256, qv' (ix2 p k) = qv (ix2 p k)) (wih : Vec Ideal S256x2048 .bf16) (bih bhh : Vec Ideal S2048 .f32)
    (Whh : Fin 2048 → Fin 512 → EReal) :
    rowState p sg (step0K qv (k1_pay9 qv' wih bih bhh)).1 (step0K qv (k1_pay9 qv' wih bih bhh)).2
      = Spec.step (fun k => qv (ix2 p k)) (fun k => sg (ix2 p k)) (fun j k => wih (ix2 k j)) Whh (fun j => bih (ix1 j))
          (fun j => bhh (ix1 j)) Spec.state0 :=
  step_row p qv sg _ _ _ Whh _ _ Spec.state0 (gates0_row p qv qv' hq wih bih bhh Whh) (fun _ => rfl)

theorem stepK_row (p : Fin 128) (qv sg : FVec Ideal S128x256 .f32) (qv' sg' : FVec Ideal S128x256 .bf16)
    (hq : ∀ k : Fin 256, qv' (ix2 p k) = qv (ix2 p k)) (hsg : ∀ k : Fin 256, sg' (ix2 p k) = sg (ix2 p k))
    (wih whh whs : Vec Ideal S256x2048 .bf16) (bih bhh : Vec Ideal S2048 .f32) (Whh : Fin 2048 → Fin 512 → EReal)
    (hh : ∀ (k : Fin 256) (j : Fin 2048), whh (ix2 k j) = Whh j ⟨k.val, by omega⟩)
    (hs : ∀ (k : Fin 256) (j : Fin 2048), whs (ix2 k j) = Whh j ⟨k.val + 256, by omega⟩)
    (st : FVec Ideal S128x512 .f32 × FVec Ideal S128x256 .f32) :
    rowState p sg (stepK qv (k1_pay10 qv' sg' wih whs bih bhh) (k1_pay8 whh) st).1
        (stepK qv (k1_pay10 qv' sg' wih whs bih bhh) (k1_pay8 whh) st).2
      = Spec.step (fun k => qv (ix2 p k)) (fun k => sg (ix2 p k)) (fun j k => wih (ix2 k j)) Whh (fun j => bih (ix1 j))
          (fun j => bhh (ix1 j)) (rowState p sg st.1 st.2) :=
  step_row p qv sg _ st.1 _ Whh _ _ (rowState p sg st.1 st.2)
    (gates_row p qv sg st.2 qv' sg' hq hsg wih whh whs bih bhh Whh hh hs st.1) (fun _ => rfl)

theorem pay1_steps (qv sg : FVec Ideal S128x256 .f32) (qv' sg' : FVec Ideal S128x256 .bf16)
    (wih whh whs : Vec Ideal S256x2048 .bf16) (bih bhh : Vec Ideal S2048 .f32) :
    k1_pay1 qv sg (k1_pay8 whh) (k1_pay10 qv' sg' wih whs bih bhh) (k1_pay13 qv qv' sg' wih whh whs bih bhh)
        (k1_pay14 qv qv' sg' wih whh whs bih bhh) (k1_pay15 qv qv' sg' wih whh whs bih bhh)
      = multiReduction .add [1] S128
          (mulf (stepK qv (k1_pay10 qv' sg' wih whs bih bhh) (k1_pay8 whh)
            (stepK qv (k1_pay10 qv' sg' wih whs bih bhh) (k1_pay8 whh)
              (stepK qv (k1_pay10 qv' sg' wih whs bih bhh) (k1_pay8 whh)
                (step0K qv (k1_pay9 qv' wih bih bhh))))).2 sg)
          0x00000000#32 reduces_S128x256_S128 (.inl rfl) rfl := rfl

theorem cell_row (p : Fin 128) (qv sg : FVec Ideal S128x256 .f32) (qv' sg' : FVec Ideal S128x256 .bf16)
    (hq : ∀ k : Fin 256, qv' (ix2 p k) = qv (ix2 p k)) (hsg' : ∀ k : Fin 256, sg' (ix2 p k) = sg (ix2 p k))
    (wih whh whs : Vec Ideal S256x2048 .bf16) (bih bhh : Vec Ideal S2048 .f32) (Whh : Fin 2048 → Fin 512 → EReal)
    (hh : ∀ (k : Fin 256) (j : Fin 2048), whh (ix2 k j) = Whh j ⟨k.val, by omega⟩)
    (hs : ∀ (k : Fin 256) (j : Fin 2048), whs (ix2 k j) = Whh j ⟨k.val + 256, by omega⟩)
    (qvS sgS : Fin 256 → EReal) (hqv : ∀ k : Fin 256, qv (ix2 p k) = qvS k) (hsg : ∀ k : Fin 256, sg (ix2 p k) = sgS k) :
    k1_pay1 qv sg (k1_pay8 whh) (k1_pay10 qv' sg' wih whs bih bhh) (k1_pay13 qv qv' sg' wih whh whs bih bhh)
        (k1_pay14 qv qv' sg' wih whh whs bih bhh) (k1_pay15 qv qv' sg' wih whh whs bih bhh) (ix1 p)
      = ∑ k : Fin 256,
          (Spec.step qvS sgS (fun j k => wih (ix2 k j)) Whh (fun j => bih (ix1 j)) (fun j => bhh (ix1 j))
            (Spec.step qvS sgS (fun j k => wih (ix2 k j)) Whh (fun j => bih (ix1 j)) (fun j => bhh (ix1 j))
              (Spec.step qvS sgS (fun j k => wih (ix2 k j)) Whh (fun j => bih (ix1 j)) (fun j => bhh (ix1 j))
                (Spec.step qvS sgS (fun j k => wih (ix2 k j)) Whh (fun j => bih (ix1 j)) (fun j => bhh (ix1 j))
                  Spec.state0)))).2 ⟨k.val, by omega⟩ * sgS k := by
  obtain rfl : (fun k => qv (ix2 p k)) = qvS := funext hqv
  obtain rfl : (fun k => sg (ix2 p k)) = sgS := funext hsg
  have e1 := step0K_row p qv sg qv' hq wih bih bhh Whh
  have e2 := stepK_row p qv sg qv' sg' hq hsg' wih whh whs bih bhh Whh hh hs (step0K qv (k1_pay9 qv' wih bih bhh))
  have e3 := stepK_row p qv sg qv' sg' hq hsg' wih whh whs bih bhh Whh hh hs
    (stepK qv (k1_pay10 qv' sg' wih whs bih bhh) (k1_pay8 whh) (step0K qv (k1_pay9 qv' wih bih bhh)))
  have e4 := stepK_row p qv sg qv' sg' hq hsg' wih whh whs bih bhh Whh hh hs
    (stepK qv (k1_pay10 qv' sg' wih whs bih bhh) (k1_pay8 whh)
      (stepK qv (k1_pay10 qv' sg' wih whs bih bhh) (k1_pay8 whh) (step0K qv (k1_pay9 qv' wih bih bhh))))
  rw [e1] at e2
  rw [e2] at e3
  rw [e3] at e4
  rw [pay1_steps, ← e4]
  refine (rowsum_apply _ reduces_S128x256_S128 (.inl rfl) rfl p).trans ?_
  refine Finset.sum_congr rfl fun k _ => congrArg₂ (· * ·) ?_ rfl
  unfold rowState Spec.cat
  dsimp only
  rw [dif_pos k.isLt]

end Tail

open Tail

theorem pay1_apply (n0 n1 n2 n3 n4 n5 n6 n7 : Vec Ideal S1x128x128 .f32) (w1 : Vec Ideal S256x512 .bf16)
    (b1 : Vec Ideal S512 .f32) (w2 : Vec Ideal S512x256 .bf16) (b2 lg lb : Vec Ideal S256 .f32)
    (wih whh whs : Vec Ideal S256x2048 .bf16) (bih bhh : Vec Ideal S2048 .f32) (Whh : Fin 2048 → Fin 512 → EReal)
    (hh : ∀ (k : Fin 256) (j : Fin 2048), whh (ix2 k j) = Whh j ⟨k.val, by omega⟩)
    (hs : ∀ (k : Fin 256) (j : Fin 2048), whs (ix2 k j) = Whh j ⟨k.val + 256, by omega⟩) (p : Fin 128) :
    Hand.pay1 n0 n1 n2 n3 n4 n5 n6 n7 w1 b1 w2 b2 lg lb wih whh whs bih bhh (ix1 p)
      = Spec.tailRow (fun j e => (![n0, n1, n2, n3, n4, n5, n6, n7] j) (ix3 0 p e)) (fun j k => w1 (ix2 k j))
          (fun j => b1 (ix1 j)) (fun i j => w2 (ix2 j i)) (fun i => b2 (ix1 i)) (fun i => lg (ix1 i))
          (fun i => lb (ix1 i)) (fun j k => wih (ix2 k j)) Whh (fun j => bih (ix1 j)) (fun j => bhh (ix1 j)) := by
  have hqv : ∀ k : Fin 256, k1_pay2 n0 n1 n2 n3 (ix2 p k)
      = Spec.qvec (fun j e => (![n0, n1, n2, n3, n4, n5, n6, n7] j) (ix3 0 p e)) ⟨k.val, k.isLt⟩ :=
    fun k => pay2_apply n0 n1 n2 n3 p k
  have hsv : (fun k : Fin 256 => k1_pay3 n4 n5 n6 n7 (ix2 p k))
      = fun k : Fin 256 => Spec.svec (fun j e => (![n0, n1, n2, n3, n4, n5, n6, n7] j) (ix3 0 p e)) ⟨k.val, k.isLt⟩ :=
    funext fun k => (congrFun (pay3_eq n4 n5 n6 n7) _).trans (pay2_apply n4 n5 n6 n7 p k)
  have henc : (fun k : Fin 256 => encK (k1_pay3 n4 n5 n6 n7) (k1_pay4 n4 n5 n6 n7) w1 b1 w2 b2 (ix2 p k))
      = Spec.ffo (fun k : Fin 256 => Spec.svec (fun j e => (![n0, n1, n2, n3, n4, n5, n6, n7] j) (ix3 0 p e)) ⟨k.val, k.isLt⟩)
          (fun j k => w1 (ix2 k j)) (fun j => b1 (ix1 j)) (fun i j => w2 (ix2 j i)) (fun i => b2 (ix1 i)) :=
    funext fun i => by
      rw [encK_apply (k1_pay3 n4 n5 n6 n7) (k1_pay4 n4 n5 n6 n7) w1 b1 w2 b2 p (fun _ => rfl) i, hsv]
  have hsg : ∀ i : Fin 256, k1_pay5 (k1_pay3 n4 n5 n6 n7) (k1_pay4 n4 n5 n6 n7) w1 b1 w2 b2 lg lb (ix2 p i)
      = Spec.lnorm (Spec.ffo (fun k : Fin 256 =>
            Spec.svec (fun j e => (![n0, n1, n2, n3, n4, n5, n6, n7] j) (ix3 0 p e)) ⟨k.val, k.isLt⟩)
          (fun j k => w1 (ix2 k j)) (fun j => b1 (ix1 j)) (fun i j => w2 (ix2 j i)) (fun i => b2 (ix1 i)))
          (fun i => lg (ix1 i)) (fun i => lb (ix1 i)) i :=
    fun i => by rw [pay5_eq, normK_apply, henc]
  exact cell_row p (k1_pay2 n0 n1 n2 n3) (k1_pay5 (k1_pay3 n4 n5 n6 n7) (k1_pay4 n4 n5 n6 n7) w1 b1 w2 b2 lg lb)
    (k1_pay6 (k1_pay2 n0 n1 n2 n3)) (k1_pay7 (k1_pay3 n4 n5 n6 n7) (k1_pay4 n4 n5 n6 n7) w1 b1 w2 b2 lg lb)
    (fun _ => rfl) (fun _ => rfl) wih whh whs bih bhh Whh hh hs _ _ hqv hsg

end Cert.KernelIdeal.Val

end
-- ==== Proof.KICover.lean ====
import proofs.«427183_j33938831573494_3_alg».proof.Proof.KIBody0
import proofs.«427183_j33938831573494_3_alg».proof.Proof.KIBody1
import proofs.«427183_j33938831573494_3_alg».proof.Proof.KIIdx
import proofs.«427183_j33938831573494_3_alg».proof.Proof.KIVal0
import proofs.«427183_j33938831573494_3_alg».proof.Proof.KIVal1
import proofs.«427183_j33938831573494_3_alg».proof.Proof.Spec
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem t_lt0 (t : Fin cfg0.N) : t.val < 64 := Nat.lt_of_lt_of_eq t.isLt N_0

theorem iblk0_0_apply (c : Dev nD) (t : Fin cfg0.N) (p : Fin 128) (n : Fin 64) (k : Fin 128) (R : Fin 8192)
    (hR : R.val = 128 * t.val + p.val) :
    (iblk0 V c 0 t : S128x64x128.Idx → EReal) (ix3 p n k) = (V c main_v60 : S8192x64x128.Idx → EReal) (ix3 R n k) := by
  obtain ⟨a00, a01, a02, a10, a11, a12, a20, a21, a30, a31, a40, a50, a60, a61, a70, a80, a81, a90, a91⟩ := idx0_facts t
  unfold iblk0
  rw [View.read_apply]
  show V c main_v60 _ = V c main_v60 _
  congr 1
  funext a
  apply Fin.ext
  match a with
  | ⟨0, _⟩ => show win0_0.index t (0 : Fin 3) * 128 + 1 * p.val = R.val; rw [a00, hR]; omega
  | ⟨1, _⟩ => show win0_0.index t (1 : Fin 3) * 64 + 1 * n.val = n.val; rw [a01]; omega
  | ⟨2, _⟩ => show win0_0.index t (2 : Fin 3) * 128 + 1 * k.val = k.val; rw [a02]; omega

theorem iblk0_1_apply (c : Dev nD) (t : Fin cfg0.N) (p : Fin 128) (n : Fin 64) (k : Fin 128) (R : Fin 8192)
    (hR : R.val = 128 * t.val + p.val) :
    (iblk0 V c 1 t : S128x64x128.Idx → EReal) (ix3 p n k) = (V c main_v61 : S8192x64x128.Idx → EReal) (ix3 R n k) := by
  obtain ⟨a00, a01, a02, a10, a11, a12, a20, a21, a30, a31, a40, a50, a60, a61, a70, a80, a81, a90, a91⟩ := idx0_facts t
  unfold iblk0
  rw [View.read_apply]
  show V c main_v61 _ = V c main_v61 _
  congr 1
  funext a
  apply Fin.ext
  match a with
  | ⟨0, _⟩ => show win0_1.index t (0 : Fin 3) * 128 + 1 * p.val = R.val; rw [a10, hR]; omega
  | ⟨1, _⟩ => show win0_1.index t (1 : Fin 3) * 64 + 1 * n.val = n.val; rw [a11]; omega
  | ⟨2, _⟩ => show win0_1.index t (2 : Fin 3) * 128 + 1 * k.val = k.val; rw [a12]; omega

theorem iblk0_2_apply (c : Dev nD) (t : Fin cfg0.N) (p k : Fin 128) (R : Fin 8192) (hR : R.val = 128 * t.val + p.val) :
    (iblk0 V c 2 t : S128x128.Idx → EReal) (ix2 p k) = (V c main_v62 : S8192x128.Idx → EReal) (ix2 R k) := by
  obtain ⟨a00, a01, a02, a10, a11, a12, a20, a21, a30, a31, a40, a50, a60, a61, a70, a80, a81, a90, a91⟩ := idx0_facts t
  unfold iblk0
  rw [View.read_apply]
  show V c main_v62 _ = V c main_v62 _
  congr 1
  funext a
  apply Fin.ext
  match a with
  | ⟨0, _⟩ => show win0_2.index t (0 : Fin 2) * 128 + 1 * p.val = R.val; rw [a20, hR]; omega
  | ⟨1, _⟩ => show win0_2.index t (1 : Fin 2) * 128 + 1 * k.val = k.val; rw [a21]; omega

theorem iblk0_3_apply (c : Dev nD) (t : Fin cfg0.N) (k : Fin 256) (e : Fin 128) :
    (iblk0 V c 3 t : S256x128.Idx → EReal) (ix2 k e) = (V c main_v64 : S256x128.Idx → EReal) (ix2 k e) := by
  obtain ⟨a00, a01, a02, a10, a11, a12, a20, a21, a30, a31, a40, a50, a60, a61, a70, a80, a81, a90, a91⟩ := idx0_facts t
  unfold iblk0
  rw [View.read_apply]
  show V c main_v64 _ = V c main_v64 _
  congr 1
  funext a
  apply Fin.ext
  match a with
  | ⟨0, _⟩ => show win0_3.index t (0 : Fin 2) * 256 + 1 * k.val = k.val; rw [a30]; omega
  | ⟨1, _⟩ => show win0_3.index t (1 : Fin 2) * 128 + 1 * e.val = e.val; rw [a31]; omega

theorem iblk0_4_apply (c : Dev nD) (t : Fin cfg0.N) (e : Fin 128) :
    (iblk0 V c 4 t : S128.Idx → EReal) (ix1 e) = (V c main_v65 : S128.Idx → EReal) (ix1 e) := by
  obtain ⟨a00, a01, a02, a10, a11, a12, a20, a21, a30, a31, a40, a50, a60, a61, a70, a80, a81, a90, a91⟩ := idx0_facts t
  unfold iblk0
  rw [View.read_apply]
  show V c main_v65 _ = V c main_v65 _
  congr 1
  funext a
  apply Fin.ext
  match a with
  | ⟨0, _⟩ => show win0_4.index t (0 : Fin 1) * 128 + 1 * e.val = e.val; rw [a40]; omega

theorem iblk0_5_apply (c : Dev nD) (t : Fin cfg0.N) (e : Fin 128) :
    (iblk0 V c 5 t : S128.Idx → EReal) (ix1 e) = (V c main_v66 : S128.Idx → EReal) (ix1 e) := by
  obtain ⟨a00, a01, a02, a10, a11, a12, a20, a21, a30, a31, a40, a50, a60, a61, a70, a80, a81, a90, a91⟩ := idx0_facts t
  unfold iblk0
  rw [View.read_apply]
  show V c main_v66 _ = V c main_v66 _
  congr 1
  funext a
  apply Fin.ext
  match a with
  | ⟨0, _⟩ => show win0_5.index t (0 : Fin 1) * 128 + 1 * e.val = e.val; rw [a50]; omega

theorem iblk0_7_apply (c : Dev nD) (t : Fin cfg0.N) (e : Fin 128) :
    (iblk0 V c 7 t : S128.Idx → EReal) (ix1 e) = (V c main_v69 : S128.Idx → EReal) (ix1 e) := by
  obtain ⟨a00, a01, a02, a10, a11, a12, a20, a21, a30, a31, a40, a50, a60, a61, a70, a80, a81, a90, a91⟩ := idx0_facts t
  unfold iblk0
  rw [View.read_apply]
  show V c main_v69 _ = V c main_v69 _
  congr 1
  funext a
  apply Fin.ext
  match a with
  | ⟨0, _⟩ => show win0_7.index t (0 : Fin 1) * 128 + 1 * e.val = e.val; rw [a70]; omega

theorem iblk0_6_apply (c : Dev nD) (t : Fin cfg0.N) :
    (iblk0 V c 6 t : S1x1.Idx → EReal) (ix2 0 0) = (V c main_v68 : S1x1.Idx → EReal) (ix2 0 0) := by
  obtain ⟨a00, a01, a02, a10, a11, a12, a20, a21, a30, a31, a40, a50, a60, a61, a70, a80, a81, a90, a91⟩ := idx0_facts t
  unfold iblk0
  rw [View.read_apply]
  show V c main_v68 _ = V c main_v68 _
  congr 1
  funext a
  apply Fin.ext
  match a with
  | ⟨0, _⟩ => show win0_6.index t (0 : Fin 2) * 1 + 1 * 0 = 0; rw [a60]
  | ⟨1, _⟩ => show win0_6.index t (1 : Fin 2) * 1 + 1 * 0 = 0; rw [a61]

theorem iblk0_8_apply (c : Dev nD) (t : Fin cfg0.N) :
    (iblk0 V c 8 t : S1x1.Idx → EReal) (ix2 0 0) = (V c main_v73 : S1x1.Idx → EReal) (ix2 0 0) := by
  obtain ⟨a00, a01, a02, a10, a11, a12, a20, a21, a30, a31, a40, a50, a60, a61, a70, a80, a81, a90, a91⟩ := idx0_facts t
  unfold iblk0
  rw [View.read_apply]
  show V c main_v73 _ = V c main_v73 _
  congr 1
  funext a
  apply Fin.ext
  match a with
  | ⟨0, _⟩ => show win0_8.index t (0 : Fin 2) * 1 + 1 * 0 = 0; rw [a80]
  | ⟨1, _⟩ => show win0_8.index t (1 : Fin 2) * 1 + 1 * 0 = 0; rw [a81]

def G0 (c : Dev nD) (wb b : Fin 128 → EReal) (gwb gbb : EReal) : S8192x128.Idx → EReal := fun i =>
  Spec.neRow (fun n k => (V c main_v60 : S8192x64x128.Idx → EReal) (ix3 ⟨(i 0).val, idx2_lt0 i⟩ n k))
    (fun n k => (V c main_v61 : S8192x64x128.Idx → EReal) (ix3 ⟨(i 0).val, idx2_lt0 i⟩ n k))
    (fun k => (V c main_v62 : S8192x128.Idx → EReal) (ix2 ⟨(i 0).val, idx2_lt0 i⟩ k))
    (fun e' k => (V c main_v64 : S256x128.Idx → EReal) (ix2 k e')) wb b
    (fun e' => (V c main_v66 : S128.Idx → EReal) (ix1 e')) ((V c main_v68 : S1x1.Idx → EReal) (ix2 0 0))
    (fun e' => (V c main_v69 : S128.Idx → EReal) (ix1 e')) gwb gbb ⟨(i 1).val, idx2_lt1 i⟩

theorem mem_blk0_9 (t : Fin cfg0.N) (i : S8192x128.Idx) :
    i ∈ ((cfg0.win 9).blk t).view.set ↔ ∀ a : Fin 2, win0_9.index t a * S128x128.size a ≤ (i a).val ∧ (i a).val < win0_9.index t a * S128x128.size a + S128x128.size a := by
  show i ∈ ((View.whole main_v74).slice (win0_9.rect t)).set ↔ _
  rw [View.set_slice_whole, Rect.mem_set_unit]
  exact Iff.rfl

theorem cover0 (i : S8192x128.Idx) : ∃ t : Fin cfg0.N, (cfg0.win 9).flush t = true ∧ i ∈ ((cfg0.win 9).blk t).view.set := by
  have hi0 : (i 0).val < 8192 := (i 0).isLt
  have hi1 : (i 1).val < 128 := (i 1).isLt
  obtain ⟨t, ht⟩ := idx0_onto ⟨(i 0).val / 128, by omega⟩
  have ht' : t.val = (i 0).val / 128 := ht
  obtain ⟨a00, a01, a02, a10, a11, a12, a20, a21, a30, a31, a40, a50, a60, a61, a70, a80, a81, a90, a91⟩ := idx0_facts t
  refine ⟨t, flush0_9 t, ?_⟩
  rw [mem_blk0_9]
  intro a
  match a with
  | ⟨0, _⟩ => show win0_9.index t (0 : Fin 2) * 128 ≤ (i 0).val ∧ (i 0).val < win0_9.index t (0 : Fin 2) * 128 + 128; rw [a90, ht']; omega
  | ⟨1, _⟩ => show win0_9.index t (1 : Fin 2) * 128 ≤ (i 1).val ∧ (i 1).val < win0_9.index t (1 : Fin 2) * 128 + 128; rw [a91]; omega

theorem flushed0_eq (c : Dev nD) (t : Fin cfg0.N) (wb b : Fin 128 → EReal) (gwb gbb : EReal)
    (hbias : ∀ e : Fin 128, (V c main_v65 : S128.Idx → EReal) (ix1 e) = wb e + b e)
    (hgate : (V c main_v73 : S1x1.Idx → EReal) (ix2 0 0) = gwb + gbb) :
    (dat0 V c).flushed 9 t = ((cfg0.win 9).blk t).view.read (Elt Ideal) (G0 V c wb b gwb gbb) := by
  show (cfg0.win 9).cut (grid0.coords t) ((dat0 V c).after 9 t) = _
  rw [after0_9, out0_9_eq]
  funext j
  obtain ⟨p, e, rfl⟩ : ∃ (p e : Fin 128), j = ix2 p e := ⟨j 0, j 1, eq_ix2 j⟩
  have ht := t_lt0 t
  obtain ⟨a00, a01, a02, a10, a11, a12, a20, a21, a30, a31, a40, a50, a60, a61, a70, a80, a81, a90, a91⟩ := idx0_facts t
  let R : Fin 8192 := ⟨128 * t.val + p.val, by omega⟩
  have hemb : ((cfg0.win 9).blk t).view.emb (ix2 p e) = (ix2 R e : S8192x128.Idx) := by
    funext a
    apply Fin.ext
    match a with
    | ⟨0, _⟩ => show win0_9.index t (0 : Fin 2) * 128 + 1 * p.val = 128 * t.val + p.val; rw [a90]; omega
    | ⟨1, _⟩ => show win0_9.index t (1 : Fin 2) * 128 + 1 * e.val = e.val; rw [a91]; omega
  refine (pay0_apply _ _ _ _ _ _ _ _ _ wb b gwb gbb (fun e' => (iblk0_4_apply V c t e').trans (hbias e'))
    ((iblk0_8_apply V c t).trans hgate) p e).trans ?_
  rw [View.read_apply, hemb]
  simp only [iblk0_0_apply V c t p _ _ R rfl, iblk0_1_apply V c t p _ _ R rfl, iblk0_2_apply V c t p _ R rfl,
    iblk0_3_apply V c t, iblk0_5_apply V c t, iblk0_6_apply V c t, iblk0_7_apply V c t]
  rfl

theorem final0 (c : Dev nD) (wb b : Fin 128 → EReal) (gwb gbb : EReal)
    (hbias : ∀ e : Fin 128, (V c main_v65 : S128.Idx → EReal) (ix1 e) = wb e + b e)
    (hgate : (V c main_v73 : S1x1.Idx → EReal) (ix2 0 0) = gwb + gbb) : (dat0 V c).arrAt 9 cfg0.N = G0 V c wb b gwb gbb :=
  (dat0 V c).arrAt_eq_of_cover 9 (G0 V c wb b gwb gbb) (fun t _ => flushed0_eq V c t wb b gwb gbb hbias hgate) cover0

theorem t_lt1 (t : Fin cfg1.N) : t.val < 8 := Nat.lt_of_lt_of_eq t.isLt N_1

theorem iblk1_0_apply (c : Dev nD) (t : Fin cfg1.N) (j : Fin 8) (p e : Fin 128) (R : Fin 1024)
    (hR : R.val = 128 * t.val + p.val) :
    (iblk1 V c 0 t : S8x128x128.Idx → EReal) (ix3 j p e) = (V c main_v75 : S8x1024x128.Idx → EReal) (ix3 j R e) := by
  obtain ⟨b00, b01, b02, b10, b11, b20, b30, b31, b40, b50, b60, b70, b71, b80, b81, b90, b91, b100, b110, b120⟩ := idx1_facts t
  unfold iblk1
  rw [View.read_apply]
  show V c main_v75 _ = V c main_v75 _
  congr 1
  funext a
  apply Fin.ext
  match a with
  | ⟨0, _⟩ => show win1_0.index t (0 : Fin 3) * 8 + 1 * j.val = j.val; rw [b00]; omega
  | ⟨1, _⟩ => show win1_0.index t (1 : Fin 3) * 128 + 1 * p.val = R.val; rw [b01, hR]; omega
  | ⟨2, _⟩ => show win1_0.index t (2 : Fin 3) * 128 + 1 * e.val = e.val; rw [b02]; omega

theorem iblk1_1_apply (c : Dev nD) (t : Fin cfg1.N) (k : Fin 256) (j : Fin 512) :
    (iblk1 V c 1 t : S256x512.Idx → EReal) (ix2 k j) = (V c main_v77 : S256x512.Idx → EReal) (ix2 k j) := by
  obtain ⟨b00, b01, b02, b10, b11, b20, b30, b31, b40, b50, b60, b70, b71, b80, b81, b90, b91, b100, b110, b120⟩ := idx1_facts t
  unfold iblk1
  rw [View.read_apply]
  show V c main_v77 _ = V c main_v77 _
  congr 1
  funext a
  apply Fin.ext
  match a with
  | ⟨0, _⟩ => show win1_1.index t (0 : Fin 2) * 256 + 1 * k.val = k.val; rw [b10]; omega
  | ⟨1, _⟩ => show win1_1.index t (1 : Fin 2) * 512 + 1 * j.val = j.val; rw [b11]; omega

theorem iblk1_2_apply (c : Dev nD) (t : Fin cfg1.N) (j : Fin 512) :
    (iblk1 V c 2 t : S512.Idx → EReal) (ix1 j) = (V c main_arg24 : S512.Idx → EReal) (ix1 j) := by
  obtain ⟨b00, b01, b02, b10, b11, b20, b30, b31, b40, b50, b60, b70, b71, b80, b81, b90, b91, b100, b110, b120⟩ := idx1_facts t
  unfold iblk1
  rw [View.read_apply]
  show V c main_arg24 _ = V c main_arg24 _
  congr 1
  funext a
  apply Fin.ext
  match a with
  | ⟨0, _⟩ => show win1_2.index t (0 : Fin 1) * 512 + 1 * j.val = j.val; rw [b20]; omega

theorem iblk1_3_apply (c : Dev nD) (t : Fin cfg1.N) (k : Fin 512) (j : Fin 256) :
    (iblk1 V c 3 t : S512x256.Idx → EReal) (ix2 k j) = (V c main_v79 : S512x256.Idx → EReal) (ix2 k j) := by
  obtain ⟨b00, b01, b02, b10, b11, b20, b30, b31, b40, b50, b60, b70, b71, b80, b81, b90, b91, b100, b110, b120⟩ := idx1_facts t
  unfold iblk1
  rw [View.read_apply]
  show V c main_v79 _ = V c main_v79 _
  congr 1
  funext a
  apply Fin.ext
  match a with
  | ⟨0, _⟩ => show win1_3.index t (0 : Fin 2) * 512 + 1 * k.val = k.val; rw [b30]; omega
  | ⟨1, _⟩ => show win1_3.index t (1 : Fin 2) * 256 + 1 * j.val = j.val; rw [b31]; omega

theorem iblk1_4_apply (c : Dev nD) (t : Fin cfg1.N) (j : Fin 256) :
    (iblk1 V c 4 t : S256.Idx → EReal) (ix1 j) = (V c main_arg26 : S256.Idx → EReal) (ix1 j) := by
  obtain ⟨b00, b01, b02, b10, b11, b20, b30, b31, b40, b50, b60, b70, b71, b80, b81, b90, b91, b100, b110, b120⟩ := idx1_facts t
  unfold iblk1
  rw [View.read_apply]
  show V c main_arg26 _ = V c main_arg26 _
  congr 1
  funext a
  apply Fin.ext
  match a with
  | ⟨0, _⟩ => show win1_4.index t (0 : Fin 1) * 256 + 1 * j.val = j.val; rw [b40]; omega

theorem iblk1_5_apply (c : Dev nD) (t : Fin cfg1.N) (j : Fin 256) :
    (iblk1 V c 5 t : S256.Idx → EReal) (ix1 j) = (V c main_arg27 : S256.Idx → EReal) (ix1 j) := by
  obtain ⟨b00, b01, b02, b10, b11, b20, b30, b31, b40, b50, b60, b70, b71, b80, b81, b90, b91, b100, b110, b120⟩ := idx1_facts t
  unfold iblk1
  rw [View.read_apply]
  show V c main_arg27 _ = V c main_arg27 _
  congr 1
  funext a
  apply Fin.ext
  match a with
  | ⟨0, _⟩ => show win1_5.index t (0 : Fin 1) * 256 + 1 * j.val = j.val; rw [b50]; omega

theorem iblk1_6_apply (c : Dev nD) (t : Fin cfg1.N) (j : Fin 256) :
    (iblk1 V c 6 t : S256.Idx → EReal) (ix1 j) = (V c main_arg28 : S256.Idx → EReal) (ix1 j) := by
  obtain ⟨b00, b01, b02, b10, b11, b20, b30, b31, b40, b50, b60, b70, b71, b80, b81, b90, b91, b100, b110, b120⟩ := idx1_facts t
  unfold iblk1
  rw [View.read_apply]
  show V c main_arg28 _ = V c main_arg28 _
  congr 1
  funext a
  apply Fin.ext
  match a with
  | ⟨0, _⟩ => show win1_6.index t (0 : Fin 1) * 256 + 1 * j.val = j.val; rw [b60]; omega

theorem iblk1_7_apply (c : Dev nD) (t : Fin cfg1.N) (k : Fin 256) (j : Fin 2048) :
    (iblk1 V c 7 t : S256x2048.Idx → EReal) (ix2 k j) = (V c main_v81 : S256x2048.Idx → EReal) (ix2 k j) := by
  obtain ⟨b00, b01, b02, b10, b11, b20, b30, b31, b40, b50, b60, b70, b71, b80, b81, b90, b91, b100, b110, b120⟩ := idx1_facts t
  unfold iblk1
  rw [View.read_apply]
  show V c main_v81 _ = V c main_v81 _
  congr 1
  funext a
  apply Fin.ext
  match a with
  | ⟨0, _⟩ => show win1_7.index t (0 : Fin 2) * 256 + 1 * k.val = k.val; rw [b70]; omega
  | ⟨1, _⟩ => show win1_7.index t (1 : Fin 2) * 2048 + 1 * j.val = j.val; rw [b71]; omega

theorem iblk1_8_apply (c : Dev nD) (t : Fin cfg1.N) (k : Fin 256) (j : Fin 2048) :
    (iblk1 V c 8 t : S256x2048.Idx → EReal) (ix2 k j) = (V c main_v84 : S256x2048.Idx → EReal) (ix2 k j) := by
  obtain ⟨b00, b01, b02, b10, b11, b20, b30, b31, b40, b50, b60, b70, b71, b80, b81, b90, b91, b100, b110, b120⟩ := idx1_facts t
  unfold iblk1
  rw [View.read_apply]
  show V c main_v84 _ = V c main_v84 _
  congr 1
  funext a
  apply Fin.ext
  match a with
  | ⟨0, _⟩ => show win1_8.index t (0 : Fin 2) * 256 + 1 * k.val = k.val; rw [b80]; omega
  | ⟨1, _⟩ => show win1_8.index t (1 : Fin 2) * 2048 + 1 * j.val = j.val; rw [b81]; omega

theorem iblk1_9_apply (c : Dev nD) (t : Fin cfg1.N) (k : Fin 256) (j : Fin 2048) :
    (iblk1 V c 9 t : S256x2048.Idx → EReal) (ix2 k j) = (V c main_v85 : S256x2048.Idx → EReal) (ix2 k j) := by
  obtain ⟨b00, b01, b02, b10, b11, b20, b30, b31, b40, b50, b60, b70, b71, b80, b81, b90, b91, b100, b110, b120⟩ := idx1_facts t
  unfold iblk1
  rw [View.read_apply]
  show V c main_v85 _ = V c main_v85 _
  congr 1
  funext a
  apply Fin.ext
  match a with
  | ⟨0, _⟩ => show win1_9.index t (0 : Fin 2) * 256 + 1 * k.val = k.val; rw [b90]; omega
  | ⟨1, _⟩ => show win1_9.index t (1 : Fin 2) * 2048 + 1 * j.val = j.val; rw [b91]; omega

theorem iblk1_10_apply (c : Dev nD) (t : Fin cfg1.N) (j : Fin 2048) :
    (iblk1 V c 10 t : S2048.Idx → EReal) (ix1 j) = (V c main_arg31 : S2048.Idx → EReal) (ix1 j) := by
  obtain ⟨b00, b01, b02, b10, b11, b20, b30, b31, b40, b50, b60, b70, b71, b80, b81, b90, b91, b100, b110, b120⟩ := idx1_facts t
  unfold iblk1
  rw [View.read_apply]
  show V c main_arg31 _ = V c main_arg31 _
  congr 1
  funext a
  apply Fin.ext
  match a with
  | ⟨0, _⟩ => show win1_10.index t (0 : Fin 1) * 2048 + 1 * j.val = j.val; rw [b100]; omega

theorem iblk1_11_apply (c : Dev nD) (t : Fin cfg1.N) (j : Fin 2048) :
    (iblk1 V c 11 t : S2048.Idx → EReal) (ix1 j) = (V c main_arg32 : S2048.Idx → EReal) (ix1 j) := by
  obtain ⟨b00, b01, b02, b10, b11, b20, b30, b31, b40, b50, b60, b70, b71, b80, b81, b90, b91, b100, b110, b120⟩ := idx1_facts t
  unfold iblk1
  rw [View.read_apply]
  show V c main_arg32 _ = V c main_arg32 _
  congr 1
  funext a
  apply Fin.ext
  match a with
  | ⟨0, _⟩ => show win1_11.index t (0 : Fin 1) * 2048 + 1 * j.val = j.val; rw [b110]; omega

theorem ld_slab0 (X : Vec Ideal S8x128x128 .f32) (p e : Fin 128) :
    (View.ld X (Rect.unit (s := S8x128x128) ![0, 0, 0] S1x128x128.size inb_S8x128x128_S1x128x128_0_0_0) : S1x128x128.Idx → EReal) (ix3 0 p e) = X (ix3 0 p e) := by
  show X _ = X _
  congr 1
  funext a
  apply Fin.ext
  match a with
  | ⟨0, _⟩ => rfl
  | ⟨1, _⟩ => show 0 + 1 * p.val = p.val; omega
  | ⟨2, _⟩ => show 0 + 1 * e.val = e.val; omega

theorem ld_slab1 (X : Vec Ideal S8x128x128 .f32) (p e : Fin 128) :
    (View.ld X (Rect.unit (s := S8x128x128) ![1, 0, 0] S1x128x128.size inb_S8x128x128_S1x128x128_1_0_0) : S1x128x128.Idx → EReal) (ix3 0 p e) = X (ix3 1 p e) := by
  show X _ = X _
  congr 1
  funext a
  apply Fin.ext
  match a with
  | ⟨0, _⟩ => rfl
  | ⟨1, _⟩ => show 0 + 1 * p.val = p.val; omega
  | ⟨2, _⟩ => show 0 + 1 * e.val = e.val; omega

theorem ld_slab2 (X : Vec Ideal S8x128x128 .f32) (p e : Fin 128) :
    (View.ld X (Rect.unit (s := S8x128x128) ![2, 0, 0] S1x128x128.size inb_S8x128x128_S1x128x128_2_0_0) : S1x128x128.Idx → EReal) (ix3 0 p e) = X (ix3 2 p e) := by
  show X _ = X _
  congr 1
  funext a
  apply Fin.ext
  match a with
  | ⟨0, _⟩ => rfl
  | ⟨1, _⟩ => show 0 + 1 * p.val = p.val; omega
  | ⟨2, _⟩ => show 0 + 1 * e.val = e.val; omega

theorem ld_slab3 (X : Vec Ideal S8x128x128 .f32) (p e : Fin 128) :
    (View.ld X (Rect.unit (s := S8x128x128) ![3, 0, 0] S1x128x128.size inb_S8x128x128_S1x128x128_3_0_0) : S1x128x128.Idx → EReal) (ix3 0 p e) = X (ix3 3 p e) := by
  show X _ = X _
  congr 1
  funext a
  apply Fin.ext
  match a with
  | ⟨0, _⟩ => rfl
  | ⟨1, _⟩ => show 0 + 1 * p.val = p.val; omega
  | ⟨2, _⟩ => show 0 + 1 * e.val = e.val; omega

theorem ld_slab4 (X : Vec Ideal S8x128x128 .f32) (p e : Fin 128) :
    (View.ld X (Rect.unit (s := S8x128x128) ![4, 0, 0] S1x128x128.size inb_S8x128x128_S1x128x128_4_0_0) : S1x128x128.Idx → EReal) (ix3 0 p e) = X (ix3 4 p e) := by
  show X _ = X _
  congr 1
  funext a
  apply Fin.ext
  match a with
  | ⟨0, _⟩ => rfl
  | ⟨1, _⟩ => show 0 + 1 * p.val = p.val; omega
  | ⟨2, _⟩ => show 0 + 1 * e.val = e.val; omega

theorem ld_slab5 (X : Vec Ideal S8x128x128 .f32) (p e : Fin 128) :
    (View.ld X (Rect.unit (s := S8x128x128) ![5, 0, 0] S1x128x128.size inb_S8x128x128_S1x128x128_5_0_0) : S1x128x128.Idx → EReal) (ix3 0 p e) = X (ix3 5 p e) := by
  show X _ = X _
  congr 1
  funext a
  apply Fin.ext
  match a with
  | ⟨0, _⟩ => rfl
  | ⟨1, _⟩ => show 0 + 1 * p.val = p.val; omega
  | ⟨2, _⟩ => show 0 + 1 * e.val = e.val; omega

theorem ld_slab6 (X : Vec Ideal S8x128x128 .f32) (p e : Fin 128) :
    (View.ld X (Rect.unit (s := S8x128x128) ![6, 0, 0] S1x128x128.size inb_S8x128x128_S1x128x128_6_0_0) : S1x128x128.Idx → EReal) (ix3 0 p e) = X (ix3 6 p e) := by
  show X _ = X _
  congr 1
  funext a
  apply Fin.ext
  match a with
  | ⟨0, _⟩ => rfl
  | ⟨1, _⟩ => show 0 + 1 * p.val = p.val; omega
  | ⟨2, _⟩ => show 0 + 1 * e.val = e.val; omega

theorem ld_slab7 (X : Vec Ideal S8x128x128 .f32) (p e : Fin 128) :
    (View.ld X (Rect.unit (s := S8x128x128) ![7, 0, 0] S1x128x128.size inb_S8x128x128_S1x128x128_7_0_0) : S1x128x128.Idx → EReal) (ix3 0 p e) = X (ix3 7 p e) := by
  show X _ = X _
  congr 1
  funext a
  apply Fin.ext
  match a with
  | ⟨0, _⟩ => rfl
  | ⟨1, _⟩ => show 0 + 1 * p.val = p.val; omega
  | ⟨2, _⟩ => show 0 + 1 * e.val = e.val; omega

theorem mem_blk1_12 (t : Fin cfg1.N) (i : S1024.Idx) :
    i ∈ ((cfg1.win 12).blk t).view.set ↔ ∀ a : Fin 1, win1_12.index t a * S128.size a ≤ (i a).val ∧ (i a).val < win1_12.index t a * S128.size a + S128.size a := by
  show i ∈ ((View.whole main_v86).slice (win1_12.rect t)).set ↔ _
  rw [View.set_slice_whole, Rect.mem_set_unit]
  exact Iff.rfl

theorem cover1 (i : S1024.Idx) : ∃ t : Fin cfg1.N, (cfg1.win 12).flush t = true ∧ i ∈ ((cfg1.win 12).blk t).view.set := by
  have hi0 : (i 0).val < 1024 := (i 0).isLt
  obtain ⟨t, ht⟩ := idx1_onto ⟨(i 0).val / 128, by omega⟩
  have ht' : t.val = (i 0).val / 128 := ht
  obtain ⟨b00, b01, b02, b10, b11, b20, b30, b31, b40, b50, b60, b70, b71, b80, b81, b90, b91, b100, b110, b120⟩ := idx1_facts t
  refine ⟨t, flush1_12 t, ?_⟩
  rw [mem_blk1_12]
  intro a
  match a with
  | ⟨0, _⟩ => show win1_12.index t (0 : Fin 1) * 128 ≤ (i 0).val ∧ (i 0).val < win1_12.index t (0 : Fin 1) * 128 + 128; rw [b120, ht']; omega

def G1 (c : Dev nD) (Whh : Fin 2048 → Fin 512 → EReal) : S1024.Idx → EReal := fun i =>
  Spec.tailRow (fun j e => (V c main_v75 : S8x1024x128.Idx → EReal) (ix3 j ⟨(i 0).val, (i 0).isLt⟩ e))
    (fun j k => (V c main_v77 : S256x512.Idx → EReal) (ix2 k j)) (fun j => (V c main_arg24 : S512.Idx → EReal) (ix1 j))
    (fun a j => (V c main_v79 : S512x256.Idx → EReal) (ix2 j a)) (fun a => (V c main_arg26 : S256.Idx → EReal) (ix1 a))
    (fun a => (V c main_arg27 : S256.Idx → EReal) (ix1 a)) (fun a => (V c main_arg28 : S256.Idx → EReal) (ix1 a))
    (fun j k => (V c main_v81 : S256x2048.Idx → EReal) (ix2 k j)) Whh (fun j => (V c main_arg31 : S2048.Idx → EReal) (ix1 j))
    (fun j => (V c main_arg32 : S2048.Idx → EReal) (ix1 j))

theorem flushed1_eq (c : Dev nD) (t : Fin cfg1.N) (Whh : Fin 2048 → Fin 512 → EReal)
    (hh : ∀ (k : Fin 256) (j : Fin 2048), (V c main_v84 : S256x2048.Idx → EReal) (ix2 k j) = Whh j ⟨k.val, by omega⟩)
    (hs : ∀ (k : Fin 256) (j : Fin 2048), (V c main_v85 : S256x2048.Idx → EReal) (ix2 k j) = Whh j ⟨k.val + 256, by omega⟩) :
    (dat1 V c).flushed 12 t = ((cfg1.win 12).blk t).view.read (Elt Ideal) (G1 V c Whh) := by
  show (cfg1.win 12).cut (grid1.coords t) ((dat1 V c).after 12 t) = _
  rw [after1_12, out1_12_eq]
  funext j
  obtain ⟨p, rfl⟩ : ∃ p : Fin 128, j = ix1 p := ⟨j 0, eq_ix1 j⟩
  have ht := t_lt1 t
  obtain ⟨b00, b01, b02, b10, b11, b20, b30, b31, b40, b50, b60, b70, b71, b80, b81, b90, b91, b100, b110, b120⟩ := idx1_facts t
  let R : Fin 1024 := ⟨128 * t.val + p.val, by omega⟩
  have hemb : ((cfg1.win 12).blk t).view.emb (ix1 p) = (ix1 R : S1024.Idx) := by
    funext a
    apply Fin.ext
    match a with
    | ⟨0, _⟩ => show win1_12.index t (0 : Fin 1) * 128 + 1 * p.val = 128 * t.val + p.val; rw [b120]; omega
  refine (pay1_apply _ _ _ _ _ _ _ _ _ _ _ _ _ _ _ _ _ _ _ Whh (fun k j => (iblk1_8_apply V c t k j).trans (hh k j))
    (fun k j => (iblk1_9_apply V c t k j).trans (hs k j)) p).trans ?_
  rw [View.read_apply, hemb]
  have hnb : (fun (j : Fin 8) (e : Fin 128) =>
      ((![View.ld (iblk1 V c 0 t) slab1_0, View.ld (iblk1 V c 0 t) slab1_1, View.ld (iblk1 V c 0 t) slab1_2,
        View.ld (iblk1 V c 0 t) slab1_3, View.ld (iblk1 V c 0 t) slab1_4, View.ld (iblk1 V c 0 t) slab1_5,
        View.ld (iblk1 V c 0 t) slab1_6, View.ld (iblk1 V c 0 t) slab1_7] : Fin 8 → Vec Ideal S1x128x128 .f32) j) (ix3 0 p e))
        = fun j e => (V c main_v75 : S8x1024x128.Idx → EReal) (ix3 j R e) := by
    funext j e
    fin_cases j
    · exact (ld_slab0 (iblk1 V c 0 t) p e).trans (iblk1_0_apply V c t 0 p e R rfl)
    · exact (ld_slab1 (iblk1 V c 0 t) p e).trans (iblk1_0_apply V c t 1 p e R rfl)
    · exact (ld_slab2 (iblk1 V c 0 t) p e).trans (iblk1_0_apply V c t 2 p e R rfl)
    · exact (ld_slab3 (iblk1 V c 0 t) p e).trans (iblk1_0_apply V c t 3 p e R rfl)
    · exact (ld_slab4 (iblk1 V c 0 t) p e).trans (iblk1_0_apply V c t 4 p e R rfl)
    · exact (ld_slab5 (iblk1 V c 0 t) p e).trans (iblk1_0_apply V c t 5 p e R rfl)
    · exact (ld_slab6 (iblk1 V c 0 t) p e).trans (iblk1_0_apply V c t 6 p e R rfl)
    · exact (ld_slab7 (iblk1 V c 0 t) p e).trans (iblk1_0_apply V c t 7 p e R rfl)
  simp only [iblk1_1_apply V c t, iblk1_2_apply V c t, iblk1_3_apply V c t, iblk1_4_apply V c t, iblk1_5_apply V c t,
    iblk1_6_apply V c t, iblk1_7_apply V c t, iblk1_10_apply V c t, iblk1_11_apply V c t]
  refine (congrArg (fun nb => Spec.tailRow nb _ _ _ _ _ _ _ _ _ _) hnb).trans ?_
  rfl

theorem final1 (c : Dev nD) (Whh : Fin 2048 → Fin 512 → EReal)
    (hh : ∀ (k : Fin 256) (j : Fin 2048), (V c main_v84 : S256x2048.Idx → EReal) (ix2 k j) = Whh j ⟨k.val, by omega⟩)
    (hs : ∀ (k : Fin 256) (j : Fin 2048), (V c main_v85 : S256x2048.Idx → EReal) (ix2 k j) = Whh j ⟨k.val + 256, by omega⟩) :
    (dat1 V c).arrAt 12 cfg1.N = G1 V c Whh :=
  (dat1 V c).arrAt_eq_of_cover 12 (G1 V c Whh) (fun t _ => flushed1_eq V c t Whh hh hs) cover1

end Cert.KernelIdeal.Val

end
-- ==== Proof.Whole.lean ====
import proofs.«427183_j33938831573494_3_alg».proof.Proof.Spec
import Idealize.ShloMosaic.Lib.ValueIdx

noncomputable section

namespace Cert.Spec

open Idealize.ShloMosaic Idealize.ShloMosaic.ValueIdx

def connOf (c0 c1 c2 c3 c4 c5 c6 c7 : (⟨3, ![1024, 64, 2]⟩ : Shape).Idx → BitVec 32) (r : Fin 1024) (j : Fin 8) (n : Fin 64)
    (q : Fin 2) : BitVec 32 :=
  (![c0, c1, c2, c3, c4, c5, c6, c7] j) (ix3 r n q)

def selfOf (query support : (⟨2, ![1024, 2]⟩ : Shape).Idx → BitVec 32) (r : Fin 1024) (j : Fin 8) : BitVec 32 :=
  (![query (ix2 r 0), query (ix2 r 0), query (ix2 r 1), query (ix2 r 1),
     support (ix2 r 0), support (ix2 r 0), support (ix2 r 1), support (ix2 r 1)] j)

def whole (query support : (⟨2, ![1024, 2]⟩ : Shape).Idx → BitVec 32)
    (c0 c1 c2 c3 c4 c5 c6 c7 : (⟨3, ![1024, 64, 2]⟩ : Shape).Idx → BitVec 32)
    (emb : (⟨2, ![100001, 128]⟩ : Shape).Idx → EReal) (gcnW : (⟨2, ![128, 256]⟩ : Shape).Idx → EReal)
    (gcnwb gcnb : (⟨1, ![128]⟩ : Shape).Idx → EReal) (attnW : (⟨2, ![1, 128]⟩ : Shape).Idx → EReal)
    (attnb : (⟨1, ![1]⟩ : Shape).Idx → EReal) (gateW : (⟨2, ![1, 128]⟩ : Shape).Idx → EReal)
    (gatewb gateb : (⟨1, ![1]⟩ : Shape).Idx → EReal)
    (seW1 : (⟨2, ![512, 256]⟩ : Shape).Idx → EReal) (seb1 : (⟨1, ![512]⟩ : Shape).Idx → EReal)
    (seW2 : (⟨2, ![256, 512]⟩ : Shape).Idx → EReal) (seb2 lng lnb : (⟨1, ![256]⟩ : Shape).Idx → EReal)
    (Wih : (⟨2, ![2048, 256]⟩ : Shape).Idx → EReal) (Whh : (⟨2, ![2048, 512]⟩ : Shape).Idx → EReal)
    (bih bhh : (⟨1, ![2048]⟩ : Shape).Idx → EReal) : (⟨1, ![1024]⟩ : Shape).Idx → EReal :=
  fun i =>
    tailRow
      (nbRows (fun a k => emb (ix2 a k)) (connOf c0 c1 c2 c3 c4 c5 c6 c7 (i 0)) (selfOf query support (i 0))
        (fun e k => gcnW (ix2 e k)) (fun e => gcnwb (ix1 e)) (fun e => gcnb (ix1 e)) (fun e => attnW (ix2 0 e))
        (attnb (ix1 0)) (fun e => gateW (ix2 0 e)) (gatewb (ix1 0)) (gateb (ix1 0)))
      (fun j k => seW1 (ix2 j k)) (fun j => seb1 (ix1 j)) (fun a j => seW2 (ix2 a j)) (fun a => seb2 (ix1 a))
      (fun a => lng (ix1 a)) (fun a => lnb (ix1 a)) (fun j k => Wih (ix2 j k)) (fun j k => Whh (ix2 j k))
      (fun j => bih (ix1 j)) (fun j => bhh (ix1 j))

end Cert.Spec

end
-- ==== Proof.KIGlue.lean ====
import proofs.«427183_j33938831573494_3_alg».proof.Proof.Gen.KernelIdeal.Launch
import proofs.«427183_j33938831573494_3_alg».proof.Proof.Spec
import proofs.«427183_j33938831573494_3_alg».proof.Proof.Whole
import Idealize.ShloMosaic.Lib.StableHlo.Run
import Idealize.ShloMosaic.Lib.Pipeline.Value
import Idealize.ShloMosaic.Lib.ValueIdx

noncomputable section

namespace Cert.KernelIdeal.Val

open Cert.KernelIdeal Cert.KernelIdeal.Gen Idealize.ShloMosaic Idealize.ShloMosaic.ValueIdx

variable (V : Valuation τ sig (Elt Ideal))

section Stretch1

theorem v75_whole : StableHlo.after (hostOps1 (F := Ideal)) V (Proc.devRef .tc main_v75)
    = shapeCast S8x1024x128 (V (Proc.devRef .tc main_v74)) shapeCasts_S8192x128_S8x1024x128 := by
  after_results
  rfl

theorem v77_whole : StableHlo.after (hostOps1 (F := Ideal)) V (Proc.devRef .tc main_v77)
    = truncf (F := Ideal) .bf16 (transpose S256x512 [1, 0] (V (Proc.devRef .tc main_arg23)) transposes_S512x256_S256x512_1_0) bitsLt_bf16_f32 := by
  after_results

theorem v79_whole : StableHlo.after (hostOps1 (F := Ideal)) V (Proc.devRef .tc main_v79)
    = truncf (F := Ideal) .bf16 (transpose S512x256 [1, 0] (V (Proc.devRef .tc main_arg25)) transposes_S256x512_S512x256_1_0) bitsLt_bf16_f32 := by
  after_results

theorem v81_whole : StableHlo.after (hostOps1 (F := Ideal)) V (Proc.devRef .tc main_v81)
    = truncf (F := Ideal) .bf16 (transpose S256x2048 [1, 0] (V (Proc.devRef .tc main_arg29)) transposes_S2048x256_S256x2048_1_0) bitsLt_bf16_f32 := by
  after_results

theorem v84_whole : StableHlo.after (hostOps1 (F := Ideal)) V (Proc.devRef .tc main_v84)
    = extractStridedSlice S256x2048 ![0, 0]
        (truncf (F := Ideal) .bf16 (transpose S512x2048 [1, 0] (V (Proc.devRef .tc main_arg30)) transposes_S2048x512_S512x2048_1_0) bitsLt_bf16_f32)
        slices_S512x2048_S256x2048_0_0 := by
  after_results

theorem v85_whole : StableHlo.after (hostOps1 (F := Ideal)) V (Proc.devRef .tc main_v85)
    = extractStridedSlice S256x2048 ![256, 0]
        (truncf (F := Ideal) .bf16 (transpose S512x2048 [1, 0] (V (Proc.devRef .tc main_arg30)) transposes_S2048x512_S512x2048_1_0) bitsLt_bf16_f32)
        slices_S512x2048_S256x2048_256_0 := by
  after_results

theorem v75_apply (j : Fin 8) (r : Fin 1024) (e : Fin 128) :
    StableHlo.after (hostOps1 (F := Ideal)) V (Proc.devRef .tc main_v75) (ix3 j r e)
      = V (Proc.devRef .tc main_v74) (ix2 ⟨1024 * j.val + r.val, by omega⟩ e) := by
  refine (congrFun (v75_whole V) _).trans ?_
  refine shapeCast_apply _ _ (ix3 j r e) (ix2 ⟨1024 * j.val + r.val, by omega⟩ e) ?_
  rw [Shape.rowMajor_val_two, Shape.rowMajor_val_three]
  show (1024 * j.val + r.val) * 128 + e.val = (j.val * 1024 + r.val) * 128 + e.val
  omega

theorem v77_apply (k : Fin 256) (j : Fin 512) :
    StableHlo.after (hostOps1 (F := Ideal)) V (Proc.devRef .tc main_v77) (ix2 k j)
      = V (Proc.devRef .tc main_arg23) (ix2 j k) := by
  refine (congrFun (v77_whole V) _).trans ?_
  exact transpose_apply [1, 0] _ transposes_S512x256_S256x512_1_0 (ix2 k j) (ix2 j k)
    (fun b => match b with | ⟨0, _⟩ => rfl | ⟨1, _⟩ => rfl)

theorem v79_apply (j : Fin 512) (i : Fin 256) :
    StableHlo.after (hostOps1 (F := Ideal)) V (Proc.devRef .tc main_v79) (ix2 j i)
      = V (Proc.devRef .tc main_arg25) (ix2 i j) := by
  refine (congrFun (v79_whole V) _).trans ?_
  exact transpose_apply [1, 0] _ transposes_S256x512_S512x256_1_0 (ix2 j i) (ix2 i j)
    (fun b => match b with | ⟨0, _⟩ => rfl | ⟨1, _⟩ => rfl)

theorem v81_apply (k : Fin 256) (j : Fin 2048) :
    StableHlo.after (hostOps1 (F := Ideal)) V (Proc.devRef .tc main_v81) (ix2 k j)
      = V (Proc.devRef .tc main_arg29) (ix2 j k) := by
  refine (congrFun (v81_whole V) _).trans ?_
  exact transpose_apply [1, 0] _ transposes_S2048x256_S256x2048_1_0 (ix2 k j) (ix2 j k)
    (fun b => match b with | ⟨0, _⟩ => rfl | ⟨1, _⟩ => rfl)

theorem v84_apply (k : Fin 256) (j : Fin 2048) :
    StableHlo.after (hostOps1 (F := Ideal)) V (Proc.devRef .tc main_v84) (ix2 k j)
      = V (Proc.devRef .tc main_arg30) (ix2 j (⟨k.val, by omega⟩ : Fin 512)) := by
  refine (congrFun (v84_whole V) _).trans ?_
  refine (extractStridedSlice_apply ![0, 0] _ slices_S512x2048_S256x2048_0_0 (ix2 k j)
    (ix2 (⟨k.val, by omega⟩ : Fin 512) j) (fun a => match a with
      | ⟨0, _⟩ => by show k.val = 0 + k.val; omega
      | ⟨1, _⟩ => by show j.val = 0 + j.val; omega)).trans ?_
  exact transpose_apply [1, 0] _ transposes_S2048x512_S512x2048_1_0 (ix2 (⟨k.val, by omega⟩ : Fin 512) j)
    (ix2 j (⟨k.val, by omega⟩ : Fin 512)) (fun b => match b with | ⟨0, _⟩ => rfl | ⟨1, _⟩ => rfl)

theorem v85_apply (k : Fin 256) (j : Fin 2048) :
    StableHlo.after (hostOps1 (F := Ideal)) V (Proc.devRef .tc main_v85) (ix2 k j)
      = V (Proc.devRef .tc main_arg30) (ix2 j (⟨k.val + 256, by omega⟩ : Fin 512)) := by
  refine (congrFun (v85_whole V) _).trans ?_
  refine (extractStridedSlice_apply ![256, 0] _ slices_S512x2048_S256x2048_256_0 (ix2 k j)
    (ix2 (⟨k.val + 256, by omega⟩ : Fin 512) j) (fun a => match a with
      | ⟨0, _⟩ => by show k.val + 256 = 256 + k.val; omega
      | ⟨1, _⟩ => by show j.val = 0 + j.val; omega)).trans ?_
  exact transpose_apply [1, 0] _ transposes_S2048x512_S512x2048_1_0 (ix2 (⟨k.val + 256, by omega⟩ : Fin 512) j)
    (ix2 j (⟨k.val + 256, by omega⟩ : Fin 512)) (fun b => match b with | ⟨0, _⟩ => rfl | ⟨1, _⟩ => rfl)

end Stretch1

def slab (c : IVec S1024x64x2 32) : IVec S1x1024x64x2 32 :=
  broadcastInDim S1x1024x64x2 ![1, 2, 3] bcast_S1024x64x2_S1x1024x64x2_1_2_3 c

def stackConn : IVec S8x1024x64x2 32 :=
  concatenate S8x1024x64x2 0
    [⟨S1x1024x64x2, slab (V (Proc.devRef .tc main_arg2))⟩, ⟨S1x1024x64x2, slab (V (Proc.devRef .tc main_arg3))⟩,
     ⟨S1x1024x64x2, slab (V (Proc.devRef .tc main_arg5))⟩, ⟨S1x1024x64x2, slab (V (Proc.devRef .tc main_arg6))⟩,
     ⟨S1x1024x64x2, slab (V (Proc.devRef .tc main_arg8))⟩, ⟨S1x1024x64x2, slab (V (Proc.devRef .tc main_arg9))⟩,
     ⟨S1x1024x64x2, slab (V (Proc.devRef .tc main_arg11))⟩, ⟨S1x1024x64x2, slab (V (Proc.devRef .tc main_arg12))⟩]
    concatenates_S1x1024x64x2_S1x1024x64x2_S1x1024x64x2_S1x1024x64x2_S1x1024x64x2_S1x1024x64x2_S1x1024x64x2_S1x1024x64x2_S8x1024x64x2_d0

def normW {S : Shape} (h : S_.BroadcastsInDim S (![] : Fin 0 → Fin S.rank)) (w : IVec S 32) : IVec S 32 :=
  select (cmpi .slt w (broadcastInDim S ![] h (constantI S_ 32 0#32)))
    (addi w (broadcastInDim S ![] h (constantI S_ 32 100001#32))) w

def connIdx (off : Fin 4 → Nat) (hs : S8x1024x64x2.Slices off S8x1024x64x1) : IVec S8x1024x64x1 32 :=
  broadcastInDim S8x1024x64x1 ![0, 1, 2] bcast_S8x1024x64_S8x1024x64x1_0_1_2
    (normW bcast_S_S8x1024x64
      (shapeCast S8x1024x64 (extractStridedSlice S8x1024x64x1 off (stackConn V) hs) shapeCasts_S8x1024x64x1_S8x1024x64))

def pairCol (a : IVec S1024x2 32) (off : Fin 2 → Nat) (hs : S1024x2.Slices off S1024x1) : IVec S1x1024 32 :=
  broadcastInDim S1x1024 ![1] bcast_S1024_S1x1024_1
    (shapeCast S1024 (extractStridedSlice S1024x1 off a hs) shapeCasts_S1024x1_S1024)

def stackOwn : IVec S8x1024 32 :=
  concatenate S8x1024 0
    [⟨S1x1024, pairCol (V (Proc.devRef .tc main_arg0)) ![0, 0] slices_S1024x2_S1024x1_0_0⟩,
     ⟨S1x1024, pairCol (V (Proc.devRef .tc main_arg0)) ![0, 0] slices_S1024x2_S1024x1_0_0⟩,
     ⟨S1x1024, pairCol (V (Proc.devRef .tc main_arg0)) ![0, 1] slices_S1024x2_S1024x1_0_1⟩,
     ⟨S1x1024, pairCol (V (Proc.devRef .tc main_arg0)) ![0, 1] slices_S1024x2_S1024x1_0_1⟩,
     ⟨S1x1024, pairCol (V (Proc.devRef .tc main_arg1)) ![0, 0] slices_S1024x2_S1024x1_0_0⟩,
     ⟨S1x1024, pairCol (V (Proc.devRef .tc main_arg1)) ![0, 0] slices_S1024x2_S1024x1_0_0⟩,
     ⟨S1x1024, pairCol (V (Proc.devRef .tc main_arg1)) ![0, 1] slices_S1024x2_S1024x1_0_1⟩,
     ⟨S1x1024, pairCol (V (Proc.devRef .tc main_arg1)) ![0, 1] slices_S1024x2_S1024x1_0_1⟩]
    concatenates_S1x1024_S1x1024_S1x1024_S1x1024_S1x1024_S1x1024_S1x1024_S1x1024_S8x1024_d0

def ownIdx : IVec S8x1024x1 32 :=
  broadcastInDim S8x1024x1 ![0, 1] bcast_S8x1024_S8x1024x1_0_1 (normW bcast_S_S8x1024 (stackOwn V))

section Generic

variable {α : Type}

theorem normW_apply {S : Shape} (h : S_.BroadcastsInDim S (![] : Fin 0 → Fin S.rank)) (w : IVec S 32) (i : S.Idx) :
    normW h w i = Spec.normIdx (w i) := rfl

theorem gather4_apply (x : S100001x128.Idx → α) (idx : IVec S8x1024x64x1 32)
    (j : Fin 8) (r : Fin 1024) (n : Fin 64) (k : Fin 128) :
    Host.gather gather_S100001x128_S8x1024x64x1_S8x1024x64x128_3_0_n_n_0_3_1128 x idx (ix4 j r n k)
      = x (ix2 (⟨min (idx (ix4 j r n (0 : Fin 1))).toInt.toNat 100000, by omega⟩ : Fin 100001) k) := by
  unfold Host.gather
  congr 1
  funext a
  refine Fin.ext ?_
  match a with
  | ⟨0, _⟩ =>
    show GatherDims.start gather_S100001x128_S8x1024x64x1_S8x1024x64x128_3_0_n_n_0_3_1128 (ix4 j r n k) idx (0 : Fin 2)
        + GatherDims.batchCoord gather_S100001x128_S8x1024x64x1_S8x1024x64x128_3_0_n_n_0_3_1128 (ix4 j r n k) (0 : Fin 2)
        + GatherDims.offCoord gather_S100001x128_S8x1024x64x1_S8x1024x64x128_3_0_n_n_0_3_1128 (ix4 j r n k) (0 : Fin 2)
      = min (idx (ix4 j r n (0 : Fin 1))).toInt.toNat 100000
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S100001x128_S8x1024x64x1_S8x1024x64x128_3_0_n_n_0_3_1128.startIndexMap
      from List.mem_singleton.mpr rfl)]
    have hsi : GatherDims.siIdx gather_S100001x128_S8x1024x64x1_S8x1024x64x128_3_0_n_n_0_3_1128 (ix4 j r n k)
        ⟨List.idxOf (0 : Fin 2) gather_S100001x128_S8x1024x64x1_S8x1024x64x128_3_0_n_n_0_3_1128.startIndexMap,
          List.idxOf_lt_length_iff.2 (List.mem_singleton.mpr rfl)⟩ = ix4 j r n (0 : Fin 1) := by
      funext b; refine Fin.ext ?_
      match b with
      | ⟨0, _⟩ => rfl
      | ⟨1, _⟩ => rfl
      | ⟨2, _⟩ => rfl
      | ⟨3, _⟩ => rfl
    rw [hsi]
    rfl
  | ⟨1, _⟩ =>
    show GatherDims.start gather_S100001x128_S8x1024x64x1_S8x1024x64x128_3_0_n_n_0_3_1128 (ix4 j r n k) idx (1 : Fin 2)
        + GatherDims.batchCoord gather_S100001x128_S8x1024x64x1_S8x1024x64x128_3_0_n_n_0_3_1128 (ix4 j r n k) (1 : Fin 2)
        + GatherDims.offCoord gather_S100001x128_S8x1024x64x1_S8x1024x64x128_3_0_n_n_0_3_1128 (ix4 j r n k) (1 : Fin 2)
      = k.val
    rw [GatherDims.batchCoord_eq_zero _ _ _ List.not_mem_nil]
    have hs : GatherDims.start gather_S100001x128_S8x1024x64x1_S8x1024x64x128_3_0_n_n_0_3_1128 (ix4 j r n k) idx (1 : Fin 2) = 0 := by
      unfold GatherDims.start
      exact dif_neg (by decide)
    have ho : GatherDims.offCoord gather_S100001x128_S8x1024x64x1_S8x1024x64x128_3_0_n_n_0_3_1128 (ix4 j r n k) (1 : Fin 2) = k.val := by
      unfold GatherDims.offCoord
      rw [dif_pos (by decide)]
      rfl
    rw [hs, ho]
    omega

theorem gather3_apply (x : S100001x128.Idx → α) (idx : IVec S8x1024x1 32) (j : Fin 8) (r : Fin 1024) (k : Fin 128) :
    Host.gather gather_S100001x128_S8x1024x1_S8x1024x128_2_0_n_n_0_2_1128 x idx (ix3 j r k)
      = x (ix2 (⟨min (idx (ix3 j r (0 : Fin 1))).toInt.toNat 100000, by omega⟩ : Fin 100001) k) := by
  unfold Host.gather
  congr 1
  funext a
  refine Fin.ext ?_
  match a with
  | ⟨0, _⟩ =>
    show GatherDims.start gather_S100001x128_S8x1024x1_S8x1024x128_2_0_n_n_0_2_1128 (ix3 j r k) idx (0 : Fin 2)
        + GatherDims.batchCoord gather_S100001x128_S8x1024x1_S8x1024x128_2_0_n_n_0_2_1128 (ix3 j r k) (0 : Fin 2)
        + GatherDims.offCoord gather_S100001x128_S8x1024x1_S8x1024x128_2_0_n_n_0_2_1128 (ix3 j r k) (0 : Fin 2)
      = min (idx (ix3 j r (0 : Fin 1))).toInt.toNat 100000
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S100001x128_S8x1024x1_S8x1024x128_2_0_n_n_0_2_1128.startIndexMap
      from List.mem_singleton.mpr rfl)]
    have hsi : GatherDims.siIdx gather_S100001x128_S8x1024x1_S8x1024x128_2_0_n_n_0_2_1128 (ix3 j r k)
        ⟨List.idxOf (0 : Fin 2) gather_S100001x128_S8x1024x1_S8x1024x128_2_0_n_n_0_2_1128.startIndexMap,
          List.idxOf_lt_length_iff.2 (List.mem_singleton.mpr rfl)⟩ = ix3 j r (0 : Fin 1) := by
      funext b; refine Fin.ext ?_
      match b with
      | ⟨0, _⟩ => rfl
      | ⟨1, _⟩ => rfl
      | ⟨2, _⟩ => rfl
    rw [hsi]
    rfl
  | ⟨1, _⟩ =>
    show GatherDims.start gather_S100001x128_S8x1024x1_S8x1024x128_2_0_n_n_0_2_1128 (ix3 j r k) idx (1 : Fin 2)
        + GatherDims.batchCoord gather_S100001x128_S8x1024x1_S8x1024x128_2_0_n_n_0_2_1128 (ix3 j r k) (1 : Fin 2)
        + GatherDims.offCoord gather_S100001x128_S8x1024x1_S8x1024x128_2_0_n_n_0_2_1128 (ix3 j r k) (1 : Fin 2)
      = k.val
    rw [GatherDims.batchCoord_eq_zero _ _ _ List.not_mem_nil]
    have hs : GatherDims.start gather_S100001x128_S8x1024x1_S8x1024x128_2_0_n_n_0_2_1128 (ix3 j r k) idx (1 : Fin 2) = 0 := by
      unfold GatherDims.start
      exact dif_neg (by decide)
    have ho : GatherDims.offCoord gather_S100001x128_S8x1024x1_S8x1024x128_2_0_n_n_0_2_1128 (ix3 j r k) (1 : Fin 2) = k.val := by
      unfold GatherDims.offCoord
      rw [dif_pos (by decide)]
      rfl
    rw [hs, ho]
    omega

theorem row_congr (x : S100001x128.Idx → α) {a b : BitVec 32} (h : a = b) (k : Fin 128)
    (pa : min a.toInt.toNat 100000 < 100001) (pb : min b.toInt.toNat 100000 < 100001) :
    x (ix2 (⟨min a.toInt.toNat 100000, pa⟩ : Fin 100001) k) = x (ix2 (⟨min b.toInt.toNat 100000, pb⟩ : Fin 100001) k) := by
  subst h; rfl

end Generic

section Stacks

theorem stackConn_piece (xs : List ((s : Shape) × (s.Idx → BitVec 32)))
    (h : Shape.Concatenates (xs.map (·.1)) S8x1024x64x2 (0 : Fin 4))
    (k : Nat) (hk : k < xs.length) (x : IVec S1024x64x2 32) (hxk : xs[k] = ⟨S1x1024x64x2, slab x⟩)
    (hpre : (((xs.take k).map (·.1)).map fun s => if h : s.rank = S8x1024x64x2.rank then s.size ((0 : Fin 4).cast h.symm) else 0).sum = k)
    (j : Fin 8) (hj : j.val = k) (r : Fin 1024) (n : Fin 64) (c : Fin 2) :
    concatenate S8x1024x64x2 (0 : Fin 4) xs h (ix4 j r n c) = x (ix3 r n c) := by
  refine (concatenate_apply_piece (0 : Fin 4) xs h (ix4 j r n c) k hk S1x1024x64x2 (slab x) hxk rfl k hpre
    (ix4 (0 : Fin 1) r n c) ?_ ?_).trans ?_
  · intro b hb
    match b with
    | ⟨0, _⟩ => exact absurd rfl hb
    | ⟨1, _⟩ => rfl
    | ⟨2, _⟩ => rfl
    | ⟨3, _⟩ => rfl
  · show k + 0 = j.val
    omega
  · unfold slab
    exact broadcastInDim_apply _ _ _ (ix4 (0 : Fin 1) r n c) (ix3 r n c)
      (fun a => match a with | ⟨0, _⟩ => rfl | ⟨1, _⟩ => rfl | ⟨2, _⟩ => rfl)

theorem stackConn_apply (j : Fin 8) (r : Fin 1024) (n : Fin 64) (c : Fin 2) :
    stackConn V (ix4 j r n c) = Spec.connOf (V (Proc.devRef .tc main_arg2)) (V (Proc.devRef .tc main_arg3)) (V (Proc.devRef .tc main_arg5)) (V (Proc.devRef .tc main_arg6)) (V (Proc.devRef .tc main_arg8)) (V (Proc.devRef .tc main_arg9)) (V (Proc.devRef .tc main_arg11)) (V (Proc.devRef .tc main_arg12)) r j n c := by
  unfold stackConn
  match j with
  | ⟨0, _⟩ => exact stackConn_piece _ _ 0 (by show (0 : ℕ) < 8; omega) (V (Proc.devRef .tc main_arg2)) rfl rfl _ rfl r n c
  | ⟨1, _⟩ => exact stackConn_piece _ _ 1 (by show (1 : ℕ) < 8; omega) (V (Proc.devRef .tc main_arg3)) rfl rfl _ rfl r n c
  | ⟨2, _⟩ => exact stackConn_piece _ _ 2 (by show (2 : ℕ) < 8; omega) (V (Proc.devRef .tc main_arg5)) rfl rfl _ rfl r n c
  | ⟨3, _⟩ => exact stackConn_piece _ _ 3 (by show (3 : ℕ) < 8; omega) (V (Proc.devRef .tc main_arg6)) rfl rfl _ rfl r n c
  | ⟨4, _⟩ => exact stackConn_piece _ _ 4 (by show (4 : ℕ) < 8; omega) (V (Proc.devRef .tc main_arg8)) rfl rfl _ rfl r n c
  | ⟨5, _⟩ => exact stackConn_piece _ _ 5 (by show (5 : ℕ) < 8; omega) (V (Proc.devRef .tc main_arg9)) rfl rfl _ rfl r n c
  | ⟨6, _⟩ => exact stackConn_piece _ _ 6 (by show (6 : ℕ) < 8; omega) (V (Proc.devRef .tc main_arg11)) rfl rfl _ rfl r n c
  | ⟨7, _⟩ => exact stackConn_piece _ _ 7 (by show (7 : ℕ) < 8; omega) (V (Proc.devRef .tc main_arg12)) rfl rfl _ rfl r n c

theorem connIdx_apply (c : Fin 2) (hs : S8x1024x64x2.Slices ![0, 0, 0, c.val] S8x1024x64x1)
    (j : Fin 8) (r : Fin 1024) (n : Fin 64) :
    connIdx V ![0, 0, 0, c.val] hs (ix4 j r n (0 : Fin 1)) = Spec.normIdx (Spec.connOf (V (Proc.devRef .tc main_arg2)) (V (Proc.devRef .tc main_arg3)) (V (Proc.devRef .tc main_arg5)) (V (Proc.devRef .tc main_arg6)) (V (Proc.devRef .tc main_arg8)) (V (Proc.devRef .tc main_arg9)) (V (Proc.devRef .tc main_arg11)) (V (Proc.devRef .tc main_arg12)) r j n c) := by
  unfold connIdx
  refine (broadcastInDim_apply _ _ _ (ix4 j r n (0 : Fin 1)) (ix3 j r n)
    (fun a => match a with | ⟨0, _⟩ => rfl | ⟨1, _⟩ => rfl | ⟨2, _⟩ => rfl)).trans ?_
  refine (normW_apply _ _ _).trans (congrArg Spec.normIdx ?_)
  refine (shapeCast_apply _ _ (ix3 j r n) (ix4 j r n (0 : Fin 1)) ?_).trans ?_
  · rw [Shape.rowMajor_val_four, Shape.rowMajor_val_three]
    show ((j.val * 1024 + r.val) * 64 + n.val) * 1 + 0 = (j.val * 1024 + r.val) * 64 + n.val
    omega
  refine (extractStridedSlice_apply _ _ hs (ix4 j r n (0 : Fin 1)) (ix4 j r n c) (fun a => ?_)).trans (stackConn_apply V j r n c)
  match a with
  | ⟨0, _⟩ => show j.val = 0 + j.val; omega
  | ⟨1, _⟩ => show r.val = 0 + r.val; omega
  | ⟨2, _⟩ => show n.val = 0 + n.val; omega
  | ⟨3, _⟩ => show c.val = c.val + 0; omega

theorem stackOwn_piece (xs : List ((s : Shape) × (s.Idx → BitVec 32)))
    (h : Shape.Concatenates (xs.map (·.1)) S8x1024 (0 : Fin 2))
    (k : Nat) (hk : k < xs.length) (a : IVec S1024x2 32) (c : Fin 2) (hs : S1024x2.Slices ![0, c.val] S1024x1)
    (hxk : xs[k] = ⟨S1x1024, pairCol a ![0, c.val] hs⟩)
    (hpre : (((xs.take k).map (·.1)).map fun s => if h : s.rank = S8x1024.rank then s.size ((0 : Fin 2).cast h.symm) else 0).sum = k)
    (j : Fin 8) (hj : j.val = k) (r : Fin 1024) :
    concatenate S8x1024 (0 : Fin 2) xs h (ix2 j r) = a (ix2 r c) := by
  refine (concatenate_apply_piece (0 : Fin 2) xs h (ix2 j r) k hk S1x1024 (pairCol a ![0, c.val] hs) hxk rfl k hpre
    (ix2 (0 : Fin 1) r) ?_ ?_).trans ?_
  · intro b hb
    match b with
    | ⟨0, _⟩ => exact absurd rfl hb
    | ⟨1, _⟩ => rfl
  · show k + 0 = j.val
    omega
  · unfold pairCol
    refine (broadcastInDim_apply _ _ _ (ix2 (0 : Fin 1) r) (ix1 r) (fun b => match b with | ⟨0, _⟩ => rfl)).trans ?_
    refine (shapeCast_apply _ _ (ix1 r) (ix2 r (0 : Fin 1)) ?_).trans ?_
    · rw [Shape.rowMajor_val_two, Shape.rowMajor_val_one]
      show r.val * 1 + 0 = r.val
      omega
    exact extractStridedSlice_apply _ _ hs (ix2 r (0 : Fin 1)) (ix2 r c) (fun b => match b with
      | ⟨0, _⟩ => by show r.val = 0 + r.val; omega
      | ⟨1, _⟩ => by show c.val = c.val + 0; omega)

theorem stackOwn_apply (j : Fin 8) (r : Fin 1024) : stackOwn V (ix2 j r) = Spec.selfOf (V (Proc.devRef .tc main_arg0)) (V (Proc.devRef .tc main_arg1)) r j := by
  unfold stackOwn
  match j with
  | ⟨0, _⟩ => exact stackOwn_piece _ _ 0 (by show (0 : ℕ) < 8; omega) (V (Proc.devRef .tc main_arg0)) 0 _ rfl rfl _ rfl r
  | ⟨1, _⟩ => exact stackOwn_piece _ _ 1 (by show (1 : ℕ) < 8; omega) (V (Proc.devRef .tc main_arg0)) 0 _ rfl rfl _ rfl r
  | ⟨2, _⟩ => exact stackOwn_piece _ _ 2 (by show (2 : ℕ) < 8; omega) (V (Proc.devRef .tc main_arg0)) 1 _ rfl rfl _ rfl r
  | ⟨3, _⟩ => exact stackOwn_piece _ _ 3 (by show (3 : ℕ) < 8; omega) (V (Proc.devRef .tc main_arg0)) 1 _ rfl rfl _ rfl r
  | ⟨4, _⟩ => exact stackOwn_piece _ _ 4 (by show (4 : ℕ) < 8; omega) (V (Proc.devRef .tc main_arg1)) 0 _ rfl rfl _ rfl r
  | ⟨5, _⟩ => exact stackOwn_piece _ _ 5 (by show (5 : ℕ) < 8; omega) (V (Proc.devRef .tc main_arg1)) 0 _ rfl rfl _ rfl r
  | ⟨6, _⟩ => exact stackOwn_piece _ _ 6 (by show (6 : ℕ) < 8; omega) (V (Proc.devRef .tc main_arg1)) 1 _ rfl rfl _ rfl r
  | ⟨7, _⟩ => exact stackOwn_piece _ _ 7 (by show (7 : ℕ) < 8; omega) (V (Proc.devRef .tc main_arg1)) 1 _ rfl rfl _ rfl r

theorem ownIdx_apply (j : Fin 8) (r : Fin 1024) :
    ownIdx V (ix3 j r (0 : Fin 1)) = Spec.normIdx (Spec.selfOf (V (Proc.devRef .tc main_arg0)) (V (Proc.devRef .tc main_arg1)) r j) := by
  unfold ownIdx
  refine (broadcastInDim_apply _ _ _ (ix3 j r (0 : Fin 1)) (ix2 j r)
    (fun a => match a with | ⟨0, _⟩ => rfl | ⟨1, _⟩ => rfl)).trans ?_
  exact (normW_apply _ _ _).trans (congrArg Spec.normIdx (stackOwn_apply V j r))

end Stacks

section Stretch0

set_option maxHeartbeats 4000000 in
theorem v60_whole : StableHlo.after (hostOps0 (F := Ideal)) V (Proc.devRef .tc main_v60)
    = shapeCast S8192x64x128
        (Host.gather gather_S100001x128_S8x1024x64x1_S8x1024x64x128_3_0_n_n_0_3_1128
          (truncf (F := Ideal) .bf16 (V (Proc.devRef .tc main_arg14)) bitsLt_bf16_f32)
          (connIdx V ![0, 0, 0, 0] slices_S8x1024x64x2_S8x1024x64x1_0_0_0_0))
        shapeCasts_S8x1024x64x128_S8192x64x128 := by
  simp (disch := decide) only [StableHlo.after_cons, StableHlo.after_nil,
      StableHlo.nullary_result', StableHlo.unary_result', StableHlo.binary_result', StableHlo.ternary_result',
      StableHlo.reshape_result', StableHlo.nary_result',
      StableHlo.nullary_result_ne', StableHlo.unary_result_ne', StableHlo.binary_result_ne', StableHlo.ternary_result_ne',
      StableHlo.reshape_result_ne', StableHlo.nary_result_ne', Matrix.cons_val]
  rfl

set_option maxHeartbeats 4000000 in
theorem v61_whole : StableHlo.after (hostOps0 (F := Ideal)) V (Proc.devRef .tc main_v61)
    = shapeCast S8192x64x128
        (Host.gather gather_S100001x128_S8x1024x64x1_S8x1024x64x128_3_0_n_n_0_3_1128
          (truncf (F := Ideal) .bf16 (V (Proc.devRef .tc main_arg14)) bitsLt_bf16_f32)
          (connIdx V ![0, 0, 0, 1] slices_S8x1024x64x2_S8x1024x64x1_0_0_0_1))
        shapeCasts_S8x1024x64x128_S8192x64x128 := by
  simp (disch := decide) only [StableHlo.after_cons, StableHlo.after_nil,
      StableHlo.nullary_result', StableHlo.unary_result', StableHlo.binary_result', StableHlo.ternary_result',
      StableHlo.reshape_result', StableHlo.nary_result',
      StableHlo.nullary_result_ne', StableHlo.unary_result_ne', StableHlo.binary_result_ne', StableHlo.ternary_result_ne',
      StableHlo.reshape_result_ne', StableHlo.nary_result_ne', Matrix.cons_val]
  rfl

set_option maxHeartbeats 4000000 in
theorem v62_whole : StableHlo.after (hostOps0 (F := Ideal)) V (Proc.devRef .tc main_v62)
    = shapeCast S8192x128
        (Host.gather gather_S100001x128_S8x1024x1_S8x1024x128_2_0_n_n_0_2_1128 (V (Proc.devRef .tc main_arg14)) (ownIdx V))
        shapeCasts_S8x1024x128_S8192x128 := by
  simp (disch := decide) only [StableHlo.after_cons, StableHlo.after_nil,
      StableHlo.nullary_result', StableHlo.unary_result', StableHlo.binary_result', StableHlo.ternary_result',
      StableHlo.reshape_result', StableHlo.nary_result',
      StableHlo.nullary_result_ne', StableHlo.unary_result_ne', StableHlo.binary_result_ne', StableHlo.ternary_result_ne',
      StableHlo.reshape_result_ne', StableHlo.nary_result_ne', Matrix.cons_val]
  rfl

theorem v64_whole : StableHlo.after (hostOps0 (F := Ideal)) V (Proc.devRef .tc main_v64)
    = truncf (F := Ideal) .bf16 (transpose S256x128 [1, 0] (V (Proc.devRef .tc main_arg15)) transposes_S128x256_S256x128_1_0) bitsLt_bf16_f32 := by
  after_results_simp

theorem v65_whole : StableHlo.after (hostOps0 (F := Ideal)) V (Proc.devRef .tc main_v65)
    = addf (F := Ideal) (s := S128) (φ := .f32) (V (Proc.devRef .tc main_arg16)) (V (Proc.devRef .tc main_arg17)) := by
  after_results_simp

theorem v66_whole : StableHlo.after (hostOps0 (F := Ideal)) V (Proc.devRef .tc main_v66)
    = shapeCast S128 (V (Proc.devRef .tc main_arg18)) shapeCasts_S1x128_S128 := by
  after_results_simp
  rfl

theorem v68_whole : StableHlo.after (hostOps0 (F := Ideal)) V (Proc.devRef .tc main_v68)
    = shapeCast S1x1 (shapeCast S_ (V (Proc.devRef .tc main_arg19)) shapeCasts_S1_S_) shapeCasts_S_S1x1 := by
  after_results_simp
  rfl

theorem v69_whole : StableHlo.after (hostOps0 (F := Ideal)) V (Proc.devRef .tc main_v69)
    = shapeCast S128 (V (Proc.devRef .tc main_arg20)) shapeCasts_S1x128_S128 := by
  after_results_simp
  rfl

theorem v73_whole : StableHlo.after (hostOps0 (F := Ideal)) V (Proc.devRef .tc main_v73)
    = shapeCast S1x1
        (addf (F := Ideal) (s := S_) (φ := .f32) (shapeCast S_ (V (Proc.devRef .tc main_arg21)) shapeCasts_S1_S_)
          (shapeCast S_ (V (Proc.devRef .tc main_arg22)) shapeCasts_S1_S_))
        shapeCasts_S_S1x1 := by
  after_results_simp
  rfl

theorem v60_apply (j : Fin 8) (r : Fin 1024) (n : Fin 64) (k : Fin 128) :
    StableHlo.after (hostOps0 (F := Ideal)) V (Proc.devRef .tc main_v60) (ix3 (⟨1024 * j.val + r.val, by omega⟩ : Fin 8192) n k)
      = Spec.look (fun a k' => V (Proc.devRef .tc main_arg14) (ix2 a k')) (Spec.connOf (V (Proc.devRef .tc main_arg2)) (V (Proc.devRef .tc main_arg3)) (V (Proc.devRef .tc main_arg5)) (V (Proc.devRef .tc main_arg6)) (V (Proc.devRef .tc main_arg8)) (V (Proc.devRef .tc main_arg9)) (V (Proc.devRef .tc main_arg11)) (V (Proc.devRef .tc main_arg12)) r j n 0) k := by
  refine (congrFun (v60_whole V) _).trans ?_
  refine (shapeCast_apply _ _ (ix3 (⟨1024 * j.val + r.val, by omega⟩ : Fin 8192) n k) (ix4 j r n k) ?_).trans ?_
  · rw [Shape.rowMajor_val_four, Shape.rowMajor_val_three]
    show ((j.val * 1024 + r.val) * 64 + n.val) * 128 + k.val = ((1024 * j.val + r.val) * 64 + n.val) * 128 + k.val
    omega
  refine (gather4_apply _ _ j r n k).trans ?_
  exact row_congr (V (Proc.devRef .tc main_arg14)) (connIdx_apply V 0 slices_S8x1024x64x2_S8x1024x64x1_0_0_0_0 j r n) k _ _

theorem v61_apply (j : Fin 8) (r : Fin 1024) (n : Fin 64) (k : Fin 128) :
    StableHlo.after (hostOps0 (F := Ideal)) V (Proc.devRef .tc main_v61) (ix3 (⟨1024 * j.val + r.val, by omega⟩ : Fin 8192) n k)
      = Spec.look (fun a k' => V (Proc.devRef .tc main_arg14) (ix2 a k')) (Spec.connOf (V (Proc.devRef .tc main_arg2)) (V (Proc.devRef .tc main_arg3)) (V (Proc.devRef .tc main_arg5)) (V (Proc.devRef .tc main_arg6)) (V (Proc.devRef .tc main_arg8)) (V (Proc.devRef .tc main_arg9)) (V (Proc.devRef .tc main_arg11)) (V (Proc.devRef .tc main_arg12)) r j n 1) k := by
  refine (congrFun (v61_whole V) _).trans ?_
  refine (shapeCast_apply _ _ (ix3 (⟨1024 * j.val + r.val, by omega⟩ : Fin 8192) n k) (ix4 j r n k) ?_).trans ?_
  · rw [Shape.rowMajor_val_four, Shape.rowMajor_val_three]
    show ((j.val * 1024 + r.val) * 64 + n.val) * 128 + k.val = ((1024 * j.val + r.val) * 64 + n.val) * 128 + k.val
    omega
  refine (gather4_apply _ _ j r n k).trans ?_
  exact row_congr (V (Proc.devRef .tc main_arg14)) (connIdx_apply V 1 slices_S8x1024x64x2_S8x1024x64x1_0_0_0_1 j r n) k _ _

theorem v62_apply (j : Fin 8) (r : Fin 1024) (k : Fin 128) :
    StableHlo.after (hostOps0 (F := Ideal)) V (Proc.devRef .tc main_v62) (ix2 (⟨1024 * j.val + r.val, by omega⟩ : Fin 8192) k)
      = Spec.look (fun a k' => V (Proc.devRef .tc main_arg14) (ix2 a k')) (Spec.selfOf (V (Proc.devRef .tc main_arg0)) (V (Proc.devRef .tc main_arg1)) r j) k := by
  refine (congrFun (v62_whole V) _).trans ?_
  refine (shapeCast_apply _ _ (ix2 (⟨1024 * j.val + r.val, by omega⟩ : Fin 8192) k) (ix3 j r k) ?_).trans ?_
  · rw [Shape.rowMajor_val_three, Shape.rowMajor_val_two]
    show (j.val * 1024 + r.val) * 128 + k.val = (1024 * j.val + r.val) * 128 + k.val
    omega
  refine (gather3_apply _ _ j r k).trans ?_
  exact row_congr (V (Proc.devRef .tc main_arg14)) (ownIdx_apply V j r) k _ _

theorem v64_apply (k : Fin 256) (e : Fin 128) :
    StableHlo.after (hostOps0 (F := Ideal)) V (Proc.devRef .tc main_v64) (ix2 k e)
      = V (Proc.devRef .tc main_arg15) (ix2 e k) := by
  refine (congrFun (v64_whole V) _).trans ?_
  exact transpose_apply [1, 0] _ transposes_S128x256_S256x128_1_0 (ix2 k e) (ix2 e k)
    (fun b => match b with | ⟨0, _⟩ => rfl | ⟨1, _⟩ => rfl)

theorem v65_apply (e : Fin 128) :
    StableHlo.after (hostOps0 (F := Ideal)) V (Proc.devRef .tc main_v65) (ix1 e)
      = HAdd.hAdd (α := EReal) (β := EReal) (γ := EReal) (V (Proc.devRef .tc main_arg16) (ix1 e)) (V (Proc.devRef .tc main_arg17) (ix1 e)) :=
  congrFun (v65_whole V) _

theorem v66_apply (e : Fin 128) :
    StableHlo.after (hostOps0 (F := Ideal)) V (Proc.devRef .tc main_v66) (ix1 e)
      = V (Proc.devRef .tc main_arg18) (ix2 (0 : Fin 1) e) := by
  refine (congrFun (v66_whole V) _).trans ?_
  refine shapeCast_apply _ _ (ix1 e) (ix2 (0 : Fin 1) e) ?_
  rw [Shape.rowMajor_val_two, Shape.rowMajor_val_one]
  show 0 * 128 + e.val = e.val
  omega

theorem v68_apply :
    StableHlo.after (hostOps0 (F := Ideal)) V (Proc.devRef .tc main_v68) (ix2 (0 : Fin 1) (0 : Fin 1))
      = V (Proc.devRef .tc main_arg19) (ix1 (0 : Fin 1)) := by
  refine (congrFun (v68_whole V) _).trans ?_
  refine (shapeCast_apply _ _ (ix2 (0 : Fin 1) (0 : Fin 1)) ix0 rfl).trans ?_
  exact shapeCast_apply _ _ ix0 (ix1 (0 : Fin 1)) rfl

theorem v69_apply (e : Fin 128) :
    StableHlo.after (hostOps0 (F := Ideal)) V (Proc.devRef .tc main_v69) (ix1 e)
      = V (Proc.devRef .tc main_arg20) (ix2 (0 : Fin 1) e) := by
  refine (congrFun (v69_whole V) _).trans ?_
  refine shapeCast_apply _ _ (ix1 e) (ix2 (0 : Fin 1) e) ?_
  rw [Shape.rowMajor_val_two, Shape.rowMajor_val_one]
  show 0 * 128 + e.val = e.val
  omega

theorem v73_apply :
    StableHlo.after (hostOps0 (F := Ideal)) V (Proc.devRef .tc main_v73) (ix2 (0 : Fin 1) (0 : Fin 1))
      = HAdd.hAdd (α := EReal) (β := EReal) (γ := EReal) (V (Proc.devRef .tc main_arg21) (ix1 (0 : Fin 1)))
          (V (Proc.devRef .tc main_arg22) (ix1 (0 : Fin 1))) := by
  refine (congrFun (v73_whole V) _).trans ?_
  refine (shapeCast_apply _ _ (ix2 (0 : Fin 1) (0 : Fin 1)) ix0 rfl).trans ?_
  exact congrArg₂ (HAdd.hAdd (α := EReal) (β := EReal) (γ := EReal))
    (shapeCast_apply (V (Proc.devRef .tc main_arg21)) shapeCasts_S1_S_ ix0 (ix1 (0 : Fin 1)) rfl)
    (shapeCast_apply (V (Proc.devRef .tc main_arg22)) shapeCasts_S1_S_ ix0 (ix1 (0 : Fin 1)) rfl)

end Stretch0

end Cert.KernelIdeal.Val
end
-- ==== Proof.KIFinal.lean ====
import proofs.«427183_j33938831573494_3_alg».proof.Proof.KIRun
import proofs.«427183_j33938831573494_3_alg».proof.Proof.KICover
import proofs.«427183_j33938831573494_3_alg».proof.Proof.KIGlue
import proofs.«427183_j33938831573494_3_alg».proof.Proof.Whole

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem

variable (m : (ℓ : Loc nD τ sig) → Buf (Elt Ideal) ℓ) (ρ : Dev nD → PrngReg)

theorem tailRow_congr {nb nb' : Fin 8 → Fin 128 → EReal} {W1 W1' : Fin 512 → Fin 256 → EReal} {b1 b1' : Fin 512 → EReal}
    {W2 W2' : Fin 256 → Fin 512 → EReal} {b2 b2' lg lg' lb lb' : Fin 256 → EReal} {Wih Wih' : Fin 2048 → Fin 256 → EReal}
    {Whh Whh' : Fin 2048 → Fin 512 → EReal} {bih bih' bhh bhh' : Fin 2048 → EReal}
    (h0 : nb = nb') (h1 : W1 = W1') (h2 : b1 = b1') (h3 : W2 = W2') (h4 : b2 = b2') (h5 : lg = lg') (h6 : lb = lb')
    (h7 : Wih = Wih') (h8 : Whh = Whh') (h9 : bih = bih') (h10 : bhh = bhh') :
    Spec.tailRow nb W1 b1 W2 b2 lg lb Wih Whh bih bhh = Spec.tailRow nb' W1' b1' W2' b2' lg' lb' Wih' Whh' bih' bhh' := by
  subst h0 h1 h2 h3 h4 h5 h6 h7 h8 h9 h10; rfl

theorem neRow_congr {rel rel' ent ent' : Fin 64 → Fin 128 → EReal} {self self' : Fin 128 → EReal}
    {W W' : Fin 128 → Fin 256 → EReal} {aW aW' : Fin 128 → EReal} {ab ab' : EReal} {gW gW' : Fin 128 → EReal}
    (wb b : Fin 128 → EReal) (gwb gb : EReal) (e : Fin 128)
    (h0 : rel = rel') (h1 : ent = ent') (h2 : self = self') (h3 : W = W') (h4 : aW = aW') (h5 : ab = ab') (h6 : gW = gW') :
    Spec.neRow rel ent self W wb b aW ab gW gwb gb e = Spec.neRow rel' ent' self' W' wb b aW' ab' gW' gwb gb e := by
  subst h0 h1 h2 h3 h4 h5 h6; rfl

theorem W0_at (c : Dev nD) (b : Ref sig .tc) : Hand.W0 m ρ c (Proc.devRef .tc b) = m ((c : Thread nD τ).loc b) := rfl

theorem w77_eq (c : Dev nD) :
    (fun (j : Fin 512) (k : Fin 256) => (Hand.V3 m ρ c main_v77 : S256x512.Idx → EReal) (ix2 k j))
      = fun j k => (m ((c : Thread nD τ).loc main_arg23)) (ix2 j k) := by
  funext j k
  exact (v77_apply (Hand.W2 m ρ c) k j).trans (congrFun (Hand.W2_arg m ρ c main_arg23 (by decide)) _)

theorem w79_eq (c : Dev nD) :
    (fun (a : Fin 256) (j : Fin 512) => (Hand.V3 m ρ c main_v79 : S512x256.Idx → EReal) (ix2 j a))
      = fun a j => (m ((c : Thread nD τ).loc main_arg25)) (ix2 a j) := by
  funext a j
  exact (v79_apply (Hand.W2 m ρ c) j a).trans (congrFun (Hand.W2_arg m ρ c main_arg25 (by decide)) _)

theorem w81_eq (c : Dev nD) :
    (fun (j : Fin 2048) (k : Fin 256) => (Hand.V3 m ρ c main_v81 : S256x2048.Idx → EReal) (ix2 k j))
      = fun j k => (m ((c : Thread nD τ).loc main_arg29)) (ix2 j k) := by
  funext j k
  exact (v81_apply (Hand.W2 m ρ c) k j).trans (congrFun (Hand.W2_arg m ρ c main_arg29 (by decide)) _)

theorem a24_eq (c : Dev nD) :
    (fun (j : Fin 512) => (Hand.V3 m ρ c main_arg24 : S512.Idx → EReal) (ix1 j)) = fun j => (m ((c : Thread nD τ).loc main_arg24)) (ix1 j) := by
  funext j; exact congrFun (Hand.W3_arg m ρ c main_arg24 (by decide)) _

theorem a26_eq (c : Dev nD) :
    (fun (a : Fin 256) => (Hand.V3 m ρ c main_arg26 : S256.Idx → EReal) (ix1 a)) = fun a => (m ((c : Thread nD τ).loc main_arg26)) (ix1 a) := by
  funext a; exact congrFun (Hand.W3_arg m ρ c main_arg26 (by decide)) _

theorem a27_eq (c : Dev nD) :
    (fun (a : Fin 256) => (Hand.V3 m ρ c main_arg27 : S256.Idx → EReal) (ix1 a)) = fun a => (m ((c : Thread nD τ).loc main_arg27)) (ix1 a) := by
  funext a; exact congrFun (Hand.W3_arg m ρ c main_arg27 (by decide)) _

theorem a28_eq (c : Dev nD) :
    (fun (a : Fin 256) => (Hand.V3 m ρ c main_arg28 : S256.Idx → EReal) (ix1 a)) = fun a => (m ((c : Thread nD τ).loc main_arg28)) (ix1 a) := by
  funext a; exact congrFun (Hand.W3_arg m ρ c main_arg28 (by decide)) _

theorem a31_eq (c : Dev nD) :
    (fun (j : Fin 2048) => (Hand.V3 m ρ c main_arg31 : S2048.Idx → EReal) (ix1 j)) = fun j => (m ((c : Thread nD τ).loc main_arg31)) (ix1 j) := by
  funext j; exact congrFun (Hand.W3_arg m ρ c main_arg31 (by decide)) _

theorem a32_eq (c : Dev nD) :
    (fun (j : Fin 2048) => (Hand.V3 m ρ c main_arg32 : S2048.Idx → EReal) (ix1 j)) = fun j => (m ((c : Thread nD τ).loc main_arg32)) (ix1 j) := by
  funext j; exact congrFun (Hand.W3_arg m ρ c main_arg32 (by decide)) _

theorem nb_eq (c : Dev nD) (r : Fin 1024) :
    (fun (j : Fin 8) (e : Fin 128) => (Hand.V3 m ρ c main_v75 : S8x1024x128.Idx → EReal) (ix3 j ⟨r.val, r.isLt⟩ e))
      = Spec.nbRows (fun a k => (m ((c : Thread nD τ).loc main_arg14)) (ix2 a k))
          (Spec.connOf (m ((c : Thread nD τ).loc main_arg2)) (m ((c : Thread nD τ).loc main_arg3)) (m ((c : Thread nD τ).loc main_arg5)) (m ((c : Thread nD τ).loc main_arg6)) (m ((c : Thread nD τ).loc main_arg8)) (m ((c : Thread nD τ).loc main_arg9)) (m ((c : Thread nD τ).loc main_arg11)) (m ((c : Thread nD τ).loc main_arg12)) r)
          (Spec.selfOf (m ((c : Thread nD τ).loc main_arg0)) (m ((c : Thread nD τ).loc main_arg1)) r)
          (fun e k => (m ((c : Thread nD τ).loc main_arg15)) (ix2 e k)) (fun e => (m ((c : Thread nD τ).loc main_arg16)) (ix1 e)) (fun e => (m ((c : Thread nD τ).loc main_arg17)) (ix1 e))
          (fun e => (m ((c : Thread nD τ).loc main_arg18)) (ix2 0 e)) ((m ((c : Thread nD τ).loc main_arg19)) (ix1 0)) (fun e => (m ((c : Thread nD τ).loc main_arg20)) (ix2 0 e))
          ((m ((c : Thread nD τ).loc main_arg21)) (ix1 0)) ((m ((c : Thread nD τ).loc main_arg22)) (ix1 0)) := by
  funext j e
  refine (v75_apply (Hand.W2 m ρ c) j r e).trans ?_
  refine (congrFun (Hand.W2_out m ρ c) _).trans ?_
  refine (congrFun (final0 (Hand.V1 m ρ) c (fun e => (m ((c : Thread nD τ).loc main_arg16)) (ix1 e)) (fun e => (m ((c : Thread nD τ).loc main_arg17)) (ix1 e))
    ((m ((c : Thread nD τ).loc main_arg21)) (ix1 0)) ((m ((c : Thread nD τ).loc main_arg22)) (ix1 0))
    (fun e' => v65_apply (Hand.W0 m ρ c) e') (v73_apply (Hand.W0 m ρ c))) _).trans ?_
  refine neRow_congr _ _ _ _ e ?_ ?_ ?_ ?_ ?_ ?_ ?_
  · funext n k; exact v60_apply (Hand.W0 m ρ c) j r n k
  · funext n k; exact v61_apply (Hand.W0 m ρ c) j r n k
  · funext k; exact v62_apply (Hand.W0 m ρ c) j r k
  · funext e' k; exact v64_apply (Hand.W0 m ρ c) k e'
  · funext e'; exact v66_apply (Hand.W0 m ρ c) e'
  · exact v68_apply (Hand.W0 m ρ c)
  · funext e'; exact v69_apply (Hand.W0 m ρ c) e'

theorem kernel_out (c : Dev nD) :
    Hand.W4 m ρ c (Proc.devRef .tc main_v86)
      = Spec.whole (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg8)) (m ((c : Thread nD τ).loc main_arg9)) (m ((c : Thread nD τ).loc main_arg11)) (m ((c : Thread nD τ).loc main_arg12))
          (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22))
          (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) (m ((c : Thread nD τ).loc main_arg31)) (m ((c : Thread nD τ).loc main_arg32)) := by
  refine (Hand.W4_out m ρ c).trans ?_
  refine (final1 (Hand.V3 m ρ) c (fun j k => (m ((c : Thread nD τ).loc main_arg30)) (ix2 j k))
    (fun k j => (v84_apply (Hand.W2 m ρ c) k j).trans (congrFun (Hand.W2_arg m ρ c main_arg30 (by decide)) _))
    (fun k j => (v85_apply (Hand.W2 m ρ c) k j).trans (congrFun (Hand.W2_arg m ρ c main_arg30 (by decide)) _))).trans ?_
  funext i
  exact tailRow_congr (nb_eq m ρ c (i 0)) (w77_eq m ρ c) (a24_eq m ρ c) (w79_eq m ρ c) (a26_eq m ρ c) (a27_eq m ρ c)
    (a28_eq m ρ c) (w81_eq m ρ c) rfl (a31_eq m ρ c) (a32_eq m ρ c)

end Cert.KernelIdeal.Val

end
-- ==== Proof.RefSegs.lean ====
import proofs.«427183_j33938831573494_3_alg».proof.ReferenceIdeal
import Idealize.ShloMosaic.Lib.StableHlo.Run

set_option synthInstance.maxSize 4096

noncomputable section

namespace Cert.ReferenceIdeal.Hand

open Cert.ReferenceIdeal Idealize.ShloMosaic Idealize.ShloMosaic.TcCoe Idealize.SL.Sem Idealize.ShloMosaic.StableHlo

variable {F : FTy → Type} [FloatOps F] [Facts]
open Facts₀ Facts

/-- The buffers of one run of the neighbour encoder: the entity pairs, the neighbour list, and one buffer per value it computes. -/
structure Enc.Bufs where
  ent : TRef sig ⟨S1024x2, .i32⟩
  nbr : TRef sig ⟨S1024x64x2, .i32⟩
  v0 : TRef sig ⟨S1024x1, .i32⟩
  v1 : TRef sig ⟨S1024, .i32⟩
  v2 : TRef sig ⟨S1024x64x1, .i32⟩
  v3 : TRef sig ⟨S1024x64, .i32⟩
  c : TRef sig ⟨S_, .i32⟩
  v4 : TRef sig ⟨S1024x64, .i32⟩
  v5 : TRef sig ⟨S1024x64, .i1⟩
  c_0 : TRef sig ⟨S_, .i32⟩
  (v6 v7 v8 : TRef sig ⟨S1024x64, .i32⟩)
  v9 : TRef sig ⟨S1024x64x1, .i32⟩
  v10 : TRef sig ⟨S1024x64x128, .f32⟩
  v11 : TRef sig ⟨S1024x64x1, .i32⟩
  v12 : TRef sig ⟨S1024x64, .i32⟩
  c_1 : TRef sig ⟨S_, .i32⟩
  v13 : TRef sig ⟨S1024x64, .i32⟩
  v14 : TRef sig ⟨S1024x64, .i1⟩
  c_2 : TRef sig ⟨S_, .i32⟩
  (v15 v16 v17 : TRef sig ⟨S1024x64, .i32⟩)
  v18 : TRef sig ⟨S1024x64x1, .i32⟩
  v19 : TRef sig ⟨S1024x64x128, .f32⟩
  v20 : TRef sig ⟨S1024x64x256, .f32⟩
  v21 : TRef sig ⟨S1024x64x128, .f32⟩
  v22 : TRef sig ⟨S1x1x128, .f32⟩
  (v23 v24 : TRef sig ⟨S1024x64x128, .f32⟩)
  v25 : TRef sig ⟨S1x1x128, .f32⟩
  (v26 v27 : TRef sig ⟨S1024x64x128, .f32⟩)
  call : fn_leaky_relu.Bufs
  v29 : TRef sig ⟨S1024x64x1, .f32⟩
  v30 : TRef sig ⟨S1x1x1, .f32⟩
  (v31 v32 : TRef sig ⟨S1024x64x1, .f32⟩)
  cst : TRef sig ⟨S_, .f32⟩
  v33 : TRef sig ⟨S1024x1, .f32⟩
  cst_3 : TRef sig ⟨S_, .f32⟩
  (v34 v35 : TRef sig ⟨S1024x1, .f32⟩)
  v36 : TRef sig ⟨S1024x1x1, .f32⟩
  (v37 v38 v39 : TRef sig ⟨S1024x64x1, .f32⟩)
  cst_4 : TRef sig ⟨S_, .f32⟩
  v40 : TRef sig ⟨S1024x1, .f32⟩
  v41 : TRef sig ⟨S1024x1x1, .f32⟩
  (v42 v43 : TRef sig ⟨S1024x64x1, .f32⟩)
  (v44 v45 : TRef sig ⟨S1024x64x128, .f32⟩)
  cst_5 : TRef sig ⟨S_, .f32⟩
  v46 : TRef sig ⟨S1024x128, .f32⟩
  v47 : TRef sig ⟨S128x1, .f32⟩
  v48 : TRef sig ⟨S1024x1, .f32⟩
  v49 : TRef sig ⟨S1x1, .f32⟩
  (v50 v51 : TRef sig ⟨S1024x1, .f32⟩)
  v52 : TRef sig ⟨S1x1, .f32⟩
  (v53 v54 v55 v56 : TRef sig ⟨S1024x1, .f32⟩)
  cst_6 : TRef sig ⟨S_, .f32⟩
  (v57 v58 : TRef sig ⟨S1024x1, .f32⟩)
  cst_7 : TRef sig ⟨S_, .f32⟩
  (v59 v60 : TRef sig ⟨S1024x1, .f32⟩)
  (v61 v62 : TRef sig ⟨S1024x128, .f32⟩)
  cst_8 : TRef sig ⟨S_, .f32⟩
  (v63 v64 : TRef sig ⟨S1024x1, .f32⟩)
  c_9 : TRef sig ⟨S_, .i32⟩
  v65 : TRef sig ⟨S1024, .i32⟩
  v66 : TRef sig ⟨S1024, .i1⟩
  c_10 : TRef sig ⟨S_, .i32⟩
  (v67 v68 v69 : TRef sig ⟨S1024, .i32⟩)
  v70 : TRef sig ⟨S1024x1, .i32⟩
  (v71 v72 v73 v74 : TRef sig ⟨S1024x128, .f32⟩)

/-- The neighbour encoder's operations over one run's buffers; `col` cuts the entity's column out of the pairs. -/
abbrev Enc.ops (col : (⟨S1024x2, .i32⟩ : BufTy).Contents (Elt F) → (⟨S1024x1, .i32⟩ : BufTy).Contents (Elt F)) (φ : Enc.Bufs) :
    List (HloOp τ sig (Elt F)) :=
  [ TRef.unary φ.ent φ.v0 col,
    TRef.reshape φ.v0 φ.v1 rfl shapeCasts_S1024x1_S1024,
    TRef.unary φ.nbr φ.v2 (extractStridedSlice S1024x64x1 ![0, 0, 0] · slices_S1024x64x2_S1024x64x1_0_0_0),
    TRef.reshape φ.v2 φ.v3 rfl shapeCasts_S1024x64x1_S1024x64,
    TRef.nullary φ.c (constantI S_ 32 0#32),
    TRef.unary φ.c φ.v4 (broadcastInDim S1024x64 ![] bcast_S_S1024x64),
    TRef.binary φ.v3 φ.v4 φ.v5 (cmpi .slt),
    TRef.nullary φ.c_0 (constantI S_ 32 100001#32),
    TRef.unary φ.c_0 φ.v6 (broadcastInDim S1024x64 ![] bcast_S_S1024x64),
    TRef.binary φ.v3 φ.v6 φ.v7 addi,
    TRef.ternary φ.v5 φ.v7 φ.v3 φ.v8 select,
    TRef.unary φ.v8 φ.v9 (broadcastInDim S1024x64x1 ![0, 1] bcast_S1024x64_S1024x64x1_0_1),
    TRef.binary (.of main_arg14 : TRef sig ⟨S100001x128, .f32⟩) φ.v9 φ.v10 (fun x i => Host.gather gather_S100001x128_S1024x64x1_S1024x64x128_2_0_n_n_0_2_1128 x i),
    TRef.unary φ.nbr φ.v11 (extractStridedSlice S1024x64x1 ![0, 0, 1] · slices_S1024x64x2_S1024x64x1_0_0_1),
    TRef.reshape φ.v11 φ.v12 rfl shapeCasts_S1024x64x1_S1024x64,
    TRef.nullary φ.c_1 (constantI S_ 32 0#32),
    TRef.unary φ.c_1 φ.v13 (broadcastInDim S1024x64 ![] bcast_S_S1024x64),
    TRef.binary φ.v12 φ.v13 φ.v14 (cmpi .slt),
    TRef.nullary φ.c_2 (constantI S_ 32 100001#32),
    TRef.unary φ.c_2 φ.v15 (broadcastInDim S1024x64 ![] bcast_S_S1024x64),
    TRef.binary φ.v12 φ.v15 φ.v16 addi,
    TRef.ternary φ.v14 φ.v16 φ.v12 φ.v17 select,
    TRef.unary φ.v17 φ.v18 (broadcastInDim S1024x64x1 ![0, 1] bcast_S1024x64_S1024x64x1_0_1),
    TRef.binary (.of main_arg14 : TRef sig ⟨S100001x128, .f32⟩) φ.v18 φ.v19 (fun x i => Host.gather gather_S100001x128_S1024x64x1_S1024x64x128_2_0_n_n_0_2_1128 x i),
    TRef.binary φ.v10 φ.v19 φ.v20 (fun a b => concatenate S1024x64x256 2 [⟨S1024x64x128, a⟩, ⟨S1024x64x128, b⟩] concatenates_S1024x64x128_S1024x64x128_S1024x64x256_d2),
    TRef.binary φ.v20 (.of main_arg15 : TRef sig ⟨S128x256, .f32⟩) φ.v21 (fun l r => Host.dotGeneral dot_S1024x64x256_S128x256_S1024x64x128_2_1_01_0_n_n none l r),
    TRef.unary (.of main_arg16 : TRef sig ⟨S128, .f32⟩) φ.v22 (broadcastInDim S1x1x128 ![2] bcast_S128_S1x1x128_2),
    TRef.unary φ.v22 φ.v23 (broadcastInDim S1024x64x128 ![0, 1, 2] bcast_S1x1x128_S1024x64x128_0_1_2),
    TRef.binary φ.v21 φ.v23 φ.v24 addf,
    TRef.unary (.of main_arg17 : TRef sig ⟨S128, .f32⟩) φ.v25 (broadcastInDim S1x1x128 ![2] bcast_S128_S1x1x128_2),
    TRef.unary φ.v25 φ.v26 (broadcastInDim S1024x64x128 ![0, 1, 2] bcast_S1x1x128_S1024x64x128_0_1_2),
    TRef.binary φ.v24 φ.v26 φ.v27 addf,
    TRef.nullary φ.call.cst (constant S_ .f32 0x00000000#32),
    TRef.unary φ.call.cst φ.call.v0 (broadcastInDim S1024x64x128 ![] bcast_S_S1024x64x128),
    TRef.binary φ.v27 φ.call.v0 φ.call.v1 (cmpf .oge),
    TRef.nullary φ.call.cst_0 (constant S_ .f32 0x3C23D70A#32),
    TRef.unary φ.call.cst_0 φ.call.v2 (broadcastInDim S1024x64x128 ![] bcast_S_S1024x64x128),
    TRef.binary φ.call.v2 φ.v27 φ.call.v3 mulf,
    TRef.ternary φ.call.v1 φ.v27 φ.call.v3 φ.call.call0.v0 select,
    TRef.binary φ.call.call0.v0 (.of main_arg18 : TRef sig ⟨S1x128, .f32⟩) φ.v29 (fun l r => Host.dotGeneral dot_S1024x64x128_S1x128_S1024x64x1_2_1_01_0_n_n none l r),
    TRef.unary (.of main_arg19 : TRef sig ⟨S1, .f32⟩) φ.v30 (broadcastInDim S1x1x1 ![2] bcast_S1_S1x1x1_2),
    TRef.unary φ.v30 φ.v31 (broadcastInDim S1024x64x1 ![0, 1, 2] bcast_S1x1x1_S1024x64x1_0_1_2),
    TRef.binary φ.v29 φ.v31 φ.v32 addf,
    TRef.nullary φ.cst (constant S_ .f32 0xFF800000#32),
    TRef.binary φ.v32 φ.cst φ.v33 (fun x v => Host.reduce FloatOps.maximumf x v reducesTo_S1024x64x1_S1024x1_d1 h_S_),
    TRef.nullary φ.cst_3 (constant S_ .f32 0xFF800000#32),
    TRef.unary φ.cst_3 φ.v34 (broadcastInDim S1024x1 ![] bcast_S_S1024x1),
    TRef.binary φ.v34 φ.v33 φ.v35 maximumf,
    TRef.unary φ.v35 φ.v36 (broadcastInDim S1024x1x1 ![0, 2] bcast_S1024x1_S1024x1x1_0_2),
    TRef.unary φ.v36 φ.v37 (broadcastInDim S1024x64x1 ![0, 1, 2] bcast_S1024x1x1_S1024x64x1_0_1_2),
    TRef.binary φ.v32 φ.v37 φ.v38 subf,
    TRef.unary φ.v38 φ.v39 Host.exp,
    TRef.nullary φ.cst_4 (constant S_ .f32 0x00000000#32),
    TRef.binary φ.v39 φ.cst_4 φ.v40 (fun x v => Host.reduceAdd x v reducesTo_S1024x64x1_S1024x1_d1 h_S_),
    TRef.unary φ.v40 φ.v41 (broadcastInDim S1024x1x1 ![0, 2] bcast_S1024x1_S1024x1x1_0_2),
    TRef.unary φ.v41 φ.v42 (broadcastInDim S1024x64x1 ![0, 1, 2] bcast_S1024x1x1_S1024x64x1_0_1_2),
    TRef.binary φ.v39 φ.v42 φ.v43 Host.divf,
    TRef.unary φ.v43 φ.v44 (broadcastInDim S1024x64x128 ![0, 1, 2] bcast_S1024x64x1_S1024x64x128_0_1_2),
    TRef.binary φ.call.call0.v0 φ.v44 φ.v45 mulf,
    TRef.nullary φ.cst_5 (constant S_ .f32 0x00000000#32),
    TRef.binary φ.v45 φ.cst_5 φ.v46 (fun x v => Host.reduceAdd x v reducesTo_S1024x64x128_S1024x128_d1 h_S_),
    TRef.unary (.of main_arg20 : TRef sig ⟨S1x128, .f32⟩) φ.v47 (transpose S128x1 [1, 0] · transposes_S1x128_S128x1_1_0),
    TRef.binary φ.v46 φ.v47 φ.v48 (fun l r => Host.dotGeneral dot_S1024x128_S128x1_S1024x1_1_0_0_1_n_n none l r),
    TRef.unary (.of main_arg21 : TRef sig ⟨S1, .f32⟩) φ.v49 (broadcastInDim S1x1 ![1] bcast_S1_S1x1_1),
    TRef.unary φ.v49 φ.v50 (broadcastInDim S1024x1 ![0, 1] bcast_S1x1_S1024x1_0_1),
    TRef.binary φ.v48 φ.v50 φ.v51 addf,
    TRef.unary (.of main_arg22 : TRef sig ⟨S1, .f32⟩) φ.v52 (broadcastInDim S1x1 ![1] bcast_S1_S1x1_1),
    TRef.unary φ.v52 φ.v53 (broadcastInDim S1024x1 ![0, 1] bcast_S1x1_S1024x1_0_1),
    TRef.binary φ.v51 φ.v53 φ.v54 addf,
    TRef.unary φ.v54 φ.v55 Host.negf,
    TRef.unary φ.v55 φ.v56 Host.exp,
    TRef.nullary φ.cst_6 (constant S_ .f32 0x3F800000#32),
    TRef.unary φ.cst_6 φ.v57 (broadcastInDim S1024x1 ![] bcast_S_S1024x1),
    TRef.binary φ.v57 φ.v56 φ.v58 addf,
    TRef.nullary φ.cst_7 (constant S_ .f32 0x3F800000#32),
    TRef.unary φ.cst_7 φ.v59 (broadcastInDim S1024x1 ![] bcast_S_S1024x1),
    TRef.binary φ.v59 φ.v58 φ.v60 Host.divf,
    TRef.unary φ.v60 φ.v61 (broadcastInDim S1024x128 ![0, 1] bcast_S1024x1_S1024x128_0_1),
    TRef.binary φ.v61 φ.v46 φ.v62 mulf,
    TRef.nullary φ.cst_8 (constant S_ .f32 0x3F800000#32),
    TRef.unary φ.cst_8 φ.v63 (broadcastInDim S1024x1 ![] bcast_S_S1024x1),
    TRef.binary φ.v63 φ.v60 φ.v64 subf,
    TRef.nullary φ.c_9 (constantI S_ 32 0#32),
    TRef.unary φ.c_9 φ.v65 (broadcastInDim S1024 ![] bcast_S_S1024),
    TRef.binary φ.v1 φ.v65 φ.v66 (cmpi .slt),
    TRef.nullary φ.c_10 (constantI S_ 32 100001#32),
    TRef.unary φ.c_10 φ.v67 (broadcastInDim S1024 ![] bcast_S_S1024),
    TRef.binary φ.v1 φ.v67 φ.v68 addi,
    TRef.ternary φ.v66 φ.v68 φ.v1 φ.v69 select,
    TRef.unary φ.v69 φ.v70 (broadcastInDim S1024x1 ![0] bcast_S1024_S1024x1_0),
    TRef.binary (.of main_arg14 : TRef sig ⟨S100001x128, .f32⟩) φ.v70 φ.v71 (fun x i => Host.gather gather_S100001x128_S1024x1_S1024x128_1_0_n_n_0_1_1128 x i),
    TRef.unary φ.v64 φ.v72 (broadcastInDim S1024x128 ![0, 1] bcast_S1024x1_S1024x128_0_1),
    TRef.binary φ.v72 φ.v71 φ.v73 mulf,
    TRef.binary φ.v62 φ.v73 φ.v74 addf ]

/-- The buffers `Enc.ops` writes, in order. -/
abbrev Enc.wr (φ : Enc.Bufs) : List (Ref sig .tc) :=
  [ φ.v0.ref, φ.v1.ref, φ.v2.ref, φ.v3.ref, φ.c.ref, φ.v4.ref, φ.v5.ref, φ.c_0.ref,
    φ.v6.ref, φ.v7.ref, φ.v8.ref, φ.v9.ref, φ.v10.ref, φ.v11.ref, φ.v12.ref, φ.c_1.ref,
    φ.v13.ref, φ.v14.ref, φ.c_2.ref, φ.v15.ref, φ.v16.ref, φ.v17.ref, φ.v18.ref, φ.v19.ref,
    φ.v20.ref, φ.v21.ref, φ.v22.ref, φ.v23.ref, φ.v24.ref, φ.v25.ref, φ.v26.ref, φ.v27.ref,
    φ.call.cst.ref, φ.call.v0.ref, φ.call.v1.ref, φ.call.cst_0.ref, φ.call.v2.ref, φ.call.v3.ref, φ.call.call0.v0.ref, φ.v29.ref,
    φ.v30.ref, φ.v31.ref, φ.v32.ref, φ.cst.ref, φ.v33.ref, φ.cst_3.ref, φ.v34.ref, φ.v35.ref,
    φ.v36.ref, φ.v37.ref, φ.v38.ref, φ.v39.ref, φ.cst_4.ref, φ.v40.ref, φ.v41.ref, φ.v42.ref,
    φ.v43.ref, φ.v44.ref, φ.v45.ref, φ.cst_5.ref, φ.v46.ref, φ.v47.ref, φ.v48.ref, φ.v49.ref,
    φ.v50.ref, φ.v51.ref, φ.v52.ref, φ.v53.ref, φ.v54.ref, φ.v55.ref, φ.v56.ref, φ.cst_6.ref,
    φ.v57.ref, φ.v58.ref, φ.cst_7.ref, φ.v59.ref, φ.v60.ref, φ.v61.ref, φ.v62.ref, φ.cst_8.ref,
    φ.v63.ref, φ.v64.ref, φ.c_9.ref, φ.v65.ref, φ.v66.ref, φ.c_10.ref, φ.v67.ref, φ.v68.ref,
    φ.v69.ref, φ.v70.ref, φ.v71.ref, φ.v72.ref, φ.v73.ref, φ.v74.ref ]

/-- The first and the second column of an array of pairs. -/
abbrev col0 : (⟨S1024x2, .i32⟩ : BufTy).Contents (Elt F) → (⟨S1024x1, .i32⟩ : BufTy).Contents (Elt F) :=
  (extractStridedSlice S1024x1 ![0, 0] · slices_S1024x2_S1024x1_0_0)
@[inherit_doc col0]
abbrev col1 : (⟨S1024x2, .i32⟩ : BufTy).Contents (Elt F) → (⟨S1024x1, .i32⟩ : BufTy).Contents (Elt F) :=
  (extractStridedSlice S1024x1 ![0, 1] · slices_S1024x2_S1024x1_0_1)

/-- The buffers of one average of two encodings. -/
structure Avg.Bufs where
  (x y sum : TRef sig ⟨S1024x128, .f32⟩)
  two : TRef sig ⟨S_, .f32⟩
  (twos avg : TRef sig ⟨S1024x128, .f32⟩)

/-- Half the sum of two encodings. -/
abbrev Avg.ops (φ : Avg.Bufs) : List (HloOp τ sig (Elt F)) :=
  [ TRef.binary φ.x φ.y φ.sum addf,
    TRef.nullary φ.two (constant S_ .f32 0x40000000#32),
    TRef.unary φ.two φ.twos (broadcastInDim S1024x128 ![] bcast_S_S1024x128),
    TRef.binary φ.sum φ.twos φ.avg Host.divf ]

/-- The buffers `Avg.ops` writes, in order. -/
abbrev Avg.wr (φ : Avg.Bufs) : List (Ref sig .tc) :=
  [ φ.sum.ref, φ.two.ref, φ.twos.ref, φ.avg.ref ]

/-- The buffers of one step of the cell: the cell state and the recurrent input it starts from, and one buffer per value it computes. -/
structure Step.Bufs where
  (cell hr : TRef sig ⟨S1024x512, .f32⟩)
  v0 : TRef sig ⟨S256x2048, .f32⟩
  v1 : TRef sig ⟨S1024x2048, .f32⟩
  v2 : TRef sig ⟨S1x2048, .f32⟩
  (v3 v4 : TRef sig ⟨S1024x2048, .f32⟩)
  v5 : TRef sig ⟨S512x2048, .f32⟩
  (v6 v7 : TRef sig ⟨S1024x2048, .f32⟩)
  v8 : TRef sig ⟨S1x2048, .f32⟩
  (v9 v10 : TRef sig ⟨S1024x2048, .f32⟩)
  (v11 v12 v13 v14 v15 v16 : TRef sig ⟨S1024x512, .f32⟩)
  cst0 : TRef sig ⟨S_, .f32⟩
  (v17 v18 : TRef sig ⟨S1024x512, .f32⟩)
  cst1 : TRef sig ⟨S_, .f32⟩
  (v19 v20 v21 v22 v23 : TRef sig ⟨S1024x512, .f32⟩)
  cst2 : TRef sig ⟨S_, .f32⟩
  (v24 v25 : TRef sig ⟨S1024x512, .f32⟩)
  cst3 : TRef sig ⟨S_, .f32⟩
  (v26 v27 v28 v29 v30 v31 v32 : TRef sig ⟨S1024x512, .f32⟩)
  cst4 : TRef sig ⟨S_, .f32⟩
  (v33 v34 : TRef sig ⟨S1024x512, .f32⟩)
  cst5 : TRef sig ⟨S_, .f32⟩
  (v35 v36 v37 v38 : TRef sig ⟨S1024x512, .f32⟩)
  (v39 v40 : TRef sig ⟨S1024x256, .f32⟩)
  v41 : TRef sig ⟨S1024x512, .f32⟩

/-- One step of the cell over the query array, then the next recurrent input: the new hidden state's first half plus the query, beside the support array. -/
abbrev Step.ops (φ : Step.Bufs) : List (HloOp τ sig (Elt F)) :=
  [ TRef.unary (.of main_arg29 : TRef sig ⟨S2048x256, .f32⟩) φ.v0 (transpose S256x2048 [1, 0] · transposes_S2048x256_S256x2048_1_0),
    TRef.binary (.of main_v612 : TRef sig ⟨S1024x256, .f32⟩) φ.v0 φ.v1 (fun l r => Host.dotGeneral dot_S1024x256_S256x2048_S1024x2048_1_0_0_1_n_n none l r),
    TRef.unary (.of main_arg31 : TRef sig ⟨S2048, .f32⟩) φ.v2 (broadcastInDim S1x2048 ![1] bcast_S2048_S1x2048_1),
    TRef.unary φ.v2 φ.v3 (broadcastInDim S1024x2048 ![0, 1] bcast_S1x2048_S1024x2048_0_1),
    TRef.binary φ.v1 φ.v3 φ.v4 addf,
    TRef.unary (.of main_arg30 : TRef sig ⟨S2048x512, .f32⟩) φ.v5 (transpose S512x2048 [1, 0] · transposes_S2048x512_S512x2048_1_0),
    TRef.binary φ.hr φ.v5 φ.v6 (fun l r => Host.dotGeneral dot_S1024x512_S512x2048_S1024x2048_1_0_0_1_n_n none l r),
    TRef.binary φ.v4 φ.v6 φ.v7 addf,
    TRef.unary (.of main_arg32 : TRef sig ⟨S2048, .f32⟩) φ.v8 (broadcastInDim S1x2048 ![1] bcast_S2048_S1x2048_1),
    TRef.unary φ.v8 φ.v9 (broadcastInDim S1024x2048 ![0, 1] bcast_S1x2048_S1024x2048_0_1),
    TRef.binary φ.v7 φ.v9 φ.v10 addf,
    TRef.unary φ.v10 φ.v11 (extractStridedSlice S1024x512 ![0, 0] · slices_S1024x2048_S1024x512_0_0),
    TRef.unary φ.v10 φ.v12 (extractStridedSlice S1024x512 ![0, 512] · slices_S1024x2048_S1024x512_0_512),
    TRef.unary φ.v10 φ.v13 (extractStridedSlice S1024x512 ![0, 1024] · slices_S1024x2048_S1024x512_0_1024),
    TRef.unary φ.v10 φ.v14 (extractStridedSlice S1024x512 ![0, 1536] · slices_S1024x2048_S1024x512_0_1536),
    TRef.unary φ.v12 φ.v15 Host.negf,
    TRef.unary φ.v15 φ.v16 Host.exp,
    TRef.nullary φ.cst0 (constant S_ .f32 0x3F800000#32),
    TRef.unary φ.cst0 φ.v17 (broadcastInDim S1024x512 ![] bcast_S_S1024x512),
    TRef.binary φ.v17 φ.v16 φ.v18 addf,
    TRef.nullary φ.cst1 (constant S_ .f32 0x3F800000#32),
    TRef.unary φ.cst1 φ.v19 (broadcastInDim S1024x512 ![] bcast_S_S1024x512),
    TRef.binary φ.v19 φ.v18 φ.v20 Host.divf,
    TRef.binary φ.v20 φ.cell φ.v21 mulf,
    TRef.unary φ.v11 φ.v22 Host.negf,
    TRef.unary φ.v22 φ.v23 Host.exp,
    TRef.nullary φ.cst2 (constant S_ .f32 0x3F800000#32),
    TRef.unary φ.cst2 φ.v24 (broadcastInDim S1024x512 ![] bcast_S_S1024x512),
    TRef.binary φ.v24 φ.v23 φ.v25 addf,
    TRef.nullary φ.cst3 (constant S_ .f32 0x3F800000#32),
    TRef.unary φ.cst3 φ.v26 (broadcastInDim S1024x512 ![] bcast_S_S1024x512),
    TRef.binary φ.v26 φ.v25 φ.v27 Host.divf,
    TRef.unary φ.v13 φ.v28 Host.tanh,
    TRef.binary φ.v27 φ.v28 φ.v29 mulf,
    TRef.binary φ.v21 φ.v29 φ.v30 addf,
    TRef.unary φ.v14 φ.v31 Host.negf,
    TRef.unary φ.v31 φ.v32 Host.exp,
    TRef.nullary φ.cst4 (constant S_ .f32 0x3F800000#32),
    TRef.unary φ.cst4 φ.v33 (broadcastInDim S1024x512 ![] bcast_S_S1024x512),
    TRef.binary φ.v33 φ.v32 φ.v34 addf,
    TRef.nullary φ.cst5 (constant S_ .f32 0x3F800000#32),
    TRef.unary φ.cst5 φ.v35 (broadcastInDim S1024x512 ![] bcast_S_S1024x512),
    TRef.binary φ.v35 φ.v34 φ.v36 Host.divf,
    TRef.unary φ.v30 φ.v37 Host.tanh,
    TRef.binary φ.v36 φ.v37 φ.v38 mulf,
    TRef.unary φ.v38 φ.v39 (extractStridedSlice S1024x256 ![0, 0] · slices_S1024x512_S1024x256_0_0),
    TRef.binary (.of main_v612 : TRef sig ⟨S1024x256, .f32⟩) φ.v39 φ.v40 addf,
    TRef.binary φ.v40 (.of main_v643 : TRef sig ⟨S1024x256, .f32⟩) φ.v41 (fun a b => concatenate S1024x512 1 [⟨S1024x256, a⟩, ⟨S1024x256, b⟩] concatenates_S1024x256_S1024x256_S1024x512_d1) ]

/-- The buffers `Step.ops` writes, in order. -/
abbrev Step.wr (φ : Step.Bufs) : List (Ref sig .tc) :=
  [ φ.v0.ref, φ.v1.ref, φ.v2.ref, φ.v3.ref, φ.v4.ref, φ.v5.ref, φ.v6.ref, φ.v7.ref, φ.v8.ref, φ.v9.ref,
    φ.v10.ref, φ.v11.ref, φ.v12.ref, φ.v13.ref, φ.v14.ref, φ.v15.ref, φ.v16.ref, φ.cst0.ref, φ.v17.ref, φ.v18.ref,
    φ.cst1.ref, φ.v19.ref, φ.v20.ref, φ.v21.ref, φ.v22.ref, φ.v23.ref, φ.cst2.ref, φ.v24.ref, φ.v25.ref, φ.cst3.ref,
    φ.v26.ref, φ.v27.ref, φ.v28.ref, φ.v29.ref, φ.v30.ref, φ.v31.ref, φ.v32.ref, φ.cst4.ref, φ.v33.ref, φ.v34.ref,
    φ.cst5.ref, φ.v35.ref, φ.v36.ref, φ.v37.ref, φ.v38.ref, φ.v39.ref, φ.v40.ref, φ.v41.ref ]

abbrev enc0 : Enc.Bufs :=
  ⟨.of main_arg0, .of main_arg2, .of main_v0, .of main_v1, .of main_v2, .of main_v3, .of main_c, .of main_v4, .of main_v5, .of main_c_0,
   .of main_v6, .of main_v7, .of main_v8, .of main_v9, .of main_v10, .of main_v11, .of main_v12, .of main_c_1, .of main_v13, .of main_v14,
   .of main_c_2, .of main_v15, .of main_v16, .of main_v17, .of main_v18, .of main_v19, .of main_v20, .of main_v21, .of main_v22, .of main_v23,
   .of main_v24, .of main_v25, .of main_v26, .of main_v27, main_call0, .of main_v29, .of main_v30, .of main_v31, .of main_v32, .of main_cst,
   .of main_v33, .of main_cst_3, .of main_v34, .of main_v35, .of main_v36, .of main_v37, .of main_v38, .of main_v39, .of main_cst_4, .of main_v40,
   .of main_v41, .of main_v42, .of main_v43, .of main_v44, .of main_v45, .of main_cst_5, .of main_v46, .of main_v47, .of main_v48, .of main_v49,
   .of main_v50, .of main_v51, .of main_v52, .of main_v53, .of main_v54, .of main_v55, .of main_v56, .of main_cst_6, .of main_v57, .of main_v58,
   .of main_cst_7, .of main_v59, .of main_v60, .of main_v61, .of main_v62, .of main_cst_8, .of main_v63, .of main_v64, .of main_c_9, .of main_v65,
   .of main_v66, .of main_c_10, .of main_v67, .of main_v68, .of main_v69, .of main_v70, .of main_v71, .of main_v72, .of main_v73, .of main_v74⟩
abbrev seg0 : List (HloOp τ sig (Elt F)) := Enc.ops col0 enc0
abbrev swr0 : List (Ref sig .tc) := Enc.wr enc0

abbrev enc1 : Enc.Bufs :=
  ⟨.of main_arg0, .of main_arg3, .of main_v75, .of main_v76, .of main_v77, .of main_v78, .of main_c_11, .of main_v79, .of main_v80, .of main_c_12,
   .of main_v81, .of main_v82, .of main_v83, .of main_v84, .of main_v85, .of main_v86, .of main_v87, .of main_c_13, .of main_v88, .of main_v89,
   .of main_c_14, .of main_v90, .of main_v91, .of main_v92, .of main_v93, .of main_v94, .of main_v95, .of main_v96, .of main_v97, .of main_v98,
   .of main_v99, .of main_v100, .of main_v101, .of main_v102, main_call1, .of main_v104, .of main_v105, .of main_v106, .of main_v107, .of main_cst_15,
   .of main_v108, .of main_cst_16, .of main_v109, .of main_v110, .of main_v111, .of main_v112, .of main_v113, .of main_v114, .of main_cst_17, .of main_v115,
   .of main_v116, .of main_v117, .of main_v118, .of main_v119, .of main_v120, .of main_cst_18, .of main_v121, .of main_v122, .of main_v123, .of main_v124,
   .of main_v125, .of main_v126, .of main_v127, .of main_v128, .of main_v129, .of main_v130, .of main_v131, .of main_cst_19, .of main_v132, .of main_v133,
   .of main_cst_20, .of main_v134, .of main_v135, .of main_v136, .of main_v137, .of main_cst_21, .of main_v138, .of main_v139, .of main_c_22, .of main_v140,
   .of main_v141, .of main_c_23, .of main_v142, .of main_v143, .of main_v144, .of main_v145, .of main_v146, .of main_v147, .of main_v148, .of main_v149⟩
abbrev seg1 : List (HloOp τ sig (Elt F)) := Enc.ops col0 enc1
abbrev swr1 : List (Ref sig .tc) := Enc.wr enc1

abbrev avg2 : Avg.Bufs :=
  ⟨.of main_v74, .of main_v149, .of main_v150, .of main_cst_24, .of main_v151, .of main_v152⟩
abbrev seg2 : List (HloOp τ sig (Elt F)) := Avg.ops avg2
abbrev swr2 : List (Ref sig .tc) := Avg.wr avg2

abbrev enc3 : Enc.Bufs :=
  ⟨.of main_arg0, .of main_arg5, .of main_v153, .of main_v154, .of main_v155, .of main_v156, .of main_c_25, .of main_v157, .of main_v158, .of main_c_26,
   .of main_v159, .of main_v160, .of main_v161, .of main_v162, .of main_v163, .of main_v164, .of main_v165, .of main_c_27, .of main_v166, .of main_v167,
   .of main_c_28, .of main_v168, .of main_v169, .of main_v170, .of main_v171, .of main_v172, .of main_v173, .of main_v174, .of main_v175, .of main_v176,
   .of main_v177, .of main_v178, .of main_v179, .of main_v180, main_call2, .of main_v182, .of main_v183, .of main_v184, .of main_v185, .of main_cst_29,
   .of main_v186, .of main_cst_30, .of main_v187, .of main_v188, .of main_v189, .of main_v190, .of main_v191, .of main_v192, .of main_cst_31, .of main_v193,
   .of main_v194, .of main_v195, .of main_v196, .of main_v197, .of main_v198, .of main_cst_32, .of main_v199, .of main_v200, .of main_v201, .of main_v202,
   .of main_v203, .of main_v204, .of main_v205, .of main_v206, .of main_v207, .of main_v208, .of main_v209, .of main_cst_33, .of main_v210, .of main_v211,
   .of main_cst_34, .of main_v212, .of main_v213, .of main_v214, .of main_v215, .of main_cst_35, .of main_v216, .of main_v217, .of main_c_36, .of main_v218,
   .of main_v219, .of main_c_37, .of main_v220, .of main_v221, .of main_v222, .of main_v223, .of main_v224, .of main_v225, .of main_v226, .of main_v227⟩
abbrev seg3 : List (HloOp τ sig (Elt F)) := Enc.ops col1 enc3
abbrev swr3 : List (Ref sig .tc) := Enc.wr enc3

abbrev enc4 : Enc.Bufs :=
  ⟨.of main_arg0, .of main_arg6, .of main_v228, .of main_v229, .of main_v230, .of main_v231, .of main_c_38, .of main_v232, .of main_v233, .of main_c_39,
   .of main_v234, .of main_v235, .of main_v236, .of main_v237, .of main_v238, .of main_v239, .of main_v240, .of main_c_40, .of main_v241, .of main_v242,
   .of main_c_41, .of main_v243, .of main_v244, .of main_v245, .of main_v246, .of main_v247, .of main_v248, .of main_v249, .of main_v250, .of main_v251,
   .of main_v252, .of main_v253, .of main_v254, .of main_v255, main_call3, .of main_v257, .of main_v258, .of main_v259, .of main_v260, .of main_cst_42,
   .of main_v261, .of main_cst_43, .of main_v262, .of main_v263, .of main_v264, .of main_v265, .of main_v266, .of main_v267, .of main_cst_44, .of main_v268,
   .of main_v269, .of main_v270, .of main_v271, .of main_v272, .of main_v273, .of main_cst_45, .of main_v274, .of main_v275, .of main_v276, .of main_v277,
   .of main_v278, .of main_v279, .of main_v280, .of main_v281, .of main_v282, .of main_v283, .of main_v284, .of main_cst_46, .of main_v285, .of main_v286,
   .of main_cst_47, .of main_v287, .of main_v288, .of main_v289, .of main_v290, .of main_cst_48, .of main_v291, .of main_v292, .of main_c_49, .of main_v293,
   .of main_v294, .of main_c_50, .of main_v295, .of main_v296, .of main_v297, .of main_v298, .of main_v299, .of main_v300, .of main_v301, .of main_v302⟩
abbrev seg4 : List (HloOp τ sig (Elt F)) := Enc.ops col1 enc4
abbrev swr4 : List (Ref sig .tc) := Enc.wr enc4

abbrev avg5 : Avg.Bufs :=
  ⟨.of main_v227, .of main_v302, .of main_v303, .of main_cst_51, .of main_v304, .of main_v305⟩
abbrev seg5 : List (HloOp τ sig (Elt F)) := Avg.ops avg5
abbrev swr5 : List (Ref sig .tc) := Avg.wr avg5

abbrev enc6 : Enc.Bufs :=
  ⟨.of main_arg1, .of main_arg8, .of main_v306, .of main_v307, .of main_v308, .of main_v309, .of main_c_52, .of main_v310, .of main_v311, .of main_c_53,
   .of main_v312, .of main_v313, .of main_v314, .of main_v315, .of main_v316, .of main_v317, .of main_v318, .of main_c_54, .of main_v319, .of main_v320,
   .of main_c_55, .of main_v321, .of main_v322, .of main_v323, .of main_v324, .of main_v325, .of main_v326, .of main_v327, .of main_v328, .of main_v329,
   .of main_v330, .of main_v331, .of main_v332, .of main_v333, main_call4, .of main_v335, .of main_v336, .of main_v337, .of main_v338, .of main_cst_56,
   .of main_v339, .of main_cst_57, .of main_v340, .of main_v341, .of main_v342, .of main_v343, .of main_v344, .of main_v345, .of main_cst_58, .of main_v346,
   .of main_v347, .of main_v348, .of main_v349, .of main_v350, .of main_v351, .of main_cst_59, .of main_v352, .of main_v353, .of main_v354, .of main_v355,
   .of main_v356, .of main_v357, .of main_v358, .of main_v359, .of main_v360, .of main_v361, .of main_v362, .of main_cst_60, .of main_v363, .of main_v364,
   .of main_cst_61, .of main_v365, .of main_v366, .of main_v367, .of main_v368, .of main_cst_62, .of main_v369, .of main_v370, .of main_c_63, .of main_v371,
   .of main_v372, .of main_c_64, .of main_v373, .of main_v374, .of main_v375, .of main_v376, .of main_v377, .of main_v378, .of main_v379, .of main_v380⟩
abbrev seg6 : List (HloOp τ sig (Elt F)) := Enc.ops col0 enc6
abbrev swr6 : List (Ref sig .tc) := Enc.wr enc6

abbrev enc7 : Enc.Bufs :=
  ⟨.of main_arg1, .of main_arg9, .of main_v381, .of main_v382, .of main_v383, .of main_v384, .of main_c_65, .of main_v385, .of main_v386, .of main_c_66,
   .of main_v387, .of main_v388, .of main_v389, .of main_v390, .of main_v391, .of main_v392, .of main_v393, .of main_c_67, .of main_v394, .of main_v395,
   .of main_c_68, .of main_v396, .of main_v397, .of main_v398, .of main_v399, .of main_v400, .of main_v401, .of main_v402, .of main_v403, .of main_v404,
   .of main_v405, .of main_v406, .of main_v407, .of main_v408, main_call5, .of main_v410, .of main_v411, .of main_v412, .of main_v413, .of main_cst_69,
   .of main_v414, .of main_cst_70, .of main_v415, .of main_v416, .of main_v417, .of main_v418, .of main_v419, .of main_v420, .of main_cst_71, .of main_v421,
   .of main_v422, .of main_v423, .of main_v424, .of main_v425, .of main_v426, .of main_cst_72, .of main_v427, .of main_v428, .of main_v429, .of main_v430,
   .of main_v431, .of main_v432, .of main_v433, .of main_v434, .of main_v435, .of main_v436, .of main_v437, .of main_cst_73, .of main_v438, .of main_v439,
   .of main_cst_74, .of main_v440, .of main_v441, .of main_v442, .of main_v443, .of main_cst_75, .of main_v444, .of main_v445, .of main_c_76, .of main_v446,
   .of main_v447, .of main_c_77, .of main_v448, .of main_v449, .of main_v450, .of main_v451, .of main_v452, .of main_v453, .of main_v454, .of main_v455⟩
abbrev seg7 : List (HloOp τ sig (Elt F)) := Enc.ops col0 enc7
abbrev swr7 : List (Ref sig .tc) := Enc.wr enc7

abbrev avg8 : Avg.Bufs :=
  ⟨.of main_v380, .of main_v455, .of main_v456, .of main_cst_78, .of main_v457, .of main_v458⟩
abbrev seg8 : List (HloOp τ sig (Elt F)) := Avg.ops avg8
abbrev swr8 : List (Ref sig .tc) := Avg.wr avg8

abbrev enc9 : Enc.Bufs :=
  ⟨.of main_arg1, .of main_arg11, .of main_v459, .of main_v460, .of main_v461, .of main_v462, .of main_c_79, .of main_v463, .of main_v464, .of main_c_80,
   .of main_v465, .of main_v466, .of main_v467, .of main_v468, .of main_v469, .of main_v470, .of main_v471, .of main_c_81, .of main_v472, .of main_v473,
   .of main_c_82, .of main_v474, .of main_v475, .of main_v476, .of main_v477, .of main_v478, .of main_v479, .of main_v480, .of main_v481, .of main_v482,
   .of main_v483, .of main_v484, .of main_v485, .of main_v486, main_call6, .of main_v488, .of main_v489, .of main_v490, .of main_v491, .of main_cst_83,
   .of main_v492, .of main_cst_84, .of main_v493, .of main_v494, .of main_v495, .of main_v496, .of main_v497, .of main_v498, .of main_cst_85, .of main_v499,
   .of main_v500, .of main_v501, .of main_v502, .of main_v503, .of main_v504, .of main_cst_86, .of main_v505, .of main_v506, .of main_v507, .of main_v508,
   .of main_v509, .of main_v510, .of main_v511, .of main_v512, .of main_v513, .of main_v514, .of main_v515, .of main_cst_87, .of main_v516, .of main_v517,
   .of main_cst_88, .of main_v518, .of main_v519, .of main_v520, .of main_v521, .of main_cst_89, .of main_v522, .of main_v523, .of main_c_90, .of main_v524,
   .of main_v525, .of main_c_91, .of main_v526, .of main_v527, .of main_v528, .of main_v529, .of main_v530, .of main_v531, .of main_v532, .of main_v533⟩
abbrev seg9 : List (HloOp τ sig (Elt F)) := Enc.ops col1 enc9
abbrev swr9 : List (Ref sig .tc) := Enc.wr enc9

abbrev enc10 : Enc.Bufs :=
  ⟨.of main_arg1, .of main_arg12, .of main_v534, .of main_v535, .of main_v536, .of main_v537, .of main_c_92, .of main_v538, .of main_v539, .of main_c_93,
   .of main_v540, .of main_v541, .of main_v542, .of main_v543, .of main_v544, .of main_v545, .of main_v546, .of main_c_94, .of main_v547, .of main_v548,
   .of main_c_95, .of main_v549, .of main_v550, .of main_v551, .of main_v552, .of main_v553, .of main_v554, .of main_v555, .of main_v556, .of main_v557,
   .of main_v558, .of main_v559, .of main_v560, .of main_v561, main_call7, .of main_v563, .of main_v564, .of main_v565, .of main_v566, .of main_cst_96,
   .of main_v567, .of main_cst_97, .of main_v568, .of main_v569, .of main_v570, .of main_v571, .of main_v572, .of main_v573, .of main_cst_98, .of main_v574,
   .of main_v575, .of main_v576, .of main_v577, .of main_v578, .of main_v579, .of main_cst_99, .of main_v580, .of main_v581, .of main_v582, .of main_v583,
   .of main_v584, .of main_v585, .of main_v586, .of main_v587, .of main_v588, .of main_v589, .of main_v590, .of main_cst_100, .of main_v591, .of main_v592,
   .of main_cst_101, .of main_v593, .of main_v594, .of main_v595, .of main_v596, .of main_cst_102, .of main_v597, .of main_v598, .of main_c_103, .of main_v599,
   .of main_v600, .of main_c_104, .of main_v601, .of main_v602, .of main_v603, .of main_v604, .of main_v605, .of main_v606, .of main_v607, .of main_v608⟩
abbrev seg10 : List (HloOp τ sig (Elt F)) := Enc.ops col1 enc10
abbrev swr10 : List (Ref sig .tc) := Enc.wr enc10

abbrev avg11 : Avg.Bufs :=
  ⟨.of main_v533, .of main_v608, .of main_v609, .of main_cst_105, .of main_v610, .of main_v611⟩
abbrev seg11 : List (HloOp τ sig (Elt F)) := Avg.ops avg11
abbrev swr11 : List (Ref sig .tc) := Avg.wr avg11

abbrev seg12 : List (HloOp τ sig (Elt F)) :=
  [ StableHlo.binary main_v152 main_v305 main_v612 ((fun a b => concatenate S1024x256 1 [⟨S1024x128, a⟩, ⟨S1024x128, b⟩] concatenates_S1024x128_S1024x128_S1024x256_d1) : (⟨S1024x128, .f32⟩ : BufTy).Contents (Elt F) → (⟨S1024x128, .f32⟩ : BufTy).Contents (Elt F) → (⟨S1024x256, .f32⟩ : BufTy).Contents (Elt F)),
    StableHlo.binary main_v458 main_v611 main_v613 ((fun a b => concatenate S1024x256 1 [⟨S1024x128, a⟩, ⟨S1024x128, b⟩] concatenates_S1024x128_S1024x128_S1024x256_d1) : (⟨S1024x128, .f32⟩ : BufTy).Contents (Elt F) → (⟨S1024x128, .f32⟩ : BufTy).Contents (Elt F) → (⟨S1024x256, .f32⟩ : BufTy).Contents (Elt F)) ]
abbrev swr12 : List (Ref sig .tc) :=
  [ main_v612, main_v613 ]

abbrev seg13 : List (HloOp τ sig (Elt F)) :=
  [ StableHlo.unary main_arg23 main_v614 ((transpose S256x512 [1, 0] · transposes_S512x256_S256x512_1_0) : (⟨S512x256, .f32⟩ : BufTy).Contents (Elt F) → (⟨S256x512, .f32⟩ : BufTy).Contents (Elt F)),
    StableHlo.binary main_v613 main_v614 main_v615 ((fun l r => Host.dotGeneral dot_S1024x256_S256x512_S1024x512_1_0_0_1_n_n none l r) : (⟨S1024x256, .f32⟩ : BufTy).Contents (Elt F) → (⟨S256x512, .f32⟩ : BufTy).Contents (Elt F) → (⟨S1024x512, .f32⟩ : BufTy).Contents (Elt F)),
    StableHlo.unary main_arg24 main_v616 (broadcastInDim S1x512 ![1] bcast_S512_S1x512_1 : (⟨S512, .f32⟩ : BufTy).Contents (Elt F) → (⟨S1x512, .f32⟩ : BufTy).Contents (Elt F)),
    StableHlo.unary main_v616 main_v617 (broadcastInDim S1024x512 ![0, 1] bcast_S1x512_S1024x512_0_1 : (⟨S1x512, .f32⟩ : BufTy).Contents (Elt F) → (⟨S1024x512, .f32⟩ : BufTy).Contents (Elt F)),
    StableHlo.binary main_v615 main_v617 main_v618 (addf : (⟨S1024x512, .f32⟩ : BufTy).Contents (Elt F) → (⟨S1024x512, .f32⟩ : BufTy).Contents (Elt F) → (⟨S1024x512, .f32⟩ : BufTy).Contents (Elt F)),
    StableHlo.TRef.nullary main_call8.cst (constant S_ .f32 0x00000000#32),
    StableHlo.TRef.unary main_call8.cst main_call8.v0 (broadcastInDim S1024x512 ![] bcast_S_S1024x512),
    StableHlo.TRef.binary (.of main_v618 : StableHlo.TRef sig ⟨S1024x512, .f32⟩) main_call8.v0 main_call8.v1 maximumf,
    StableHlo.unary main_arg25 main_v620 ((transpose S512x256 [1, 0] · transposes_S256x512_S512x256_1_0) : (⟨S256x512, .f32⟩ : BufTy).Contents (Elt F) → (⟨S512x256, .f32⟩ : BufTy).Contents (Elt F)),
    StableHlo.binary main_v619 main_v620 main_v621 ((fun l r => Host.dotGeneral dot_S1024x512_S512x256_S1024x256_1_0_0_1_n_n none l r) : (⟨S1024x512, .f32⟩ : BufTy).Contents (Elt F) → (⟨S512x256, .f32⟩ : BufTy).Contents (Elt F) → (⟨S1024x256, .f32⟩ : BufTy).Contents (Elt F)),
    StableHlo.unary main_arg26 main_v622 (broadcastInDim S1x256 ![1] bcast_S256_S1x256_1 : (⟨S256, .f32⟩ : BufTy).Contents (Elt F) → (⟨S1x256, .f32⟩ : BufTy).Contents (Elt F)),
    StableHlo.unary main_v622 main_v623 (broadcastInDim S1024x256 ![0, 1] bcast_S1x256_S1024x256_0_1 : (⟨S1x256, .f32⟩ : BufTy).Contents (Elt F) → (⟨S1024x256, .f32⟩ : BufTy).Contents (Elt F)),
    StableHlo.binary main_v621 main_v623 main_v624 (addf : (⟨S1024x256, .f32⟩ : BufTy).Contents (Elt F) → (⟨S1024x256, .f32⟩ : BufTy).Contents (Elt F) → (⟨S1024x256, .f32⟩ : BufTy).Contents (Elt F)),
    StableHlo.binary main_v624 main_v613 main_v625 (addf : (⟨S1024x256, .f32⟩ : BufTy).Contents (Elt F) → (⟨S1024x256, .f32⟩ : BufTy).Contents (Elt F) → (⟨S1024x256, .f32⟩ : BufTy).Contents (Elt F)),
    StableHlo.nullary main_cst_106 (constant S_ .f32 0x00000000#32),
    StableHlo.binary main_v625 main_cst_106 main_v626 ((fun x v => Host.reduceAdd x v reducesTo_S1024x256_S1024_d1 h_S_) : (⟨S1024x256, .f32⟩ : BufTy).Contents (Elt F) → (⟨S_, .f32⟩ : BufTy).Contents (Elt F) → (⟨S1024, .f32⟩ : BufTy).Contents (Elt F)),
    StableHlo.unary main_v626 main_v627 (broadcastInDim S1024x1 ![0] bcast_S1024_S1024x1_0 : (⟨S1024, .f32⟩ : BufTy).Contents (Elt F) → (⟨S1024x1, .f32⟩ : BufTy).Contents (Elt F)),
    StableHlo.nullary main_cst_107 (constant S_ .f32 0x43800000#32),
    StableHlo.unary main_cst_107 main_v628 (broadcastInDim S1024x1 ![] bcast_S_S1024x1 : (⟨S_, .f32⟩ : BufTy).Contents (Elt F) → (⟨S1024x1, .f32⟩ : BufTy).Contents (Elt F)),
    StableHlo.binary main_v627 main_v628 main_v629 (Host.divf : (⟨S1024x1, .f32⟩ : BufTy).Contents (Elt F) → (⟨S1024x1, .f32⟩ : BufTy).Contents (Elt F) → (⟨S1024x1, .f32⟩ : BufTy).Contents (Elt F)),
    StableHlo.nullary main_c_108 (constantI S_ 32 0#32),
    StableHlo.TRef.nullary main_call9.cst (constant S_ .f32 0x00000000#32),
    StableHlo.TRef.binary (.of main_v625 : StableHlo.TRef sig ⟨S1024x256, .f32⟩) main_call9.cst main_call9.v0 (fun x v => Host.reduceAdd x v reducesTo_S1024x256_S1024_d1 h_S_),
    StableHlo.TRef.unary main_call9.v0 main_call9.v1 (broadcastInDim S1024x1 ![0] bcast_S1024_S1024x1_0),
    StableHlo.TRef.nullary main_call9.cst_0 (constant S_ .f32 0x43800000#32),
    StableHlo.TRef.unary main_call9.cst_0 main_call9.v2 (broadcastInDim S1024x1 ![] bcast_S_S1024x1),
    StableHlo.TRef.binary main_call9.v1 main_call9.v2 main_call9.v3 Host.divf,
    StableHlo.TRef.unary main_call9.v3 main_call9.v4 (broadcastInDim S1024x256 ![0, 1] bcast_S1024x1_S1024x256_0_1),
    StableHlo.TRef.binary (.of main_v625 : StableHlo.TRef sig ⟨S1024x256, .f32⟩) main_call9.v4 main_call9.v5 subf,
    StableHlo.TRef.binary main_call9.v5 main_call9.v5 main_call9.v6 mulf,
    StableHlo.TRef.unary (.of main_c_108 : StableHlo.TRef sig ⟨S_, .i32⟩) main_call9.v7 (sitofp .f32),
    StableHlo.TRef.nullary main_call9.cst_1 (constant S_ .f32 0x43800000#32),
    StableHlo.TRef.binary main_call9.cst_1 main_call9.v7 main_call9.v8 subf,
    StableHlo.TRef.nullary main_call9.cst_2 (constant S_ .f32 0x00000000#32),
    StableHlo.TRef.binary main_call9.v6 main_call9.cst_2 main_call9.v9 (fun x v => Host.reduceAdd x v reducesTo_S1024x256_S1024_d1 h_S_),
    StableHlo.TRef.unary main_call9.v9 main_call9.v10 (broadcastInDim S1024x1 ![0] bcast_S1024_S1024x1_0),
    StableHlo.TRef.unary main_call9.v8 main_call9.v11 (broadcastInDim S1024x1 ![] bcast_S_S1024x1),
    StableHlo.TRef.binary main_call9.v10 main_call9.v11 main_call9.v12 Host.divf,
    StableHlo.TRef.nullary main_call9.cst_3 (constant S_ .f32 0x00000000#32),
    StableHlo.TRef.binary main_call9.v8 main_call9.cst_3 main_call9.v13 (cmpf .ogt),
    StableHlo.TRef.nullary main_call9.cst_4 (constant S_ .f32 0x7FC00000#32),
    StableHlo.TRef.unary main_call9.cst_4 main_call9.call0.v0 id,
    StableHlo.TRef.unary main_call9.call0.v0 main_call9.call0.v1 (broadcastInDim S1024x1 ![] bcast_S_S1024x1),
    StableHlo.TRef.ternary main_call9.v13 main_call9.v12 main_call9.call0.v1 main_call9.call0.v2 (fun p a b => select (broadcastInDim S1024x1 ![] bcast_S_S1024x1 p) a b),
    StableHlo.unary main_v629 main_v631 (broadcastInDim S1024x256 ![0, 1] bcast_S1024x1_S1024x256_0_1 : (⟨S1024x1, .f32⟩ : BufTy).Contents (Elt F) → (⟨S1024x256, .f32⟩ : BufTy).Contents (Elt F)),
    StableHlo.binary main_v625 main_v631 main_v632 (subf : (⟨S1024x256, .f32⟩ : BufTy).Contents (Elt F) → (⟨S1024x256, .f32⟩ : BufTy).Contents (Elt F) → (⟨S1024x256, .f32⟩ : BufTy).Contents (Elt F)),
    StableHlo.unary main_arg27 main_v633 (broadcastInDim S1x256 ![1] bcast_S256_S1x256_1 : (⟨S256, .f32⟩ : BufTy).Contents (Elt F) → (⟨S1x256, .f32⟩ : BufTy).Contents (Elt F)),
    StableHlo.unary main_v633 main_v634 (broadcastInDim S1024x256 ![0, 1] bcast_S1x256_S1024x256_0_1 : (⟨S1x256, .f32⟩ : BufTy).Contents (Elt F) → (⟨S1024x256, .f32⟩ : BufTy).Contents (Elt F)),
    StableHlo.binary main_v634 main_v632 main_v635 (mulf : (⟨S1024x256, .f32⟩ : BufTy).Contents (Elt F) → (⟨S1024x256, .f32⟩ : BufTy).Contents (Elt F) → (⟨S1024x256, .f32⟩ : BufTy).Contents (Elt F)),
    StableHlo.nullary main_cst_109 (constant S_ .f32 0x358637BD#32),
    StableHlo.unary main_cst_109 main_v636 (broadcastInDim S1024x1 ![] bcast_S_S1024x1 : (⟨S_, .f32⟩ : BufTy).Contents (Elt F) → (⟨S1024x1, .f32⟩ : BufTy).Contents (Elt F)),
    StableHlo.binary main_v630 main_v636 main_v637 (addf : (⟨S1024x1, .f32⟩ : BufTy).Contents (Elt F) → (⟨S1024x1, .f32⟩ : BufTy).Contents (Elt F) → (⟨S1024x1, .f32⟩ : BufTy).Contents (Elt F)),
    StableHlo.unary main_v637 main_v638 (Host.rsqrt : (⟨S1024x1, .f32⟩ : BufTy).Contents (Elt F) → (⟨S1024x1, .f32⟩ : BufTy).Contents (Elt F)),
    StableHlo.unary main_v638 main_v639 (broadcastInDim S1024x256 ![0, 1] bcast_S1024x1_S1024x256_0_1 : (⟨S1024x1, .f32⟩ : BufTy).Contents (Elt F) → (⟨S1024x256, .f32⟩ : BufTy).Contents (Elt F)),
    StableHlo.binary main_v635 main_v639 main_v640 (mulf : (⟨S1024x256, .f32⟩ : BufTy).Contents (Elt F) → (⟨S1024x256, .f32⟩ : BufTy).Contents (Elt F) → (⟨S1024x256, .f32⟩ : BufTy).Contents (Elt F)),
    StableHlo.unary main_arg28 main_v641 (broadcastInDim S1x256 ![1] bcast_S256_S1x256_1 : (⟨S256, .f32⟩ : BufTy).Contents (Elt F) → (⟨S1x256, .f32⟩ : BufTy).Contents (Elt F)),
    StableHlo.unary main_v641 main_v642 (broadcastInDim S1024x256 ![0, 1] bcast_S1x256_S1024x256_0_1 : (⟨S1x256, .f32⟩ : BufTy).Contents (Elt F) → (⟨S1024x256, .f32⟩ : BufTy).Contents (Elt F)),
    StableHlo.binary main_v640 main_v642 main_v643 (addf : (⟨S1024x256, .f32⟩ : BufTy).Contents (Elt F) → (⟨S1024x256, .f32⟩ : BufTy).Contents (Elt F) → (⟨S1024x256, .f32⟩ : BufTy).Contents (Elt F)) ]
abbrev swr13 : List (Ref sig .tc) :=
  [ main_v614, main_v615, main_v616, main_v617, main_v618, main_call8_cst, main_call8_v0, main_v619, main_v620, main_v621,
    main_v622, main_v623, main_v624, main_v625, main_cst_106, main_v626, main_v627, main_cst_107, main_v628, main_v629,
    main_c_108, main_call9_cst, main_call9_v0, main_call9_v1, main_call9_cst_0, main_call9_v2, main_call9_v3, main_call9_v4, main_call9_v5, main_call9_v6,
    main_call9_v7, main_call9_cst_1, main_call9_v8, main_call9_cst_2, main_call9_v9, main_call9_v10, main_call9_v11, main_call9_v12, main_call9_cst_3, main_call9_v13,
    main_call9_cst_4, main_call9_call0_v0, main_call9_call0_v1, main_v630, main_v631, main_v632, main_v633, main_v634, main_v635, main_cst_109,
    main_v636, main_v637, main_v638, main_v639, main_v640, main_v641, main_v642, main_v643 ]

abbrev seg14 : List (HloOp τ sig (Elt F)) :=
  [ StableHlo.nullary main_cst_110 (constant S_ .f32 0x00000000#32),
    StableHlo.unary main_cst_110 main_v644 (broadcastInDim S1024x512 ![] bcast_S_S1024x512 : (⟨S_, .f32⟩ : BufTy).Contents (Elt F) → (⟨S1024x512, .f32⟩ : BufTy).Contents (Elt F)),
    StableHlo.nullary main_cst_111 (constant S_ .f32 0x00000000#32),
    StableHlo.unary main_cst_111 main_v645 (broadcastInDim S1024x512 ![] bcast_S_S1024x512 : (⟨S_, .f32⟩ : BufTy).Contents (Elt F) → (⟨S1024x512, .f32⟩ : BufTy).Contents (Elt F)) ]
abbrev swr14 : List (Ref sig .tc) :=
  [ main_cst_110, main_v644, main_cst_111, main_v645 ]

abbrev step15 : Step.Bufs :=
  ⟨.of main_v644, .of main_v645, .of main_v646, .of main_v647, .of main_v648, .of main_v649, .of main_v650, .of main_v651, .of main_v652, .of main_v653,
   .of main_v654, .of main_v655, .of main_v656, .of main_v657, .of main_v658, .of main_v659, .of main_v660, .of main_v661, .of main_v662, .of main_cst_112,
   .of main_v663, .of main_v664, .of main_cst_113, .of main_v665, .of main_v666, .of main_v667, .of main_v668, .of main_v669, .of main_cst_114, .of main_v670,
   .of main_v671, .of main_cst_115, .of main_v672, .of main_v673, .of main_v674, .of main_v675, .of main_v676, .of main_v677, .of main_v678, .of main_cst_116,
   .of main_v679, .of main_v680, .of main_cst_117, .of main_v681, .of main_v682, .of main_v683, .of main_v684, .of main_v685, .of main_v686, .of main_v687⟩
abbrev seg15 : List (HloOp τ sig (Elt F)) := Step.ops step15
abbrev swr15 : List (Ref sig .tc) := Step.wr step15

abbrev step16 : Step.Bufs :=
  ⟨.of main_v676, .of main_v687, .of main_v688, .of main_v689, .of main_v690, .of main_v691, .of main_v692, .of main_v693, .of main_v694, .of main_v695,
   .of main_v696, .of main_v697, .of main_v698, .of main_v699, .of main_v700, .of main_v701, .of main_v702, .of main_v703, .of main_v704, .of main_cst_118,
   .of main_v705, .of main_v706, .of main_cst_119, .of main_v707, .of main_v708, .of main_v709, .of main_v710, .of main_v711, .of main_cst_120, .of main_v712,
   .of main_v713, .of main_cst_121, .of main_v714, .of main_v715, .of main_v716, .of main_v717, .of main_v718, .of main_v719, .of main_v720, .of main_cst_122,
   .of main_v721, .of main_v722, .of main_cst_123, .of main_v723, .of main_v724, .of main_v725, .of main_v726, .of main_v727, .of main_v728, .of main_v729⟩
abbrev seg16 : List (HloOp τ sig (Elt F)) := Step.ops step16
abbrev swr16 : List (Ref sig .tc) := Step.wr step16

abbrev step17 : Step.Bufs :=
  ⟨.of main_v718, .of main_v729, .of main_v730, .of main_v731, .of main_v732, .of main_v733, .of main_v734, .of main_v735, .of main_v736, .of main_v737,
   .of main_v738, .of main_v739, .of main_v740, .of main_v741, .of main_v742, .of main_v743, .of main_v744, .of main_v745, .of main_v746, .of main_cst_124,
   .of main_v747, .of main_v748, .of main_cst_125, .of main_v749, .of main_v750, .of main_v751, .of main_v752, .of main_v753, .of main_cst_126, .of main_v754,
   .of main_v755, .of main_cst_127, .of main_v756, .of main_v757, .of main_v758, .of main_v759, .of main_v760, .of main_v761, .of main_v762, .of main_cst_128,
   .of main_v763, .of main_v764, .of main_cst_129, .of main_v765, .of main_v766, .of main_v767, .of main_v768, .of main_v769, .of main_v770, .of main_v771⟩
abbrev seg17 : List (HloOp τ sig (Elt F)) := Step.ops step17
abbrev swr17 : List (Ref sig .tc) := Step.wr step17

abbrev step18 : Step.Bufs :=
  ⟨.of main_v760, .of main_v771, .of main_v772, .of main_v773, .of main_v774, .of main_v775, .of main_v776, .of main_v777, .of main_v778, .of main_v779,
   .of main_v780, .of main_v781, .of main_v782, .of main_v783, .of main_v784, .of main_v785, .of main_v786, .of main_v787, .of main_v788, .of main_cst_130,
   .of main_v789, .of main_v790, .of main_cst_131, .of main_v791, .of main_v792, .of main_v793, .of main_v794, .of main_v795, .of main_cst_132, .of main_v796,
   .of main_v797, .of main_cst_133, .of main_v798, .of main_v799, .of main_v800, .of main_v801, .of main_v802, .of main_v803, .of main_v804, .of main_cst_134,
   .of main_v805, .of main_v806, .of main_cst_135, .of main_v807, .of main_v808, .of main_v809, .of main_v810, .of main_v811, .of main_v812, .of main_v813⟩
abbrev seg18 : List (HloOp τ sig (Elt F)) := Step.ops step18
abbrev swr18 : List (Ref sig .tc) := Step.wr step18

abbrev seg19 : List (HloOp τ sig (Elt F)) :=
  [ StableHlo.binary main_v812 main_v643 main_v814 (mulf : (⟨S1024x256, .f32⟩ : BufTy).Contents (Elt F) → (⟨S1024x256, .f32⟩ : BufTy).Contents (Elt F) → (⟨S1024x256, .f32⟩ : BufTy).Contents (Elt F)),
    StableHlo.nullary main_cst_136 (constant S_ .f32 0x00000000#32),
    StableHlo.binary main_v814 main_cst_136 main_v815 ((fun x v => Host.reduceAdd x v reducesTo_S1024x256_S1024_d1 h_S_) : (⟨S1024x256, .f32⟩ : BufTy).Contents (Elt F) → (⟨S_, .f32⟩ : BufTy).Contents (Elt F) → (⟨S1024, .f32⟩ : BufTy).Contents (Elt F)) ]
abbrev swr19 : List (Ref sig .tc) :=
  [ main_v814, main_cst_136, main_v815 ]

abbrev segs : List (HloOp τ sig (Elt F)) :=
  seg0 ++ (seg1 ++ (seg2 ++ (seg3 ++ (seg4 ++ (seg5 ++ (seg6 ++ (seg7 ++ (seg8 ++ (seg9 ++ (seg10 ++ (seg11 ++ (seg12 ++ (seg13 ++ (seg14 ++ (seg15 ++ (seg16 ++ (seg17 ++ (seg18 ++ (seg19)))))))))))))))))))

end Cert.ReferenceIdeal.Hand

end
-- ==== Proof.RefSegKeep.lean ====
import proofs.«427183_j33938831573494_3_alg».proof.Proof.RefSegs
import Idealize.ShloMosaic.Lib.StableHlo.Run

noncomputable section

namespace Cert.ReferenceIdeal.Hand

open Cert.ReferenceIdeal Idealize.ShloMosaic Idealize.ShloMosaic.TcCoe Idealize.SL.Sem Idealize.ShloMosaic.StableHlo

variable {F : FTy → Type} [FloatOps F] [Facts]
open Facts₀ Facts

-- An operation writes only its result, and each result stands in its list of written references.
local macro "writes_in_list" : tactic =>
  `(tactic| (simp only [List.Forall, nullary_writes, unary_writes, binary_writes, ternary_writes, reshape_writes,
               Finset.singleton_subset_iff, List.mem_toFinset]
             repeat' constructor
             all_goals exact List.mem_map_of_mem (by simp only [List.mem_cons, eq_self, true_or, or_true])))

theorem Enc.keep (col) (φ : Enc.Bufs) (U : Valuation τ sig (Elt F)) (b : Ref sig .tc) (h : b ∉ Enc.wr φ) :
    after (Enc.ops col φ) U (b : DevRef τ sig) = U (b : DevRef τ sig) :=
  after_of_writes_sub _ U (by writes_in_list) h

theorem Avg.keep (φ : Avg.Bufs) (U : Valuation τ sig (Elt F)) (b : Ref sig .tc) (h : b ∉ Avg.wr φ) :
    after (Avg.ops φ) U (b : DevRef τ sig) = U (b : DevRef τ sig) :=
  after_of_writes_sub _ U (by writes_in_list) h

theorem Step.keep (φ : Step.Bufs) (U : Valuation τ sig (Elt F)) (b : Ref sig .tc) (h : b ∉ Step.wr φ) :
    after (Step.ops φ) U (b : DevRef τ sig) = U (b : DevRef τ sig) :=
  after_of_writes_sub _ U (by writes_in_list) h

theorem seg0_keep (U : Valuation τ sig (Elt F)) (b : Ref sig .tc) (h : b ∉ swr0) :
    after seg0 U (b : DevRef τ sig) = U (b : DevRef τ sig) :=
  Enc.keep col0 enc0 U b h

theorem seg1_keep (U : Valuation τ sig (Elt F)) (b : Ref sig .tc) (h : b ∉ swr1) :
    after seg1 U (b : DevRef τ sig) = U (b : DevRef τ sig) :=
  Enc.keep col0 enc1 U b h

theorem seg2_keep (U : Valuation τ sig (Elt F)) (b : Ref sig .tc) (h : b ∉ swr2) :
    after seg2 U (b : DevRef τ sig) = U (b : DevRef τ sig) :=
  Avg.keep avg2 U b h

theorem seg3_keep (U : Valuation τ sig (Elt F)) (b : Ref sig .tc) (h : b ∉ swr3) :
    after seg3 U (b : DevRef τ sig) = U (b : DevRef τ sig) :=
  Enc.keep col1 enc3 U b h

theorem seg4_keep (U : Valuation τ sig (Elt F)) (b : Ref sig .tc) (h : b ∉ swr4) :
    after seg4 U (b : DevRef τ sig) = U (b : DevRef τ sig) :=
  Enc.keep col1 enc4 U b h

theorem seg5_keep (U : Valuation τ sig (Elt F)) (b : Ref sig .tc) (h : b ∉ swr5) :
    after seg5 U (b : DevRef τ sig) = U (b : DevRef τ sig) :=
  Avg.keep avg5 U b h

theorem seg6_keep (U : Valuation τ sig (Elt F)) (b : Ref sig .tc) (h : b ∉ swr6) :
    after seg6 U (b : DevRef τ sig) = U (b : DevRef τ sig) :=
  Enc.keep col0 enc6 U b h

theorem seg7_keep (U : Valuation τ sig (Elt F)) (b : Ref sig .tc) (h : b ∉ swr7) :
    after seg7 U (b : DevRef τ sig) = U (b : DevRef τ sig) :=
  Enc.keep col0 enc7 U b h

theorem seg8_keep (U : Valuation τ sig (Elt F)) (b : Ref sig .tc) (h : b ∉ swr8) :
    after seg8 U (b : DevRef τ sig) = U (b : DevRef τ sig) :=
  Avg.keep avg8 U b h

theorem seg9_keep (U : Valuation τ sig (Elt F)) (b : Ref sig .tc) (h : b ∉ swr9) :
    after seg9 U (b : DevRef τ sig) = U (b : DevRef τ sig) :=
  Enc.keep col1 enc9 U b h

theorem seg10_keep (U : Valuation τ sig (Elt F)) (b : Ref sig .tc) (h : b ∉ swr10) :
    after seg10 U (b : DevRef τ sig) = U (b : DevRef τ sig) :=
  Enc.keep col1 enc10 U b h

theorem seg11_keep (U : Valuation τ sig (Elt F)) (b : Ref sig .tc) (h : b ∉ swr11) :
    after seg11 U (b : DevRef τ sig) = U (b : DevRef τ sig) :=
  Avg.keep avg11 U b h

theorem seg12_keep (U : Valuation τ sig (Elt F)) (b : Ref sig .tc) (h : b ∉ swr12) :
    after seg12 U (b : DevRef τ sig) = U (b : DevRef τ sig) :=
  after_of_writes_sub seg12 U (by writes_in_list) h

theorem seg13_keep (U : Valuation τ sig (Elt F)) (b : Ref sig .tc) (h : b ∉ swr13) :
    after seg13 U (b : DevRef τ sig) = U (b : DevRef τ sig) :=
  after_of_writes_sub seg13 U (by writes_in_list) h

theorem seg14_keep (U : Valuation τ sig (Elt F)) (b : Ref sig .tc) (h : b ∉ swr14) :
    after seg14 U (b : DevRef τ sig) = U (b : DevRef τ sig) :=
  after_of_writes_sub seg14 U (by writes_in_list) h

theorem seg15_keep (U : Valuation τ sig (Elt F)) (b : Ref sig .tc) (h : b ∉ swr15) :
    after seg15 U (b : DevRef τ sig) = U (b : DevRef τ sig) :=
  Step.keep step15 U b h

theorem seg16_keep (U : Valuation τ sig (Elt F)) (b : Ref sig .tc) (h : b ∉ swr16) :
    after seg16 U (b : DevRef τ sig) = U (b : DevRef τ sig) :=
  Step.keep step16 U b h

theorem seg17_keep (U : Valuation τ sig (Elt F)) (b : Ref sig .tc) (h : b ∉ swr17) :
    after seg17 U (b : DevRef τ sig) = U (b : DevRef τ sig) :=
  Step.keep step17 U b h

theorem seg18_keep (U : Valuation τ sig (Elt F)) (b : Ref sig .tc) (h : b ∉ swr18) :
    after seg18 U (b : DevRef τ sig) = U (b : DevRef τ sig) :=
  Step.keep step18 U b h

theorem seg19_keep (U : Valuation τ sig (Elt F)) (b : Ref sig .tc) (h : b ∉ swr19) :
    after seg19 U (b : DevRef τ sig) = U (b : DevRef τ sig) :=
  after_of_writes_sub seg19 U (by writes_in_list) h

end Cert.ReferenceIdeal.Hand

end
-- ==== Proof.RefRun.lean ====
import proofs.«427183_j33938831573494_3_alg».proof.Proof.RefSegKeep
import Idealize.ShloMosaic.Lib.StableHlo.Run
import Idealize.ShloMosaic.Lib.Pipeline.Frame
import Idealize.ShloMosaic.PureOps.Ideal
import Mathlib.Data.List.Basic

noncomputable section

namespace Cert.ReferenceIdeal.Hand

open Cert.ReferenceIdeal Idealize.ShloMosaic Idealize.ShloMosaic.TcCoe Idealize.SL.Sem Idealize.ShloMosaic.StableHlo

variable {F : FTy → Type} [FloatOps F] [Facts]
open Facts₀ Facts

-- A straight line from its `a`-th operation on is its next `n` operations, then the rest.
theorem seq_drop {Λ : Labels} (l : List (HloOp τ sig (Elt F))) (a n b : Nat) (h : a + n = b) :
    (seq (l.drop a) : Prog (TpuEff nD τ sig (Elt F) Λ .tc) PUnit)
      = seq ((l.drop a).take n) >>= fun _ => seq (l.drop b) := by
  rw [← h, ← seq_append, ← List.drop_drop, List.take_append_drop]

-- Both sides hold the same row maximum of the same arguments: it is compared as it stands, never opened.
attribute [local irreducible] Host.reduce

-- A printed part, its callees unfolded at their calls and re-associated, is the chain of steps of the slice of the stage list that holds its operations.
local macro "part_is_slice" : tactic =>
  `(tactic| (simp only [main_part0, main_part1, main_part2, main_part3, main_part4, main_part5, main_part6, main_part7,
               main_part8, main_part9, main_part10, main_part11, main_part12, main_part13, main_part14, main_part15,
               fn_leaky_relu.body, fn_where.body, fn_relu.body, fn_var.body, fn_where_0.body, bind_assoc, pure_bind]
             rfl))

theorem part0_eq (c : Dev nD) : main_part0 (F := F) c = seq ((segs.drop 0).take 66) := by part_is_slice

theorem part1_eq (c : Dev nD) : main_part1 (F := F) c = seq ((segs.drop 66).take 60) := by part_is_slice

theorem part2_eq (c : Dev nD) : main_part2 (F := F) c = seq ((segs.drop 126).take 66) := by part_is_slice

theorem part3_eq (c : Dev nD) : main_part3 (F := F) c = seq ((segs.drop 192).take 66) := by part_is_slice

theorem part4_eq (c : Dev nD) : main_part4 (F := F) c = seq ((segs.drop 258).take 60) := by part_is_slice

theorem part5_eq (c : Dev nD) : main_part5 (F := F) c = seq ((segs.drop 318).take 66) := by part_is_slice

theorem part6_eq (c : Dev nD) : main_part6 (F := F) c = seq ((segs.drop 384).take 66) := by part_is_slice

theorem part7_eq (c : Dev nD) : main_part7 (F := F) c = seq ((segs.drop 450).take 60) := by part_is_slice

theorem part8_eq (c : Dev nD) : main_part8 (F := F) c = seq ((segs.drop 510).take 66) := by part_is_slice

theorem part9_eq (c : Dev nD) : main_part9 (F := F) c = seq ((segs.drop 576).take 66) := by part_is_slice

theorem part10_eq (c : Dev nD) : main_part10 (F := F) c = seq ((segs.drop 642).take 60) := by part_is_slice

theorem part11_eq (c : Dev nD) : main_part11 (F := F) c = seq ((segs.drop 702).take 66) := by part_is_slice

theorem part12_eq (c : Dev nD) : main_part12 (F := F) c = seq ((segs.drop 768).take 84) := by part_is_slice

theorem part13_eq (c : Dev nD) : main_part13 (F := F) c = seq ((segs.drop 852).take 60) := by part_is_slice

theorem part14_eq (c : Dev nD) : main_part14 (F := F) c = seq ((segs.drop 912).take 60) := by part_is_slice

theorem part15_eq (c : Dev nD) : main_part15 (F := F) c = seq (segs.drop 972) := by part_is_slice

theorem main_eq (c : Dev nD) : main (F := F) c = seq segs := by
  show _ = seq ((segs (F := F)).drop 0)
  rw [seq_drop segs 0 66 66 rfl, seq_drop segs 66 60 126 rfl, seq_drop segs 126 66 192 rfl, seq_drop segs 192 66 258 rfl, seq_drop segs 258 60 318 rfl, seq_drop segs 318 66 384 rfl, seq_drop segs 384 66 450 rfl, seq_drop segs 450 60 510 rfl, seq_drop segs 510 66 576 rfl, seq_drop segs 576 66 642 rfl, seq_drop segs 642 60 702 rfl, seq_drop segs 702 66 768 rfl, seq_drop segs 768 84 852 rfl, seq_drop segs 852 60 912 rfl, seq_drop segs 912 60 972 rfl,
    ← part0_eq c, ← part1_eq c, ← part2_eq c, ← part3_eq c, ← part4_eq c, ← part5_eq c, ← part6_eq c, ← part7_eq c, ← part8_eq c, ← part9_eq c, ← part10_eq c, ← part11_eq c, ← part12_eq c, ← part13_eq c, ← part14_eq c, ← part15_eq c]
  rfl

local macro "bufs_in_tc" : tactic =>
  `(tactic| simp only [List.Forall, nullary_bufs_sub, unary_bufs_sub, binary_bufs_sub, ternary_bufs_sub, reshape_bufs_sub, and_self])

local macro "none_fresh" : tactic =>
  `(tactic| (simp only [List.Forall]; repeat' constructor))

-- The two facts the run of a straight line asks of its list, kept together so that they pass through concatenation at once.
structure Plain (l : List (HloOp τ sig (Elt F))) : Prop where
  sub : l.Forall fun op => op.bufs ⊆ tcRefs τ sig
  fresh : l.Forall fun op => op.fresh = ∅

theorem Plain.append {l₁ l₂ : List (HloOp τ sig (Elt F))} (h₁ : Plain l₁) (h₂ : Plain l₂) : Plain (l₁ ++ l₂) :=
  ⟨by simp only [List.forall_append]; exact ⟨h₁.sub, h₂.sub⟩, by simp only [List.forall_append]; exact ⟨h₁.fresh, h₂.fresh⟩⟩

theorem Enc.plain (col) (φ : Enc.Bufs) : Plain (Enc.ops (F := F) col φ) := ⟨by bufs_in_tc, by none_fresh⟩
theorem Avg.plain (φ : Avg.Bufs) : Plain (Avg.ops (F := F) φ) := ⟨by bufs_in_tc, by none_fresh⟩
theorem Step.plain (φ : Step.Bufs) : Plain (Step.ops (F := F) φ) := ⟨by bufs_in_tc, by none_fresh⟩
theorem seg12_plain : Plain (seg12 (F := F)) := ⟨by bufs_in_tc, by none_fresh⟩
theorem seg13_plain : Plain (seg13 (F := F)) := ⟨by bufs_in_tc, by none_fresh⟩
theorem seg14_plain : Plain (seg14 (F := F)) := ⟨by bufs_in_tc, by none_fresh⟩
theorem seg19_plain : Plain (seg19 (F := F)) := ⟨by bufs_in_tc, by none_fresh⟩

theorem segs_plain : Plain (segs (F := F)) :=
  (Enc.plain col0 enc0).append ((Enc.plain col0 enc1).append ((Avg.plain avg2).append ((Enc.plain col1 enc3).append ((Enc.plain col1 enc4).append ((Avg.plain avg5).append ((Enc.plain col0 enc6).append ((Enc.plain col0 enc7).append ((Avg.plain avg8).append ((Enc.plain col1 enc9).append ((Enc.plain col1 enc10).append ((Avg.plain avg11).append (seg12_plain.append (seg13_plain.append (seg14_plain.append ((Step.plain step15).append ((Step.plain step16).append ((Step.plain step17).append ((Step.plain step18).append (seg19_plain)))))))))))))))))))

abbrev swr : List (Ref sig .tc) :=
  swr0 ++ (swr1 ++ (swr2 ++ (swr3 ++ (swr4 ++ (swr5 ++ (swr6 ++ (swr7 ++ (swr8 ++ (swr9 ++ (swr10 ++ (swr11 ++ (swr12 ++ (swr13 ++ (swr14 ++ (swr15 ++ (swr16 ++ (swr17 ++ (swr18 ++ (swr19)))))))))))))))))))

-- The fold over the concatenation is the stages' folds in turn, so a buffer no stage writes is carried through all.
theorem segs_keep (U : Valuation τ sig (Elt F)) (b : Ref sig .tc) (h : b ∉ swr) :
    after segs U (b : DevRef τ sig) = U (b : DevRef τ sig) := by
  simp only [swr, List.mem_append, not_or] at h
  obtain ⟨h0, h1, h2, h3, h4, h5, h6, h7, h8, h9, h10, h11, h12, h13, h14, h15, h16, h17, h18, h19⟩ := h
  simp only [segs, after_append]
  rw [seg19_keep _ _ h19, seg18_keep _ _ h18, seg17_keep _ _ h17, seg16_keep _ _ h16, seg15_keep _ _ h15, seg14_keep _ _ h14, seg13_keep _ _ h13, seg12_keep _ _ h12, seg11_keep _ _ h11, seg10_keep _ _ h10, seg9_keep _ _ h9, seg8_keep _ _ h8, seg7_keep _ _ h7, seg6_keep _ _ h6, seg5_keep _ _ h5, seg4_keep _ _ h4, seg3_keep _ _ h3, seg2_keep _ _ h2, seg1_keep _ _ h1, seg0_keep _ _ h0]

def argRefs : List (Ref sig .tc) :=
  [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26, main_arg27, main_arg28, main_arg29, main_arg30, main_arg31, main_arg32]

-- No operation's result is an argument: by comparing references, once for all thirty-three.
theorem arg_not_written : ∀ b ∈ argRefs, b ∉ swr := by decide +kernel

theorem arg_keep (U : Valuation τ sig (Elt F)) (b : Ref sig .tc) (hb : b ∈ argRefs) :
    after segs U (b : DevRef τ sig) = U (b : DevRef τ sig) :=
  segs_keep U b (arg_not_written b hb)

theorem scopedRefs_eq : (Finset.univ.filter fun b : Ref sig .tc => b.isScoped) = ∅ := by decide
theorem scopedSems_eq : (Finset.univ.filter fun sm : SemLoc sig => sm.isScoped .tc) = ∅ := by decide

-- Every weakly fair execution of @main terminates with each buffer at the fold of the operations' results over the launch contents.
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after segs (launchContents m c) (b : DevRef τ sig) :=
  run_seq scopedRefs_eq scopedSems_eq defs main (fun _ => segs) main_eq (fun _ => segs_plain.sub) m ρ
    (fun _ => List.forall_iff_forall_mem.mp segs_plain.fresh)

end Cert.ReferenceIdeal.Hand

end
-- ==== Proof.RefNEDefs.lean ====
import proofs.«427183_j33938831573494_3_alg».proof.ReferenceIdeal

noncomputable section

namespace Cert.ReferenceIdeal.Val

open Idealize.ShloMosaic Cert.ReferenceIdeal
open Cert.ReferenceIdeal.Facts₀

section Ops

variable {F : FTy → Type} [FloatOps F] [Facts₀]

def neStart (conn : IVec S1024x64x2 32) (off : Fin S1024x64x2.rank → Nat) (h : S1024x64x2.Slices off S1024x64x1) :
    IVec S1024x64x1 32 :=
  let v3 : IVec S1024x64 32 :=
    shapeCast S1024x64 (extractStridedSlice S1024x64x1 off conn h) shapeCasts_S1024x64x1_S1024x64
  broadcastInDim S1024x64x1 ![0, 1] bcast_S1024x64_S1024x64x1_0_1
    (select (cmpi .slt v3 (broadcastInDim S1024x64 ![] bcast_S_S1024x64 (constantI S_ 32 0#32)))
      (addi v3 (broadcastInDim S1024x64 ![] bcast_S_S1024x64 (constantI S_ 32 100001#32))) v3)

def neCat (conn : IVec S1024x64x2 32) (emb : FVec F S100001x128 .f32) : FVec F S1024x64x256 .f32 :=
  concatenate S1024x64x256 2
    [⟨S1024x64x128, Host.gather gather_S100001x128_S1024x64x1_S1024x64x128_2_0_n_n_0_2_1128 emb
        (neStart conn ![0, 0, 0] slices_S1024x64x2_S1024x64x1_0_0_0)⟩,
     ⟨S1024x64x128, Host.gather gather_S100001x128_S1024x64x1_S1024x64x128_2_0_n_n_0_2_1128 emb
        (neStart conn ![0, 0, 1] slices_S1024x64x2_S1024x64x1_0_0_1)⟩]
    concatenates_S1024x64x128_S1024x64x128_S1024x64x256_d2

def nePre (x : FVec F S1024x64x256 .f32) (W : FVec F S128x256 .f32) (wb bb : FVec F S128 .f32) :
    FVec F S1024x64x128 .f32 :=
  addf
    (addf (Host.dotGeneral dot_S1024x64x256_S128x256_S1024x64x128_2_1_01_0_n_n none x W)
      (broadcastInDim S1024x64x128 ![0, 1, 2] bcast_S1x1x128_S1024x64x128_0_1_2
        (broadcastInDim S1x1x128 ![2] bcast_S128_S1x1x128_2 wb)))
    (broadcastInDim S1024x64x128 ![0, 1, 2] bcast_S1x1x128_S1024x64x128_0_1_2
      (broadcastInDim S1x1x128 ![2] bcast_S128_S1x1x128_2 bb))

def neLrelu (x : FVec F S1024x64x128 .f32) : FVec F S1024x64x128 .f32 :=
  select
    (cmpf .oge x (broadcastInDim S1024x64x128 ![] bcast_S_S1024x64x128 (constant S_ .f32 0x00000000#32)))
    x
    (mulf (broadcastInDim S1024x64x128 ![] bcast_S_S1024x64x128 (constant S_ .f32 0x3C23D70A#32)) x)

def neScore (P : FVec F S1024x64x128 .f32) (aW : FVec F S1x128 .f32) (ab : FVec F S1 .f32) :
    FVec F S1024x64x1 .f32 :=
  addf (Host.dotGeneral dot_S1024x64x128_S1x128_S1024x64x1_2_1_01_0_n_n none P aW)
    (broadcastInDim S1024x64x1 ![0, 1, 2] bcast_S1x1x1_S1024x64x1_0_1_2
      (broadcastInDim S1x1x1 ![2] bcast_S1_S1x1x1_2 ab))

def neExp (s : FVec F S1024x64x1 .f32) : FVec F S1024x64x1 .f32 :=
  Host.exp
    (subf s
      (broadcastInDim S1024x64x1 ![0, 1, 2] bcast_S1024x1x1_S1024x64x1_0_1_2
        (broadcastInDim S1024x1x1 ![0, 2] bcast_S1024x1_S1024x1x1_0_2
          (maximumf (broadcastInDim S1024x1 ![] bcast_S_S1024x1 (constant S_ .f32 0xFF800000#32))
            (Host.reduce FloatOps.maximumf s (constant S_ .f32 0xFF800000#32)
              reducesTo_S1024x64x1_S1024x1_d1 h_S_)))))

def neSoft (x : FVec F S1024x64x1 .f32) : FVec F S1024x64x1 .f32 :=
  Host.divf x
    (broadcastInDim S1024x64x1 ![0, 1, 2] bcast_S1024x1x1_S1024x64x1_0_1_2
      (broadcastInDim S1024x1x1 ![0, 2] bcast_S1024x1_S1024x1x1_0_2
        (Host.reduceAdd x (constant S_ .f32 0x00000000#32) reducesTo_S1024x64x1_S1024x1_d1 h_S_)))

def neAgg (P : FVec F S1024x64x128 .f32) (w : FVec F S1024x64x1 .f32) : FVec F S1024x128 .f32 :=
  Host.reduceAdd
    (mulf P (broadcastInDim S1024x64x128 ![0, 1, 2] bcast_S1024x64x1_S1024x64x128_0_1_2 w))
    (constant S_ .f32 0x00000000#32) reducesTo_S1024x64x128_S1024x128_d1 h_S_

def neGate (a : FVec F S1024x128 .f32) (gW : FVec F S1x128 .f32) (gwb gb : FVec F S1 .f32) :
    FVec F S1024x1 .f32 :=
  Host.divf (broadcastInDim S1024x1 ![] bcast_S_S1024x1 (constant S_ .f32 0x3F800000#32))
    (addf (broadcastInDim S1024x1 ![] bcast_S_S1024x1 (constant S_ .f32 0x3F800000#32))
      (Host.exp (Host.negf
        (addf
          (addf
            (Host.dotGeneral dot_S1024x128_S128x1_S1024x1_1_0_0_1_n_n none a
              (transpose S128x1 [1, 0] gW transposes_S1x128_S128x1_1_0))
            (broadcastInDim S1024x1 ![0, 1] bcast_S1x1_S1024x1_0_1
              (broadcastInDim S1x1 ![1] bcast_S1_S1x1_1 gwb)))
          (broadcastInDim S1024x1 ![0, 1] bcast_S1x1_S1024x1_0_1
            (broadcastInDim S1x1 ![1] bcast_S1_S1x1_1 gb))))))

def neOwn (ids : IVec S1024 32) (emb : FVec F S100001x128 .f32) : FVec F S1024x128 .f32 :=
  Host.gather gather_S100001x128_S1024x1_S1024x128_1_0_n_n_0_1_1128 emb
    (broadcastInDim S1024x1 ![0] bcast_S1024_S1024x1_0
      (select (cmpi .slt ids (broadcastInDim S1024 ![] bcast_S_S1024 (constantI S_ 32 0#32)))
        (addi ids (broadcastInDim S1024 ![] bcast_S_S1024 (constantI S_ 32 100001#32))) ids))

def neMix (g : FVec F S1024x1 .f32) (a own : FVec F S1024x128 .f32) : FVec F S1024x128 .f32 :=
  addf (mulf (broadcastInDim S1024x128 ![0, 1] bcast_S1024x1_S1024x128_0_1 g) a)
    (mulf
      (broadcastInDim S1024x128 ![0, 1] bcast_S1024x1_S1024x128_0_1
        (subf (broadcastInDim S1024x1 ![] bcast_S_S1024x1 (constant S_ .f32 0x3F800000#32)) g))
      own)

def neHost (conn : IVec S1024x64x2 32) (ids : IVec S1024 32) (emb : FVec F S100001x128 .f32)
    (W : FVec F S128x256 .f32) (wb bb : FVec F S128 .f32) (aW : FVec F S1x128 .f32) (ab : FVec F S1 .f32)
    (gW : FVec F S1x128 .f32) (gwb gb : FVec F S1 .f32) : FVec F S1024x128 .f32 :=
  let P := neLrelu (nePre (neCat conn emb) W wb bb)
  let a := neAgg P (neSoft (neExp (neScore P aW ab)))
  neMix (neGate a gW gwb gb) a (neOwn ids emb)

end Ops

end Cert.ReferenceIdeal.Val

end
-- ==== Proof.RefSegValA.lean ====
import proofs.«427183_j33938831573494_3_alg».proof.Proof.RefSegs
import proofs.«427183_j33938831573494_3_alg».proof.Proof.RefNEDefs
import Idealize.ShloMosaic.Lib.StableHlo.Run

noncomputable section

namespace Cert.ReferenceIdeal.Val

open Cert.ReferenceIdeal Cert.ReferenceIdeal.Hand Idealize.ShloMosaic Idealize.ShloMosaic.StableHlo

variable {F : FTy → Type} [FloatOps F] [Facts]
open Facts₀ Facts

theorem seg0_v74 (U : Valuation τ sig (Elt F)) :
    after (seg0 (F := F)) U (Proc.devRef .tc main_v74)
      = neHost (U (Proc.devRef .tc main_arg2))
          (shapeCast S1024 (extractStridedSlice S1024x1 ![0, 0] (U (Proc.devRef .tc main_arg0)) slices_S1024x2_S1024x1_0_0)
            shapeCasts_S1024x1_S1024)
          (U (Proc.devRef .tc main_arg14)) (U (Proc.devRef .tc main_arg15)) (U (Proc.devRef .tc main_arg16))
          (U (Proc.devRef .tc main_arg17)) (U (Proc.devRef .tc main_arg18)) (U (Proc.devRef .tc main_arg19))
          (U (Proc.devRef .tc main_arg20)) (U (Proc.devRef .tc main_arg21)) (U (Proc.devRef .tc main_arg22)) := by
  after_results_simp
  dsimp only [TRef.toBuf, TRef.ofBuf, cast_eq]
  rfl

theorem seg1_v149 (U : Valuation τ sig (Elt F)) :
    after (seg1 (F := F)) U (Proc.devRef .tc main_v149)
      = neHost (U (Proc.devRef .tc main_arg3))
          (shapeCast S1024 (extractStridedSlice S1024x1 ![0, 0] (U (Proc.devRef .tc main_arg0)) slices_S1024x2_S1024x1_0_0)
            shapeCasts_S1024x1_S1024)
          (U (Proc.devRef .tc main_arg14)) (U (Proc.devRef .tc main_arg15)) (U (Proc.devRef .tc main_arg16))
          (U (Proc.devRef .tc main_arg17)) (U (Proc.devRef .tc main_arg18)) (U (Proc.devRef .tc main_arg19))
          (U (Proc.devRef .tc main_arg20)) (U (Proc.devRef .tc main_arg21)) (U (Proc.devRef .tc main_arg22)) := by
  after_results_simp
  dsimp only [TRef.toBuf, TRef.ofBuf, cast_eq]
  rfl

end Cert.ReferenceIdeal.Val

end
-- ==== Proof.RefSegValB.lean ====
import proofs.«427183_j33938831573494_3_alg».proof.Proof.RefSegs
import proofs.«427183_j33938831573494_3_alg».proof.Proof.RefNEDefs
import Idealize.ShloMosaic.Lib.StableHlo.Run

noncomputable section

namespace Cert.ReferenceIdeal.Val

open Cert.ReferenceIdeal Cert.ReferenceIdeal.Hand Idealize.ShloMosaic Idealize.ShloMosaic.StableHlo

variable {F : FTy → Type} [FloatOps F] [Facts]
open Facts₀ Facts

theorem seg3_v227 (U : Valuation τ sig (Elt F)) :
    after (seg3 (F := F)) U (Proc.devRef .tc main_v227)
      = neHost (U (Proc.devRef .tc main_arg5))
          (shapeCast S1024 (extractStridedSlice S1024x1 ![0, 1] (U (Proc.devRef .tc main_arg0)) slices_S1024x2_S1024x1_0_1)
            shapeCasts_S1024x1_S1024)
          (U (Proc.devRef .tc main_arg14)) (U (Proc.devRef .tc main_arg15)) (U (Proc.devRef .tc main_arg16))
          (U (Proc.devRef .tc main_arg17)) (U (Proc.devRef .tc main_arg18)) (U (Proc.devRef .tc main_arg19))
          (U (Proc.devRef .tc main_arg20)) (U (Proc.devRef .tc main_arg21)) (U (Proc.devRef .tc main_arg22)) := by
  after_results_simp
  dsimp only [TRef.toBuf, TRef.ofBuf, cast_eq]
  rfl

theorem seg4_v302 (U : Valuation τ sig (Elt F)) :
    after (seg4 (F := F)) U (Proc.devRef .tc main_v302)
      = neHost (U (Proc.devRef .tc main_arg6))
          (shapeCast S1024 (extractStridedSlice S1024x1 ![0, 1] (U (Proc.devRef .tc main_arg0)) slices_S1024x2_S1024x1_0_1)
            shapeCasts_S1024x1_S1024)
          (U (Proc.devRef .tc main_arg14)) (U (Proc.devRef .tc main_arg15)) (U (Proc.devRef .tc main_arg16))
          (U (Proc.devRef .tc main_arg17)) (U (Proc.devRef .tc main_arg18)) (U (Proc.devRef .tc main_arg19))
          (U (Proc.devRef .tc main_arg20)) (U (Proc.devRef .tc main_arg21)) (U (Proc.devRef .tc main_arg22)) := by
  after_results_simp
  dsimp only [TRef.toBuf, TRef.ofBuf, cast_eq]
  rfl

end Cert.ReferenceIdeal.Val

end
-- ==== Proof.RefSegValC.lean ====
import proofs.«427183_j33938831573494_3_alg».proof.Proof.RefSegs
import proofs.«427183_j33938831573494_3_alg».proof.Proof.RefNEDefs
import Idealize.ShloMosaic.Lib.StableHlo.Run

noncomputable section

namespace Cert.ReferenceIdeal.Val

open Cert.ReferenceIdeal Cert.ReferenceIdeal.Hand Idealize.ShloMosaic Idealize.ShloMosaic.StableHlo

variable {F : FTy → Type} [FloatOps F] [Facts]
open Facts₀ Facts

theorem seg6_v380 (U : Valuation τ sig (Elt F)) :
    after (seg6 (F := F)) U (Proc.devRef .tc main_v380)
      = neHost (U (Proc.devRef .tc main_arg8))
          (shapeCast S1024 (extractStridedSlice S1024x1 ![0, 0] (U (Proc.devRef .tc main_arg1)) slices_S1024x2_S1024x1_0_0)
            shapeCasts_S1024x1_S1024)
          (U (Proc.devRef .tc main_arg14)) (U (Proc.devRef .tc main_arg15)) (U (Proc.devRef .tc main_arg16))
          (U (Proc.devRef .tc main_arg17)) (U (Proc.devRef .tc main_arg18)) (U (Proc.devRef .tc main_arg19))
          (U (Proc.devRef .tc main_arg20)) (U (Proc.devRef .tc main_arg21)) (U (Proc.devRef .tc main_arg22)) := by
  after_results_simp
  dsimp only [TRef.toBuf, TRef.ofBuf, cast_eq]
  rfl

theorem seg7_v455 (U : Valuation τ sig (Elt F)) :
    after (seg7 (F := F)) U (Proc.devRef .tc main_v455)
      = neHost (U (Proc.devRef .tc main_arg9))
          (shapeCast S1024 (extractStridedSlice S1024x1 ![0, 0] (U (Proc.devRef .tc main_arg1)) slices_S1024x2_S1024x1_0_0)
            shapeCasts_S1024x1_S1024)
          (U (Proc.devRef .tc main_arg14)) (U (Proc.devRef .tc main_arg15)) (U (Proc.devRef .tc main_arg16))
          (U (Proc.devRef .tc main_arg17)) (U (Proc.devRef .tc main_arg18)) (U (Proc.devRef .tc main_arg19))
          (U (Proc.devRef .tc main_arg20)) (U (Proc.devRef .tc main_arg21)) (U (Proc.devRef .tc main_arg22)) := by
  after_results_simp
  dsimp only [TRef.toBuf, TRef.ofBuf, cast_eq]
  rfl

end Cert.ReferenceIdeal.Val

end
-- ==== Proof.RefSegValD.lean ====
import proofs.«427183_j33938831573494_3_alg».proof.Proof.RefSegs
import proofs.«427183_j33938831573494_3_alg».proof.Proof.RefNEDefs
import Idealize.ShloMosaic.Lib.StableHlo.Run

noncomputable section

namespace Cert.ReferenceIdeal.Val

open Cert.ReferenceIdeal Cert.ReferenceIdeal.Hand Idealize.ShloMosaic Idealize.ShloMosaic.StableHlo

variable {F : FTy → Type} [FloatOps F] [Facts]
open Facts₀ Facts

theorem seg9_v533 (U : Valuation τ sig (Elt F)) :
    after (seg9 (F := F)) U (Proc.devRef .tc main_v533)
      = neHost (U (Proc.devRef .tc main_arg11))
          (shapeCast S1024 (extractStridedSlice S1024x1 ![0, 1] (U (Proc.devRef .tc main_arg1)) slices_S1024x2_S1024x1_0_1)
            shapeCasts_S1024x1_S1024)
          (U (Proc.devRef .tc main_arg14)) (U (Proc.devRef .tc main_arg15)) (U (Proc.devRef .tc main_arg16))
          (U (Proc.devRef .tc main_arg17)) (U (Proc.devRef .tc main_arg18)) (U (Proc.devRef .tc main_arg19))
          (U (Proc.devRef .tc main_arg20)) (U (Proc.devRef .tc main_arg21)) (U (Proc.devRef .tc main_arg22)) := by
  after_results_simp
  dsimp only [TRef.toBuf, TRef.ofBuf, cast_eq]
  rfl

theorem seg10_v608 (U : Valuation τ sig (Elt F)) :
    after (seg10 (F := F)) U (Proc.devRef .tc main_v608)
      = neHost (U (Proc.devRef .tc main_arg12))
          (shapeCast S1024 (extractStridedSlice S1024x1 ![0, 1] (U (Proc.devRef .tc main_arg1)) slices_S1024x2_S1024x1_0_1)
            shapeCasts_S1024x1_S1024)
          (U (Proc.devRef .tc main_arg14)) (U (Proc.devRef .tc main_arg15)) (U (Proc.devRef .tc main_arg16))
          (U (Proc.devRef .tc main_arg17)) (U (Proc.devRef .tc main_arg18)) (U (Proc.devRef .tc main_arg19))
          (U (Proc.devRef .tc main_arg20)) (U (Proc.devRef .tc main_arg21)) (U (Proc.devRef .tc main_arg22)) := by
  after_results_simp
  dsimp only [TRef.toBuf, TRef.ofBuf, cast_eq]
  rfl

end Cert.ReferenceIdeal.Val

end
-- ==== Proof.RefSegVal.lean ====
import proofs.«427183_j33938831573494_3_alg».proof.Proof.RefSegValA
import proofs.«427183_j33938831573494_3_alg».proof.Proof.RefSegValB
import proofs.«427183_j33938831573494_3_alg».proof.Proof.RefSegValC
import proofs.«427183_j33938831573494_3_alg».proof.Proof.RefSegValD
-- ==== Proof.RefTailDefs.lean ====
import proofs.«427183_j33938831573494_3_alg».proof.ReferenceIdeal

noncomputable section

namespace Cert.ReferenceIdeal.Val

open Cert.ReferenceIdeal Idealize.ShloMosaic

variable [Facts]
open Facts₀ Facts

section Stages

variable {F : FTy → Type} [FloatOps F]

def avgHost (a b : FVec F S1024x128 .f32) : FVec F S1024x128 .f32 :=
  Host.divf (addf a b) (broadcastInDim S1024x128 ![] bcast_S_S1024x128 (constant S_ .f32 0x40000000#32))

def catHost (a b : FVec F S1024x128 .f32) : FVec F S1024x256 .f32 :=
  concatenate S1024x256 1 [⟨S1024x128, a⟩, ⟨S1024x128, b⟩] concatenates_S1024x128_S1024x128_S1024x256_d1

def ffhHost (x : FVec F S1024x256 .f32) (W1 : FVec F S512x256 .f32) (b1 : FVec F S512 .f32) : FVec F S1024x512 .f32 :=
  maximumf
    (addf (Host.dotGeneral dot_S1024x256_S256x512_S1024x512_1_0_0_1_n_n none x
        (transpose S256x512 [1, 0] W1 transposes_S512x256_S256x512_1_0))
      (broadcastInDim S1024x512 ![0, 1] bcast_S1x512_S1024x512_0_1 (broadcastInDim S1x512 ![1] bcast_S512_S1x512_1 b1)))
    (broadcastInDim S1024x512 ![] bcast_S_S1024x512 (constant S_ .f32 0x00000000#32))

def supHost (x : FVec F S1024x256 .f32) (W1 : FVec F S512x256 .f32) (b1 : FVec F S512 .f32)
    (W2 : FVec F S256x512 .f32) (b2 : FVec F S256 .f32) : FVec F S1024x256 .f32 :=
  addf (addf (Host.dotGeneral dot_S1024x512_S512x256_S1024x256_1_0_0_1_n_n none (ffhHost x W1 b1)
      (transpose S512x256 [1, 0] W2 transposes_S256x512_S512x256_1_0))
    (broadcastInDim S1024x256 ![0, 1] bcast_S1x256_S1024x256_0_1 (broadcastInDim S1x256 ![1] bcast_S256_S1x256_1 b2))) x

def meanHost (y : FVec F S1024x256 .f32) : FVec F S1024x1 .f32 :=
  Host.divf
    (broadcastInDim S1024x1 ![0] bcast_S1024_S1024x1_0
      (Host.reduceAdd y (constant S_ .f32 0x00000000#32) reducesTo_S1024x256_S1024_d1 h_S_))
    (broadcastInDim S1024x1 ![] bcast_S_S1024x1 (constant S_ .f32 0x43800000#32))

def varHost (y : FVec F S1024x256 .f32) : FVec F S1024x1 .f32 :=
  let dev := subf y (broadcastInDim S1024x256 ![0, 1] bcast_S1024x1_S1024x256_0_1 (meanHost y))
  let sq := mulf dev dev
  let cnt : FVec F S_ .f32 := subf (constant S_ .f32 0x43800000#32) (sitofp .f32 (constantI S_ 32 0#32))
  let quot := Host.divf
    (broadcastInDim S1024x1 ![0] bcast_S1024_S1024x1_0
      (Host.reduceAdd sq (constant S_ .f32 0x00000000#32) reducesTo_S1024x256_S1024_d1 h_S_))
    (broadcastInDim S1024x1 ![] bcast_S_S1024x1 cnt)
  select (broadcastInDim S1024x1 ![] bcast_S_S1024x1 (cmpf .ogt cnt (constant S_ .f32 0x00000000#32))) quot
    (broadcastInDim S1024x1 ![] bcast_S_S1024x1 (id (constant S_ .f32 0x7FC00000#32)))

def lnHost (y : FVec F S1024x256 .f32) (lg lb : FVec F S256 .f32) : FVec F S1024x256 .f32 :=
  let dev := subf y (broadcastInDim S1024x256 ![0, 1] bcast_S1024x1_S1024x256_0_1 (meanHost y))
  let scaled := mulf
    (broadcastInDim S1024x256 ![0, 1] bcast_S1x256_S1024x256_0_1 (broadcastInDim S1x256 ![1] bcast_S256_S1x256_1 lg)) dev
  let inv := Host.rsqrt
    (addf (varHost y) (broadcastInDim S1024x1 ![] bcast_S_S1024x1 (constant S_ .f32 0x358637BD#32)))
  addf (mulf scaled (broadcastInDim S1024x256 ![0, 1] bcast_S1024x1_S1024x256_0_1 inv))
    (broadcastInDim S1024x256 ![0, 1] bcast_S1x256_S1024x256_0_1 (broadcastInDim S1x256 ![1] bcast_S256_S1x256_1 lb))

def sigHost (x : FVec F S1024x512 .f32) : FVec F S1024x512 .f32 :=
  Host.divf (broadcastInDim S1024x512 ![] bcast_S_S1024x512 (constant S_ .f32 0x3F800000#32))
    (addf (broadcastInDim S1024x512 ![] bcast_S_S1024x512 (constant S_ .f32 0x3F800000#32)) (Host.exp (Host.negf x)))

def gatesHost (q : FVec F S1024x256 .f32) (hr : FVec F S1024x512 .f32) (Wih : FVec F S2048x256 .f32)
    (Whh : FVec F S2048x512 .f32) (bih bhh : FVec F S2048 .f32) : FVec F S1024x2048 .f32 :=
  addf (addf (addf (Host.dotGeneral dot_S1024x256_S256x2048_S1024x2048_1_0_0_1_n_n none q
        (transpose S256x2048 [1, 0] Wih transposes_S2048x256_S256x2048_1_0))
      (broadcastInDim S1024x2048 ![0, 1] bcast_S1x2048_S1024x2048_0_1 (broadcastInDim S1x2048 ![1] bcast_S2048_S1x2048_1 bih)))
    (Host.dotGeneral dot_S1024x512_S512x2048_S1024x2048_1_0_0_1_n_n none hr
      (transpose S512x2048 [1, 0] Whh transposes_S2048x512_S512x2048_1_0)))
    (broadcastInDim S1024x2048 ![0, 1] bcast_S1x2048_S1024x2048_0_1 (broadcastInDim S1x2048 ![1] bcast_S2048_S1x2048_1 bhh))

def cellHost (G : FVec F S1024x2048 .f32) (c : FVec F S1024x512 .f32) : FVec F S1024x512 .f32 :=
  addf (mulf (sigHost (extractStridedSlice S1024x512 ![0, 512] G slices_S1024x2048_S1024x512_0_512)) c)
    (mulf (sigHost (extractStridedSlice S1024x512 ![0, 0] G slices_S1024x2048_S1024x512_0_0))
      (Host.tanh (extractStridedSlice S1024x512 ![0, 1024] G slices_S1024x2048_S1024x512_0_1024)))

def hidHost (q : FVec F S1024x256 .f32) (G : FVec F S1024x2048 .f32) (c' : FVec F S1024x512 .f32) :
    FVec F S1024x256 .f32 :=
  addf q (extractStridedSlice S1024x256 ![0, 0]
    (mulf (sigHost (extractStridedSlice S1024x512 ![0, 1536] G slices_S1024x2048_S1024x512_0_1536)) (Host.tanh c'))
    slices_S1024x512_S1024x256_0_0)

def hrHost (h sg : FVec F S1024x256 .f32) : FVec F S1024x512 .f32 :=
  concatenate S1024x512 1 [⟨S1024x256, h⟩, ⟨S1024x256, sg⟩] concatenates_S1024x256_S1024x256_S1024x512_d1

def stepHost (q : FVec F S1024x256 .f32) (Wih : FVec F S2048x256 .f32) (Whh : FVec F S2048x512 .f32)
    (bih bhh : FVec F S2048 .f32) (c hr : FVec F S1024x512 .f32) :
    FVec F S1024x512 .f32 × FVec F S1024x256 .f32 :=
  let G := gatesHost q hr Wih Whh bih bhh
  let c' := cellHost G c
  (c', hidHost q G c')

def tailHost (n0 n1 n2 n3 n4 n5 n6 n7 : FVec F S1024x128 .f32) (W1 : FVec F S512x256 .f32) (b1 : FVec F S512 .f32)
    (W2 : FVec F S256x512 .f32) (b2 lg lb : FVec F S256 .f32) (Wih : FVec F S2048x256 .f32)
    (Whh : FVec F S2048x512 .f32) (bih bhh : FVec F S2048 .f32) : FVec F S1024 .f32 :=
  let q := catHost (avgHost n0 n1) (avgHost n2 n3)
  let sg := lnHost (supHost (catHost (avgHost n4 n5) (avgHost n6 n7)) W1 b1 W2 b2) lg lb
  let z : FVec F S1024x512 .f32 := broadcastInDim S1024x512 ![] bcast_S_S1024x512 (constant S_ .f32 0x00000000#32)
  let s1 := stepHost q Wih Whh bih bhh z z
  let s2 := stepHost q Wih Whh bih bhh s1.1 (hrHost s1.2 sg)
  let s3 := stepHost q Wih Whh bih bhh s2.1 (hrHost s2.2 sg)
  let s4 := stepHost q Wih Whh bih bhh s3.1 (hrHost s3.2 sg)
  Host.reduceAdd (mulf s4.2 sg) (constant S_ .f32 0x00000000#32) reducesTo_S1024x256_S1024_d1 h_S_

end Stages

end Cert.ReferenceIdeal.Val

end
-- ==== Proof.RefSegValTail.lean ====
import proofs.«427183_j33938831573494_3_alg».proof.Proof.RefSegs
import proofs.«427183_j33938831573494_3_alg».proof.Proof.RefTailDefs
import Idealize.ShloMosaic.Lib.StableHlo.Run

noncomputable section

namespace Cert.ReferenceIdeal.Val

open Cert.ReferenceIdeal Cert.ReferenceIdeal.Hand Idealize.ShloMosaic Idealize.ShloMosaic.TcCoe Idealize.SL.Sem
  Idealize.ShloMosaic.StableHlo

variable {F : FTy → Type} [FloatOps F] [Facts]
open Facts₀ Facts

theorem seg2_v152 (U : Valuation τ sig (Elt F)) :
    after seg2 U (main_v152 : DevRef τ sig) = avgHost (U (main_v74 : DevRef τ sig)) (U (main_v149 : DevRef τ sig)) := by
  after_results <;> rfl

theorem seg5_v305 (U : Valuation τ sig (Elt F)) :
    after seg5 U (main_v305 : DevRef τ sig) = avgHost (U (main_v227 : DevRef τ sig)) (U (main_v302 : DevRef τ sig)) := by
  after_results <;> rfl

theorem seg8_v458 (U : Valuation τ sig (Elt F)) :
    after seg8 U (main_v458 : DevRef τ sig) = avgHost (U (main_v380 : DevRef τ sig)) (U (main_v455 : DevRef τ sig)) := by
  after_results <;> rfl

theorem seg11_v611 (U : Valuation τ sig (Elt F)) :
    after seg11 U (main_v611 : DevRef τ sig) = avgHost (U (main_v533 : DevRef τ sig)) (U (main_v608 : DevRef τ sig)) := by
  after_results <;> rfl

theorem seg12_v612 (U : Valuation τ sig (Elt F)) :
    after seg12 U (main_v612 : DevRef τ sig) = catHost (U (main_v152 : DevRef τ sig)) (U (main_v305 : DevRef τ sig)) := by
  after_results <;> rfl

theorem seg12_v613 (U : Valuation τ sig (Elt F)) :
    after seg12 U (main_v613 : DevRef τ sig) = catHost (U (main_v458 : DevRef τ sig)) (U (main_v611 : DevRef τ sig)) := by
  after_results <;> rfl

theorem seg13_v643 (U : Valuation τ sig (Elt F)) :
    after seg13 U (main_v643 : DevRef τ sig)
      = lnHost (supHost (U (main_v613 : DevRef τ sig)) (U (main_arg23 : DevRef τ sig)) (U (main_arg24 : DevRef τ sig))
            (U (main_arg25 : DevRef τ sig)) (U (main_arg26 : DevRef τ sig)))
          (U (main_arg27 : DevRef τ sig)) (U (main_arg28 : DevRef τ sig)) := by
  after_results_simp <;> rfl

theorem seg14_v644 (U : Valuation τ sig (Elt F)) :
    after seg14 U (main_v644 : DevRef τ sig)
      = broadcastInDim S1024x512 ![] bcast_S_S1024x512 (constant (F := F) S_ .f32 0x00000000#32) := by
  after_results <;> rfl

theorem seg14_v645 (U : Valuation τ sig (Elt F)) :
    after seg14 U (main_v645 : DevRef τ sig)
      = broadcastInDim S1024x512 ![] bcast_S_S1024x512 (constant (F := F) S_ .f32 0x00000000#32) := by
  after_results <;> rfl

theorem seg15_cell (U : Valuation τ sig (Elt F)) :
    after seg15 U (main_v676 : DevRef τ sig)
      = (stepHost (U (main_v612 : DevRef τ sig)) (U (main_arg29 : DevRef τ sig)) (U (main_arg30 : DevRef τ sig))
          (U (main_arg31 : DevRef τ sig)) (U (main_arg32 : DevRef τ sig)) (U (main_v644 : DevRef τ sig))
          (U (main_v645 : DevRef τ sig))).1 := by
  after_results_simp <;> rfl

theorem seg15_hid (U : Valuation τ sig (Elt F)) :
    after seg15 U (main_v686 : DevRef τ sig)
      = (stepHost (U (main_v612 : DevRef τ sig)) (U (main_arg29 : DevRef τ sig)) (U (main_arg30 : DevRef τ sig))
          (U (main_arg31 : DevRef τ sig)) (U (main_arg32 : DevRef τ sig)) (U (main_v644 : DevRef τ sig))
          (U (main_v645 : DevRef τ sig))).2 := by
  after_results_simp <;> rfl

theorem seg15_hr (U : Valuation τ sig (Elt F)) :
    after seg15 U (main_v687 : DevRef τ sig)
      = hrHost (stepHost (U (main_v612 : DevRef τ sig)) (U (main_arg29 : DevRef τ sig)) (U (main_arg30 : DevRef τ sig))
          (U (main_arg31 : DevRef τ sig)) (U (main_arg32 : DevRef τ sig)) (U (main_v644 : DevRef τ sig))
          (U (main_v645 : DevRef τ sig))).2 (U (main_v643 : DevRef τ sig)) := by
  after_results_simp
  refine congrArg₂ (fun a b : FVec F S1024x256 .f32 =>
    concatenate S1024x512 1 [⟨S1024x256, a⟩, ⟨S1024x256, b⟩] concatenates_S1024x256_S1024x256_S1024x512_d1) ?_ ?_
  · after_results_simp <;> rfl
  · after_results_simp <;> rfl

theorem seg16_cell (U : Valuation τ sig (Elt F)) :
    after seg16 U (main_v718 : DevRef τ sig)
      = (stepHost (U (main_v612 : DevRef τ sig)) (U (main_arg29 : DevRef τ sig)) (U (main_arg30 : DevRef τ sig))
          (U (main_arg31 : DevRef τ sig)) (U (main_arg32 : DevRef τ sig)) (U (main_v676 : DevRef τ sig))
          (U (main_v687 : DevRef τ sig))).1 := by
  after_results_simp <;> rfl

theorem seg16_hid (U : Valuation τ sig (Elt F)) :
    after seg16 U (main_v728 : DevRef τ sig)
      = (stepHost (U (main_v612 : DevRef τ sig)) (U (main_arg29 : DevRef τ sig)) (U (main_arg30 : DevRef τ sig))
          (U (main_arg31 : DevRef τ sig)) (U (main_arg32 : DevRef τ sig)) (U (main_v676 : DevRef τ sig))
          (U (main_v687 : DevRef τ sig))).2 := by
  after_results_simp <;> rfl

theorem seg16_hr (U : Valuation τ sig (Elt F)) :
    after seg16 U (main_v729 : DevRef τ sig)
      = hrHost (stepHost (U (main_v612 : DevRef τ sig)) (U (main_arg29 : DevRef τ sig)) (U (main_arg30 : DevRef τ sig))
          (U (main_arg31 : DevRef τ sig)) (U (main_arg32 : DevRef τ sig)) (U (main_v676 : DevRef τ sig))
          (U (main_v687 : DevRef τ sig))).2 (U (main_v643 : DevRef τ sig)) := by
  after_results_simp
  refine congrArg₂ (fun a b : FVec F S1024x256 .f32 =>
    concatenate S1024x512 1 [⟨S1024x256, a⟩, ⟨S1024x256, b⟩] concatenates_S1024x256_S1024x256_S1024x512_d1) ?_ ?_
  · after_results_simp <;> rfl
  · after_results_simp <;> rfl

theorem seg17_cell (U : Valuation τ sig (Elt F)) :
    after seg17 U (main_v760 : DevRef τ sig)
      = (stepHost (U (main_v612 : DevRef τ sig)) (U (main_arg29 : DevRef τ sig)) (U (main_arg30 : DevRef τ sig))
          (U (main_arg31 : DevRef τ sig)) (U (main_arg32 : DevRef τ sig)) (U (main_v718 : DevRef τ sig))
          (U (main_v729 : DevRef τ sig))).1 := by
  after_results_simp <;> rfl

theorem seg17_hid (U : Valuation τ sig (Elt F)) :
    after seg17 U (main_v770 : DevRef τ sig)
      = (stepHost (U (main_v612 : DevRef τ sig)) (U (main_arg29 : DevRef τ sig)) (U (main_arg30 : DevRef τ sig))
          (U (main_arg31 : DevRef τ sig)) (U (main_arg32 : DevRef τ sig)) (U (main_v718 : DevRef τ sig))
          (U (main_v729 : DevRef τ sig))).2 := by
  after_results_simp <;> rfl

theorem seg17_hr (U : Valuation τ sig (Elt F)) :
    after seg17 U (main_v771 : DevRef τ sig)
      = hrHost (stepHost (U (main_v612 : DevRef τ sig)) (U (main_arg29 : DevRef τ sig)) (U (main_arg30 : DevRef τ sig))
          (U (main_arg31 : DevRef τ sig)) (U (main_arg32 : DevRef τ sig)) (U (main_v718 : DevRef τ sig))
          (U (main_v729 : DevRef τ sig))).2 (U (main_v643 : DevRef τ sig)) := by
  after_results_simp
  refine congrArg₂ (fun a b : FVec F S1024x256 .f32 =>
    concatenate S1024x512 1 [⟨S1024x256, a⟩, ⟨S1024x256, b⟩] concatenates_S1024x256_S1024x256_S1024x512_d1) ?_ ?_
  · after_results_simp <;> rfl
  · after_results_simp <;> rfl

theorem seg18_cell (U : Valuation τ sig (Elt F)) :
    after seg18 U (main_v802 : DevRef τ sig)
      = (stepHost (U (main_v612 : DevRef τ sig)) (U (main_arg29 : DevRef τ sig)) (U (main_arg30 : DevRef τ sig))
          (U (main_arg31 : DevRef τ sig)) (U (main_arg32 : DevRef τ sig)) (U (main_v760 : DevRef τ sig))
          (U (main_v771 : DevRef τ sig))).1 := by
  after_results_simp <;> rfl

theorem seg18_hid (U : Valuation τ sig (Elt F)) :
    after seg18 U (main_v812 : DevRef τ sig)
      = (stepHost (U (main_v612 : DevRef τ sig)) (U (main_arg29 : DevRef τ sig)) (U (main_arg30 : DevRef τ sig))
          (U (main_arg31 : DevRef τ sig)) (U (main_arg32 : DevRef τ sig)) (U (main_v760 : DevRef τ sig))
          (U (main_v771 : DevRef τ sig))).2 := by
  after_results_simp <;> rfl

theorem seg18_hr (U : Valuation τ sig (Elt F)) :
    after seg18 U (main_v813 : DevRef τ sig)
      = hrHost (stepHost (U (main_v612 : DevRef τ sig)) (U (main_arg29 : DevRef τ sig)) (U (main_arg30 : DevRef τ sig))
          (U (main_arg31 : DevRef τ sig)) (U (main_arg32 : DevRef τ sig)) (U (main_v760 : DevRef τ sig))
          (U (main_v771 : DevRef τ sig))).2 (U (main_v643 : DevRef τ sig)) := by
  after_results_simp
  refine congrArg₂ (fun a b : FVec F S1024x256 .f32 =>
    concatenate S1024x512 1 [⟨S1024x256, a⟩, ⟨S1024x256, b⟩] concatenates_S1024x256_S1024x256_S1024x512_d1) ?_ ?_
  · after_results_simp <;> rfl
  · after_results_simp <;> rfl

theorem seg19_v815 (U : Valuation τ sig (Elt F)) :
    after seg19 U (main_v815 : DevRef τ sig)
      = Host.reduceAdd (mulf (U (main_v812 : DevRef τ sig)) (U (main_v643 : DevRef τ sig)))
          (constant (F := F) S_ .f32 0x00000000#32) reducesTo_S1024x256_S1024_d1 h_S_ := by
  after_results <;> rfl

end Cert.ReferenceIdeal.Val

end
-- ==== Proof.RefVal.lean ====
import proofs.«427183_j33938831573494_3_alg».proof.Proof.RefSegs
import proofs.«427183_j33938831573494_3_alg».proof.Proof.RefSegKeep
import proofs.«427183_j33938831573494_3_alg».proof.Proof.RefSegVal
import proofs.«427183_j33938831573494_3_alg».proof.Proof.RefSegValTail
import proofs.«427183_j33938831573494_3_alg».proof.Proof.RefNEDefs
import proofs.«427183_j33938831573494_3_alg».proof.Proof.RefTailDefs
import Idealize.ShloMosaic.Lib.StableHlo.Run
import Idealize.ShloMosaic.Lib.Pipeline.Frame

noncomputable section

namespace Cert.ReferenceIdeal.Val

open Cert.ReferenceIdeal Cert.ReferenceIdeal.Hand Idealize.ShloMosaic Idealize.ShloMosaic.StableHlo

variable {F : FTy → Type} [FloatOps F] [Facts]
open Facts₀ Facts

theorem seg0_keep' (U : Valuation τ sig (Elt F)) (b : Ref sig .tc) (h : b ∉ swr0) :
    after (seg0 (F := F)) U (no_index (Proc.devRef .tc b)) = U (Proc.devRef .tc b) := seg0_keep U b h

theorem seg1_keep' (U : Valuation τ sig (Elt F)) (b : Ref sig .tc) (h : b ∉ swr1) :
    after (seg1 (F := F)) U (no_index (Proc.devRef .tc b)) = U (Proc.devRef .tc b) := seg1_keep U b h

theorem seg2_keep' (U : Valuation τ sig (Elt F)) (b : Ref sig .tc) (h : b ∉ swr2) :
    after (seg2 (F := F)) U (no_index (Proc.devRef .tc b)) = U (Proc.devRef .tc b) := seg2_keep U b h

theorem seg3_keep' (U : Valuation τ sig (Elt F)) (b : Ref sig .tc) (h : b ∉ swr3) :
    after (seg3 (F := F)) U (no_index (Proc.devRef .tc b)) = U (Proc.devRef .tc b) := seg3_keep U b h

theorem seg4_keep' (U : Valuation τ sig (Elt F)) (b : Ref sig .tc) (h : b ∉ swr4) :
    after (seg4 (F := F)) U (no_index (Proc.devRef .tc b)) = U (Proc.devRef .tc b) := seg4_keep U b h

theorem seg5_keep' (U : Valuation τ sig (Elt F)) (b : Ref sig .tc) (h : b ∉ swr5) :
    after (seg5 (F := F)) U (no_index (Proc.devRef .tc b)) = U (Proc.devRef .tc b) := seg5_keep U b h

theorem seg6_keep' (U : Valuation τ sig (Elt F)) (b : Ref sig .tc) (h : b ∉ swr6) :
    after (seg6 (F := F)) U (no_index (Proc.devRef .tc b)) = U (Proc.devRef .tc b) := seg6_keep U b h

theorem seg7_keep' (U : Valuation τ sig (Elt F)) (b : Ref sig .tc) (h : b ∉ swr7) :
    after (seg7 (F := F)) U (no_index (Proc.devRef .tc b)) = U (Proc.devRef .tc b) := seg7_keep U b h

theorem seg8_keep' (U : Valuation τ sig (Elt F)) (b : Ref sig .tc) (h : b ∉ swr8) :
    after (seg8 (F := F)) U (no_index (Proc.devRef .tc b)) = U (Proc.devRef .tc b) := seg8_keep U b h

theorem seg9_keep' (U : Valuation τ sig (Elt F)) (b : Ref sig .tc) (h : b ∉ swr9) :
    after (seg9 (F := F)) U (no_index (Proc.devRef .tc b)) = U (Proc.devRef .tc b) := seg9_keep U b h

theorem seg10_keep' (U : Valuation τ sig (Elt F)) (b : Ref sig .tc) (h : b ∉ swr10) :
    after (seg10 (F := F)) U (no_index (Proc.devRef .tc b)) = U (Proc.devRef .tc b) := seg10_keep U b h

theorem seg11_keep' (U : Valuation τ sig (Elt F)) (b : Ref sig .tc) (h : b ∉ swr11) :
    after (seg11 (F := F)) U (no_index (Proc.devRef .tc b)) = U (Proc.devRef .tc b) := seg11_keep U b h

theorem seg12_keep' (U : Valuation τ sig (Elt F)) (b : Ref sig .tc) (h : b ∉ swr12) :
    after (seg12 (F := F)) U (no_index (Proc.devRef .tc b)) = U (Proc.devRef .tc b) := seg12_keep U b h

theorem seg13_keep' (U : Valuation τ sig (Elt F)) (b : Ref sig .tc) (h : b ∉ swr13) :
    after (seg13 (F := F)) U (no_index (Proc.devRef .tc b)) = U (Proc.devRef .tc b) := seg13_keep U b h

theorem seg14_keep' (U : Valuation τ sig (Elt F)) (b : Ref sig .tc) (h : b ∉ swr14) :
    after (seg14 (F := F)) U (no_index (Proc.devRef .tc b)) = U (Proc.devRef .tc b) := seg14_keep U b h

theorem seg15_keep' (U : Valuation τ sig (Elt F)) (b : Ref sig .tc) (h : b ∉ swr15) :
    after (seg15 (F := F)) U (no_index (Proc.devRef .tc b)) = U (Proc.devRef .tc b) := seg15_keep U b h

theorem seg16_keep' (U : Valuation τ sig (Elt F)) (b : Ref sig .tc) (h : b ∉ swr16) :
    after (seg16 (F := F)) U (no_index (Proc.devRef .tc b)) = U (Proc.devRef .tc b) := seg16_keep U b h

theorem seg17_keep' (U : Valuation τ sig (Elt F)) (b : Ref sig .tc) (h : b ∉ swr17) :
    after (seg17 (F := F)) U (no_index (Proc.devRef .tc b)) = U (Proc.devRef .tc b) := seg17_keep U b h

theorem seg18_keep' (U : Valuation τ sig (Elt F)) (b : Ref sig .tc) (h : b ∉ swr18) :
    after (seg18 (F := F)) U (no_index (Proc.devRef .tc b)) = U (Proc.devRef .tc b) := seg18_keep U b h

theorem seg19_keep' (U : Valuation τ sig (Elt F)) (b : Ref sig .tc) (h : b ∉ swr19) :
    after (seg19 (F := F)) U (no_index (Proc.devRef .tc b)) = U (Proc.devRef .tc b) := seg19_keep U b h

-- The chain reads each stage only through its stated lemmas, so it is carried out for twenty arbitrary lists that have them.
theorem ref_chain (V : Valuation τ sig (Elt F)) :
    after (segs (F := F)) V (Proc.devRef .tc main_v815)
      = tailHost
          (neHost (V (Proc.devRef .tc main_arg2))
            (shapeCast S1024 (extractStridedSlice S1024x1 ![0, 0] (V (Proc.devRef .tc main_arg0)) slices_S1024x2_S1024x1_0_0)
              shapeCasts_S1024x1_S1024)
            (V (Proc.devRef .tc main_arg14)) (V (Proc.devRef .tc main_arg15)) (V (Proc.devRef .tc main_arg16))
            (V (Proc.devRef .tc main_arg17)) (V (Proc.devRef .tc main_arg18)) (V (Proc.devRef .tc main_arg19))
            (V (Proc.devRef .tc main_arg20)) (V (Proc.devRef .tc main_arg21)) (V (Proc.devRef .tc main_arg22)))
          (neHost (V (Proc.devRef .tc main_arg3))
            (shapeCast S1024 (extractStridedSlice S1024x1 ![0, 0] (V (Proc.devRef .tc main_arg0)) slices_S1024x2_S1024x1_0_0)
              shapeCasts_S1024x1_S1024)
            (V (Proc.devRef .tc main_arg14)) (V (Proc.devRef .tc main_arg15)) (V (Proc.devRef .tc main_arg16))
            (V (Proc.devRef .tc main_arg17)) (V (Proc.devRef .tc main_arg18)) (V (Proc.devRef .tc main_arg19))
            (V (Proc.devRef .tc main_arg20)) (V (Proc.devRef .tc main_arg21)) (V (Proc.devRef .tc main_arg22)))
          (neHost (V (Proc.devRef .tc main_arg5))
            (shapeCast S1024 (extractStridedSlice S1024x1 ![0, 1] (V (Proc.devRef .tc main_arg0)) slices_S1024x2_S1024x1_0_1)
              shapeCasts_S1024x1_S1024)
            (V (Proc.devRef .tc main_arg14)) (V (Proc.devRef .tc main_arg15)) (V (Proc.devRef .tc main_arg16))
            (V (Proc.devRef .tc main_arg17)) (V (Proc.devRef .tc main_arg18)) (V (Proc.devRef .tc main_arg19))
            (V (Proc.devRef .tc main_arg20)) (V (Proc.devRef .tc main_arg21)) (V (Proc.devRef .tc main_arg22)))
          (neHost (V (Proc.devRef .tc main_arg6))
            (shapeCast S1024 (extractStridedSlice S1024x1 ![0, 1] (V (Proc.devRef .tc main_arg0)) slices_S1024x2_S1024x1_0_1)
              shapeCasts_S1024x1_S1024)
            (V (Proc.devRef .tc main_arg14)) (V (Proc.devRef .tc main_arg15)) (V (Proc.devRef .tc main_arg16))
            (V (Proc.devRef .tc main_arg17)) (V (Proc.devRef .tc main_arg18)) (V (Proc.devRef .tc main_arg19))
            (V (Proc.devRef .tc main_arg20)) (V (Proc.devRef .tc main_arg21)) (V (Proc.devRef .tc main_arg22)))
          (neHost (V (Proc.devRef .tc main_arg8))
            (shapeCast S1024 (extractStridedSlice S1024x1 ![0, 0] (V (Proc.devRef .tc main_arg1)) slices_S1024x2_S1024x1_0_0)
              shapeCasts_S1024x1_S1024)
            (V (Proc.devRef .tc main_arg14)) (V (Proc.devRef .tc main_arg15)) (V (Proc.devRef .tc main_arg16))
            (V (Proc.devRef .tc main_arg17)) (V (Proc.devRef .tc main_arg18)) (V (Proc.devRef .tc main_arg19))
            (V (Proc.devRef .tc main_arg20)) (V (Proc.devRef .tc main_arg21)) (V (Proc.devRef .tc main_arg22)))
          (neHost (V (Proc.devRef .tc main_arg9))
            (shapeCast S1024 (extractStridedSlice S1024x1 ![0, 0] (V (Proc.devRef .tc main_arg1)) slices_S1024x2_S1024x1_0_0)
              shapeCasts_S1024x1_S1024)
            (V (Proc.devRef .tc main_arg14)) (V (Proc.devRef .tc main_arg15)) (V (Proc.devRef .tc main_arg16))
            (V (Proc.devRef .tc main_arg17)) (V (Proc.devRef .tc main_arg18)) (V (Proc.devRef .tc main_arg19))
            (V (Proc.devRef .tc main_arg20)) (V (Proc.devRef .tc main_arg21)) (V (Proc.devRef .tc main_arg22)))
          (neHost (V (Proc.devRef .tc main_arg11))
            (shapeCast S1024 (extractStridedSlice S1024x1 ![0, 1] (V (Proc.devRef .tc main_arg1)) slices_S1024x2_S1024x1_0_1)
              shapeCasts_S1024x1_S1024)
            (V (Proc.devRef .tc main_arg14)) (V (Proc.devRef .tc main_arg15)) (V (Proc.devRef .tc main_arg16))
            (V (Proc.devRef .tc main_arg17)) (V (Proc.devRef .tc main_arg18)) (V (Proc.devRef .tc main_arg19))
            (V (Proc.devRef .tc main_arg20)) (V (Proc.devRef .tc main_arg21)) (V (Proc.devRef .tc main_arg22)))
          (neHost (V (Proc.devRef .tc main_arg12))
            (shapeCast S1024 (extractStridedSlice S1024x1 ![0, 1] (V (Proc.devRef .tc main_arg1)) slices_S1024x2_S1024x1_0_1)
              shapeCasts_S1024x1_S1024)
            (V (Proc.devRef .tc main_arg14)) (V (Proc.devRef .tc main_arg15)) (V (Proc.devRef .tc main_arg16))
            (V (Proc.devRef .tc main_arg17)) (V (Proc.devRef .tc main_arg18)) (V (Proc.devRef .tc main_arg19))
            (V (Proc.devRef .tc main_arg20)) (V (Proc.devRef .tc main_arg21)) (V (Proc.devRef .tc main_arg22)))
          (V (Proc.devRef .tc main_arg23)) (V (Proc.devRef .tc main_arg24)) (V (Proc.devRef .tc main_arg25)) (V (Proc.devRef .tc main_arg26)) (V (Proc.devRef .tc main_arg27))
          (V (Proc.devRef .tc main_arg28)) (V (Proc.devRef .tc main_arg29)) (V (Proc.devRef .tc main_arg30)) (V (Proc.devRef .tc main_arg31)) (V (Proc.devRef .tc main_arg32)) := by
  have e_seg0_v74 := seg0_v74 (F := F)
  have e_seg1_v149 := seg1_v149 (F := F)
  have e_seg3_v227 := seg3_v227 (F := F)
  have e_seg4_v302 := seg4_v302 (F := F)
  have e_seg6_v380 := seg6_v380 (F := F)
  have e_seg7_v455 := seg7_v455 (F := F)
  have e_seg9_v533 := seg9_v533 (F := F)
  have e_seg10_v608 := seg10_v608 (F := F)
  have e_seg2_v152 := seg2_v152 (F := F)
  have e_seg5_v305 := seg5_v305 (F := F)
  have e_seg8_v458 := seg8_v458 (F := F)
  have e_seg11_v611 := seg11_v611 (F := F)
  have e_seg12_v612 := seg12_v612 (F := F)
  have e_seg12_v613 := seg12_v613 (F := F)
  have e_seg13_v643 := seg13_v643 (F := F)
  have e_seg14_v644 := seg14_v644 (F := F)
  have e_seg14_v645 := seg14_v645 (F := F)
  have e_seg15_cell := seg15_cell (F := F)
  have e_seg15_hid := seg15_hid (F := F)
  have e_seg15_hr := seg15_hr (F := F)
  have e_seg16_cell := seg16_cell (F := F)
  have e_seg16_hid := seg16_hid (F := F)
  have e_seg16_hr := seg16_hr (F := F)
  have e_seg17_cell := seg17_cell (F := F)
  have e_seg17_hid := seg17_hid (F := F)
  have e_seg17_hr := seg17_hr (F := F)
  have e_seg18_cell := seg18_cell (F := F)
  have e_seg18_hid := seg18_hid (F := F)
  have e_seg18_hr := seg18_hr (F := F)
  have e_seg19_v815 := seg19_v815 (F := F)
  have k0 := seg0_keep' (F := F)
  have k1 := seg1_keep' (F := F)
  have k2 := seg2_keep' (F := F)
  have k3 := seg3_keep' (F := F)
  have k4 := seg4_keep' (F := F)
  have k5 := seg5_keep' (F := F)
  have k6 := seg6_keep' (F := F)
  have k7 := seg7_keep' (F := F)
  have k8 := seg8_keep' (F := F)
  have k9 := seg9_keep' (F := F)
  have k10 := seg10_keep' (F := F)
  have k11 := seg11_keep' (F := F)
  have k12 := seg12_keep' (F := F)
  have k13 := seg13_keep' (F := F)
  have k14 := seg14_keep' (F := F)
  have k15 := seg15_keep' (F := F)
  have k16 := seg16_keep' (F := F)
  have k17 := seg17_keep' (F := F)
  have k18 := seg18_keep' (F := F)
  have k19 := seg19_keep' (F := F)
  simp only [segs, after_append]
  generalize seg0 (F := F) = s0 at *
  generalize seg1 (F := F) = s1 at *
  generalize seg2 (F := F) = s2 at *
  generalize seg3 (F := F) = s3 at *
  generalize seg4 (F := F) = s4 at *
  generalize seg5 (F := F) = s5 at *
  generalize seg6 (F := F) = s6 at *
  generalize seg7 (F := F) = s7 at *
  generalize seg8 (F := F) = s8 at *
  generalize seg9 (F := F) = s9 at *
  generalize seg10 (F := F) = s10 at *
  generalize seg11 (F := F) = s11 at *
  generalize seg12 (F := F) = s12 at *
  generalize seg13 (F := F) = s13 at *
  generalize seg14 (F := F) = s14 at *
  generalize seg15 (F := F) = s15 at *
  generalize seg16 (F := F) = s16 at *
  generalize seg17 (F := F) = s17 at *
  generalize seg18 (F := F) = s18 at *
  generalize seg19 (F := F) = s19 at *
  simp (disch := decide) only [
    e_seg0_v74, e_seg1_v149, e_seg3_v227, e_seg4_v302, e_seg6_v380, e_seg7_v455, e_seg9_v533, e_seg10_v608,
    e_seg2_v152, e_seg5_v305, e_seg8_v458, e_seg11_v611, e_seg12_v612, e_seg12_v613, e_seg13_v643,
    e_seg14_v644, e_seg14_v645, e_seg15_cell, e_seg15_hid, e_seg15_hr, e_seg16_cell, e_seg16_hid, e_seg16_hr,
    e_seg17_cell, e_seg17_hid, e_seg17_hr, e_seg18_cell, e_seg18_hid, e_seg18_hr, e_seg19_v815, k0,
    k1, k2, k3, k4, k5, k6, k7, k8,
    k9, k10, k11, k12, k13, k14, k15, k16,
    k17, k18, k19]
  rfl

end Cert.ReferenceIdeal.Val

end
-- ==== Proof.RefNE.lean ====
import proofs.«427183_j33938831573494_3_alg».proof.Proof.RefNEDefs
import proofs.«427183_j33938831573494_3_alg».proof.Proof.Spec
import Idealize.ShloMosaic.Lib.ValueIdx
import Idealize.ShloMosaic.Lib.Pipeline.Value
import Idealize.ShloMosaic.PureOps.Ideal.Laws

noncomputable section

namespace Cert.ReferenceIdeal.Val

open Idealize.ShloMosaic Idealize.ShloMosaic.ValueIdx Cert.ReferenceIdeal
open Cert.ReferenceIdeal.Facts₀

section AtIdeal

variable [Facts₀]

theorem neStart_apply (conn : IVec S1024x64x2 32) (off : Fin S1024x64x2.rank → Nat)
    (h : S1024x64x2.Slices off S1024x64x1) (c : Fin 2) (h0 : off 0 = 0) (h1 : off 1 = 0) (h2 : off 2 = c.val)
    (r : Fin 1024) (n : Fin 64) :
    neStart conn off h (ix3 r n 0) = Spec.normIdx (conn (ix3 r n c)) := by
  have e : shapeCast S1024x64 (extractStridedSlice S1024x64x1 off conn h) shapeCasts_S1024x64x1_S1024x64 (ix2 r n)
      = conn (ix3 r n c) := by
    refine (shapeCast_apply _ _ (ix2 r n) (ix3 r n 0) ?_).trans ?_
    · rw [Shape.rowMajor_val_three, Shape.rowMajor_val_two]
      show ((r.val * 64 + n.val) * 1 + 0) = r.val * 64 + n.val
      omega
    · refine extractStridedSlice_apply off conn h (ix3 r n 0) (ix3 r n c) fun a => ?_
      match a with
      | ⟨0, _⟩ => show r.val = off 0 + r.val; omega
      | ⟨1, _⟩ => show n.val = off 1 + n.val; omega
      | ⟨2, _⟩ => show c.val = off 2 + 0; omega
  unfold neStart
  refine (broadcastInDim_apply _ _ _ (ix3 r n 0) (ix2 r n) fun a => ?_).trans ?_
  · match a with
    | ⟨0, _⟩ => rfl
    | ⟨1, _⟩ => rfl
  · show Scalar.select (IntOp.cmpi .slt _ 0#32) (IntOp.addi _ 100001#32) _ = _
    rw [e]
    rfl

abbrev G3 : GatherDims S100001x128 S1024x64x1 S1024x64x128 :=
  gather_S100001x128_S1024x64x1_S1024x64x128_2_0_n_n_0_2_1128

theorem gather3_apply {α : Type} (x : S100001x128.Idx → α) (idx : IVec S1024x64x1 32) (r : Fin 1024) (n : Fin 64)
    (k : Fin 128) (w : BitVec 32) (hw : idx (ix3 r n 0) = w) :
    Host.gather G3 x idx (ix3 r n k) = x (ix2 ⟨min w.toInt.toNat 100000, by omega⟩ k) := by
  subst hw
  unfold Host.gather
  refine congrArg x (funext fun a => Fin.ext ?_)
  match a with
  | ⟨0, _⟩ =>

    show G3.start (ix3 r n k) idx 0 + G3.batchCoord (ix3 r n k) 0 + G3.offCoord (ix3 r n k) 0
      = min (idx (ix3 r n 0)).toInt.toNat 100000
    have hb : G3.batchCoord (ix3 r n k) 0 = 0 := G3.batchCoord_eq_zero _ _ List.not_mem_nil
    have ho : G3.offCoord (ix3 r n k) 0 = 0 :=
      G3.offCoord_eq_zero _ _ fun h => ((G3.mem_sKept _).mp h).1 (List.mem_singleton.mpr rfl)
    have hm : (0 : Fin S100001x128.rank) ∈ G3.startIndexMap := List.mem_singleton.mpr rfl
    have hs : G3.start (ix3 r n k) idx 0 = min (idx (ix3 r n 0)).toInt.toNat 100000 := by
      unfold GatherDims.start
      rw [dif_pos hm]
      have hsi : G3.siIdx (ix3 r n k) ⟨List.idxOf (0 : Fin S100001x128.rank) G3.startIndexMap,
          List.idxOf_lt_length_iff.2 hm⟩ = ix3 r n 0 := by
        funext b
        refine Fin.ext ?_
        match b with
        | ⟨0, _⟩ => rfl
        | ⟨1, _⟩ => rfl
        | ⟨2, _⟩ => rfl
      rw [hsi]
      rfl
    rw [hb, ho, hs]
    rfl
  | ⟨1, _⟩ =>

    show G3.start (ix3 r n k) idx 1 + G3.batchCoord (ix3 r n k) 1 + G3.offCoord (ix3 r n k) 1 = k.val
    have hb : G3.batchCoord (ix3 r n k) 1 = 0 := G3.batchCoord_eq_zero _ _ List.not_mem_nil
    have hs : G3.start (ix3 r n k) idx 1 = 0 := by
      unfold GatherDims.start
      rw [dif_neg fun h : (1 : Fin S100001x128.rank) ∈ G3.startIndexMap => absurd (List.mem_singleton.mp h) (by decide)]
    have ho : G3.offCoord (ix3 r n k) 1 = k.val := by
      unfold GatherDims.offCoord
      rw [dif_pos ((G3.mem_sKept 1).mpr ⟨fun h => absurd (List.mem_singleton.mp h) (by decide), List.not_mem_nil⟩)]
      rfl
    rw [hb, ho, hs]
    omega

abbrev G2 : GatherDims S100001x128 S1024x1 S1024x128 := gather_S100001x128_S1024x1_S1024x128_1_0_n_n_0_1_1128

theorem gather2_apply {α : Type} (x : S100001x128.Idx → α) (idx : IVec S1024x1 32) (r : Fin 1024) (k : Fin 128)
    (w : BitVec 32) (hw : idx (ix2 r 0) = w) :
    Host.gather G2 x idx (ix2 r k) = x (ix2 ⟨min w.toInt.toNat 100000, by omega⟩ k) := by
  subst hw
  unfold Host.gather
  refine congrArg x (funext fun a => Fin.ext ?_)
  match a with
  | ⟨0, _⟩ =>

    show G2.start (ix2 r k) idx 0 + G2.batchCoord (ix2 r k) 0 + G2.offCoord (ix2 r k) 0
      = min (idx (ix2 r 0)).toInt.toNat 100000
    have hb : G2.batchCoord (ix2 r k) 0 = 0 := G2.batchCoord_eq_zero _ _ List.not_mem_nil
    have ho : G2.offCoord (ix2 r k) 0 = 0 :=
      G2.offCoord_eq_zero _ _ fun h => ((G2.mem_sKept _).mp h).1 (List.mem_singleton.mpr rfl)
    have hm : (0 : Fin S100001x128.rank) ∈ G2.startIndexMap := List.mem_singleton.mpr rfl
    have hs : G2.start (ix2 r k) idx 0 = min (idx (ix2 r 0)).toInt.toNat 100000 := by
      unfold GatherDims.start
      rw [dif_pos hm]
      have hsi : G2.siIdx (ix2 r k) ⟨List.idxOf (0 : Fin S100001x128.rank) G2.startIndexMap,
          List.idxOf_lt_length_iff.2 hm⟩ = ix2 r 0 := by
        funext b
        refine Fin.ext ?_
        match b with
        | ⟨0, _⟩ => rfl
        | ⟨1, _⟩ => rfl
      rw [hsi]
      rfl
    rw [hb, ho, hs]
    rfl
  | ⟨1, _⟩ =>

    show G2.start (ix2 r k) idx 1 + G2.batchCoord (ix2 r k) 1 + G2.offCoord (ix2 r k) 1 = k.val
    have hb : G2.batchCoord (ix2 r k) 1 = 0 := G2.batchCoord_eq_zero _ _ List.not_mem_nil
    have hs : G2.start (ix2 r k) idx 1 = 0 := by
      unfold GatherDims.start
      rw [dif_neg fun h : (1 : Fin S100001x128.rank) ∈ G2.startIndexMap =>
        absurd (List.mem_singleton.mp h) (by decide)]
    have ho : G2.offCoord (ix2 r k) 1 = k.val := by
      unfold GatherDims.offCoord
      rw [dif_pos ((G2.mem_sKept 1).mpr ⟨fun h => absurd (List.mem_singleton.mp h) (by decide), List.not_mem_nil⟩)]
      rfl
    rw [hb, ho, hs]
    omega

abbrev tab (emb : FVec Ideal S100001x128 .f32) : Fin 100001 → Fin 128 → EReal := fun i k => emb (ix2 i k)

theorem neOwn_apply (ids : IVec S1024 32) (emb : FVec Ideal S100001x128 .f32) (r : Fin 1024) (k : Fin 128) :
    neOwn ids emb (ix2 r k) = Spec.look (tab emb) (ids (ix1 r)) k := by
  unfold neOwn
  have e : broadcastInDim S1024x1 ![0] bcast_S1024_S1024x1_0
      (select (cmpi .slt ids (broadcastInDim S1024 ![] bcast_S_S1024 (constantI S_ 32 0#32)))
        (addi ids (broadcastInDim S1024 ![] bcast_S_S1024 (constantI S_ 32 100001#32))) ids) (ix2 r 0)
      = Spec.normIdx (ids (ix1 r)) := by
    refine (broadcastInDim_apply _ _ _ (ix2 r 0) (ix1 r) fun a => ?_).trans rfl
    match a with
    | ⟨0, _⟩ => rfl
  exact gather2_apply emb _ r k _ e

theorem neCat_apply (conn : IVec S1024x64x2 32) (emb : FVec Ideal S100001x128 .f32) (r : Fin 1024) (n : Fin 64)
    (k : Fin 256) :
    neCat conn emb (ix3 r n k)
      = Spec.cat (A := 128) (B := 128) (Spec.look (tab emb) (conn (ix3 r n 0))) (Spec.look (tab emb) (conn (ix3 r n 1)))
          ⟨k.val, k.isLt⟩ := by
  unfold neCat Spec.cat
  by_cases hk : k.val < 128
  · rw [dif_pos hk]
    refine (concatenate_pair_apply_left (t := S1024x64x256) (s₁ := S1024x64x128) (s₂ := S1024x64x128) _ _ _ _ (ix3 r n k) rfl
      (ix3 r n ⟨k.val, hk⟩) fun b => ?_).trans ?_
    · match b with
      | ⟨0, _⟩ => rfl
      | ⟨1, _⟩ => rfl
      | ⟨2, _⟩ => rfl
    · exact gather3_apply emb _ r n ⟨k.val, hk⟩ _ (neStart_apply conn _ _ 0 rfl rfl rfl r n)
  · rw [dif_neg hk]
    have hk' : k.val - 128 < 128 := by have := k.isLt; omega
    refine (concatenate_pair_apply_right (t := S1024x64x256) (s₁ := S1024x64x128) (s₂ := S1024x64x128) _ _ _ _ (ix3 r n k) rfl rfl
      (ix3 r n ⟨k.val - 128, hk'⟩) (fun b hb => ?_) ?_).trans ?_
    · match b with
      | ⟨0, _⟩ => rfl
      | ⟨1, _⟩ => rfl
      | ⟨2, _⟩ => exact absurd rfl hb
    · show k.val - 128 + 128 = k.val
      omega
    · exact gather3_apply emb _ r n ⟨k.val - 128, hk'⟩ _ (neStart_apply conn _ _ 1 rfl rfl rfl r n)

abbrev D1 : DotDims S1024x64x256 S128x256 S1024x64x128 := dot_S1024x64x256_S128x256_S1024x64x128_2_1_01_0_n_n

theorem dot1_apply (x : FVec Ideal S1024x64x256 .f32) (W : FVec Ideal S128x256 .f32) (r : Fin 1024) (n : Fin 64)
    (e : Fin 128) :
    Host.dotGeneral D1 none x W (ix3 r n e) = ∑ k : Fin 256, x (ix3 r n k) * W (ix2 e k) := by
  refine (Ideal.dotGeneral_apply D1 none .single x W (ix3 r n e)).trans ?_
  refine (Equiv.sum_comp (contrEquiv1 D1 256 rfl rfl).symm _).symm.trans (Finset.sum_congr rfl fun k _ => ?_)
  have hk := contrEquiv1_symm_val D1 256 rfl rfl k

  have l0 : ∀ q, (D1.lhsIdx (ix3 r n e) q 0).val = r.val := fun q => by
    unfold DotDims.lhsIdx
    rw [dif_neg (show ¬ (0 : Fin S1024x64x256.rank) ∈ D1.lhsBatch from List.not_mem_nil),
      dif_pos (show (0 : Fin S1024x64x256.rank) ∈ D1.lhsNonContracting from List.mem_cons_self)]
    rfl
  have l1 : ∀ q, (D1.lhsIdx (ix3 r n e) q 1).val = n.val := fun q => by
    unfold DotDims.lhsIdx
    rw [dif_neg (show ¬ (1 : Fin S1024x64x256.rank) ∈ D1.lhsBatch from List.not_mem_nil),
      dif_pos (show (1 : Fin S1024x64x256.rank) ∈ D1.lhsNonContracting from List.mem_cons_of_mem _ List.mem_cons_self)]
    rfl
  have l2 := fun q => D1.lhsIdx_val_of_single (cl := 2) rfl (ix3 r n e) q

  have r0 : ∀ q, (D1.rhsIdx (ix3 r n e) q 0).val = e.val := fun q => by
    unfold DotDims.rhsIdx
    rw [dif_neg (show ¬ (0 : Fin S128x256.rank) ∈ D1.rhsBatch from List.not_mem_nil),
      dif_pos (show (0 : Fin S128x256.rank) ∈ D1.rhsNonContracting from List.mem_cons_self)]
    rfl
  have r1 := fun q => D1.rhsIdx_val_of_single (cr := 1) rfl (ix3 r n e) q
  have el : D1.lhsIdx (ix3 r n e) ((contrEquiv1 D1 256 rfl rfl).symm k) = ix3 r n k := funext fun a => Fin.ext (by
    match a with
    | ⟨0, _⟩ => exact l0 _
    | ⟨1, _⟩ => exact l1 _
    | ⟨2, _⟩ => exact (l2 _).trans hk)
  have er : D1.rhsIdx (ix3 r n e) ((contrEquiv1 D1 256 rfl rfl).symm k) = ix2 e k := funext fun a => Fin.ext (by
    match a with
    | ⟨0, _⟩ => exact r0 _
    | ⟨1, _⟩ => exact (r1 _).trans hk)
  rw [el, er]

abbrev D2 : DotDims S1024x64x128 S1x128 S1024x64x1 := dot_S1024x64x128_S1x128_S1024x64x1_2_1_01_0_n_n

theorem dot2_apply (P : FVec Ideal S1024x64x128 .f32) (aW : FVec Ideal S1x128 .f32) (r : Fin 1024) (n : Fin 64) :
    Host.dotGeneral D2 none P aW (ix3 r n 0) = ∑ e : Fin 128, P (ix3 r n e) * aW (ix2 0 e) := by
  refine (Ideal.dotGeneral_apply D2 none .single P aW (ix3 r n 0)).trans ?_
  refine (Equiv.sum_comp (contrEquiv1 D2 128 rfl rfl).symm _).symm.trans (Finset.sum_congr rfl fun k _ => ?_)
  have hk := contrEquiv1_symm_val D2 128 rfl rfl k
  have l0 : ∀ q, (D2.lhsIdx (ix3 r n 0) q 0).val = r.val := fun q => by
    unfold DotDims.lhsIdx
    rw [dif_neg (show ¬ (0 : Fin S1024x64x128.rank) ∈ D2.lhsBatch from List.not_mem_nil),
      dif_pos (show (0 : Fin S1024x64x128.rank) ∈ D2.lhsNonContracting from List.mem_cons_self)]
    rfl
  have l1 : ∀ q, (D2.lhsIdx (ix3 r n 0) q 1).val = n.val := fun q => by
    unfold DotDims.lhsIdx
    rw [dif_neg (show ¬ (1 : Fin S1024x64x128.rank) ∈ D2.lhsBatch from List.not_mem_nil),
      dif_pos (show (1 : Fin S1024x64x128.rank) ∈ D2.lhsNonContracting from List.mem_cons_of_mem _ List.mem_cons_self)]
    rfl
  have l2 := fun q => D2.lhsIdx_val_of_single (cl := 2) rfl (ix3 r n 0) q
  have r0 : ∀ q, (D2.rhsIdx (ix3 r n 0) q 0).val = 0 := fun q => by
    unfold DotDims.rhsIdx
    rw [dif_neg (show ¬ (0 : Fin S1x128.rank) ∈ D2.rhsBatch from List.not_mem_nil),
      dif_pos (show (0 : Fin S1x128.rank) ∈ D2.rhsNonContracting from List.mem_cons_self)]
    rfl
  have r1 := fun q => D2.rhsIdx_val_of_single (cr := 1) rfl (ix3 r n 0) q
  have el : D2.lhsIdx (ix3 r n 0) ((contrEquiv1 D2 128 rfl rfl).symm k) = ix3 r n k := funext fun a => Fin.ext (by
    match a with
    | ⟨0, _⟩ => exact l0 _
    | ⟨1, _⟩ => exact l1 _
    | ⟨2, _⟩ => exact (l2 _).trans hk)
  have er : D2.rhsIdx (ix3 r n 0) ((contrEquiv1 D2 128 rfl rfl).symm k) = ix2 0 k := funext fun a => Fin.ext (by
    match a with
    | ⟨0, _⟩ => exact r0 _
    | ⟨1, _⟩ => exact (r1 _).trans hk)
  rw [el, er]

abbrev D3 : DotDims S1024x128 S128x1 S1024x1 := dot_S1024x128_S128x1_S1024x1_1_0_0_1_n_n

theorem dot3_apply (a : FVec Ideal S1024x128 .f32) (g : FVec Ideal S128x1 .f32) (r : Fin 1024) :
    Host.dotGeneral D3 none a g (ix2 r 0) = ∑ e : Fin 128, a (ix2 r e) * g (ix2 e 0) := by
  refine (Ideal.dotGeneral_apply D3 none .single a g (ix2 r 0)).trans ?_
  refine (Equiv.sum_comp (contrEquiv1 D3 128 rfl rfl).symm _).symm.trans (Finset.sum_congr rfl fun k _ => ?_)
  have hk := contrEquiv1_symm_val D3 128 rfl rfl k
  have l0 : ∀ q, (D3.lhsIdx (ix2 r 0) q 0).val = r.val := fun q => by
    unfold DotDims.lhsIdx
    rw [dif_neg (show ¬ (0 : Fin S1024x128.rank) ∈ D3.lhsBatch from List.not_mem_nil),
      dif_pos (show (0 : Fin S1024x128.rank) ∈ D3.lhsNonContracting from List.mem_cons_self)]
    rfl
  have l1 := fun q => D3.lhsIdx_val_of_single (cl := 1) rfl (ix2 r 0) q
  have r0 := fun q => D3.rhsIdx_val_of_single (cr := 0) rfl (ix2 r 0) q
  have r1 : ∀ q, (D3.rhsIdx (ix2 r 0) q 1).val = 0 := fun q => by
    unfold DotDims.rhsIdx
    rw [dif_neg (show ¬ (1 : Fin S128x1.rank) ∈ D3.rhsBatch from List.not_mem_nil),
      dif_pos (show (1 : Fin S128x1.rank) ∈ D3.rhsNonContracting from List.mem_cons_self)]
    rfl
  have el : D3.lhsIdx (ix2 r 0) ((contrEquiv1 D3 128 rfl rfl).symm k) = ix2 r k := funext fun a => Fin.ext (by
    match a with
    | ⟨0, _⟩ => exact l0 _
    | ⟨1, _⟩ => exact (l1 _).trans hk)
  have er : D3.rhsIdx (ix2 r 0) ((contrEquiv1 D3 128 rfl rfl).symm k) = ix2 k 0 := funext fun a => Fin.ext (by
    match a with
    | ⟨0, _⟩ => exact (r0 _).trans hk
    | ⟨1, _⟩ => exact r1 _)
  rw [el, er]

theorem bias3_apply (v : FVec Ideal S128 .f32) (r : Fin 1024) (n : Fin 64) (e : Fin 128) :
    broadcastInDim S1024x64x128 ![0, 1, 2] bcast_S1x1x128_S1024x64x128_0_1_2
      (broadcastInDim S1x1x128 ![2] bcast_S128_S1x1x128_2 v) (ix3 r n e) = v (ix1 e) := by
  refine (broadcastInDim_apply _ _ _ (ix3 r n e) (ix3 0 0 e) fun a => ?_).trans ?_
  · match a with
    | ⟨0, _⟩ => rfl
    | ⟨1, _⟩ => rfl
    | ⟨2, _⟩ => rfl
  · refine broadcastInDim_apply _ _ _ (ix3 0 0 e) (ix1 e) fun a => ?_
    match a with
    | ⟨0, _⟩ => rfl

theorem nePre_apply (x : FVec Ideal S1024x64x256 .f32) (W : FVec Ideal S128x256 .f32) (wb bb : FVec Ideal S128 .f32)
    (r : Fin 1024) (n : Fin 64) (e : Fin 128) :
    nePre x W wb bb (ix3 r n e) = ((∑ k : Fin 256, x (ix3 r n k) * W (ix2 e k)) + wb (ix1 e)) + bb (ix1 e) := by
  unfold nePre
  show (Host.dotGeneral D1 none x W (ix3 r n e) + _) + _ = _
  rw [dot1_apply, bias3_apply, bias3_apply]

theorem neLrelu_apply (x : FVec Ideal S1024x64x128 .f32) (i : S1024x64x128.Idx) : neLrelu x i = Spec.lrelu (x i) := rfl

theorem neScore_apply (P : FVec Ideal S1024x64x128 .f32) (aW : FVec Ideal S1x128 .f32) (ab : FVec Ideal S1 .f32)
    (r : Fin 1024) (n : Fin 64) :
    neScore P aW ab (ix3 r n 0) = (∑ e : Fin 128, P (ix3 r n e) * aW (ix2 0 e)) + ab (ix1 0) := by
  unfold neScore
  show Host.dotGeneral D2 none P aW (ix3 r n 0) + _ = _
  rw [dot2_apply]
  congr 1
  refine (broadcastInDim_apply _ _ _ (ix3 r n 0) (ix3 0 0 0) fun a => ?_).trans ?_
  · match a with
    | ⟨0, _⟩ => rfl
    | ⟨1, _⟩ => rfl
    | ⟨2, _⟩ => rfl
  · refine broadcastInDim_apply _ _ _ (ix3 0 0 0) (ix1 0) fun a => ?_
    match a with
    | ⟨0, _⟩ => rfl

theorem ninf_eq_bot : Ideal.ofBits .f32 0xFF800000#32 = (⊥ : EReal) := by
  simp [Ideal.ofBits, Ideal.ieee]

theorem w1_eq_one : Ideal.ofBits .f32 0x3F800000#32 = (1 : EReal) := by
  simp [Ideal.ofBits, Ideal.ieee]
  rw [← EReal.coe_mul, ← EReal.coe_one]
  congr 1
  norm_num

theorem row3_apply (v : FVec Ideal S1024x1 .f32) (r : Fin 1024) (n : Fin 64) :
    broadcastInDim S1024x64x1 ![0, 1, 2] bcast_S1024x1x1_S1024x64x1_0_1_2
      (broadcastInDim S1024x1x1 ![0, 2] bcast_S1024x1_S1024x1x1_0_2 v) (ix3 r n 0) = v (ix2 r 0) := by
  refine (broadcastInDim_apply _ _ _ (ix3 r n 0) (ix3 r 0 0) fun a => ?_).trans ?_
  · match a with
    | ⟨0, _⟩ => rfl
    | ⟨1, _⟩ => rfl
    | ⟨2, _⟩ => rfl
  · refine broadcastInDim_apply _ _ _ (ix3 r 0 0) (ix2 r 0) fun a => ?_
    match a with
    | ⟨0, _⟩ => rfl
    | ⟨1, _⟩ => rfl

theorem red1 : S1024x64x1.Reduces [1] S1024x1 := by decide

theorem red1_lift (r : Fin 1024) (n : Fin 64) : red1.lift (ix2 r 0) n = ix3 r n 0 :=
  funext fun a => Fin.ext (by
    match a with
    | ⟨0, _⟩ => rfl
    | ⟨1, _⟩ => rfl
    | ⟨2, _⟩ => rfl)

theorem rowMax_apply (s : FVec Ideal S1024x64x1 .f32) (r : Fin 1024) :
    maximumf (broadcastInDim S1024x1 ![] bcast_S_S1024x1 (constant (F := Ideal) S_ .f32 0xFF800000#32))
      (Host.reduce (FloatOps.maximumf (F := Ideal) (φ := .f32)) s (constant (F := Ideal) S_ .f32 0xFF800000#32)
        reducesTo_S1024x64x1_S1024x1_d1 h_S_) (ix2 r 0)
      = Finset.univ.sup fun n' : Fin 64 => s (ix3 r n' 0) := by
  show max (Ideal.ofBits .f32 0xFF800000#32) (Host.reduce _ s _ _ _ (ix2 r 0)) = _
  rw [Host.reduce_eq_fold_single (FloatOps.maximumf (F := Ideal) (φ := .f32)) s _ reducesTo_S1024x64x1_S1024x1_d1 red1 h_S_
    (ix2 r 0)]
  have hf : (s ∘ red1.lift (ix2 r 0)) = fun n' : Fin 64 => s (ix3 r n' 0) :=
    funext fun n' => congrArg s (red1_lift r n')
  rw [hf]
  show max (Ideal.ofBits .f32 0xFF800000#32) (Finset.univ.fold max (Ideal.ofBits .f32 0xFF800000#32) _) = _
  rw [ninf_eq_bot, max_eq_right bot_le]
  rfl

theorem neExp_apply (s : FVec Ideal S1024x64x1 .f32) (r : Fin 1024) (n : Fin 64) :
    neExp s (ix3 r n 0) = Ideal.exp (s (ix3 r n 0) - Finset.univ.sup fun n' : Fin 64 => s (ix3 r n' 0)) := by
  unfold neExp
  show Ideal.exp (s (ix3 r n 0) - _) = _
  rw [row3_apply, rowMax_apply]

theorem neSoft_apply (x : FVec Ideal S1024x64x1 .f32) (r : Fin 1024) (n : Fin 64) :
    neSoft x (ix3 r n 0) = Ideal.div (x (ix3 r n 0)) (∑ n' : Fin 64, x (ix3 r n' 0)) := by
  unfold neSoft
  show Ideal.div (x (ix3 r n 0)) _ = _
  rw [row3_apply]
  show Ideal.div _ (Ideal.hostReduceAdd reducesTo_S1024x64x1_S1024x1_d1 x (Ideal.ofBits .f32 0x00000000#32) (ix2 r 0)) = _
  rw [Ideal.hostReduceAdd_single reducesTo_S1024x64x1_S1024x1_d1 red1, Ideal.ofBits_zero_f32, zero_add]
  exact congrArg _ (Finset.sum_congr rfl fun n' _ => congrArg x (red1_lift r n'))

theorem red2 : S1024x64x128.Reduces [1] S1024x128 := by decide

theorem red2_lift (r : Fin 1024) (e : Fin 128) (n : Fin 64) : red2.lift (ix2 r e) n = ix3 r n e :=
  funext fun a => Fin.ext (by
    match a with
    | ⟨0, _⟩ => rfl
    | ⟨1, _⟩ => rfl
    | ⟨2, _⟩ => rfl)

theorem neAgg_apply (P : FVec Ideal S1024x64x128 .f32) (w : FVec Ideal S1024x64x1 .f32) (r : Fin 1024) (e : Fin 128) :
    neAgg P w (ix2 r e) = ∑ n : Fin 64, P (ix3 r n e) * w (ix3 r n 0) := by
  unfold neAgg
  show Ideal.hostReduceAdd reducesTo_S1024x64x128_S1024x128_d1 _ (Ideal.ofBits .f32 0x00000000#32) (ix2 r e) = _
  rw [Ideal.hostReduceAdd_single reducesTo_S1024x64x128_S1024x128_d1 red2, Ideal.ofBits_zero_f32, zero_add]
  refine Finset.sum_congr rfl fun n _ => ?_
  refine (congrArg (mulf P _) (red2_lift r e n)).trans ?_
  show P (ix3 r n e) * _ = _
  refine congrArg (P (ix3 r n e) * ·) ?_
  refine broadcastInDim_apply _ _ _ (ix3 r n e) (ix3 r n 0) fun a => ?_
  match a with
  | ⟨0, _⟩ => rfl
  | ⟨1, _⟩ => rfl
  | ⟨2, _⟩ => rfl

theorem bias1_apply (v : FVec Ideal S1 .f32) (r : Fin 1024) :
    broadcastInDim S1024x1 ![0, 1] bcast_S1x1_S1024x1_0_1 (broadcastInDim S1x1 ![1] bcast_S1_S1x1_1 v) (ix2 r 0)
      = v (ix1 0) := by
  refine (broadcastInDim_apply _ _ _ (ix2 r 0) (ix2 0 0) fun a => ?_).trans ?_
  · match a with
    | ⟨0, _⟩ => rfl
    | ⟨1, _⟩ => rfl
  · refine broadcastInDim_apply _ _ _ (ix2 0 0) (ix1 0) fun a => ?_
    match a with
    | ⟨0, _⟩ => rfl

theorem gateCol_apply (gW : FVec Ideal S1x128 .f32) (e : Fin 128) :
    transpose S128x1 [1, 0] gW transposes_S1x128_S128x1_1_0 (ix2 e 0) = gW (ix2 0 e) := by
  refine transpose_apply _ gW _ (ix2 e 0) (ix2 0 e) fun b => ?_
  match b with
  | ⟨0, _⟩ => rfl
  | ⟨1, _⟩ => rfl

theorem neGate_apply (a : FVec Ideal S1024x128 .f32) (gW : FVec Ideal S1x128 .f32) (gwb gb : FVec Ideal S1 .f32)
    (r : Fin 1024) :
    neGate a gW gwb gb (ix2 r 0)
      = Ideal.logistic (((∑ e : Fin 128, a (ix2 r e) * gW (ix2 0 e)) + gwb (ix1 0)) + gb (ix1 0)) := by
  unfold neGate Ideal.logistic
  show Ideal.div (Ideal.ofBits .f32 0x3F800000#32)
    (Ideal.ofBits .f32 0x3F800000#32 + Ideal.exp (-((Host.dotGeneral D3 none a _ (ix2 r 0) + _) + _))) = _
  rw [w1_eq_one, dot3_apply, bias1_apply, bias1_apply]
  refine congrArg (fun t => Ideal.div 1 (1 + Ideal.exp (-((t + gwb (ix1 0)) + gb (ix1 0))))) ?_
  exact Finset.sum_congr rfl fun e _ => congrArg (a (ix2 r e) * ·) (gateCol_apply gW e)

theorem neMix_apply (g : FVec Ideal S1024x1 .f32) (a own : FVec Ideal S1024x128 .f32) (r : Fin 1024) (e : Fin 128) :
    neMix g a own (ix2 r e) = g (ix2 r 0) * a (ix2 r e) + (Spec.w1 - g (ix2 r 0)) * own (ix2 r e) := by
  have hb : ∀ v : FVec Ideal S1024x1 .f32,
      broadcastInDim S1024x128 ![0, 1] bcast_S1024x1_S1024x128_0_1 v (ix2 r e) = v (ix2 r 0) := fun v => by
    refine broadcastInDim_apply _ _ _ (ix2 r e) (ix2 r 0) fun a => ?_
    match a with
    | ⟨0, _⟩ => rfl
    | ⟨1, _⟩ => rfl
  unfold neMix
  exact congrArg₂ (· + ·) (congrArg (· * a (ix2 r e)) (hb g)) (congrArg (· * own (ix2 r e)) (hb _))

theorem neProj_row (conn : IVec S1024x64x2 32) (emb : FVec Ideal S100001x128 .f32) (W : FVec Ideal S128x256 .f32)
    (wb bb : FVec Ideal S128 .f32) (r : Fin 1024) (n : Fin 64) (e : Fin 128) :
    neLrelu (nePre (neCat conn emb) W wb bb) (ix3 r n e)
      = Spec.proj (fun n k => Spec.look (tab emb) (conn (ix3 r n 0)) k) (fun n k => Spec.look (tab emb) (conn (ix3 r n 1)) k)
          (fun e' k => W (ix2 e' k)) (fun e' => wb (ix1 e')) (fun e' => bb (ix1 e')) n e := by
  rw [neLrelu_apply, nePre_apply]
  unfold Spec.proj
  refine congrArg (fun t => Spec.lrelu ((t + wb (ix1 e)) + bb (ix1 e))) ?_
  refine Finset.sum_congr rfl fun k _ => ?_
  rw [neCat_apply]

theorem neScore_row (P : FVec Ideal S1024x64x128 .f32) (aW : FVec Ideal S1x128 .f32) (ab : FVec Ideal S1 .f32)
    (r : Fin 1024) (Pf : Fin 64 → Fin 128 → EReal) (hP : ∀ n e, P (ix3 r n e) = Pf n e) (n : Fin 64) :
    neScore P aW ab (ix3 r n 0) = Spec.score Pf (fun e => aW (ix2 0 e)) (ab (ix1 0)) n := by
  rw [neScore_apply]
  unfold Spec.score
  exact congrArg (· + ab (ix1 0)) (Finset.sum_congr rfl fun e _ => congrArg (· * aW (ix2 0 e)) (hP n e))

theorem neSoft_row (s : FVec Ideal S1024x64x1 .f32) (r : Fin 1024) (sf : Fin 64 → EReal)
    (hs : ∀ n, s (ix3 r n 0) = sf n) (n : Fin 64) :
    neSoft (neExp s) (ix3 r n 0) = Spec.softw sf n := by
  have hf : (fun n' : Fin 64 => s (ix3 r n' 0)) = sf := funext hs
  rw [neSoft_apply]
  unfold Spec.softw Spec.smax
  rw [neExp_apply, hf, hs n]
  refine congrArg (Ideal.div _) (Finset.sum_congr rfl fun n' _ => ?_)
  rw [neExp_apply, hf, hs n']

theorem neAgg_row (P : FVec Ideal S1024x64x128 .f32) (w : FVec Ideal S1024x64x1 .f32) (r : Fin 1024)
    (Pf : Fin 64 → Fin 128 → EReal) (wf : Fin 64 → EReal) (hP : ∀ n e, P (ix3 r n e) = Pf n e)
    (hw : ∀ n, w (ix3 r n 0) = wf n) (e : Fin 128) :
    neAgg P w (ix2 r e) = Spec.agg Pf wf e := by
  rw [neAgg_apply]
  unfold Spec.agg
  exact Finset.sum_congr rfl fun n _ => by rw [hP n e, hw n]

theorem neGate_row (a : FVec Ideal S1024x128 .f32) (gW : FVec Ideal S1x128 .f32) (gwb gb : FVec Ideal S1 .f32)
    (r : Fin 1024) (af : Fin 128 → EReal) (ha : ∀ e, a (ix2 r e) = af e) :
    neGate a gW gwb gb (ix2 r 0) = Spec.gate af (fun e => gW (ix2 0 e)) (gwb (ix1 0)) (gb (ix1 0)) := by
  rw [neGate_apply]
  unfold Spec.gate
  refine congrArg (fun t => Ideal.logistic ((t + gwb (ix1 0)) + gb (ix1 0))) ?_
  exact Finset.sum_congr rfl fun e _ => congrArg (· * gW (ix2 0 e)) (ha e)

theorem neHost_apply (conn : IVec S1024x64x2 32) (ids : IVec S1024 32) (emb : FVec Ideal S100001x128 .f32)
    (W : FVec Ideal S128x256 .f32) (wb bb : FVec Ideal S128 .f32) (aW : FVec Ideal S1x128 .f32) (ab : FVec Ideal S1 .f32)
    (gW : FVec Ideal S1x128 .f32) (gwb gb : FVec Ideal S1 .f32) (r : Fin 1024) (e : Fin 128) :
    neHost conn ids emb W wb bb aW ab gW gwb gb (ix2 r e)
      = Spec.neRow (fun n k => Spec.look (fun i k' => emb (ix2 i k')) (conn (ix3 r n 0)) k)
          (fun n k => Spec.look (fun i k' => emb (ix2 i k')) (conn (ix3 r n 1)) k)
          (Spec.look (fun i k' => emb (ix2 i k')) (ids (ix1 r))) (fun e' k => W (ix2 e' k)) (fun e' => wb (ix1 e'))
          (fun e' => bb (ix1 e')) (fun e' => aW (ix2 0 e')) (ab (ix1 0)) (fun e' => gW (ix2 0 e')) (gwb (ix1 0))
          (gb (ix1 0)) e := by
  have hP := neProj_row conn emb W wb bb r
  have hS := neScore_row _ aW ab r _ hP
  have hW := neSoft_row _ r _ hS
  have hA := neAgg_row _ _ r _ _ hP hW
  have hG := neGate_row _ gW gwb gb r _ hA
  unfold neHost
  refine (neMix_apply _ _ _ r e).trans ?_
  rw [hG, hA e, neOwn_apply]
  rfl

end AtIdeal

end Cert.ReferenceIdeal.Val

end
-- ==== Proof.RefTail.lean ====
import proofs.«427183_j33938831573494_3_alg».proof.Proof.RefTailDefs
import proofs.«427183_j33938831573494_3_alg».proof.Proof.Spec
import Idealize.ShloMosaic.Lib.ValueIdx
import Idealize.ShloMosaic.Lib.IdealHost
import Idealize.ShloMosaic.Lib.ValueLayout
import Idealize.ShloMosaic.PureOps.Ideal.Laws

noncomputable section

namespace Cert.ReferenceIdeal.Val

open Cert.ReferenceIdeal Idealize.ShloMosaic Idealize.ShloMosaic.ValueIdx
open scoped BigOperators

variable [Facts]
open Facts₀ Facts

section Reads

variable {α : Type}

theorem bconst_apply {T : Shape} (h : S_.BroadcastsInDim T ![]) (w : BitVec 32) (j : T.Idx) :
    broadcastInDim T ![] h (constant (F := Ideal) S_ .f32 w) j = Ideal.ofBits .f32 w := by
  rw [broadcastInDim_scalar_apply]; rfl

theorem rowBcast_apply {m n : Nat} (h1 : (⟨1, ![n]⟩ : Shape).BroadcastsInDim ⟨2, ![1, n]⟩ ![1])
    (h2 : (⟨2, ![1, n]⟩ : Shape).BroadcastsInDim ⟨2, ![m, n]⟩ ![0, 1]) (x : (⟨1, ![n]⟩ : Shape).Idx → α)
    (r : Fin m) (j : Fin n) :
    broadcastInDim ⟨2, ![m, n]⟩ ![0, 1] h2 (broadcastInDim ⟨2, ![1, n]⟩ ![1] h1 x) (ix2 r j) = x (ix1 j) := by
  refine (broadcastInDim_apply _ h2 _ (ix2 r j) (ix2 (0 : Fin 1) j) fun a => ?_).trans
    (broadcastInDim_apply _ h1 x (ix2 (0 : Fin 1) j) (ix1 j) fun a => ?_)
  · match a with
    | ⟨0, _⟩ => exact (if_pos rfl).symm
    | ⟨1, _⟩ =>
      show j.val = if n = 1 then 0 else j.val
      split_ifs with hn
      · have := j.isLt; omega
      · rfl
  · match a with
    | ⟨0, _⟩ =>
      show j.val = if n = 1 then 0 else j.val
      split_ifs with hn
      · have := j.isLt; omega
      · rfl

theorem colBcast_apply {m n : Nat} (h : (⟨2, ![m, 1]⟩ : Shape).BroadcastsInDim ⟨2, ![m, n]⟩ ![0, 1])
    (x : (⟨2, ![m, 1]⟩ : Shape).Idx → α) (r : Fin m) (j : Fin n) :
    broadcastInDim ⟨2, ![m, n]⟩ ![0, 1] h x (ix2 r j) = x (ix2 r (0 : Fin 1)) := by
  refine broadcastInDim_apply _ h x (ix2 r j) (ix2 r (0 : Fin 1)) fun a => ?_
  match a with
  | ⟨0, _⟩ =>
    show r.val = if m = 1 then 0 else r.val
    split_ifs with hm
    · have := r.isLt; omega
    · rfl
  | ⟨1, _⟩ => exact (if_pos rfl).symm

theorem toCol_apply {m : Nat} (h : (⟨1, ![m]⟩ : Shape).BroadcastsInDim ⟨2, ![m, 1]⟩ ![0])
    (x : (⟨1, ![m]⟩ : Shape).Idx → α) (r : Fin m) (u : Fin 1) :
    broadcastInDim ⟨2, ![m, 1]⟩ ![0] h x (ix2 r u) = x (ix1 r) := by
  refine broadcastInDim_apply _ h x (ix2 r u) (ix1 r) fun a => ?_
  match a with
  | ⟨0, _⟩ =>
    show r.val = if m = 1 then 0 else r.val
    split_ifs with hm
    · have := r.isLt; omega
    · rfl

theorem rowSum_apply {m n : Nat} (h' : (⟨2, ![m, n]⟩ : Shape).ReducesTo [1] ⟨1, ![m]⟩) (hu : 0 < S_.numel)
    (x : FVec Ideal ⟨2, ![m, n]⟩ .f32) (r : Fin m) :
    Host.reduceAdd x (constant S_ .f32 0x00000000#32) h' hu (ix1 r) = ∑ k : Fin n, x (ix2 r k) := by
  have h : (⟨2, ![m, n]⟩ : Shape).Reduces [1] ⟨1, ![m]⟩ := ⟨h'.1, Nat.one_pos, h'.2⟩
  rw [hostReduceAdd_apply, Ideal.hostReduceAdd_single h' h]
  show Ideal.ofBits .f32 0x00000000#32 + _ = _
  rw [Ideal.ofBits_zero_f32, zero_add]
  refine Finset.sum_congr rfl fun k _ => congrArg x ?_
  funext a; apply Fin.ext
  match a with
  | ⟨0, _⟩ => rfl
  | ⟨1, _⟩ => rfl

abbrev mm {m K n : Nat} (hwf : DotDims.WF ⟨2, ![m, K]⟩ ⟨2, ![K, n]⟩ ⟨2, ![m, n]⟩ [1] [0] [0] [1] [] []) :
    DotDims ⟨2, ![m, K]⟩ ⟨2, ![K, n]⟩ ⟨2, ![m, n]⟩ where
  lhsContracting := [1]
  rhsContracting := [0]
  lhsNonContracting := [0]
  rhsNonContracting := [1]
  lhsBatch := []
  rhsBatch := []
  wf := hwf

section MatMul

variable {m K n : Nat} (hwf : DotDims.WF ⟨2, ![m, K]⟩ ⟨2, ![K, n]⟩ ⟨2, ![m, n]⟩ [1] [0] [0] [1] [] [])

theorem mm_lhs_0 (i : (⟨2, ![m, n]⟩ : Shape).Idx) (q : (mm hwf).contr.Idx) :
    ((mm hwf).lhsIdx i q 0).val = (i 0).val := by
  unfold DotDims.lhsIdx
  rw [dif_neg (show ¬(0 : Fin (⟨2, ![m, K]⟩ : Shape).rank) ∈ (mm hwf).lhsBatch from List.not_mem_nil),
    dif_pos (show (0 : Fin (⟨2, ![m, K]⟩ : Shape).rank) ∈ (mm hwf).lhsNonContracting from List.mem_singleton.mpr rfl)]
  rfl

theorem mm_lhs_1 (i : (⟨2, ![m, n]⟩ : Shape).Idx) (q : (mm hwf).contr.Idx) :
    ((mm hwf).lhsIdx i q 1).val = (q ⟨0, Nat.one_pos⟩).val :=
  (mm hwf).lhsIdx_val_of_single rfl i q

theorem mm_rhs_0 (i : (⟨2, ![m, n]⟩ : Shape).Idx) (q : (mm hwf).contr.Idx) :
    ((mm hwf).rhsIdx i q 0).val = (q ⟨0, Nat.one_pos⟩).val :=
  (mm hwf).rhsIdx_val_of_single rfl i q

theorem mm_rhs_1 (i : (⟨2, ![m, n]⟩ : Shape).Idx) (q : (mm hwf).contr.Idx) :
    ((mm hwf).rhsIdx i q 1).val = (i 1).val := by
  unfold DotDims.rhsIdx
  rw [dif_neg (show ¬(1 : Fin (⟨2, ![K, n]⟩ : Shape).rank) ∈ (mm hwf).rhsBatch from List.not_mem_nil),
    dif_pos (show (1 : Fin (⟨2, ![K, n]⟩ : Shape).rank) ∈ (mm hwf).rhsNonContracting from List.mem_singleton.mpr rfl)]
  rfl

theorem mm_apply (l : FVec Ideal ⟨2, ![m, K]⟩ .f32) (rr : FVec Ideal ⟨2, ![K, n]⟩ .f32) (i : Fin m) (j : Fin n) :
    Host.dotGeneral (mm hwf) none l rr (ix2 i j) = ∑ k : Fin K, l (ix2 i k) * rr (ix2 k j) := by
  simp only [Host.dotGeneral]
  rw [Ideal.dotGeneral_apply, ← Equiv.sum_comp (contrEquiv1 (mm hwf) K rfl rfl).symm]
  refine Finset.sum_congr rfl fun k _ => ?_
  have hk := contrEquiv1_symm_val (mm hwf) K rfl rfl k
  have el : (mm hwf).lhsIdx (ix2 i j) ((contrEquiv1 (mm hwf) K rfl rfl).symm k) = ix2 i k :=
    funext fun a => Fin.ext (by
      match a with
      | ⟨0, _⟩ => exact mm_lhs_0 hwf _ _
      | ⟨1, _⟩ => exact (mm_lhs_1 hwf _ _).trans hk)
  have er : (mm hwf).rhsIdx (ix2 i j) ((contrEquiv1 (mm hwf) K rfl rfl).symm k) = ix2 k j :=
    funext fun a => Fin.ext (by
      match a with
      | ⟨0, _⟩ => exact (mm_rhs_0 hwf _ _).trans hk
      | ⟨1, _⟩ => exact mm_rhs_1 hwf _ _)
  rw [el, er]

end MatMul

end Reads

section AtIdeal

theorem dotSup1_apply (l : FVec Ideal S1024x256 .f32) (W : FVec Ideal S512x256 .f32) (i : Fin 1024) (j : Fin 512) :
    Host.dotGeneral dot_S1024x256_S256x512_S1024x512_1_0_0_1_n_n none l
        (transpose S256x512 [1, 0] W transposes_S512x256_S256x512_1_0) (ix2 i j)
      = ∑ k : Fin 256, l (ix2 i k) * W (ix2 j k) :=
  (mm_apply dot_S1024x256_S256x512_S1024x512_1_0_0_1_n_n_wf l _ i j).trans
    (Finset.sum_congr rfl fun k _ => congrArg (l (ix2 i k) * ·) (transpose_ix2_apply W _ k j))

theorem dotSup2_apply (l : FVec Ideal S1024x512 .f32) (W : FVec Ideal S256x512 .f32) (i : Fin 1024) (j : Fin 256) :
    Host.dotGeneral dot_S1024x512_S512x256_S1024x256_1_0_0_1_n_n none l
        (transpose S512x256 [1, 0] W transposes_S256x512_S512x256_1_0) (ix2 i j)
      = ∑ k : Fin 512, l (ix2 i k) * W (ix2 j k) :=
  (mm_apply dot_S1024x512_S512x256_S1024x256_1_0_0_1_n_n_wf l _ i j).trans
    (Finset.sum_congr rfl fun k _ => congrArg (l (ix2 i k) * ·) (transpose_ix2_apply W _ k j))

theorem dotIn_apply (l : FVec Ideal S1024x256 .f32) (W : FVec Ideal S2048x256 .f32) (i : Fin 1024) (j : Fin 2048) :
    Host.dotGeneral dot_S1024x256_S256x2048_S1024x2048_1_0_0_1_n_n none l
        (transpose S256x2048 [1, 0] W transposes_S2048x256_S256x2048_1_0) (ix2 i j)
      = ∑ k : Fin 256, l (ix2 i k) * W (ix2 j k) :=
  (mm_apply dot_S1024x256_S256x2048_S1024x2048_1_0_0_1_n_n_wf l _ i j).trans
    (Finset.sum_congr rfl fun k _ => congrArg (l (ix2 i k) * ·) (transpose_ix2_apply W _ k j))

theorem dotRec_apply (l : FVec Ideal S1024x512 .f32) (W : FVec Ideal S2048x512 .f32) (i : Fin 1024) (j : Fin 2048) :
    Host.dotGeneral dot_S1024x512_S512x2048_S1024x2048_1_0_0_1_n_n none l
        (transpose S512x2048 [1, 0] W transposes_S2048x512_S512x2048_1_0) (ix2 i j)
      = ∑ k : Fin 512, l (ix2 i k) * W (ix2 j k) :=
  (mm_apply dot_S1024x512_S512x2048_S1024x2048_1_0_0_1_n_n_wf l _ i j).trans
    (Finset.sum_congr rfl fun k _ => congrArg (l (ix2 i k) * ·) (transpose_ix2_apply W _ k j))

theorem cat_apply {m A B C : Nat} (hC : A + B = C)
    (h : Shape.Concatenates [(⟨2, ![m, A]⟩ : Shape), ⟨2, ![m, B]⟩] ⟨2, ![m, C]⟩ 1)
    (x₁ : (⟨2, ![m, A]⟩ : Shape).Idx → EReal) (x₂ : (⟨2, ![m, B]⟩ : Shape).Idx → EReal) (r : Fin m) (k : Fin C) :
    concatenate ⟨2, ![m, C]⟩ 1 [⟨⟨2, ![m, A]⟩, x₁⟩, ⟨⟨2, ![m, B]⟩, x₂⟩] h (ix2 r k)
      = Spec.cat (fun e => x₁ (ix2 r e)) (fun e => x₂ (ix2 r e)) ⟨k.val, hC ▸ k.isLt⟩ := by
  unfold Spec.cat
  by_cases hk : k.val < A
  · rw [dif_pos hk]
    exact concatenate_pair_apply_left 1 x₁ x₂ h (ix2 r k) rfl (ix2 r ⟨k.val, hk⟩)
      (fun b => match b with | ⟨0, _⟩ => rfl | ⟨1, _⟩ => rfl)
  · rw [dif_neg hk]
    have hlt : k.val - A < B := by have := k.isLt; omega
    exact concatenate_pair_apply_right 1 x₁ x₂ h (ix2 r k) rfl rfl (ix2 r ⟨k.val - A, hlt⟩)
      (fun b hb => match b, hb with | ⟨0, _⟩, _ => rfl | ⟨1, _⟩, hb => absurd rfl hb)
      (by show k.val - A + A = k.val; omega)

theorem gateSlice_apply (X : FVec Ideal S1024x2048 .f32) (o : Nat) (q : Fin 4) (ho : o = 512 * q.val)
    (h : S1024x2048.Slices ![0, o] S1024x512) (r : Fin 1024) (u : Fin 512) :
    extractStridedSlice S1024x512 ![0, o] X h (ix2 r u) = Spec.blk (fun j => X (ix2 r j)) q u :=
  slice2_axis1_apply o X h r u ⟨u.val + 512 * q.val, by have := q.isLt; have := u.isLt; omega⟩
    (by show u.val + 512 * q.val = o + u.val; omega)

theorem halfSlice_apply (X : FVec Ideal S1024x512 .f32) (h : S1024x512.Slices ![0, 0] S1024x256) (r : Fin 1024)
    (k : Fin 256) : extractStridedSlice S1024x256 ![0, 0] X h (ix2 r k) = X (ix2 r ⟨k.val, by omega⟩) :=
  slice2_axis1_apply 0 X h r k ⟨k.val, by omega⟩ (by show k.val = 0 + k.val; omega)

theorem sigHost_apply (x : FVec Ideal S1024x512 .f32) (i : S1024x512.Idx) : sigHost x i = Ideal.logistic (x i) := by
  show Ideal.div (broadcastInDim S1024x512 ![] bcast_S_S1024x512 (constant (F := Ideal) S_ .f32 0x3F800000#32) i)
      (broadcastInDim S1024x512 ![] bcast_S_S1024x512 (constant (F := Ideal) S_ .f32 0x3F800000#32) i + Ideal.exp (-(x i))) = _
  rw [bconst_apply, Ideal.ofBits_one_f32]
  rfl

theorem avgHost_apply (a b : FVec Ideal S1024x128 .f32) (i : S1024x128.Idx) :
    avgHost a b i = Spec.avg (a i) (b i) := by
  show Ideal.div (a i + b i)
      (broadcastInDim S1024x128 ![] bcast_S_S1024x128 (constant (F := Ideal) S_ .f32 0x40000000#32) i) = _
  rw [bconst_apply]
  rfl

theorem catHost_apply (a b : FVec Ideal S1024x128 .f32) (r : Fin 1024) (k : Fin 256) :
    catHost a b (ix2 r k) = Spec.cat (fun e => a (ix2 r e)) (fun e => b (ix2 r e)) ⟨k.val, k.isLt⟩ :=
  cat_apply (A := 128) (B := 128) rfl concatenates_S1024x128_S1024x128_S1024x256_d1 a b r k

theorem hrHost_apply (h sg : FVec Ideal S1024x256 .f32) (r : Fin 1024) (u : Fin 512) :
    hrHost h sg (ix2 r u) = Spec.cat (fun k => h (ix2 r k)) (fun k => sg (ix2 r k)) ⟨u.val, u.isLt⟩ :=
  cat_apply (A := 256) (B := 256) rfl concatenates_S1024x256_S1024x256_S1024x512_d1 h sg r u

theorem ffhHost_apply (x : FVec Ideal S1024x256 .f32) (W1 : FVec Ideal S512x256 .f32) (b1 : FVec Ideal S512 .f32)
    (r : Fin 1024) (j : Fin 512) :
    ffhHost x W1 b1 (ix2 r j)
      = Spec.ffh (fun k => x (ix2 r k)) (fun j k => W1 (ix2 j k)) (fun j => b1 (ix1 j)) j := by
  show max (Host.dotGeneral dot_S1024x256_S256x512_S1024x512_1_0_0_1_n_n none x
        (transpose S256x512 [1, 0] W1 transposes_S512x256_S256x512_1_0) (ix2 r j)
      + broadcastInDim S1024x512 ![0, 1] bcast_S1x512_S1024x512_0_1
          (broadcastInDim S1x512 ![1] bcast_S512_S1x512_1 b1) (ix2 r j))
      (broadcastInDim S1024x512 ![] bcast_S_S1024x512 (constant (F := Ideal) S_ .f32 0x00000000#32) (ix2 r j)) = _
  rw [dotSup1_apply, rowBcast_apply, bconst_apply]
  rfl

theorem supHost_apply (x : FVec Ideal S1024x256 .f32) (W1 : FVec Ideal S512x256 .f32) (b1 : FVec Ideal S512 .f32)
    (W2 : FVec Ideal S256x512 .f32) (b2 : FVec Ideal S256 .f32) (r : Fin 1024) (i : Fin 256) :
    supHost x W1 b1 W2 b2 (ix2 r i)
      = Spec.ffo (fun k => x (ix2 r k)) (fun j k => W1 (ix2 j k)) (fun j => b1 (ix1 j)) (fun i j => W2 (ix2 i j))
          (fun i => b2 (ix1 i)) i := by
  show (Host.dotGeneral dot_S1024x512_S512x256_S1024x256_1_0_0_1_n_n none (ffhHost x W1 b1)
        (transpose S512x256 [1, 0] W2 transposes_S256x512_S512x256_1_0) (ix2 r i)
      + broadcastInDim S1024x256 ![0, 1] bcast_S1x256_S1024x256_0_1
          (broadcastInDim S1x256 ![1] bcast_S256_S1x256_1 b2) (ix2 r i)) + x (ix2 r i) = _
  rw [dotSup2_apply, rowBcast_apply]
  simp only [ffhHost_apply]
  rfl

theorem meanHost_apply (y : FVec Ideal S1024x256 .f32) (r : Fin 1024) (u : Fin 1) :
    meanHost y (ix2 r u) = Spec.mean (fun i => y (ix2 r i)) := by
  show Ideal.div (broadcastInDim S1024x1 ![0] bcast_S1024_S1024x1_0
        (Host.reduceAdd y (constant (F := Ideal) S_ .f32 0x00000000#32) reducesTo_S1024x256_S1024_d1 h_S_) (ix2 r u))
      (broadcastInDim S1024x1 ![] bcast_S_S1024x1 (constant (F := Ideal) S_ .f32 0x43800000#32) (ix2 r u)) = _
  rw [toCol_apply, rowSum_apply, bconst_apply]
  rfl

theorem ofBits_256_f32 : Ideal.ofBits .f32 0x43800000#32 = ((256 : ℝ) : EReal) := by
  simp [Ideal.ofBits, Ideal.ieee, -EReal.coe_mul]; norm_num

theorem count_eq : Ideal.ofBits .f32 0x43800000#32 - (((0#32 : BitVec 32).toInt : ℝ) : EReal)
    = Ideal.ofBits .f32 0x43800000#32 := by
  have h0 : ((0#32 : BitVec 32).toInt : ℝ) = 0 := by simp
  rw [h0, EReal.coe_zero, sub_zero]

theorem guard_eq : Ideal.cmp .ogt (Ideal.ofBits .f32 0x43800000#32) (Ideal.ofBits .f32 0x00000000#32) = 1#1 := by
  have hpos : (0 : EReal) < ((256 : ℝ) : EReal) := EReal.coe_pos.mpr (by norm_num)
  unfold Ideal.cmp
  rw [Ideal.ofBits_zero_f32, ofBits_256_f32]
  simp [hpos]

theorem varHost_apply (y : FVec Ideal S1024x256 .f32) (r : Fin 1024) (u : Fin 1) :
    varHost y (ix2 r u) = Spec.var (fun i => y (ix2 r i)) := by
  show Scalar.select
      (broadcastInDim S1024x1 ![] bcast_S_S1024x1
        (cmpf .ogt (subf (constant (F := Ideal) S_ .f32 0x43800000#32) (sitofp .f32 (constantI S_ 32 0#32)))
          (constant (F := Ideal) S_ .f32 0x00000000#32)) (ix2 r u))
      (Ideal.div
        (broadcastInDim S1024x1 ![0] bcast_S1024_S1024x1_0
          (Host.reduceAdd
            (mulf (subf y (broadcastInDim S1024x256 ![0, 1] bcast_S1024x1_S1024x256_0_1 (meanHost y)))
              (subf y (broadcastInDim S1024x256 ![0, 1] bcast_S1024x1_S1024x256_0_1 (meanHost y))))
            (constant (F := Ideal) S_ .f32 0x00000000#32) reducesTo_S1024x256_S1024_d1 h_S_) (ix2 r u))
        (broadcastInDim S1024x1 ![] bcast_S_S1024x1
          (subf (constant (F := Ideal) S_ .f32 0x43800000#32) (sitofp .f32 (constantI S_ 32 0#32))) (ix2 r u)))
      (broadcastInDim S1024x1 ![] bcast_S_S1024x1 (id (constant (F := Ideal) S_ .f32 0x7FC00000#32)) (ix2 r u)) = _
  rw [broadcastInDim_scalar_apply, broadcastInDim_scalar_apply bcast_S_S1024x1
    (subf (constant (F := Ideal) S_ .f32 0x43800000#32) (sitofp .f32 (constantI S_ 32 0#32))), toCol_apply, rowSum_apply]
  have hcnt : subf (constant (F := Ideal) S_ .f32 0x43800000#32) (sitofp .f32 (constantI S_ 32 0#32)) ix0
      = Ideal.ofBits .f32 0x43800000#32 := count_eq
  have hg : cmpf .ogt (subf (constant (F := Ideal) S_ .f32 0x43800000#32) (sitofp .f32 (constantI S_ 32 0#32)))
      (constant (F := Ideal) S_ .f32 0x00000000#32) ix0 = 1#1 := by
    show Ideal.cmp .ogt
      (subf (constant (F := Ideal) S_ .f32 0x43800000#32) (sitofp .f32 (constantI S_ 32 0#32)) ix0)
      (Ideal.ofBits .f32 0x00000000#32) = 1#1
    rw [hcnt]; exact guard_eq
  rw [hg, hcnt, select_one]
  refine congrArg (fun t => Ideal.div t (Ideal.ofBits .f32 0x43800000#32)) (Finset.sum_congr rfl fun k _ => ?_)
  show (y (ix2 r k) - broadcastInDim S1024x256 ![0, 1] bcast_S1024x1_S1024x256_0_1 (meanHost y) (ix2 r k))
      * (y (ix2 r k) - broadcastInDim S1024x256 ![0, 1] bcast_S1024x1_S1024x256_0_1 (meanHost y) (ix2 r k)) = _
  rw [colBcast_apply, meanHost_apply]

theorem lnHost_apply (y : FVec Ideal S1024x256 .f32) (lg lb : FVec Ideal S256 .f32) (r : Fin 1024) (i : Fin 256) :
    lnHost y lg lb (ix2 r i)
      = Spec.lnorm (fun i => y (ix2 r i)) (fun i => lg (ix1 i)) (fun i => lb (ix1 i)) i := by
  show (broadcastInDim S1024x256 ![0, 1] bcast_S1x256_S1024x256_0_1
          (broadcastInDim S1x256 ![1] bcast_S256_S1x256_1 lg) (ix2 r i)
        * (y (ix2 r i) - broadcastInDim S1024x256 ![0, 1] bcast_S1024x1_S1024x256_0_1 (meanHost y) (ix2 r i)))
      * broadcastInDim S1024x256 ![0, 1] bcast_S1024x1_S1024x256_0_1
          (Host.rsqrt (addf (varHost y)
            (broadcastInDim S1024x1 ![] bcast_S_S1024x1 (constant (F := Ideal) S_ .f32 0x358637BD#32)))) (ix2 r i)
      + broadcastInDim S1024x256 ![0, 1] bcast_S1x256_S1024x256_0_1
          (broadcastInDim S1x256 ![1] bcast_S256_S1x256_1 lb) (ix2 r i) = _
  rw [rowBcast_apply, rowBcast_apply, colBcast_apply, colBcast_apply, meanHost_apply]
  show (lg (ix1 i) * (y (ix2 r i) - Spec.mean fun i => y (ix2 r i)))
      * Ideal.rsqrt (varHost y (ix2 r (0 : Fin 1))
        + broadcastInDim S1024x1 ![] bcast_S_S1024x1 (constant (F := Ideal) S_ .f32 0x358637BD#32) (ix2 r (0 : Fin 1)))
      + lb (ix1 i) = _
  rw [varHost_apply, bconst_apply]
  rfl

theorem gatesHost_apply (q : FVec Ideal S1024x256 .f32) (hr : FVec Ideal S1024x512 .f32)
    (Wih : FVec Ideal S2048x256 .f32) (Whh : FVec Ideal S2048x512 .f32) (bih bhh : FVec Ideal S2048 .f32)
    (r : Fin 1024) (j : Fin 2048) :
    gatesHost q hr Wih Whh bih bhh (ix2 r j)
      = Spec.gates (fun k => q (ix2 r k)) (fun k => hr (ix2 r k)) (fun j k => Wih (ix2 j k))
          (fun j k => Whh (ix2 j k)) (fun j => bih (ix1 j)) (fun j => bhh (ix1 j)) j := by
  show ((Host.dotGeneral dot_S1024x256_S256x2048_S1024x2048_1_0_0_1_n_n none q
          (transpose S256x2048 [1, 0] Wih transposes_S2048x256_S256x2048_1_0) (ix2 r j)
        + broadcastInDim S1024x2048 ![0, 1] bcast_S1x2048_S1024x2048_0_1
            (broadcastInDim S1x2048 ![1] bcast_S2048_S1x2048_1 bih) (ix2 r j))
      + Host.dotGeneral dot_S1024x512_S512x2048_S1024x2048_1_0_0_1_n_n none hr
          (transpose S512x2048 [1, 0] Whh transposes_S2048x512_S512x2048_1_0) (ix2 r j))
      + broadcastInDim S1024x2048 ![0, 1] bcast_S1x2048_S1024x2048_0_1
          (broadcastInDim S1x2048 ![1] bcast_S2048_S1x2048_1 bhh) (ix2 r j) = _
  rw [dotIn_apply, dotRec_apply, rowBcast_apply, rowBcast_apply]
  rfl

theorem cellHost_apply (G : FVec Ideal S1024x2048 .f32) (c : FVec Ideal S1024x512 .f32) (r : Fin 1024) (u : Fin 512) :
    cellHost G c (ix2 r u) = Spec.cellNext (fun j => G (ix2 r j)) (fun u => c (ix2 r u)) u := by
  show sigHost (extractStridedSlice S1024x512 ![0, 512] G slices_S1024x2048_S1024x512_0_512) (ix2 r u) * c (ix2 r u)
      + sigHost (extractStridedSlice S1024x512 ![0, 0] G slices_S1024x2048_S1024x512_0_0) (ix2 r u)
        * Ideal.tanh (extractStridedSlice S1024x512 ![0, 1024] G slices_S1024x2048_S1024x512_0_1024 (ix2 r u)) = _
  rw [sigHost_apply, sigHost_apply, gateSlice_apply G 512 1 rfl, gateSlice_apply G 0 0 rfl,
    gateSlice_apply G 1024 2 rfl]
  rfl

theorem hidHost_apply (q : FVec Ideal S1024x256 .f32) (G : FVec Ideal S1024x2048 .f32)
    (c' : FVec Ideal S1024x512 .f32) (r : Fin 1024) (k : Fin 256) :
    hidHost q G c' (ix2 r k)
      = Spec.hidNext (fun k => q (ix2 r k)) (Spec.cellOut (fun j => G (ix2 r j)) (fun u => c' (ix2 r u))) k := by
  show q (ix2 r k) + extractStridedSlice S1024x256 ![0, 0]
      (mulf (sigHost (extractStridedSlice S1024x512 ![0, 1536] G slices_S1024x2048_S1024x512_0_1536)) (Host.tanh c'))
      slices_S1024x512_S1024x256_0_0 (ix2 r k) = _
  rw [halfSlice_apply]
  show q (ix2 r k)
      + sigHost (extractStridedSlice S1024x512 ![0, 1536] G slices_S1024x2048_S1024x512_0_1536) (ix2 r ⟨k.val, by omega⟩)
        * Ideal.tanh (c' (ix2 r ⟨k.val, by omega⟩)) = _
  rw [sigHost_apply, gateSlice_apply G 1536 3 rfl]
  rfl

theorem step_rel (q sgH : FVec Ideal S1024x256 .f32) (Wih : FVec Ideal S2048x256 .f32)
    (Whh : FVec Ideal S2048x512 .f32) (bih bhh : FVec Ideal S2048 .f32) (r : Fin 1024) (qv sg : Fin 256 → EReal)
    (hq : ∀ k, q (ix2 r k) = qv k) (hsg : ∀ k, sgH (ix2 r k) = sg k) (c hr : FVec Ideal S1024x512 .f32)
    (s : (Fin 512 → EReal) × (Fin 512 → EReal)) (hc : ∀ u, c (ix2 r u) = s.1 u) (hh : ∀ u, hr (ix2 r u) = s.2 u) :
    (∀ u, (stepHost q Wih Whh bih bhh c hr).1 (ix2 r u)
        = (Spec.step qv sg (fun j k => Wih (ix2 j k)) (fun j k => Whh (ix2 j k)) (fun j => bih (ix1 j))
            (fun j => bhh (ix1 j)) s).1 u)
    ∧ (∀ k : Fin 256, (stepHost q Wih Whh bih bhh c hr).2 (ix2 r k)
        = (Spec.step qv sg (fun j k => Wih (ix2 j k)) (fun j k => Whh (ix2 j k)) (fun j => bih (ix1 j))
            (fun j => bhh (ix1 j)) s).2 ⟨k.val, by omega⟩)
    ∧ (∀ u, hrHost (stepHost q Wih Whh bih bhh c hr).2 sgH (ix2 r u)
        = (Spec.step qv sg (fun j k => Wih (ix2 j k)) (fun j k => Whh (ix2 j k)) (fun j => bih (ix1 j))
            (fun j => bhh (ix1 j)) s).2 u) := by
  have eq : (fun k => q (ix2 r k)) = qv := funext hq
  have esg : (fun k => sgH (ix2 r k)) = sg := funext hsg
  have ec : (fun u => c (ix2 r u)) = s.1 := funext hc
  have eh : (fun u => hr (ix2 r u)) = s.2 := funext hh
  have eG : (fun j => gatesHost q hr Wih Whh bih bhh (ix2 r j))
      = Spec.gates qv s.2 (fun j k => Wih (ix2 j k)) (fun j k => Whh (ix2 j k)) (fun j => bih (ix1 j))
          (fun j => bhh (ix1 j)) := by
    funext j; rw [gatesHost_apply, eq, eh]
  have e1 : ∀ u, (stepHost q Wih Whh bih bhh c hr).1 (ix2 r u)
      = (Spec.step qv sg (fun j k => Wih (ix2 j k)) (fun j k => Whh (ix2 j k)) (fun j => bih (ix1 j))
          (fun j => bhh (ix1 j)) s).1 u := by
    intro u
    show cellHost (gatesHost q hr Wih Whh bih bhh) c (ix2 r u) = _
    rw [cellHost_apply, eG, ec]
    rfl
  have ec' : (fun u => (stepHost q Wih Whh bih bhh c hr).1 (ix2 r u))
      = (Spec.step qv sg (fun j k => Wih (ix2 j k)) (fun j k => Whh (ix2 j k)) (fun j => bih (ix1 j))
          (fun j => bhh (ix1 j)) s).1 := funext e1
  have eH : (fun k => (stepHost q Wih Whh bih bhh c hr).2 (ix2 r k))
      = Spec.hidNext qv (Spec.cellOut
          (Spec.gates qv s.2 (fun j k => Wih (ix2 j k)) (fun j k => Whh (ix2 j k)) (fun j => bih (ix1 j))
            (fun j => bhh (ix1 j)))
          (Spec.step qv sg (fun j k => Wih (ix2 j k)) (fun j k => Whh (ix2 j k)) (fun j => bih (ix1 j))
            (fun j => bhh (ix1 j)) s).1) := by
    funext k
    show hidHost q (gatesHost q hr Wih Whh bih bhh) (stepHost q Wih Whh bih bhh c hr).1 (ix2 r k) = _
    rw [hidHost_apply, eq, eG, ec']
  have e3 : ∀ u, hrHost (stepHost q Wih Whh bih bhh c hr).2 sgH (ix2 r u)
      = (Spec.step qv sg (fun j k => Wih (ix2 j k)) (fun j k => Whh (ix2 j k)) (fun j => bih (ix1 j))
          (fun j => bhh (ix1 j)) s).2 u := by
    intro u
    rw [hrHost_apply, eH, esg]
    rfl
  refine ⟨e1, fun k => ?_, e3⟩
  have hk : k.val < 256 := k.isLt
  rw [← e3 ⟨k.val, by omega⟩, hrHost_apply]
  unfold Spec.cat
  rw [dif_pos hk]

theorem tailHost_apply (n0 n1 n2 n3 n4 n5 n6 n7 : FVec Ideal S1024x128 .f32) (W1 : FVec Ideal S512x256 .f32)
    (b1 : FVec Ideal S512 .f32) (W2 : FVec Ideal S256x512 .f32) (b2 lg lb : FVec Ideal S256 .f32)
    (Wih : FVec Ideal S2048x256 .f32) (Whh : FVec Ideal S2048x512 .f32) (bih bhh : FVec Ideal S2048 .f32)
    (r : Fin 1024) :
    tailHost n0 n1 n2 n3 n4 n5 n6 n7 W1 b1 W2 b2 lg lb Wih Whh bih bhh (ix1 r)
      = Spec.tailRow (fun j e => (![n0, n1, n2, n3, n4, n5, n6, n7] j) (ix2 r e)) (fun j k => W1 (ix2 j k))
          (fun j => b1 (ix1 j)) (fun i j => W2 (ix2 i j)) (fun i => b2 (ix1 i)) (fun i => lg (ix1 i))
          (fun i => lb (ix1 i)) (fun j k => Wih (ix2 j k)) (fun j k => Whh (ix2 j k)) (fun j => bih (ix1 j))
          (fun j => bhh (ix1 j)) := by

  generalize hnb : (fun (j : Fin 8) (e : Fin 128) => (![n0, n1, n2, n3, n4, n5, n6, n7] j) (ix2 r e)) = nb
  have hq : ∀ k : Fin 256, catHost (avgHost n0 n1) (avgHost n2 n3) (ix2 r k) = Spec.qvec nb ⟨k.val, k.isLt⟩ := by
    intro k; rw [catHost_apply, ← hnb]; simp only [avgHost_apply]; rfl
  have hs : ∀ k : Fin 256, catHost (avgHost n4 n5) (avgHost n6 n7) (ix2 r k) = Spec.svec nb ⟨k.val, k.isLt⟩ := by
    intro k; rw [catHost_apply, ← hnb]; simp only [avgHost_apply]; rfl
  have hsg : ∀ k : Fin 256,
      lnHost (supHost (catHost (avgHost n4 n5) (avgHost n6 n7)) W1 b1 W2 b2) lg lb (ix2 r k)
        = Spec.lnorm (Spec.ffo (fun k => Spec.svec nb ⟨k.val, k.isLt⟩) (fun j k => W1 (ix2 j k)) (fun j => b1 (ix1 j))
            (fun i j => W2 (ix2 i j)) (fun i => b2 (ix1 i))) (fun i => lg (ix1 i)) (fun i => lb (ix1 i)) k := by
    intro k
    rw [lnHost_apply]
    simp only [supHost_apply, hs]

  have hz : ∀ u : Fin 512,
      broadcastInDim S1024x512 ![] bcast_S_S1024x512 (constant (F := Ideal) S_ .f32 0x00000000#32) (ix2 r u)
        = Spec.state0.1 u := fun u => bconst_apply _ _ _
  have R1 := step_rel _ _ Wih Whh bih bhh r _ _ hq hsg _ _ Spec.state0 hz hz
  have R2 := step_rel _ _ Wih Whh bih bhh r _ _ hq hsg _ _ _ R1.1 R1.2.2
  have R3 := step_rel _ _ Wih Whh bih bhh r _ _ hq hsg _ _ _ R2.1 R2.2.2
  have R4 := step_rel _ _ Wih Whh bih bhh r _ _ hq hsg _ _ _ R3.1 R3.2.2

  unfold tailHost
  rw [rowSum_apply]
  unfold Spec.tailRow
  refine Finset.sum_congr rfl fun k _ => ?_
  rw [mulf_apply, R4.2.1 k, hsg k]

end AtIdeal

end Cert.ReferenceIdeal.Val

end
-- ==== Proof.RefWhole.lean ====
import proofs.«427183_j33938831573494_3_alg».proof.Proof.RefNE
import proofs.«427183_j33938831573494_3_alg».proof.Proof.RefTail
import proofs.«427183_j33938831573494_3_alg».proof.Proof.Whole
import Idealize.ShloMosaic.Lib.ValueIdx
import Idealize.ShloMosaic.Lib.Pipeline.Value

noncomputable section

namespace Cert.ReferenceIdeal.Val

open Cert.ReferenceIdeal Idealize.ShloMosaic Idealize.ShloMosaic.ValueIdx

variable [Facts]
open Facts₀ Facts

abbrev col0 (x : IVec S1024x2 32) : IVec S1024 32 :=
  shapeCast S1024 (extractStridedSlice S1024x1 ![0, 0] x slices_S1024x2_S1024x1_0_0) shapeCasts_S1024x1_S1024

abbrev col1 (x : IVec S1024x2 32) : IVec S1024 32 :=
  shapeCast S1024 (extractStridedSlice S1024x1 ![0, 1] x slices_S1024x2_S1024x1_0_1) shapeCasts_S1024x1_S1024

theorem col0_apply (x : IVec S1024x2 32) (r : Fin 1024) : col0 x (ix1 r) = x (ix2 r 0) := by
  refine (shapeCast_apply _ _ (ix1 r) (ix2 r 0) ?_).trans ?_
  · rw [Shape.rowMajor_val_two, Shape.rowMajor_val_one]
    show r.val * 1 + 0 = r.val
    omega
  · refine extractStridedSlice_apply _ x _ (ix2 r 0) (ix2 r 0) fun a => ?_
    match a with
    | ⟨0, _⟩ => show r.val = 0 + r.val; omega
    | ⟨1, _⟩ => rfl

theorem col1_apply (x : IVec S1024x2 32) (r : Fin 1024) : col1 x (ix1 r) = x (ix2 r 1) := by
  refine (shapeCast_apply _ _ (ix1 r) (ix2 r 0) ?_).trans ?_
  · rw [Shape.rowMajor_val_two, Shape.rowMajor_val_one]
    show r.val * 1 + 0 = r.val
    omega
  · refine extractStridedSlice_apply _ x _ (ix2 r 0) (ix2 r 1) fun a => ?_
    match a with
    | ⟨0, _⟩ => show r.val = 0 + r.val; omega
    | ⟨1, _⟩ => rfl

theorem hosts_whole (query support : IVec S1024x2 32) (c0 c1 c2 c3 c4 c5 c6 c7 : IVec S1024x64x2 32)
    (emb : FVec Ideal S100001x128 .f32) (W : FVec Ideal S128x256 .f32) (wb bb : FVec Ideal S128 .f32)
    (aW : FVec Ideal S1x128 .f32) (ab : FVec Ideal S1 .f32) (gW : FVec Ideal S1x128 .f32) (gwb gb : FVec Ideal S1 .f32)
    (W1 : FVec Ideal S512x256 .f32) (b1 : FVec Ideal S512 .f32) (W2 : FVec Ideal S256x512 .f32)
    (b2 lg lb : FVec Ideal S256 .f32) (Wih : FVec Ideal S2048x256 .f32) (Whh : FVec Ideal S2048x512 .f32)
    (bih bhh : FVec Ideal S2048 .f32) :
    tailHost (neHost c0 (col0 query) emb W wb bb aW ab gW gwb gb) (neHost c1 (col0 query) emb W wb bb aW ab gW gwb gb)
        (neHost c2 (col1 query) emb W wb bb aW ab gW gwb gb) (neHost c3 (col1 query) emb W wb bb aW ab gW gwb gb)
        (neHost c4 (col0 support) emb W wb bb aW ab gW gwb gb) (neHost c5 (col0 support) emb W wb bb aW ab gW gwb gb)
        (neHost c6 (col1 support) emb W wb bb aW ab gW gwb gb) (neHost c7 (col1 support) emb W wb bb aW ab gW gwb gb)
        W1 b1 W2 b2 lg lb Wih Whh bih bhh
      = Spec.whole query support c0 c1 c2 c3 c4 c5 c6 c7 emb W wb bb aW ab gW gwb gb W1 b1 W2 b2 lg lb Wih Whh bih bhh := by
  funext i
  obtain ⟨r, rfl⟩ : ∃ r : Fin 1024, i = ix1 r := ⟨i 0, eq_ix1 i⟩
  rw [tailHost_apply]
  unfold Spec.whole
  refine congrArg (fun nb => Spec.tailRow nb (fun j k => W1 (ix2 j k)) (fun j => b1 (ix1 j)) (fun a j => W2 (ix2 a j))
    (fun a => b2 (ix1 a)) (fun a => lg (ix1 a)) (fun a => lb (ix1 a)) (fun j k => Wih (ix2 j k))
    (fun j k => Whh (ix2 j k)) (fun j => bih (ix1 j)) (fun j => bhh (ix1 j))) ?_
  funext j e
  match j with
  | ⟨0, _⟩ => exact (neHost_apply c0 (col0 query) emb W wb bb aW ab gW gwb gb r e).trans (by rw [col0_apply]; rfl)
  | ⟨1, _⟩ => exact (neHost_apply c1 (col0 query) emb W wb bb aW ab gW gwb gb r e).trans (by rw [col0_apply]; rfl)
  | ⟨2, _⟩ => exact (neHost_apply c2 (col1 query) emb W wb bb aW ab gW gwb gb r e).trans (by rw [col1_apply]; rfl)
  | ⟨3, _⟩ => exact (neHost_apply c3 (col1 query) emb W wb bb aW ab gW gwb gb r e).trans (by rw [col1_apply]; rfl)
  | ⟨4, _⟩ => exact (neHost_apply c4 (col0 support) emb W wb bb aW ab gW gwb gb r e).trans (by rw [col0_apply]; rfl)
  | ⟨5, _⟩ => exact (neHost_apply c5 (col0 support) emb W wb bb aW ab gW gwb gb r e).trans (by rw [col0_apply]; rfl)
  | ⟨6, _⟩ => exact (neHost_apply c6 (col1 support) emb W wb bb aW ab gW gwb gb r e).trans (by rw [col1_apply]; rfl)
  | ⟨7, _⟩ => exact (neHost_apply c7 (col1 support) emb W wb bb aW ab gW gwb gb r e).trans (by rw [col1_apply]; rfl)

end Cert.ReferenceIdeal.Val

end
-- ==== Proof.RefOut.lean ====
import proofs.«427183_j33938831573494_3_alg».proof.Proof.RefVal
import proofs.«427183_j33938831573494_3_alg».proof.Proof.RefWhole

noncomputable section

namespace Cert.ReferenceIdeal.Val

open Cert.ReferenceIdeal Cert.ReferenceIdeal.Hand Idealize.ShloMosaic Idealize.ShloMosaic.TcCoe Idealize.SL.Sem
open Idealize.ShloMosaic.StableHlo

variable [Facts]

theorem ref_out (V : Valuation τ sig (Elt Ideal)) :
    after (Hand.segs (F := Ideal)) V (main_v815 : DevRef τ sig)
      = Spec.whole (V (main_arg0 : DevRef τ sig)) (V (main_arg1 : DevRef τ sig)) (V (main_arg2 : DevRef τ sig)) (V (main_arg3 : DevRef τ sig)) (V (main_arg5 : DevRef τ sig)) (V (main_arg6 : DevRef τ sig)) (V (main_arg8 : DevRef τ sig)) (V (main_arg9 : DevRef τ sig)) (V (main_arg11 : DevRef τ sig)) (V (main_arg12 : DevRef τ sig))
          (V (main_arg14 : DevRef τ sig)) (V (main_arg15 : DevRef τ sig)) (V (main_arg16 : DevRef τ sig)) (V (main_arg17 : DevRef τ sig)) (V (main_arg18 : DevRef τ sig)) (V (main_arg19 : DevRef τ sig)) (V (main_arg20 : DevRef τ sig)) (V (main_arg21 : DevRef τ sig)) (V (main_arg22 : DevRef τ sig))
          (V (main_arg23 : DevRef τ sig)) (V (main_arg24 : DevRef τ sig)) (V (main_arg25 : DevRef τ sig)) (V (main_arg26 : DevRef τ sig)) (V (main_arg27 : DevRef τ sig)) (V (main_arg28 : DevRef τ sig)) (V (main_arg29 : DevRef τ sig)) (V (main_arg30 : DevRef τ sig)) (V (main_arg31 : DevRef τ sig)) (V (main_arg32 : DevRef τ sig)) :=
  (ref_chain (F := Ideal) V).trans
    (hosts_whole (V (main_arg0 : DevRef τ sig)) (V (main_arg1 : DevRef τ sig)) (V (main_arg2 : DevRef τ sig)) (V (main_arg3 : DevRef τ sig)) (V (main_arg5 : DevRef τ sig)) (V (main_arg6 : DevRef τ sig)) (V (main_arg8 : DevRef τ sig)) (V (main_arg9 : DevRef τ sig)) (V (main_arg11 : DevRef τ sig)) (V (main_arg12 : DevRef τ sig))
      (V (main_arg14 : DevRef τ sig)) (V (main_arg15 : DevRef τ sig)) (V (main_arg16 : DevRef τ sig)) (V (main_arg17 : DevRef τ sig)) (V (main_arg18 : DevRef τ sig)) (V (main_arg19 : DevRef τ sig)) (V (main_arg20 : DevRef τ sig)) (V (main_arg21 : DevRef τ sig)) (V (main_arg22 : DevRef τ sig))
      (V (main_arg23 : DevRef τ sig)) (V (main_arg24 : DevRef τ sig)) (V (main_arg25 : DevRef τ sig)) (V (main_arg26 : DevRef τ sig)) (V (main_arg27 : DevRef τ sig)) (V (main_arg28 : DevRef τ sig)) (V (main_arg29 : DevRef τ sig)) (V (main_arg30 : DevRef τ sig)) (V (main_arg31 : DevRef τ sig)) (V (main_arg32 : DevRef τ sig)))

end Cert.ReferenceIdeal.Val

end
-- ==== Proof.lean ====
import proofs.«427183_j33938831573494_3_alg».proof.Defs
import proofs.«427183_j33938831573494_3_alg».proof.Proof.Gen.Kernel
import proofs.«427183_j33938831573494_3_alg».proof.Proof.Gen.KernelIdeal
import proofs.«427183_j33938831573494_3_alg».proof.Proof.Gen.ReferenceIdeal
import proofs.«427183_j33938831573494_3_alg».proof.Proof.Gen.Pre_finite_inputs
import proofs.«427183_j33938831573494_3_alg».proof.Proof.KRun
import proofs.«427183_j33938831573494_3_alg».proof.Proof.KIRun
import proofs.«427183_j33938831573494_3_alg».proof.Proof.KIFinal
import proofs.«427183_j33938831573494_3_alg».proof.Proof.RefRun
import proofs.«427183_j33938831573494_3_alg».proof.Proof.RefOut
import Idealize.ShloMosaic.Adequacy
import Idealize.ShloMosaic.Init

noncomputable section

namespace Cert.Proof

open Idealize.ShloMosaic Idealize.ShloMosaic.TcCoe Idealize.SL.Sem

theorem frame_k [Cert.Kernel.Facts] [Cert.Pre_finite_inputs.Facts] : Cert.frame_Kernel :=
  fun m ρ _ => (θ_run (Cert.Kernel.defs (F := Bits)) _ _).mono (fun _ h c => by
      repeat' apply And.intro
      all_goals exact (h c _ (Cert.Kernel.Hand.mem_uc _ (by decide))).trans (Cert.Kernel.Hand.W4_arg m ρ c _ (by decide)))
    (Cert.Kernel.Hand.run_all (F := Bits) m ρ)

theorem frame_ki [Cert.KernelIdeal.Facts] [Cert.Pre_finite_inputs.Facts] : Cert.frame_KernelIdeal :=
  fun m ρ _ => (θ_run (Cert.KernelIdeal.defs (F := Ideal)) _ _).mono (fun _ h c => by
      repeat' apply And.intro
      all_goals exact (h c _ (Cert.KernelIdeal.Hand.mem_uc _ (by decide))).trans (Cert.KernelIdeal.Hand.W4_arg m ρ c _ (by decide)))
    (Cert.KernelIdeal.Hand.run_all (F := Ideal) m ρ)

theorem frame_ri [Cert.ReferenceIdeal.Facts] [Cert.Pre_finite_inputs.Facts] : Cert.frame_ReferenceIdeal :=
  fun m ρ _ => (θ_run (Cert.ReferenceIdeal.defs (F := Ideal)) _ _).mono (fun _ h c => by
      repeat' apply And.intro
      all_goals exact (h c _).trans (Cert.ReferenceIdeal.Hand.arg_keep _ _ (by decide)))
    (Cert.ReferenceIdeal.Hand.run_main (F := Ideal) m ρ)

theorem whole_congr
    {x0 y0 : (⟨2, ![1024, 2]⟩ : Shape).Idx → BitVec 32}
    {x1 y1 : (⟨2, ![1024, 2]⟩ : Shape).Idx → BitVec 32}
    {x2 y2 : (⟨3, ![1024, 64, 2]⟩ : Shape).Idx → BitVec 32}
    {x3 y3 : (⟨3, ![1024, 64, 2]⟩ : Shape).Idx → BitVec 32}
    {x4 y4 : (⟨3, ![1024, 64, 2]⟩ : Shape).Idx → BitVec 32}
    {x5 y5 : (⟨3, ![1024, 64, 2]⟩ : Shape).Idx → BitVec 32}
    {x6 y6 : (⟨3, ![1024, 64, 2]⟩ : Shape).Idx → BitVec 32}
    {x7 y7 : (⟨3, ![1024, 64, 2]⟩ : Shape).Idx → BitVec 32}
    {x8 y8 : (⟨3, ![1024, 64, 2]⟩ : Shape).Idx → BitVec 32}
    {x9 y9 : (⟨3, ![1024, 64, 2]⟩ : Shape).Idx → BitVec 32}
    {x10 y10 : (⟨2, ![100001, 128]⟩ : Shape).Idx → EReal}
    {x11 y11 : (⟨2, ![128, 256]⟩ : Shape).Idx → EReal}
    {x12 y12 : (⟨1, ![128]⟩ : Shape).Idx → EReal}
    {x13 y13 : (⟨1, ![128]⟩ : Shape).Idx → EReal}
    {x14 y14 : (⟨2, ![1, 128]⟩ : Shape).Idx → EReal}
    {x15 y15 : (⟨1, ![1]⟩ : Shape).Idx → EReal}
    {x16 y16 : (⟨2, ![1, 128]⟩ : Shape).Idx → EReal}
    {x17 y17 : (⟨1, ![1]⟩ : Shape).Idx → EReal}
    {x18 y18 : (⟨1, ![1]⟩ : Shape).Idx → EReal}
    {x19 y19 : (⟨2, ![512, 256]⟩ : Shape).Idx → EReal}
    {x20 y20 : (⟨1, ![512]⟩ : Shape).Idx → EReal}
    {x21 y21 : (⟨2, ![256, 512]⟩ : Shape).Idx → EReal}
    {x22 y22 : (⟨1, ![256]⟩ : Shape).Idx → EReal}
    {x23 y23 : (⟨1, ![256]⟩ : Shape).Idx → EReal}
    {x24 y24 : (⟨1, ![256]⟩ : Shape).Idx → EReal}
    {x25 y25 : (⟨2, ![2048, 256]⟩ : Shape).Idx → EReal}
    {x26 y26 : (⟨2, ![2048, 512]⟩ : Shape).Idx → EReal}
    {x27 y27 : (⟨1, ![2048]⟩ : Shape).Idx → EReal}
    {x28 y28 : (⟨1, ![2048]⟩ : Shape).Idx → EReal}
    (h0 : x0 = y0) (h1 : x1 = y1) (h2 : x2 = y2) (h3 : x3 = y3) (h4 : x4 = y4) (h5 : x5 = y5) (h6 : x6 = y6) (h7 : x7 = y7) (h8 : x8 = y8) (h9 : x9 = y9) (h10 : x10 = y10) (h11 : x11 = y11) (h12 : x12 = y12) (h13 : x13 = y13) (h14 : x14 = y14) (h15 : x15 = y15) (h16 : x16 = y16) (h17 : x17 = y17) (h18 : x18 = y18) (h19 : x19 = y19) (h20 : x20 = y20) (h21 : x21 = y21) (h22 : x22 = y22) (h23 : x23 = y23) (h24 : x24 = y24) (h25 : x25 = y25) (h26 : x26 = y26) (h27 : x27 = y27) (h28 : x28 = y28) :
    Cert.Spec.whole x0 x1 x2 x3 x4 x5 x6 x7 x8 x9 x10 x11 x12 x13 x14 x15 x16 x17 x18 x19 x20 x21 x22 x23 x24 x25 x26 x27 x28 = Cert.Spec.whole y0 y1 y2 y3 y4 y5 y6 y7 y8 y9 y10 y11 y12 y13 y14 y15 y16 y17 y18 y19 y20 y21 y22 y23 y24 y25 y26 y27 y28 := by
  subst h0 h1 h2 h3 h4 h5 h6 h7 h8 h9 h10 h11 h12 h13 h14 h15 h16 h17 h18 h19 h20 h21 h22 h23 h24 h25 h26 h27 h28
  rfl

theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.Spec.whole
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg11))
        (m ((c.tc : Thread Cert.KernelIdeal.nD Cert.KernelIdeal.τ).loc Cert.KernelIdeal.main_arg12))
        (m ((c.tc : Thread Cert.KernelIdeal.nD Cert.KernelIdeal.τ).loc Cert.KernelIdeal.main_arg14))
        (m ((c.tc : Thread Cert.KernelIdeal.nD Cert.KernelIdeal.τ).loc Cert.KernelIdeal.main_arg15))
        (m ((c.tc : Thread Cert.KernelIdeal.nD Cert.KernelIdeal.τ).loc Cert.KernelIdeal.main_arg16))
        (m ((c.tc : Thread Cert.KernelIdeal.nD Cert.KernelIdeal.τ).loc Cert.KernelIdeal.main_arg17))
        (m ((c.tc : Thread Cert.KernelIdeal.nD Cert.KernelIdeal.τ).loc Cert.KernelIdeal.main_arg18))
        (m ((c.tc : Thread Cert.KernelIdeal.nD Cert.KernelIdeal.τ).loc Cert.KernelIdeal.main_arg19))
        (m ((c.tc : Thread Cert.KernelIdeal.nD Cert.KernelIdeal.τ).loc Cert.KernelIdeal.main_arg20))
        (m ((c.tc : Thread Cert.KernelIdeal.nD Cert.KernelIdeal.τ).loc Cert.KernelIdeal.main_arg21))
        (m ((c.tc : Thread Cert.KernelIdeal.nD Cert.KernelIdeal.τ).loc Cert.KernelIdeal.main_arg22))
        (m ((c.tc : Thread Cert.KernelIdeal.nD Cert.KernelIdeal.τ).loc Cert.KernelIdeal.main_arg23))
        (m ((c.tc : Thread Cert.KernelIdeal.nD Cert.KernelIdeal.τ).loc Cert.KernelIdeal.main_arg24))
        (m ((c.tc : Thread Cert.KernelIdeal.nD Cert.KernelIdeal.τ).loc Cert.KernelIdeal.main_arg25))
        (m ((c.tc : Thread Cert.KernelIdeal.nD Cert.KernelIdeal.τ).loc Cert.KernelIdeal.main_arg26))
        (m ((c.tc : Thread Cert.KernelIdeal.nD Cert.KernelIdeal.τ).loc Cert.KernelIdeal.main_arg27))
        (m ((c.tc : Thread Cert.KernelIdeal.nD Cert.KernelIdeal.τ).loc Cert.KernelIdeal.main_arg28))
        (m ((c.tc : Thread Cert.KernelIdeal.nD Cert.KernelIdeal.τ).loc Cert.KernelIdeal.main_arg29))
        (m ((c.tc : Thread Cert.KernelIdeal.nD Cert.KernelIdeal.τ).loc Cert.KernelIdeal.main_arg30))
        (m ((c.tc : Thread Cert.KernelIdeal.nD Cert.KernelIdeal.τ).loc Cert.KernelIdeal.main_arg31))
        (m ((c.tc : Thread Cert.KernelIdeal.nD Cert.KernelIdeal.τ).loc Cert.KernelIdeal.main_arg32)), ?_, ?_⟩
  · refine (θ_run (Cert.KernelIdeal.defs (F := Ideal)) _ _).mono (fun r h c => ?_)
      (Cert.KernelIdeal.Hand.run_all (F := Ideal) m ρ)
    refine ⟨(h c _ (Cert.KernelIdeal.Hand.mem_uc Cert.KernelIdeal.main_v86 (by decide))).trans
        (Cert.KernelIdeal.Val.kernel_out m ρ c), ?_⟩
    repeat' apply And.intro
    all_goals exact (h c _ (Cert.KernelIdeal.Hand.mem_uc _ (by decide))).trans (Cert.KernelIdeal.Hand.W4_arg m ρ c _ (by decide))
  · refine (θ_run (Cert.ReferenceIdeal.defs (F := Ideal)) _ _).mono (fun r h c => ?_)
      (Cert.ReferenceIdeal.Hand.run_main (F := Ideal) m' ρ')
    refine ⟨(h c Cert.ReferenceIdeal.main_v815).trans ?_, ?_⟩
    · exact (Cert.ReferenceIdeal.Val.ref_out _).trans (whole_congr
        (hagree c).1
        (hagree c).2.1
        (hagree c).2.2.1
        (hagree c).2.2.2.1
        (hagree c).2.2.2.2.2.1
        (hagree c).2.2.2.2.2.2.1
        (hagree c).2.2.2.2.2.2.2.2.1
        (hagree c).2.2.2.2.2.2.2.2.2.1
        (hagree c).2.2.2.2.2.2.2.2.2.2.2.1
        (hagree c).2.2.2.2.2.2.2.2.2.2.2.2.1
        (hagree c).2.2.2.2.2.2.2.2.2.2.2.2.2.2.1
        (hagree c).2.2.2.2.2.2.2.2.2.2.2.2.2.2.2.1
        (hagree c).2.2.2.2.2.2.2.2.2.2.2.2.2.2.2.2.1
        (hagree c).2.2.2.2.2.2.2.2.2.2.2.2.2.2.2.2.2.1
        (hagree c).2.2.2.2.2.2.2.2.2.2.2.2.2.2.2.2.2.2.1
        (hagree c).2.2.2.2.2.2.2.2.2.2.2.2.2.2.2.2.2.2.2.1
        (hagree c).2.2.2.2.2.2.2.2.2.2.2.2.2.2.2.2.2.2.2.2.1
        (hagree c).2.2.2.2.2.2.2.2.2.2.2.2.2.2.2.2.2.2.2.2.2.1
        (hagree c).2.2.2.2.2.2.2.2.2.2.2.2.2.2.2.2.2.2.2.2.2.2.1
        (hagree c).2.2.2.2.2.2.2.2.2.2.2.2.2.2.2.2.2.2.2.2.2.2.2.1
        (hagree c).2.2.2.2.2.2.2.2.2.2.2.2.2.2.2.2.2.2.2.2.2.2.2.2.1
        (hagree c).2.2.2.2.2.2.2.2.2.2.2.2.2.2.2.2.2.2.2.2.2.2.2.2.2.1
        (hagree c).2.2.2.2.2.2.2.2.2.2.2.2.2.2.2.2.2.2.2.2.2.2.2.2.2.2.1
        (hagree c).2.2.2.2.2.2.2.2.2.2.2.2.2.2.2.2.2.2.2.2.2.2.2.2.2.2.2.1
        (hagree c).2.2.2.2.2.2.2.2.2.2.2.2.2.2.2.2.2.2.2.2.2.2.2.2.2.2.2.2.1
        (hagree c).2.2.2.2.2.2.2.2.2.2.2.2.2.2.2.2.2.2.2.2.2.2.2.2.2.2.2.2.2.1
        (hagree c).2.2.2.2.2.2.2.2.2.2.2.2.2.2.2.2.2.2.2.2.2.2.2.2.2.2.2.2.2.2.1
        (hagree c).2.2.2.2.2.2.2.2.2.2.2.2.2.2.2.2.2.2.2.2.2.2.2.2.2.2.2.2.2.2.2.1
        (hagree c).2.2.2.2.2.2.2.2.2.2.2.2.2.2.2.2.2.2.2.2.2.2.2.2.2.2.2.2.2.2.2.2)
    · repeat' apply And.intro
      all_goals exact (h c _).trans (Cert.ReferenceIdeal.Hand.arg_keep _ _ (by decide))

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
